-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v343)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v343) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S10x512 : Shape := ⟨2, ![10, 512]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10x512 : S_.BroadcastsInDim S10x512 (![] : Fin 0 → Fin S10x512.rank)
  reducesTo_S10x512_S_d0_1 : S10x512.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S1024x1024 .f32) (main_arg6 : FVec F S1024 .f32) (main_arg7 : FVec F S1024 .f32) (main_arg8 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S10x512 .f32) (main_arg3 : FVec F S1024x3072 .f32) (main_arg4 : FVec F S1024x1024 .f32) (main_arg5 : FVec F S1024x1024 .f32) (main_arg6 : FVec F S1024 .f32) (main_arg7 : FVec F S1024 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S10x512 .f32 := Host.absf main_arg2
  let main_cst_2 : FVec F S_ .f32 := constant S_ .f32 0x7F800000#32
  let main_v10 : FVec F S10x512 .f32 := broadcastInDim S10x512 ![] bcast_S_S10x512 main_cst_2
  let main_v11 : IVec S10x512 1 := cmpf .olt main_v9 main_v10
  let main_c_3 : IVec S_ 1 := constantI S_ 1 1#1
  let main_v12 : IVec S_ 1 := (fun x v => Host.reduce IntOp.andi x v reducesTo_S10x512_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S10x512 : Shape := ⟨2, ![10, 512]⟩
abbrev S1024x3072 : Shape := ⟨2, ![1024, 3072]⟩
abbrev S1024x1024 : Shape := ⟨2, ![1024, 1024]⟩
abbrev S1024 : Shape := ⟨1, ![1024]⟩
abbrev S10x1024 : Shape := ⟨2, ![10, 1024]⟩
abbrev S1x1024 : Shape := ⟨2, ![1, 1024]⟩
abbrev S_ : Shape := ⟨0, ![]⟩
abbrev S1024x1 : Shape := ⟨2, ![1024, 1]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 434
  | .vmem => 13
  | .smem => 0
  | _ => 0

abbrev hbmTy0_0 (i : Nat) : BufTy := match i % 128 with
  | 0 => ⟨S8192x1024, .f32⟩
  | 1 => ⟨S8192x1024, .f32⟩
  | 2 => ⟨S10x512, .f32⟩
  | 3 => ⟨S1024x3072, .f32⟩
  | 4 => ⟨S1024x1024, .f32⟩
  | 5 => ⟨S1024x1024, .f32⟩
  | 6 => ⟨S1024, .f32⟩
  | 7 => ⟨S1024, .f32⟩
  | 8 => ⟨S1024, .f32⟩
  | 9 => ⟨S1024, .i32⟩
  | 10 => ⟨S1024, .i1⟩
  | 11 => ⟨S1024, .i32⟩
  | 12 => ⟨S1024, .i1⟩
  | 13 => ⟨S1024, .i32⟩
  | 14 => ⟨S1024, .i1⟩
  | 15 => ⟨S1024, .i32⟩
  | 16 => ⟨S1024, .i1⟩
  | 17 => ⟨S1024, .i32⟩
  | 18 => ⟨S1024, .i1⟩
  | 19 => ⟨S1024, .i32⟩
  | 20 => ⟨S1024, .i1⟩
  | 21 => ⟨S1024, .i32⟩
  | 22 => ⟨S1024, .i1⟩
  | 23 => ⟨S1024, .i32⟩
  | 24 => ⟨S1024, .i1⟩
  | 25 => ⟨S1024, .i32⟩
  | 26 => ⟨S1024, .i1⟩
  | 27 => ⟨S1024, .i32⟩
  | 28 => ⟨S1024, .i1⟩
  | 29 => ⟨S1024, .i1⟩
  | 30 => ⟨S1024, .i1⟩
  | 31 => ⟨S1024, .i1⟩
  | 32 => ⟨S1024, .i1⟩
  | 33 => ⟨S1024, .i1⟩
  | 34 => ⟨S1024, .i1⟩
  | 35 => ⟨S1024, .i1⟩
  | 36 => ⟨S1024, .i1⟩
  | 37 => ⟨S1024, .i1⟩
  | 38 => ⟨S1024, .i1⟩
  | 39 => ⟨S1024, .i32⟩
  | 40 => ⟨S1024, .i1⟩
  | 41 => ⟨S1024, .i32⟩
  | 42 => ⟨S1024, .i1⟩
  | 43 => ⟨S1024, .i32⟩
  | 44 => ⟨S1024, .i1⟩
  | 45 => ⟨S1024, .i32⟩
  | 46 => ⟨S1024, .i1⟩
  | 47 => ⟨S1024, .i32⟩
  | 48 => ⟨S1024, .i1⟩
  | 49 => ⟨S1024, .i32⟩
  | 50 => ⟨S1024, .i1⟩
  | 51 => ⟨S1024, .i32⟩
  | 52 => ⟨S1024, .i1⟩
  | 53 => ⟨S1024, .i32⟩
  | 54 => ⟨S1024, .i1⟩
  | 55 => ⟨S1024, .i32⟩
  | 56 => ⟨S1024, .i1⟩
  | 57 => ⟨S1024, .i32⟩
  | 58 => ⟨S1024, .i1⟩
  | 59 => ⟨S10x512, .f32⟩
  | 60 => ⟨S10x512, .f32⟩
  | 61 => ⟨S10x1024, .f32⟩
  | 62 => ⟨S10x512, .f32⟩
  | 63 => ⟨S10x512, .f32⟩
  | 64 => ⟨S10x512, .f32⟩
  | 65 => ⟨S10x1024, .f32⟩
  | 66 => ⟨S1x1024, .f32⟩
  | 67 => ⟨S1024, .f32⟩
  | 68 => ⟨S_, .i32⟩
  | 69 => ⟨S1024, .i32⟩
  | 70 => ⟨S1024, .i32⟩
  | 71 => ⟨S1024, .i32⟩
  | 72 => ⟨S1024x1, .i32⟩
  | 73 => ⟨S1024, .f32⟩
  | 74 => ⟨S1x1024, .f32⟩
  | 75 => ⟨S1024, .f32⟩
  | 76 => ⟨S_, .i32⟩
  | 77 => ⟨S1024, .i32⟩
  | 78 => ⟨S1024, .i32⟩
  | 79 => ⟨S1024, .i32⟩
  | 80 => ⟨S1024x1, .i32⟩
  | 81 => ⟨S1024, .f32⟩
  | 82 => ⟨S1x1024, .f32⟩
  | 83 => ⟨S1024, .f32⟩
  | 84 => ⟨S_, .i32⟩
  | 85 => ⟨S1024, .i32⟩
  | 86 => ⟨S1024, .i32⟩
  | 87 => ⟨S1024, .i32⟩
  | 88 => ⟨S1024x1, .i32⟩
  | 89 => ⟨S1024, .f32⟩
  | 90 => ⟨S1x1024, .f32⟩
  | 91 => ⟨S1024, .f32⟩
  | 92 => ⟨S_, .i32⟩
  | 93 => ⟨S1024, .i32⟩
  | 94 => ⟨S1024, .i32⟩
  | 95 => ⟨S1024, .i32⟩
  | 96 => ⟨S1024x1, .i32⟩
  | 97 => ⟨S1024, .f32⟩
  | 98 => ⟨S1x1024, .f32⟩
  | 99 => ⟨S1024, .f32⟩
  | 100 => ⟨S_, .i32⟩
  | 101 => ⟨S1024, .i32⟩
  | 102 => ⟨S1024, .i32⟩
  | 103 => ⟨S1024, .i32⟩
  | 104 => ⟨S1024x1, .i32⟩
  | 105 => ⟨S1024, .f32⟩
  | 106 => ⟨S1x1024, .f32⟩
  | 107 => ⟨S1024, .f32⟩
  | 108 => ⟨S_, .i32⟩
  | 109 => ⟨S1024, .i32⟩
  | 110 => ⟨S1024, .i32⟩
  | 111 => ⟨S1024, .i32⟩
  | 112 => ⟨S1024x1, .i32⟩
  | 113 => ⟨S1024, .f32⟩
  | 114 => ⟨S1x1024, .f32⟩
  | 115 => ⟨S1024, .f32⟩
  | 116 => ⟨S_, .i32⟩
  | 117 => ⟨S1024, .i32⟩
  | 118 => ⟨S1024, .i32⟩
  | 119 => ⟨S1024, .i32⟩
  | 120 => ⟨S1024x1, .i32⟩
  | 121 => ⟨S1024, .f32⟩
  | 122 => ⟨S1x1024, .f32⟩
  | 123 => ⟨S1024, .f32⟩
  | 124 => ⟨S_, .i32⟩
  | 125 => ⟨S1024, .i32⟩
  | 126 => ⟨S1024, .i32⟩
  | 127 => ⟨S1024, .i32⟩
  | _ => ⟨S8192x1024, .f32⟩

abbrev hbmTy0_1 (i : Nat) : BufTy := match i % 128 with
  | 0 => ⟨S1024x1, .i32⟩
  | 1 => ⟨S1024, .f32⟩
  | 2 => ⟨S1x1024, .f32⟩
  | 3 => ⟨S1024, .f32⟩
  | 4 => ⟨S_, .i32⟩
  | 5 => ⟨S1024, .i32⟩
  | 6 => ⟨S1024, .i32⟩
  | 7 => ⟨S1024, .i32⟩
  | 8 => ⟨S1024x1, .i32⟩
  | 9 => ⟨S1024, .f32⟩
  | 10 => ⟨S1x1024, .f32⟩
  | 11 => ⟨S1024, .f32⟩
  | 12 => ⟨S_, .i32⟩
  | 13 => ⟨S1024, .i32⟩
  | 14 => ⟨S1024, .i32⟩
  | 15 => ⟨S1024, .i32⟩
  | 16 => ⟨S1024x1, .i32⟩
  | 17 => ⟨S1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S10x1024, .f32⟩
  | 29 => ⟨S1x1024, .f32⟩
  | 30 => ⟨S1024, .f32⟩
  | 31 => ⟨S_, .i32⟩
  | 32 => ⟨S1024, .i32⟩
  | 33 => ⟨S1024, .i32⟩
  | 34 => ⟨S1024, .i32⟩
  | 35 => ⟨S1024x1, .i32⟩
  | 36 => ⟨S1024, .f32⟩
  | 37 => ⟨S1x1024, .f32⟩
  | 38 => ⟨S1024, .f32⟩
  | 39 => ⟨S_, .i32⟩
  | 40 => ⟨S1024, .i32⟩
  | 41 => ⟨S1024, .i32⟩
  | 42 => ⟨S1024, .i32⟩
  | 43 => ⟨S1024x1, .i32⟩
  | 44 => ⟨S1024, .f32⟩
  | 45 => ⟨S1x1024, .f32⟩
  | 46 => ⟨S1024, .f32⟩
  | 47 => ⟨S_, .i32⟩
  | 48 => ⟨S1024, .i32⟩
  | 49 => ⟨S1024, .i32⟩
  | 50 => ⟨S1024, .i32⟩
  | 51 => ⟨S1024x1, .i32⟩
  | 52 => ⟨S1024, .f32⟩
  | 53 => ⟨S1x1024, .f32⟩
  | 54 => ⟨S1024, .f32⟩
  | 55 => ⟨S_, .i32⟩
  | 56 => ⟨S1024, .i32⟩
  | 57 => ⟨S1024, .i32⟩
  | 58 => ⟨S1024, .i32⟩
  | 59 => ⟨S1024x1, .i32⟩
  | 60 => ⟨S1024, .f32⟩
  | 61 => ⟨S1x1024, .f32⟩
  | 62 => ⟨S1024, .f32⟩
  | 63 => ⟨S_, .i32⟩
  | 64 => ⟨S1024, .i32⟩
  | 65 => ⟨S1024, .i32⟩
  | 66 => ⟨S1024, .i32⟩
  | 67 => ⟨S1024x1, .i32⟩
  | 68 => ⟨S1024, .f32⟩
  | 69 => ⟨S1x1024, .f32⟩
  | 70 => ⟨S1024, .f32⟩
  | 71 => ⟨S_, .i32⟩
  | 72 => ⟨S1024, .i32⟩
  | 73 => ⟨S1024, .i32⟩
  | 74 => ⟨S1024, .i32⟩
  | 75 => ⟨S1024x1, .i32⟩
  | 76 => ⟨S1024, .f32⟩
  | 77 => ⟨S1x1024, .f32⟩
  | 78 => ⟨S1024, .f32⟩
  | 79 => ⟨S_, .i32⟩
  | 80 => ⟨S1024, .i32⟩
  | 81 => ⟨S1024, .i32⟩
  | 82 => ⟨S1024, .i32⟩
  | 83 => ⟨S1024x1, .i32⟩
  | 84 => ⟨S1024, .f32⟩
  | 85 => ⟨S1x1024, .f32⟩
  | 86 => ⟨S1024, .f32⟩
  | 87 => ⟨S_, .i32⟩
  | 88 => ⟨S1024, .i32⟩
  | 89 => ⟨S1024, .i32⟩
  | 90 => ⟨S1024, .i32⟩
  | 91 => ⟨S1024x1, .i32⟩
  | 92 => ⟨S1024, .f32⟩
  | 93 => ⟨S1x1024, .f32⟩
  | 94 => ⟨S1024, .f32⟩
  | 95 => ⟨S_, .i32⟩
  | 96 => ⟨S1024, .i32⟩
  | 97 => ⟨S1024, .i32⟩
  | 98 => ⟨S1024, .i32⟩
  | 99 => ⟨S1024x1, .i32⟩
  | 100 => ⟨S1024, .f32⟩
  | 101 => ⟨S1x1024, .f32⟩
  | 102 => ⟨S1024, .f32⟩
  | 103 => ⟨S_, .i32⟩
  | 104 => ⟨S1024, .i32⟩
  | 105 => ⟨S1024, .i32⟩
  | 106 => ⟨S1024, .i32⟩
  | 107 => ⟨S1024x1, .i32⟩
  | 108 => ⟨S1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S10x1024, .f32⟩
  | 120 => ⟨S1024x1024, .i32⟩
  | 121 => ⟨S1024x1024, .i32⟩
  | 122 => ⟨S_, .i32⟩
  | 123 => ⟨S1024x1024, .i32⟩
  | 124 => ⟨S1024x1024, .i32⟩
  | 125 => ⟨S1024x1024, .i1⟩
  | 126 => ⟨S1024x1024, .f32⟩
  | 127 => ⟨S1x1024, .f32⟩
  | _ => ⟨S8192x1024, .f32⟩

abbrev hbmTy0_2 (i : Nat) : BufTy := match i % 128 with
  | 0 => ⟨S1024, .f32⟩
  | 1 => ⟨S1x1024, .f32⟩
  | 2 => ⟨S1024x1024, .f32⟩
  | 3 => ⟨S1024x1024, .f32⟩
  | 4 => ⟨S1x1024, .f32⟩
  | 5 => ⟨S1024, .f32⟩
  | 6 => ⟨S1x1024, .f32⟩
  | 7 => ⟨S1024x1024, .f32⟩
  | 8 => ⟨S1024x1024, .f32⟩
  | 9 => ⟨S_, .i32⟩
  | 10 => ⟨S1024, .i32⟩
  | 11 => ⟨S1024, .i32⟩
  | 12 => ⟨S1024, .i32⟩
  | 13 => ⟨S1024x1, .i32⟩
  | 14 => ⟨S1024x1024, .f32⟩
  | 15 => ⟨S1024x1024, .f32⟩
  | 16 => ⟨S1x1024, .f32⟩
  | 17 => ⟨S1024, .f32⟩
  | 18 => ⟨S1x1024, .f32⟩
  | 19 => ⟨S1024x1024, .f32⟩
  | 20 => ⟨S1024x1024, .f32⟩
  | 21 => ⟨S1x1024, .f32⟩
  | 22 => ⟨S1024, .f32⟩
  | 23 => ⟨S1x1024, .f32⟩
  | 24 => ⟨S1024x1024, .f32⟩
  | 25 => ⟨S1024x1024, .f32⟩
  | 26 => ⟨S_, .i32⟩
  | 27 => ⟨S1024, .i32⟩
  | 28 => ⟨S1024, .i32⟩
  | 29 => ⟨S1024, .i32⟩
  | 30 => ⟨S1024x1, .i32⟩
  | 31 => ⟨S1024x1024, .f32⟩
  | 32 => ⟨S1024x1024, .f32⟩
  | 33 => ⟨S1x1024, .f32⟩
  | 34 => ⟨S1024, .f32⟩
  | 35 => ⟨S1x1024, .f32⟩
  | 36 => ⟨S1024x1024, .f32⟩
  | 37 => ⟨S1024x1024, .f32⟩
  | 38 => ⟨S1x1024, .f32⟩
  | 39 => ⟨S1024, .f32⟩
  | 40 => ⟨S1x1024, .f32⟩
  | 41 => ⟨S1024x1024, .f32⟩
  | 42 => ⟨S1024x1024, .f32⟩
  | 43 => ⟨S_, .i32⟩
  | 44 => ⟨S1024, .i32⟩
  | 45 => ⟨S1024, .i32⟩
  | 46 => ⟨S1024, .i32⟩
  | 47 => ⟨S1024x1, .i32⟩
  | 48 => ⟨S1024x1024, .f32⟩
  | 49 => ⟨S1024x1024, .f32⟩
  | 50 => ⟨S1x1024, .f32⟩
  | 51 => ⟨S1024, .f32⟩
  | 52 => ⟨S1x1024, .f32⟩
  | 53 => ⟨S1024x1024, .f32⟩
  | 54 => ⟨S1024x1024, .f32⟩
  | 55 => ⟨S1x1024, .f32⟩
  | 56 => ⟨S1024, .f32⟩
  | 57 => ⟨S1x1024, .f32⟩
  | 58 => ⟨S1024x1024, .f32⟩
  | 59 => ⟨S1024x1024, .f32⟩
  | 60 => ⟨S_, .i32⟩
  | 61 => ⟨S1024, .i32⟩
  | 62 => ⟨S1024, .i32⟩
  | 63 => ⟨S1024, .i32⟩
  | 64 => ⟨S1024x1, .i32⟩
  | 65 => ⟨S1024x1024, .f32⟩
  | 66 => ⟨S1024x1024, .f32⟩
  | 67 => ⟨S1x1024, .f32⟩
  | 68 => ⟨S1024, .f32⟩
  | 69 => ⟨S1x1024, .f32⟩
  | 70 => ⟨S1024x1024, .f32⟩
  | 71 => ⟨S1024x1024, .f32⟩
  | 72 => ⟨S1x1024, .f32⟩
  | 73 => ⟨S1024, .f32⟩
  | 74 => ⟨S1x1024, .f32⟩
  | 75 => ⟨S1024x1024, .f32⟩
  | 76 => ⟨S1024x1024, .f32⟩
  | 77 => ⟨S_, .i32⟩
  | 78 => ⟨S1024, .i32⟩
  | 79 => ⟨S1024, .i32⟩
  | 80 => ⟨S1024, .i32⟩
  | 81 => ⟨S1024x1, .i32⟩
  | 82 => ⟨S1024x1024, .f32⟩
  | 83 => ⟨S1024x1024, .f32⟩
  | 84 => ⟨S1x1024, .f32⟩
  | 85 => ⟨S1024, .f32⟩
  | 86 => ⟨S1x1024, .f32⟩
  | 87 => ⟨S1024x1024, .f32⟩
  | 88 => ⟨S1024x1024, .f32⟩
  | 89 => ⟨S1x1024, .f32⟩
  | 90 => ⟨S1024, .f32⟩
  | 91 => ⟨S1x1024, .f32⟩
  | 92 => ⟨S1024x1024, .f32⟩
  | 93 => ⟨S1024x1024, .f32⟩
  | 94 => ⟨S_, .i32⟩
  | 95 => ⟨S1024, .i32⟩
  | 96 => ⟨S1024, .i32⟩
  | 97 => ⟨S1024, .i32⟩
  | 98 => ⟨S1024x1, .i32⟩
  | 99 => ⟨S1024x1024, .f32⟩
  | 100 => ⟨S1024x1024, .f32⟩
  | 101 => ⟨S1x1024, .f32⟩
  | 102 => ⟨S1024, .f32⟩
  | 103 => ⟨S1x1024, .f32⟩
  | 104 => ⟨S1024x1024, .f32⟩
  | 105 => ⟨S1024x1024, .f32⟩
  | 106 => ⟨S1x1024, .f32⟩
  | 107 => ⟨S1024, .f32⟩
  | 108 => ⟨S1x1024, .f32⟩
  | 109 => ⟨S1024x1024, .f32⟩
  | 110 => ⟨S1024x1024, .f32⟩
  | 111 => ⟨S_, .i32⟩
  | 112 => ⟨S1024, .i32⟩
  | 113 => ⟨S1024, .i32⟩
  | 114 => ⟨S1024, .i32⟩
  | 115 => ⟨S1024x1, .i32⟩
  | 116 => ⟨S1024x1024, .f32⟩
  | 117 => ⟨S1024x1024, .f32⟩
  | 118 => ⟨S1x1024, .f32⟩
  | 119 => ⟨S1024, .f32⟩
  | 120 => ⟨S1x1024, .f32⟩
  | 121 => ⟨S1024x1024, .f32⟩
  | 122 => ⟨S1024x1024, .f32⟩
  | 123 => ⟨S1x1024, .f32⟩
  | 124 => ⟨S1024, .f32⟩
  | 125 => ⟨S1x1024, .f32⟩
  | 126 => ⟨S1024x1024, .f32⟩
  | 127 => ⟨S1024x1024, .f32⟩
  | _ => ⟨S8192x1024, .f32⟩

abbrev hbmTy0_3 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x1024, .f32⟩
  | 6 => ⟨S1024x1024, .f32⟩
  | 7 => ⟨S1x1024, .f32⟩
  | 8 => ⟨S1024, .f32⟩
  | 9 => ⟨S1x1024, .f32⟩
  | 10 => ⟨S1024x1024, .f32⟩
  | 11 => ⟨S1024x1024, .f32⟩
  | 12 => ⟨S1x1024, .f32⟩
  | 13 => ⟨S1024, .f32⟩
  | 14 => ⟨S1x1024, .f32⟩
  | 15 => ⟨S1024x1024, .f32⟩
  | 16 => ⟨S1024x1024, .f32⟩
  | 17 => ⟨S_, .i32⟩
  | 18 => ⟨S1024, .i32⟩
  | 19 => ⟨S1024, .i32⟩
  | 20 => ⟨S1024, .i32⟩
  | 21 => ⟨S1024x1, .i32⟩
  | 22 => ⟨S1024x1024, .f32⟩
  | 23 => ⟨S1024x1024, .f32⟩
  | 24 => ⟨S1x1024, .f32⟩
  | 25 => ⟨S1024, .f32⟩
  | 26 => ⟨S1x1024, .f32⟩
  | 27 => ⟨S1024x1024, .f32⟩
  | 28 => ⟨S1024x1024, .f32⟩
  | 29 => ⟨S1x1024, .f32⟩
  | 30 => ⟨S1024, .f32⟩
  | 31 => ⟨S1x1024, .f32⟩
  | 32 => ⟨S1024x1024, .f32⟩
  | 33 => ⟨S1024x1024, .f32⟩
  | 34 => ⟨S_, .i32⟩
  | 35 => ⟨S1024, .i32⟩
  | 36 => ⟨S1024, .i32⟩
  | 37 => ⟨S1024, .i32⟩
  | 38 => ⟨S1024x1, .i32⟩
  | 39 => ⟨S1024x1024, .f32⟩
  | 40 => ⟨S1024x1024, .f32⟩
  | 41 => ⟨S1024x1024, .f32⟩
  | 42 => ⟨S1024x2048, .f32⟩
  | 43 => ⟨S1024x2048, .bf16⟩
  | 44 => ⟨S1024x2048, .f32⟩
  | 45 => ⟨S1024x2048, .bf16⟩
  | 46 => ⟨S1x1024, .f32⟩
  | 47 => ⟨S1x1024, .f32⟩
  | 48 => ⟨S1x1024, .f32⟩
  | 49 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_c_18 : Ref sig .tc := ⟨.hbm, 28, rfl⟩
abbrev main_c_19 : Ref sig .tc := ⟨.hbm, 29, rfl⟩
abbrev main_c_20 : Ref sig .tc := ⟨.hbm, 30, rfl⟩
abbrev main_c_21 : Ref sig .tc := ⟨.hbm, 31, rfl⟩
abbrev main_c_22 : Ref sig .tc := ⟨.hbm, 32, rfl⟩
abbrev main_c_23 : Ref sig .tc := ⟨.hbm, 33, rfl⟩
abbrev main_c_24 : Ref sig .tc := ⟨.hbm, 34, rfl⟩
abbrev main_c_25 : Ref sig .tc := ⟨.hbm, 35, rfl⟩
abbrev main_c_26 : Ref sig .tc := ⟨.hbm, 36, rfl⟩
abbrev main_c_27 : Ref sig .tc := ⟨.hbm, 37, rfl⟩
abbrev main_c_28 : Ref sig .tc := ⟨.hbm, 38, rfl⟩
abbrev main_c_29 : Ref sig .tc := ⟨.hbm, 39, rfl⟩
abbrev main_c_30 : Ref sig .tc := ⟨.hbm, 40, rfl⟩
abbrev main_c_31 : Ref sig .tc := ⟨.hbm, 41, rfl⟩
abbrev main_c_32 : Ref sig .tc := ⟨.hbm, 42, rfl⟩
abbrev main_c_33 : Ref sig .tc := ⟨.hbm, 43, rfl⟩
abbrev main_c_34 : Ref sig .tc := ⟨.hbm, 44, rfl⟩
abbrev main_c_35 : Ref sig .tc := ⟨.hbm, 45, rfl⟩
abbrev main_c_36 : Ref sig .tc := ⟨.hbm, 46, rfl⟩
abbrev main_c_37 : Ref sig .tc := ⟨.hbm, 47, rfl⟩
abbrev main_c_38 : Ref sig .tc := ⟨.hbm, 48, rfl⟩
abbrev main_c_39 : Ref sig .tc := ⟨.hbm, 49, rfl⟩
abbrev main_c_40 : Ref sig .tc := ⟨.hbm, 50, rfl⟩
abbrev main_c_41 : Ref sig .tc := ⟨.hbm, 51, rfl⟩
abbrev main_c_42 : Ref sig .tc := ⟨.hbm, 52, rfl⟩
abbrev main_c_43 : Ref sig .tc := ⟨.hbm, 53, rfl⟩
abbrev main_c_44 : Ref sig .tc := ⟨.hbm, 54, rfl⟩
abbrev main_c_45 : Ref sig .tc := ⟨.hbm, 55, rfl⟩
abbrev main_c_46 : Ref sig .tc := ⟨.hbm, 56, rfl⟩
abbrev main_c_47 : Ref sig .tc := ⟨.hbm, 57, rfl⟩
abbrev main_c_48 : Ref sig .tc := ⟨.hbm, 58, rfl⟩
abbrev main_v0 : Ref sig .tc := ⟨.hbm, 59, rfl⟩
abbrev main_v1 : Ref sig .tc := ⟨.hbm, 60, rfl⟩
abbrev main_v2 : Ref sig .tc := ⟨.hbm, 61, rfl⟩
abbrev main_v3 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_c_49 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c_50 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_c_51 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_52 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_53 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_c_54 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c_55 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_56 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_57 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_58 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_c_59 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_60 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_c_61 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_c_62 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_c_63 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_64 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_65 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_c_66 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_c_67 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_c_68 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_c_69 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_c_70 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_c_71 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_c_72 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_c_73 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_c_74 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_c_75 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_c_76 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_c_77 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_c_78 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_c_79 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S10x512_S10x512_S10x1024_d1 : Shape.Concatenates [S10x512, S10x512] S10x1024 1
  slices_S10x1024_S1x1024_0_0 : S10x1024.Slices ![0, 0] S1x1024
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S10x1024_S1x1024_1_0 : S10x1024.Slices ![1, 0] S1x1024
  slices_S10x1024_S1x1024_2_0 : S10x1024.Slices ![2, 0] S1x1024
  slices_S10x1024_S1x1024_3_0 : S10x1024.Slices ![3, 0] S1x1024
  slices_S10x1024_S1x1024_4_0 : S10x1024.Slices ![4, 0] S1x1024
  slices_S10x1024_S1x1024_5_0 : S10x1024.Slices ![5, 0] S1x1024
  slices_S10x1024_S1x1024_6_0 : S10x1024.Slices ![6, 0] S1x1024
  slices_S10x1024_S1x1024_7_0 : S10x1024.Slices ![7, 0] S1x1024
  slices_S10x1024_S1x1024_8_0 : S10x1024.Slices ![8, 0] S1x1024
  slices_S10x1024_S1x1024_9_0 : S10x1024.Slices ![9, 0] S1x1024
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S10x1024_d0 : Shape.Concatenates [S1x1024, S1x1024, S1x1024, S1x1024, S1x1024, S1x1024, S1x1024, S1x1024, S1x1024, S1x1024] S10x1024 0
  bcast_S_S1024x1024 : S_.BroadcastsInDim S1024x1024 (![] : Fin 0 → Fin S1024x1024.rank)
  bcast_S1x1024_S1024x1024_0_1 : S1x1024.BroadcastsInDim S1024x1024 (![0, 1] : Fin 2 → Fin S1024x1024.rank)
  slices_S1024x3072_S1024x1024_0_0 : S1024x3072.Slices ![0, 0] S1024x1024
  slices_S1024x3072_S1024x2048_0_1024 : S1024x3072.Slices ![0, 1024] S1024x2048
  bitsLt_bf16_f32 : FTy.bits .bf16 < FTy.bits .f32
  concatenates_S1024x1024_S1024x1024_S1024x2048_d1 : Shape.Concatenates [S1024x1024, S1024x1024] S1024x2048 1
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  gather_S1024_S1024x1_S1024_n_0_n_n_0_1_1_wf : GatherDims.WF S1024 S1024x1 S1024 [] [0] [] [0] [] 1 ![1]
  gather_S1024x1024_S1024x1_S1024x1024_0_1_n_n_1_1_10241_wf : GatherDims.WF S1024x1024 S1024x1 S1024x1024 [0] [1] [] [1] [] 1 ![1024, 1]
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .f32 = 32 ∨ (Rect.block (s := S8192x1024) S512x1024.size (cc0_transform_9 i) (hinb0_9 i)).WholeWords (EltTy.packing .f32)

variable [Facts₀]

def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def gather_S1024x1024_S1024x1_S1024x1024_0_1_n_n_1_1_10241 : GatherDims S1024x1024 S1024x1 S1024x1024 where
  offsetDims := [0]
  collapsedSliceDims := [1]
  operandBatchingDims := []
  startIndicesBatchingDims := []
  startIndexMap := [1]
  indexVectorDim := 1
  sliceSizes := ![1024, 1]
  wf := gather_S1024x1024_S1024x1_S1024x1024_0_1_n_n_1_1_10241_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v335) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v337) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v339) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v334) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v340) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v341) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v342) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v343) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S10x512 : Shape := ⟨2, ![10, 512]⟩
abbrev S1024x3072 : Shape := ⟨2, ![1024, 3072]⟩
abbrev S1024x1024 : Shape := ⟨2, ![1024, 1024]⟩
abbrev S1024 : Shape := ⟨1, ![1024]⟩
abbrev S10x1024 : Shape := ⟨2, ![10, 1024]⟩
abbrev S1x1024 : Shape := ⟨2, ![1, 1024]⟩
abbrev S_ : Shape := ⟨0, ![]⟩
abbrev S1024x1 : Shape := ⟨2, ![1024, 1]⟩
abbrev S8192x3072 : Shape := ⟨2, ![8192, 3072]⟩

abbrev nBuf : Space → Nat
  | .hbm => 468
  | .vmem => 0
  | .smem => 0
  | _ => 0

abbrev hbmTy0_0 (i : Nat) : BufTy := match i % 128 with
  | 0 => ⟨S8192x1024, .f32⟩
  | 1 => ⟨S8192x1024, .f32⟩
  | 2 => ⟨S10x512, .f32⟩
  | 3 => ⟨S1024x3072, .f32⟩
  | 4 => ⟨S1024x1024, .f32⟩
  | 5 => ⟨S1024x1024, .f32⟩
  | 6 => ⟨S1024, .f32⟩
  | 7 => ⟨S1024, .f32⟩
  | 8 => ⟨S1024, .f32⟩
  | 9 => ⟨S1024, .i32⟩
  | 10 => ⟨S1024, .i1⟩
  | 11 => ⟨S1024, .i32⟩
  | 12 => ⟨S1024, .i1⟩
  | 13 => ⟨S1024, .i32⟩
  | 14 => ⟨S1024, .i1⟩
  | 15 => ⟨S1024, .i32⟩
  | 16 => ⟨S1024, .i1⟩
  | 17 => ⟨S1024, .i32⟩
  | 18 => ⟨S1024, .i1⟩
  | 19 => ⟨S1024, .i32⟩
  | 20 => ⟨S1024, .i1⟩
  | 21 => ⟨S1024, .i32⟩
  | 22 => ⟨S1024, .i1⟩
  | 23 => ⟨S1024, .i32⟩
  | 24 => ⟨S1024, .i1⟩
  | 25 => ⟨S1024, .i32⟩
  | 26 => ⟨S1024, .i1⟩
  | 27 => ⟨S1024, .i32⟩
  | 28 => ⟨S1024, .i1⟩
  | 29 => ⟨S1024, .i1⟩
  | 30 => ⟨S1024, .i1⟩
  | 31 => ⟨S1024, .i1⟩
  | 32 => ⟨S1024, .i1⟩
  | 33 => ⟨S1024, .i1⟩
  | 34 => ⟨S1024, .i1⟩
  | 35 => ⟨S1024, .i1⟩
  | 36 => ⟨S1024, .i1⟩
  | 37 => ⟨S1024, .i1⟩
  | 38 => ⟨S1024, .i1⟩
  | 39 => ⟨S1024, .i32⟩
  | 40 => ⟨S1024, .i1⟩
  | 41 => ⟨S1024, .i32⟩
  | 42 => ⟨S1024, .i1⟩
  | 43 => ⟨S1024, .i32⟩
  | 44 => ⟨S1024, .i1⟩
  | 45 => ⟨S1024, .i32⟩
  | 46 => ⟨S1024, .i1⟩
  | 47 => ⟨S1024, .i32⟩
  | 48 => ⟨S1024, .i1⟩
  | 49 => ⟨S1024, .i32⟩
  | 50 => ⟨S1024, .i1⟩
  | 51 => ⟨S1024, .i32⟩
  | 52 => ⟨S1024, .i1⟩
  | 53 => ⟨S1024, .i32⟩
  | 54 => ⟨S1024, .i1⟩
  | 55 => ⟨S1024, .i32⟩
  | 56 => ⟨S1024, .i1⟩
  | 57 => ⟨S1024, .i32⟩
  | 58 => ⟨S1024, .i1⟩
  | 59 => ⟨S10x512, .f32⟩
  | 60 => ⟨S10x512, .f32⟩
  | 61 => ⟨S10x1024, .f32⟩
  | 62 => ⟨S10x512, .f32⟩
  | 63 => ⟨S10x512, .f32⟩
  | 64 => ⟨S10x512, .f32⟩
  | 65 => ⟨S10x1024, .f32⟩
  | 66 => ⟨S1x1024, .f32⟩
  | 67 => ⟨S1024, .f32⟩
  | 68 => ⟨S_, .i32⟩
  | 69 => ⟨S1024, .i32⟩
  | 70 => ⟨S1024, .i32⟩
  | 71 => ⟨S1024, .i32⟩
  | 72 => ⟨S1024x1, .i32⟩
  | 73 => ⟨S1024, .f32⟩
  | 74 => ⟨S1x1024, .f32⟩
  | 75 => ⟨S1024, .f32⟩
  | 76 => ⟨S_, .i32⟩
  | 77 => ⟨S1024, .i32⟩
  | 78 => ⟨S1024, .i32⟩
  | 79 => ⟨S1024, .i32⟩
  | 80 => ⟨S1024x1, .i32⟩
  | 81 => ⟨S1024, .f32⟩
  | 82 => ⟨S1x1024, .f32⟩
  | 83 => ⟨S1024, .f32⟩
  | 84 => ⟨S_, .i32⟩
  | 85 => ⟨S1024, .i32⟩
  | 86 => ⟨S1024, .i32⟩
  | 87 => ⟨S1024, .i32⟩
  | 88 => ⟨S1024x1, .i32⟩
  | 89 => ⟨S1024, .f32⟩
  | 90 => ⟨S1x1024, .f32⟩
  | 91 => ⟨S1024, .f32⟩
  | 92 => ⟨S_, .i32⟩
  | 93 => ⟨S1024, .i32⟩
  | 94 => ⟨S1024, .i32⟩
  | 95 => ⟨S1024, .i32⟩
  | 96 => ⟨S1024x1, .i32⟩
  | 97 => ⟨S1024, .f32⟩
  | 98 => ⟨S1x1024, .f32⟩
  | 99 => ⟨S1024, .f32⟩
  | 100 => ⟨S_, .i32⟩
  | 101 => ⟨S1024, .i32⟩
  | 102 => ⟨S1024, .i32⟩
  | 103 => ⟨S1024, .i32⟩
  | 104 => ⟨S1024x1, .i32⟩
  | 105 => ⟨S1024, .f32⟩
  | 106 => ⟨S1x1024, .f32⟩
  | 107 => ⟨S1024, .f32⟩
  | 108 => ⟨S_, .i32⟩
  | 109 => ⟨S1024, .i32⟩
  | 110 => ⟨S1024, .i32⟩
  | 111 => ⟨S1024, .i32⟩
  | 112 => ⟨S1024x1, .i32⟩
  | 113 => ⟨S1024, .f32⟩
  | 114 => ⟨S1x1024, .f32⟩
  | 115 => ⟨S1024, .f32⟩
  | 116 => ⟨S_, .i32⟩
  | 117 => ⟨S1024, .i32⟩
  | 118 => ⟨S1024, .i32⟩
  | 119 => ⟨S1024, .i32⟩
  | 120 => ⟨S1024x1, .i32⟩
  | 121 => ⟨S1024, .f32⟩
  | 122 => ⟨S1x1024, .f32⟩
  | 123 => ⟨S1024, .f32⟩
  | 124 => ⟨S_, .i32⟩
  | 125 => ⟨S1024, .i32⟩
  | 126 => ⟨S1024, .i32⟩
  | 127 => ⟨S1024, .i32⟩
  | _ => ⟨S8192x1024, .f32⟩

abbrev hbmTy0_1 (i : Nat) : BufTy := match i % 128 with
  | 0 => ⟨S1024x1, .i32⟩
  | 1 => ⟨S1024, .f32⟩
  | 2 => ⟨S1x1024, .f32⟩
  | 3 => ⟨S1024, .f32⟩
  | 4 => ⟨S_, .i32⟩
  | 5 => ⟨S1024, .i32⟩
  | 6 => ⟨S1024, .i32⟩
  | 7 => ⟨S1024, .i32⟩
  | 8 => ⟨S1024x1, .i32⟩
  | 9 => ⟨S1024, .f32⟩
  | 10 => ⟨S1x1024, .f32⟩
  | 11 => ⟨S1024, .f32⟩
  | 12 => ⟨S_, .i32⟩
  | 13 => ⟨S1024, .i32⟩
  | 14 => ⟨S1024, .i32⟩
  | 15 => ⟨S1024, .i32⟩
  | 16 => ⟨S1024x1, .i32⟩
  | 17 => ⟨S1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S10x1024, .f32⟩
  | 29 => ⟨S1x1024, .f32⟩
  | 30 => ⟨S1024, .f32⟩
  | 31 => ⟨S_, .i32⟩
  | 32 => ⟨S1024, .i32⟩
  | 33 => ⟨S1024, .i32⟩
  | 34 => ⟨S1024, .i32⟩
  | 35 => ⟨S1024x1, .i32⟩
  | 36 => ⟨S1024, .f32⟩
  | 37 => ⟨S1x1024, .f32⟩
  | 38 => ⟨S1024, .f32⟩
  | 39 => ⟨S_, .i32⟩
  | 40 => ⟨S1024, .i32⟩
  | 41 => ⟨S1024, .i32⟩
  | 42 => ⟨S1024, .i32⟩
  | 43 => ⟨S1024x1, .i32⟩
  | 44 => ⟨S1024, .f32⟩
  | 45 => ⟨S1x1024, .f32⟩
  | 46 => ⟨S1024, .f32⟩
  | 47 => ⟨S_, .i32⟩
  | 48 => ⟨S1024, .i32⟩
  | 49 => ⟨S1024, .i32⟩
  | 50 => ⟨S1024, .i32⟩
  | 51 => ⟨S1024x1, .i32⟩
  | 52 => ⟨S1024, .f32⟩
  | 53 => ⟨S1x1024, .f32⟩
  | 54 => ⟨S1024, .f32⟩
  | 55 => ⟨S_, .i32⟩
  | 56 => ⟨S1024, .i32⟩
  | 57 => ⟨S1024, .i32⟩
  | 58 => ⟨S1024, .i32⟩
  | 59 => ⟨S1024x1, .i32⟩
  | 60 => ⟨S1024, .f32⟩
  | 61 => ⟨S1x1024, .f32⟩
  | 62 => ⟨S1024, .f32⟩
  | 63 => ⟨S_, .i32⟩
  | 64 => ⟨S1024, .i32⟩
  | 65 => ⟨S1024, .i32⟩
  | 66 => ⟨S1024, .i32⟩
  | 67 => ⟨S1024x1, .i32⟩
  | 68 => ⟨S1024, .f32⟩
  | 69 => ⟨S1x1024, .f32⟩
  | 70 => ⟨S1024, .f32⟩
  | 71 => ⟨S_, .i32⟩
  | 72 => ⟨S1024, .i32⟩
  | 73 => ⟨S1024, .i32⟩
  | 74 => ⟨S1024, .i32⟩
  | 75 => ⟨S1024x1, .i32⟩
  | 76 => ⟨S1024, .f32⟩
  | 77 => ⟨S1x1024, .f32⟩
  | 78 => ⟨S1024, .f32⟩
  | 79 => ⟨S_, .i32⟩
  | 80 => ⟨S1024, .i32⟩
  | 81 => ⟨S1024, .i32⟩
  | 82 => ⟨S1024, .i32⟩
  | 83 => ⟨S1024x1, .i32⟩
  | 84 => ⟨S1024, .f32⟩
  | 85 => ⟨S1x1024, .f32⟩
  | 86 => ⟨S1024, .f32⟩
  | 87 => ⟨S_, .i32⟩
  | 88 => ⟨S1024, .i32⟩
  | 89 => ⟨S1024, .i32⟩
  | 90 => ⟨S1024, .i32⟩
  | 91 => ⟨S1024x1, .i32⟩
  | 92 => ⟨S1024, .f32⟩
  | 93 => ⟨S1x1024, .f32⟩
  | 94 => ⟨S1024, .f32⟩
  | 95 => ⟨S_, .i32⟩
  | 96 => ⟨S1024, .i32⟩
  | 97 => ⟨S1024, .i32⟩
  | 98 => ⟨S1024, .i32⟩
  | 99 => ⟨S1024x1, .i32⟩
  | 100 => ⟨S1024, .f32⟩
  | 101 => ⟨S1x1024, .f32⟩
  | 102 => ⟨S1024, .f32⟩
  | 103 => ⟨S_, .i32⟩
  | 104 => ⟨S1024, .i32⟩
  | 105 => ⟨S1024, .i32⟩
  | 106 => ⟨S1024, .i32⟩
  | 107 => ⟨S1024x1, .i32⟩
  | 108 => ⟨S1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S10x1024, .f32⟩
  | 120 => ⟨S8192x3072, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S1x1024, .f32⟩
  | 127 => ⟨S8192x1024, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S8192x1024, .f32⟩
  | 11 => ⟨S1x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S_, .i32⟩
  | 33 => ⟨S1024, .i32⟩
  | 34 => ⟨S1024, .i32⟩
  | 35 => ⟨S1024, .i32⟩
  | 36 => ⟨S1024x1, .i32⟩
  | 37 => ⟨S8192x1024, .f32⟩
  | 38 => ⟨S8192x1024, .f32⟩
  | 39 => ⟨S1x1024, .f32⟩
  | 40 => ⟨S1024, .f32⟩
  | 41 => ⟨S1x1024, .f32⟩
  | 42 => ⟨S8192x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S_, .i32⟩
  | 50 => ⟨S1024, .i32⟩
  | 51 => ⟨S1024, .i32⟩
  | 52 => ⟨S1024, .i32⟩
  | 53 => ⟨S1024x1, .i32⟩
  | 54 => ⟨S8192x1024, .f32⟩
  | 55 => ⟨S8192x1024, .f32⟩
  | 56 => ⟨S1x1024, .f32⟩
  | 57 => ⟨S1024, .f32⟩
  | 58 => ⟨S1x1024, .f32⟩
  | 59 => ⟨S8192x1024, .f32⟩
  | 60 => ⟨S8192x1024, .f32⟩
  | 61 => ⟨S1x1024, .f32⟩
  | 62 => ⟨S1024, .f32⟩
  | 63 => ⟨S1x1024, .f32⟩
  | 64 => ⟨S8192x1024, .f32⟩
  | 65 => ⟨S8192x1024, .f32⟩
  | 66 => ⟨S_, .i32⟩
  | 67 => ⟨S1024, .i32⟩
  | 68 => ⟨S1024, .i32⟩
  | 69 => ⟨S1024, .i32⟩
  | 70 => ⟨S1024x1, .i32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S1x1024, .f32⟩
  | 79 => ⟨S1024, .f32⟩
  | 80 => ⟨S1x1024, .f32⟩
  | 81 => ⟨S8192x1024, .f32⟩
  | 82 => ⟨S8192x1024, .f32⟩
  | 83 => ⟨S_, .i32⟩
  | 84 => ⟨S1024, .i32⟩
  | 85 => ⟨S1024, .i32⟩
  | 86 => ⟨S1024, .i32⟩
  | 87 => ⟨S1024x1, .i32⟩
  | 88 => ⟨S8192x1024, .f32⟩
  | 89 => ⟨S8192x1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S1x1024, .f32⟩
  | 96 => ⟨S1024, .f32⟩
  | 97 => ⟨S1x1024, .f32⟩
  | 98 => ⟨S8192x1024, .f32⟩
  | 99 => ⟨S8192x1024, .f32⟩
  | 100 => ⟨S_, .i32⟩
  | 101 => ⟨S1024, .i32⟩
  | 102 => ⟨S1024, .i32⟩
  | 103 => ⟨S1024, .i32⟩
  | 104 => ⟨S1024x1, .i32⟩
  | 105 => ⟨S8192x1024, .f32⟩
  | 106 => ⟨S8192x1024, .f32⟩
  | 107 => ⟨S1x1024, .f32⟩
  | 108 => ⟨S1024, .f32⟩
  | 109 => ⟨S1x1024, .f32⟩
  | 110 => ⟨S8192x1024, .f32⟩
  | 111 => ⟨S8192x1024, .f32⟩
  | 112 => ⟨S1x1024, .f32⟩
  | 113 => ⟨S1024, .f32⟩
  | 114 => ⟨S1x1024, .f32⟩
  | 115 => ⟨S8192x1024, .f32⟩
  | 116 => ⟨S8192x1024, .f32⟩
  | 117 => ⟨S_, .i32⟩
  | 118 => ⟨S1024, .i32⟩
  | 119 => ⟨S1024, .i32⟩
  | 120 => ⟨S1024, .i32⟩
  | 121 => ⟨S1024x1, .i32⟩
  | 122 => ⟨S8192x1024, .f32⟩
  | 123 => ⟨S8192x1024, .f32⟩
  | 124 => ⟨S1x1024, .f32⟩
  | 125 => ⟨S1024, .f32⟩
  | 126 => ⟨S1x1024, .f32⟩
  | 127 => ⟨S8192x1024, .f32⟩
  | _ => ⟨S8192x1024, .f32⟩

abbrev hbmTy0_3 (i : Nat) : BufTy := match i % 128 with
  | 0 => ⟨S8192x1024, .f32⟩
  | 1 => ⟨S1x1024, .f32⟩
  | 2 => ⟨S1024, .f32⟩
  | 3 => ⟨S1x1024, .f32⟩
  | 4 => ⟨S8192x1024, .f32⟩
  | 5 => ⟨S8192x1024, .f32⟩
  | 6 => ⟨S_, .i32⟩
  | 7 => ⟨S1024, .i32⟩
  | 8 => ⟨S1024, .i32⟩
  | 9 => ⟨S1024, .i32⟩
  | 10 => ⟨S1024x1, .i32⟩
  | 11 => ⟨S8192x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S1x1024, .f32⟩
  | 19 => ⟨S1024, .f32⟩
  | 20 => ⟨S1x1024, .f32⟩
  | 21 => ⟨S8192x1024, .f32⟩
  | 22 => ⟨S8192x1024, .f32⟩
  | 23 => ⟨S_, .i32⟩
  | 24 => ⟨S1024, .i32⟩
  | 25 => ⟨S1024, .i32⟩
  | 26 => ⟨S1024, .i32⟩
  | 27 => ⟨S1024x1, .i32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S_, .i32⟩
  | 41 => ⟨S1024, .i32⟩
  | 42 => ⟨S1024, .i32⟩
  | 43 => ⟨S1024, .i32⟩
  | 44 => ⟨S1024x1, .i32⟩
  | 45 => ⟨S8192x1024, .f32⟩
  | 46 => ⟨S8192x1024, .f32⟩
  | 47 => ⟨S1x1024, .f32⟩
  | 48 => ⟨S1024, .f32⟩
  | 49 => ⟨S1x1024, .f32⟩
  | 50 => ⟨S8192x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S_, .i32⟩
  | 58 => ⟨S1024, .i32⟩
  | 59 => ⟨S1024, .i32⟩
  | 60 => ⟨S1024, .i32⟩
  | 61 => ⟨S1024x1, .i32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_c_18 : Ref sig .tc := ⟨.hbm, 28, rfl⟩
abbrev main_c_19 : Ref sig .tc := ⟨.hbm, 29, rfl⟩
abbrev main_c_20 : Ref sig .tc := ⟨.hbm, 30, rfl⟩
abbrev main_c_21 : Ref sig .tc := ⟨.hbm, 31, rfl⟩
abbrev main_c_22 : Ref sig .tc := ⟨.hbm, 32, rfl⟩
abbrev main_c_23 : Ref sig .tc := ⟨.hbm, 33, rfl⟩
abbrev main_c_24 : Ref sig .tc := ⟨.hbm, 34, rfl⟩
abbrev main_c_25 : Ref sig .tc := ⟨.hbm, 35, rfl⟩
abbrev main_c_26 : Ref sig .tc := ⟨.hbm, 36, rfl⟩
abbrev main_c_27 : Ref sig .tc := ⟨.hbm, 37, rfl⟩
abbrev main_c_28 : Ref sig .tc := ⟨.hbm, 38, rfl⟩
abbrev main_c_29 : Ref sig .tc := ⟨.hbm, 39, rfl⟩
abbrev main_c_30 : Ref sig .tc := ⟨.hbm, 40, rfl⟩
abbrev main_c_31 : Ref sig .tc := ⟨.hbm, 41, rfl⟩
abbrev main_c_32 : Ref sig .tc := ⟨.hbm, 42, rfl⟩
abbrev main_c_33 : Ref sig .tc := ⟨.hbm, 43, rfl⟩
abbrev main_c_34 : Ref sig .tc := ⟨.hbm, 44, rfl⟩
abbrev main_c_35 : Ref sig .tc := ⟨.hbm, 45, rfl⟩
abbrev main_c_36 : Ref sig .tc := ⟨.hbm, 46, rfl⟩
abbrev main_c_37 : Ref sig .tc := ⟨.hbm, 47, rfl⟩
abbrev main_c_38 : Ref sig .tc := ⟨.hbm, 48, rfl⟩
abbrev main_c_39 : Ref sig .tc := ⟨.hbm, 49, rfl⟩
abbrev main_c_40 : Ref sig .tc := ⟨.hbm, 50, rfl⟩
abbrev main_c_41 : Ref sig .tc := ⟨.hbm, 51, rfl⟩
abbrev main_c_42 : Ref sig .tc := ⟨.hbm, 52, rfl⟩
abbrev main_c_43 : Ref sig .tc := ⟨.hbm, 53, rfl⟩
abbrev main_c_44 : Ref sig .tc := ⟨.hbm, 54, rfl⟩
abbrev main_c_45 : Ref sig .tc := ⟨.hbm, 55, rfl⟩
abbrev main_c_46 : Ref sig .tc := ⟨.hbm, 56, rfl⟩
abbrev main_c_47 : Ref sig .tc := ⟨.hbm, 57, rfl⟩
abbrev main_c_48 : Ref sig .tc := ⟨.hbm, 58, rfl⟩
abbrev main_v0 : Ref sig .tc := ⟨.hbm, 59, rfl⟩
abbrev main_v1 : Ref sig .tc := ⟨.hbm, 60, rfl⟩
abbrev main_v2 : Ref sig .tc := ⟨.hbm, 61, rfl⟩
abbrev main_v3 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_c_49 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c_50 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_c_51 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_52 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_53 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_c_54 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c_55 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_56 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_57 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_58 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_c_59 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_60 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_c_61 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_c_62 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_c_63 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_64 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_65 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_c_66 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_c_67 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_c_68 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_cst : Ref sig .tc := ⟨.hbm, 259, rfl⟩
abbrev main_v180 : Ref sig .tc := ⟨.hbm, 260, rfl⟩
abbrev main_v181 : Ref sig .tc := ⟨.hbm, 261, rfl⟩
abbrev main_cst_69 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_cst_70 : Ref sig .tc := ⟨.hbm, 272, rfl⟩
abbrev main_v191 : Ref sig .tc := ⟨.hbm, 273, rfl⟩
abbrev main_v192 : Ref sig .tc := ⟨.hbm, 274, rfl⟩
abbrev main_cst_71 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_c_72 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_c_73 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_c_74 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_c_75 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_c_76 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_c_77 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_c_78 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_c_79 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_c_80 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_c_81 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_v357 : Ref sig .tc := ⟨.hbm, 450, rfl⟩
abbrev main_v358 : Ref sig .tc := ⟨.hbm, 451, rfl⟩
abbrev main_cst_82 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_call0_cst : Ref sig .tc := ⟨.hbm, 458, rfl⟩
abbrev main_call0_v0 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_cst_83 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_v370 : Ref sig .tc := ⟨.hbm, 467, rfl⟩

abbrev nD : Nat := 1
abbrev τ : Topo := Topo.v7x

variable {F : FTy → Type} [FloatOps F]

class Facts₀ : Prop where
  concatenates_S10x512_S10x512_S10x1024_d1 : Shape.Concatenates [S10x512, S10x512] S10x1024 1
  slices_S10x1024_S1x1024_0_0 : S10x1024.Slices ![0, 0] S1x1024
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S10x1024_S1x1024_1_0 : S10x1024.Slices ![1, 0] S1x1024
  slices_S10x1024_S1x1024_2_0 : S10x1024.Slices ![2, 0] S1x1024
  slices_S10x1024_S1x1024_3_0 : S10x1024.Slices ![3, 0] S1x1024
  slices_S10x1024_S1x1024_4_0 : S10x1024.Slices ![4, 0] S1x1024
  slices_S10x1024_S1x1024_5_0 : S10x1024.Slices ![5, 0] S1x1024
  slices_S10x1024_S1x1024_6_0 : S10x1024.Slices ![6, 0] S1x1024
  slices_S10x1024_S1x1024_7_0 : S10x1024.Slices ![7, 0] S1x1024
  slices_S10x1024_S1x1024_8_0 : S10x1024.Slices ![8, 0] S1x1024
  slices_S10x1024_S1x1024_9_0 : S10x1024.Slices ![9, 0] S1x1024
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S10x1024_d0 : Shape.Concatenates [S1x1024, S1x1024, S1x1024, S1x1024, S1x1024, S1x1024, S1x1024, S1x1024, S1x1024, S1x1024] S10x1024 0
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  gather_S1024_S1024x1_S1024_n_0_n_n_0_1_1_wf : GatherDims.WF S1024 S1024x1 S1024 [] [0] [] [0] [] 1 ![1]
  dot_S8192x1024_S1024x3072_S8192x3072_1_0_0_1_n_n_wf : DotDims.WF S8192x1024 S1024x3072 S8192x3072 [1] [0] [0] [1] [] []
  dot_S8192x1024_S1024x1024_S8192x1024_1_0_0_1_n_n_wf : DotDims.WF S8192x1024 S1024x1024 S8192x1024 [1] [0] [0] [1] [] []
  gather_S8192x1024_S1024x1_S8192x1024_0_1_n_n_1_1_81921_wf : GatherDims.WF S8192x1024 S1024x1 S8192x1024 [0] [1] [] [1] [] 1 ![8192, 1]

variable [Facts₀]

def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S8192x1024_S1024x1_S8192x1024_0_1_n_n_1_1_81921 : GatherDims S8192x1024 S1024x1 S8192x1024 where
  offsetDims := [0]
  collapsedSliceDims := [1]
  operandBatchingDims := []
  startIndicesBatchingDims := []
  startIndexMap := [1]
  indexVectorDim := 1
  sliceSizes := ![8192, 1]
  wf := gather_S8192x1024_S1024x1_S8192x1024_0_1_n_n_1_1_81921_wf

class Facts : Prop extends Facts₀ where

variable [Facts]
-- ==== Proof.KFrame.lean ====
import proofs.«426905_j7799660610191_3_alg».proof.Proof.Gen.Kernel.Launch
import proofs.«426905_j7799660610191_3_alg».proof.Proof.Gen.Kernel.Skeleton
import proofs.«426905_j7799660610191_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (hostOps0 (F := F)) (fun b => m (c, b)) (Proc.devRef .tc b)

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev rS512x1024 : Rect S512x1024 := Rect.unit (s := S512x1024) ![0, 0] S512x1024.size inb_S512x1024_S512x1024_0_0
abbrev rS1024x1024 : Rect S1024x1024 := Rect.unit (s := S1024x1024) ![0, 0] S1024x1024.size inb_S1024x1024_S1024x1024_0_0
abbrev rS1024x2048 : Rect S1024x2048 := Rect.unit (s := S1024x2048) ![0, 0] S1024x2048.size inb_S1024x2048_S1024x2048_0_0
abbrev rS1x1024 : Rect S1x1024 := Rect.unit (s := S1x1024) ![0, 0] S1x1024.size inb_S1x1024_S1x1024_0_0

def out0_9 (x0 x1 : Vec F S512x1024 .f32) (x2 : Vec F S1024x1024 .f32) (x3 x4 : Vec F S1024x2048 .bf16) (x5 : Vec F S1024x1024 .f32)
    (x6 x7 x8 : Vec F S1x1024 .f32) : Vec F S512x1024 .f32 :=
  View.canon [⟨rS512x1024, k0_pay1 (View.ld x1 rS512x1024) (k0_pay4 (View.ld x0 rS512x1024) (View.ld x1 rS512x1024) (View.ld x3 rS1024x2048) (View.ld x4 rS1024x2048) (View.ld x7 rS1x1024)) (k0_pay5 (View.ld x0 rS512x1024) (View.ld x1 rS512x1024) (View.ld x2 rS1024x1024) (View.ld x5 rS1024x1024) (View.ld x3 rS1024x2048) (View.ld x4 rS1024x2048) (View.ld x6 rS1x1024)) (k0_pay6 (View.ld x0 rS512x1024) (View.ld x1 rS512x1024) (View.ld x2 rS1024x1024) (View.ld x5 rS1024x1024) (View.ld x3 rS1024x2048) (View.ld x4 rS1024x2048) (View.ld x6 rS1x1024)) 1065353216#32 (View.ld x8 rS1x1024)⟩]

theorem cover0_9 (p0 : Vec F S512x1024 .f32) (y : S512x1024.Idx) :
    ∃ pc ∈ ([⟨rS512x1024, p0⟩] : List (View.Piece (Elt F) S512x1024 .f32)), y ∈ pc.1.set :=
  View.cover_of_tiled [⟨rS512x1024, p0⟩] S512x1024.size (by rfl) y

set_option maxHeartbeats 4000000 in
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S1024x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S512x1024 .f32) (harg10 : arg10.IsWhole)
    (x0 x1 : Vec F S512x1024 .f32) (x2 : Vec F S1024x1024 .f32) (x3 x4 : Vec F S1024x2048 .bf16) (x5 : Vec F S1024x1024 .f32)
    (x6 x7 x8 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.KIFrame.lean ====
import proofs.«426905_j7799660610191_3_alg».proof.Proof.Gen.KernelIdeal.Launch
import proofs.«426905_j7799660610191_3_alg».proof.Proof.Gen.KernelIdeal.Skeleton
import proofs.«426905_j7799660610191_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (hostOps0 (F := F)) (fun b => m (c, b)) (Proc.devRef .tc b)

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev rS512x1024 : Rect S512x1024 := Rect.unit (s := S512x1024) ![0, 0] S512x1024.size inb_S512x1024_S512x1024_0_0
abbrev rS1024x1024 : Rect S1024x1024 := Rect.unit (s := S1024x1024) ![0, 0] S1024x1024.size inb_S1024x1024_S1024x1024_0_0
abbrev rS1024x2048 : Rect S1024x2048 := Rect.unit (s := S1024x2048) ![0, 0] S1024x2048.size inb_S1024x2048_S1024x2048_0_0
abbrev rS1x1024 : Rect S1x1024 := Rect.unit (s := S1x1024) ![0, 0] S1x1024.size inb_S1x1024_S1x1024_0_0

def out0_9 (x0 x1 : Vec F S512x1024 .f32) (x2 : Vec F S1024x1024 .f32) (x3 x4 : Vec F S1024x2048 .bf16) (x5 : Vec F S1024x1024 .f32)
    (x6 x7 x8 : Vec F S1x1024 .f32) : Vec F S512x1024 .f32 :=
  View.canon [⟨rS512x1024, k0_pay1 (View.ld x1 rS512x1024) (k0_pay4 (View.ld x0 rS512x1024) (View.ld x1 rS512x1024) (View.ld x3 rS1024x2048) (View.ld x4 rS1024x2048) (View.ld x7 rS1x1024)) (k0_pay5 (View.ld x0 rS512x1024) (View.ld x1 rS512x1024) (View.ld x2 rS1024x1024) (View.ld x5 rS1024x1024) (View.ld x3 rS1024x2048) (View.ld x4 rS1024x2048) (View.ld x6 rS1x1024)) (k0_pay6 (View.ld x0 rS512x1024) (View.ld x1 rS512x1024) (View.ld x2 rS1024x1024) (View.ld x5 rS1024x1024) (View.ld x3 rS1024x2048) (View.ld x4 rS1024x2048) (View.ld x6 rS1x1024)) (View.ld x8 rS1x1024)⟩]

theorem cover0_9 (p0 : Vec F S512x1024 .f32) (y : S512x1024.Idx) :
    ∃ pc ∈ ([⟨rS512x1024, p0⟩] : List (View.Piece (Elt F) S512x1024 .f32)), y ∈ pc.1.set :=
  View.cover_of_tiled [⟨rS512x1024, p0⟩] S512x1024.size (by rfl) y

set_option maxHeartbeats 4000000 in
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x2048 .bf16) (harg4 : arg4.IsWhole)
    (arg5 : Memref sig .tc .vmem S1024x2048 .bf16) (harg5 : arg5.IsWhole) (arg6 : Memref sig .tc .vmem S1024x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S512x1024 .f32) (harg10 : arg10.IsWhole)
    (x0 x1 : Vec F S512x1024 .f32) (x2 : Vec F S1024x1024 .f32) (x3 x4 : Vec F S1024x2048 .bf16) (x5 : Vec F S1024x1024 .f32)
    (x6 x7 x8 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.ROps.lean ====
import proofs.«426905_j7799660610191_3_alg».proof.Proof.Gen.ReferenceIdeal
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem

variable {F : FTy → Type} [FloatOps F]

abbrev opsTab : List (HloOp τ sig (Elt F)) :=
  [ StableHlo.nullary main_c (fun i => lit0 (S1024.rowMajor i)),
    StableHlo.nullary main_c_0 (constantI S1024 1 0#1),
    StableHlo.nullary main_c_1 (fun i => lit1 (S1024.rowMajor i)),
    StableHlo.nullary main_c_2 (constantI S1024 1 0#1),
    StableHlo.nullary main_c_3 (fun i => lit2 (S1024.rowMajor i)),
    StableHlo.nullary main_c_4 (constantI S1024 1 0#1),
    StableHlo.nullary main_c_5 (fun i => lit3 (S1024.rowMajor i)),
    StableHlo.nullary main_c_6 (constantI S1024 1 0#1),
    StableHlo.nullary main_c_7 (fun i => lit4 (S1024.rowMajor i)),
    StableHlo.nullary main_c_8 (constantI S1024 1 0#1),
    StableHlo.nullary main_c_9 (fun i => lit5 (S1024.rowMajor i)),
    StableHlo.nullary main_c_10 (constantI S1024 1 0#1),
    StableHlo.nullary main_c_11 (fun i => lit6 (S1024.rowMajor i)),
    StableHlo.nullary main_c_12 (constantI S1024 1 0#1),
    StableHlo.nullary main_c_13 (fun i => lit7 (S1024.rowMajor i)),
    StableHlo.nullary main_c_14 (constantI S1024 1 0#1),
    StableHlo.nullary main_c_15 (fun i => lit8 (S1024.rowMajor i)),
    StableHlo.nullary main_c_16 (constantI S1024 1 0#1),
    StableHlo.nullary main_c_17 (fun i => lit9 (S1024.rowMajor i)),
    StableHlo.nullary main_c_18 (constantI S1024 1 0#1),
    StableHlo.nullary main_c_19 (constantI S1024 1 0#1),
    StableHlo.nullary main_c_20 (constantI S1024 1 0#1),
    StableHlo.nullary main_c_21 (constantI S1024 1 0#1),
    StableHlo.nullary main_c_22 (constantI S1024 1 0#1),
    StableHlo.nullary main_c_23 (constantI S1024 1 0#1),
    StableHlo.nullary main_c_24 (constantI S1024 1 0#1),
    StableHlo.nullary main_c_25 (constantI S1024 1 0#1),
    StableHlo.nullary main_c_26 (constantI S1024 1 0#1),
    StableHlo.nullary main_c_27 (constantI S1024 1 0#1),
    StableHlo.nullary main_c_28 (constantI S1024 1 0#1),
    StableHlo.nullary main_c_29 (fun i => lit10 (S1024.rowMajor i)),
    StableHlo.nullary main_c_30 (constantI S1024 1 0#1),
    StableHlo.nullary main_c_31 (fun i => lit11 (S1024.rowMajor i)),
    StableHlo.nullary main_c_32 (constantI S1024 1 0#1),
    StableHlo.nullary main_c_33 (fun i => lit12 (S1024.rowMajor i)),
    StableHlo.nullary main_c_34 (constantI S1024 1 0#1),
    StableHlo.nullary main_c_35 (fun i => lit13 (S1024.rowMajor i)),
    StableHlo.nullary main_c_36 (constantI S1024 1 0#1),
    StableHlo.nullary main_c_37 (fun i => lit14 (S1024.rowMajor i)),
    StableHlo.nullary main_c_38 (constantI S1024 1 0#1),
    StableHlo.nullary main_c_39 (fun i => lit15 (S1024.rowMajor i)),
    StableHlo.nullary main_c_40 (constantI S1024 1 0#1),
    StableHlo.nullary main_c_41 (fun i => lit16 (S1024.rowMajor i)),
    StableHlo.nullary main_c_42 (constantI S1024 1 0#1),
    StableHlo.nullary main_c_43 (fun i => lit17 (S1024.rowMajor i)),
    StableHlo.nullary main_c_44 (constantI S1024 1 0#1),
    StableHlo.nullary main_c_45 (fun i => lit18 (S1024.rowMajor i)),
    StableHlo.nullary main_c_46 (constantI S1024 1 0#1),
    StableHlo.nullary main_c_47 (fun i => lit19 (S1024.rowMajor i)),
    StableHlo.nullary main_c_48 (constantI S1024 1 0#1),
    StableHlo.unary main_arg2 main_v0 (Host.cos : Vec F S10x512 .f32 → Vec F S10x512 .f32),
    StableHlo.unary main_arg2 main_v1 (Host.cos : Vec F S10x512 .f32 → Vec F S10x512 .f32),
    StableHlo.binary main_v0 main_v1 main_v2 ((fun a b => concatenate S10x1024 1 [⟨S10x512, a⟩, ⟨S10x512, b⟩] concatenates_S10x512_S10x512_S10x1024_d1) : Vec F S10x512 .f32 → Vec F S10x512 .f32 → Vec F S10x1024 .f32),
    StableHlo.unary main_arg2 main_v3 (Host.sin : Vec F S10x512 .f32 → Vec F S10x512 .f32),
    StableHlo.unary main_arg2 main_v4 (Host.sin : Vec F S10x512 .f32 → Vec F S10x512 .f32),
    StableHlo.unary main_v4 main_v5 (Host.negf : Vec F S10x512 .f32 → Vec F S10x512 .f32),
    StableHlo.binary main_v3 main_v5 main_v6 ((fun a b => concatenate S10x1024 1 [⟨S10x512, a⟩, ⟨S10x512, b⟩] concatenates_S10x512_S10x512_S10x1024_d1) : Vec F S10x512 .f32 → Vec F S10x512 .f32 → Vec F S10x1024 .f32),
    StableHlo.unary main_v2 main_v7 ((extractStridedSlice S1x1024 ![0, 0] · slices_S10x1024_S1x1024_0_0) : Vec F S10x1024 .f32 → Vec F S1x1024 .f32),
    StableHlo.reshape main_v7 main_v8 rfl shapeCasts_S1x1024_S1024,
    StableHlo.nullary main_c_49 (constantI S_ 32 1024#32),
    StableHlo.unary main_c_49 main_v9 (broadcastInDim S1024 ![] bcast_S_S1024 : Vec F S_ .i32 → Vec F S1024 .i32),
    StableHlo.binary main_c main_v9 main_v10 (addi : Vec F S1024 .i32 → Vec F S1024 .i32 → Vec F S1024 .i32),
    StableHlo.ternary main_c_0 main_v10 main_c main_v11 (select : Vec F S1024 .i1 → Vec F S1024 .i32 → Vec F S1024 .i32 → Vec F S1024 .i32),
    StableHlo.unary main_v11 main_v12 (broadcastInDim S1024x1 ![0] bcast_S1024_S1024x1_0 : Vec F S1024 .i32 → Vec F S1024x1 .i32),
    StableHlo.binary main_v8 main_v12 main_v13 ((fun x i => Host.gather gather_S1024_S1024x1_S1024_n_0_n_n_0_1_1 x i) : Vec F S1024 .f32 → Vec F S1024x1 .i32 → Vec F S1024 .f32),
    StableHlo.unary main_v2 main_v14 ((extractStridedSlice S1x1024 ![1, 0] · slices_S10x1024_S1x1024_1_0) : Vec F S10x1024 .f32 → Vec F S1x1024 .f32),
    StableHlo.reshape main_v14 main_v15 rfl shapeCasts_S1x1024_S1024,
    StableHlo.nullary main_c_50 (constantI S_ 32 1024#32),
    StableHlo.unary main_c_50 main_v16 (broadcastInDim S1024 ![] bcast_S_S1024 : Vec F S_ .i32 → Vec F S1024 .i32),
    StableHlo.binary main_c_1 main_v16 main_v17 (addi : Vec F S1024 .i32 → Vec F S1024 .i32 → Vec F S1024 .i32),
    StableHlo.ternary main_c_2 main_v17 main_c_1 main_v18 (select : Vec F S1024 .i1 → Vec F S1024 .i32 → Vec F S1024 .i32 → Vec F S1024 .i32),
    StableHlo.unary main_v18 main_v19 (broadcastInDim S1024x1 ![0] bcast_S1024_S1024x1_0 : Vec F S1024 .i32 → Vec F S1024x1 .i32),
    StableHlo.binary main_v15 main_v19 main_v20 ((fun x i => Host.gather gather_S1024_S1024x1_S1024_n_0_n_n_0_1_1 x i) : Vec F S1024 .f32 → Vec F S1024x1 .i32 → Vec F S1024 .f32),
    StableHlo.unary main_v2 main_v21 ((extractStridedSlice S1x1024 ![2, 0] · slices_S10x1024_S1x1024_2_0) : Vec F S10x1024 .f32 → Vec F S1x1024 .f32),
    StableHlo.reshape main_v21 main_v22 rfl shapeCasts_S1x1024_S1024,
    StableHlo.nullary main_c_51 (constantI S_ 32 1024#32),
    StableHlo.unary main_c_51 main_v23 (broadcastInDim S1024 ![] bcast_S_S1024 : Vec F S_ .i32 → Vec F S1024 .i32),
    StableHlo.binary main_c_3 main_v23 main_v24 (addi : Vec F S1024 .i32 → Vec F S1024 .i32 → Vec F S1024 .i32),
    StableHlo.ternary main_c_4 main_v24 main_c_3 main_v25 (select : Vec F S1024 .i1 → Vec F S1024 .i32 → Vec F S1024 .i32 → Vec F S1024 .i32),
    StableHlo.unary main_v25 main_v26 (broadcastInDim S1024x1 ![0] bcast_S1024_S1024x1_0 : Vec F S1024 .i32 → Vec F S1024x1 .i32),
    StableHlo.binary main_v22 main_v26 main_v27 ((fun x i => Host.gather gather_S1024_S1024x1_S1024_n_0_n_n_0_1_1 x i) : Vec F S1024 .f32 → Vec F S1024x1 .i32 → Vec F S1024 .f32),
    StableHlo.unary main_v2 main_v28 ((extractStridedSlice S1x1024 ![3, 0] · slices_S10x1024_S1x1024_3_0) : Vec F S10x1024 .f32 → Vec F S1x1024 .f32),
    StableHlo.reshape main_v28 main_v29 rfl shapeCasts_S1x1024_S1024,
    StableHlo.nullary main_c_52 (constantI S_ 32 1024#32),
    StableHlo.unary main_c_52 main_v30 (broadcastInDim S1024 ![] bcast_S_S1024 : Vec F S_ .i32 → Vec F S1024 .i32),
    StableHlo.binary main_c_5 main_v30 main_v31 (addi : Vec F S1024 .i32 → Vec F S1024 .i32 → Vec F S1024 .i32),
    StableHlo.ternary main_c_6 main_v31 main_c_5 main_v32 (select : Vec F S1024 .i1 → Vec F S1024 .i32 → Vec F S1024 .i32 → Vec F S1024 .i32),
    StableHlo.unary main_v32 main_v33 (broadcastInDim S1024x1 ![0] bcast_S1024_S1024x1_0 : Vec F S1024 .i32 → Vec F S1024x1 .i32),
    StableHlo.binary main_v29 main_v33 main_v34 ((fun x i => Host.gather gather_S1024_S1024x1_S1024_n_0_n_n_0_1_1 x i) : Vec F S1024 .f32 → Vec F S1024x1 .i32 → Vec F S1024 .f32),
    StableHlo.unary main_v2 main_v35 ((extractStridedSlice S1x1024 ![4, 0] · slices_S10x1024_S1x1024_4_0) : Vec F S10x1024 .f32 → Vec F S1x1024 .f32),
    StableHlo.reshape main_v35 main_v36 rfl shapeCasts_S1x1024_S1024,
    StableHlo.nullary main_c_53 (constantI S_ 32 1024#32),
    StableHlo.unary main_c_53 main_v37 (broadcastInDim S1024 ![] bcast_S_S1024 : Vec F S_ .i32 → Vec F S1024 .i32),
    StableHlo.binary main_c_7 main_v37 main_v38 (addi : Vec F S1024 .i32 → Vec F S1024 .i32 → Vec F S1024 .i32),
    StableHlo.ternary main_c_8 main_v38 main_c_7 main_v39 (select : Vec F S1024 .i1 → Vec F S1024 .i32 → Vec F S1024 .i32 → Vec F S1024 .i32),
    StableHlo.unary main_v39 main_v40 (broadcastInDim S1024x1 ![0] bcast_S1024_S1024x1_0 : Vec F S1024 .i32 → Vec F S1024x1 .i32),
    StableHlo.binary main_v36 main_v40 main_v41 ((fun x i => Host.gather gather_S1024_S1024x1_S1024_n_0_n_n_0_1_1 x i) : Vec F S1024 .f32 → Vec F S1024x1 .i32 → Vec F S1024 .f32),
    StableHlo.unary main_v2 main_v42 ((extractStridedSlice S1x1024 ![5, 0] · slices_S10x1024_S1x1024_5_0) : Vec F S10x1024 .f32 → Vec F S1x1024 .f32),
    StableHlo.reshape main_v42 main_v43 rfl shapeCasts_S1x1024_S1024,
    StableHlo.nullary main_c_54 (constantI S_ 32 1024#32),
    StableHlo.unary main_c_54 main_v44 (broadcastInDim S1024 ![] bcast_S_S1024 : Vec F S_ .i32 → Vec F S1024 .i32),
    StableHlo.binary main_c_9 main_v44 main_v45 (addi : Vec F S1024 .i32 → Vec F S1024 .i32 → Vec F S1024 .i32),
    StableHlo.ternary main_c_10 main_v45 main_c_9 main_v46 (select : Vec F S1024 .i1 → Vec F S1024 .i32 → Vec F S1024 .i32 → Vec F S1024 .i32),
    StableHlo.unary main_v46 main_v47 (broadcastInDim S1024x1 ![0] bcast_S1024_S1024x1_0 : Vec F S1024 .i32 → Vec F S1024x1 .i32),
    StableHlo.binary main_v43 main_v47 main_v48 ((fun x i => Host.gather gather_S1024_S1024x1_S1024_n_0_n_n_0_1_1 x i) : Vec F S1024 .f32 → Vec F S1024x1 .i32 → Vec F S1024 .f32),
    StableHlo.unary main_v2 main_v49 ((extractStridedSlice S1x1024 ![6, 0] · slices_S10x1024_S1x1024_6_0) : Vec F S10x1024 .f32 → Vec F S1x1024 .f32),
    StableHlo.reshape main_v49 main_v50 rfl shapeCasts_S1x1024_S1024,
    StableHlo.nullary main_c_55 (constantI S_ 32 1024#32),
    StableHlo.unary main_c_55 main_v51 (broadcastInDim S1024 ![] bcast_S_S1024 : Vec F S_ .i32 → Vec F S1024 .i32),
    StableHlo.binary main_c_11 main_v51 main_v52 (addi : Vec F S1024 .i32 → Vec F S1024 .i32 → Vec F S1024 .i32),
    StableHlo.ternary main_c_12 main_v52 main_c_11 main_v53 (select : Vec F S1024 .i1 → Vec F S1024 .i32 → Vec F S1024 .i32 → Vec F S1024 .i32),
    StableHlo.unary main_v53 main_v54 (broadcastInDim S1024x1 ![0] bcast_S1024_S1024x1_0 : Vec F S1024 .i32 → Vec F S1024x1 .i32),
    StableHlo.binary main_v50 main_v54 main_v55 ((fun x i => Host.gather gather_S1024_S1024x1_S1024_n_0_n_n_0_1_1 x i) : Vec F S1024 .f32 → Vec F S1024x1 .i32 → Vec F S1024 .f32),
    StableHlo.unary main_v2 main_v56 ((extractStridedSlice S1x1024 ![7, 0] · slices_S10x1024_S1x1024_7_0) : Vec F S10x1024 .f32 → Vec F S1x1024 .f32),
    StableHlo.reshape main_v56 main_v57 rfl shapeCasts_S1x1024_S1024,
    StableHlo.nullary main_c_56 (constantI S_ 32 1024#32),
    StableHlo.unary main_c_56 main_v58 (broadcastInDim S1024 ![] bcast_S_S1024 : Vec F S_ .i32 → Vec F S1024 .i32),
    StableHlo.binary main_c_13 main_v58 main_v59 (addi : Vec F S1024 .i32 → Vec F S1024 .i32 → Vec F S1024 .i32),
    StableHlo.ternary main_c_14 main_v59 main_c_13 main_v60 (select : Vec F S1024 .i1 → Vec F S1024 .i32 → Vec F S1024 .i32 → Vec F S1024 .i32),
    StableHlo.unary main_v60 main_v61 (broadcastInDim S1024x1 ![0] bcast_S1024_S1024x1_0 : Vec F S1024 .i32 → Vec F S1024x1 .i32),
    StableHlo.binary main_v57 main_v61 main_v62 ((fun x i => Host.gather gather_S1024_S1024x1_S1024_n_0_n_n_0_1_1 x i) : Vec F S1024 .f32 → Vec F S1024x1 .i32 → Vec F S1024 .f32),
    StableHlo.unary main_v2 main_v63 ((extractStridedSlice S1x1024 ![8, 0] · slices_S10x1024_S1x1024_8_0) : Vec F S10x1024 .f32 → Vec F S1x1024 .f32),
    StableHlo.reshape main_v63 main_v64 rfl shapeCasts_S1x1024_S1024,
    StableHlo.nullary main_c_57 (constantI S_ 32 1024#32),
    StableHlo.unary main_c_57 main_v65 (broadcastInDim S1024 ![] bcast_S_S1024 : Vec F S_ .i32 → Vec F S1024 .i32),
    StableHlo.binary main_c_15 main_v65 main_v66 (addi : Vec F S1024 .i32 → Vec F S1024 .i32 → Vec F S1024 .i32),
    StableHlo.ternary main_c_16 main_v66 main_c_15 main_v67 (select : Vec F S1024 .i1 → Vec F S1024 .i32 → Vec F S1024 .i32 → Vec F S1024 .i32),
    StableHlo.unary main_v67 main_v68 (broadcastInDim S1024x1 ![0] bcast_S1024_S1024x1_0 : Vec F S1024 .i32 → Vec F S1024x1 .i32),
    StableHlo.binary main_v64 main_v68 main_v69 ((fun x i => Host.gather gather_S1024_S1024x1_S1024_n_0_n_n_0_1_1 x i) : Vec F S1024 .f32 → Vec F S1024x1 .i32 → Vec F S1024 .f32),
    StableHlo.unary main_v2 main_v70 ((extractStridedSlice S1x1024 ![9, 0] · slices_S10x1024_S1x1024_9_0) : Vec F S10x1024 .f32 → Vec F S1x1024 .f32),
    StableHlo.reshape main_v70 main_v71 rfl shapeCasts_S1x1024_S1024,
    StableHlo.nullary main_c_58 (constantI S_ 32 1024#32),
    StableHlo.unary main_c_58 main_v72 (broadcastInDim S1024 ![] bcast_S_S1024 : Vec F S_ .i32 → Vec F S1024 .i32),
    StableHlo.binary main_c_17 main_v72 main_v73 (addi : Vec F S1024 .i32 → Vec F S1024 .i32 → Vec F S1024 .i32),
    StableHlo.ternary main_c_18 main_v73 main_c_17 main_v74 (select : Vec F S1024 .i1 → Vec F S1024 .i32 → Vec F S1024 .i32 → Vec F S1024 .i32),
    StableHlo.unary main_v74 main_v75 (broadcastInDim S1024x1 ![0] bcast_S1024_S1024x1_0 : Vec F S1024 .i32 → Vec F S1024x1 .i32),
    StableHlo.binary main_v71 main_v75 main_v76 ((fun x i => Host.gather gather_S1024_S1024x1_S1024_n_0_n_n_0_1_1 x i) : Vec F S1024 .f32 → Vec F S1024x1 .i32 → Vec F S1024 .f32),
    StableHlo.unary main_v13 main_v77 (broadcastInDim S1x1024 ![1] bcast_S1024_S1x1024_1 : Vec F S1024 .f32 → Vec F S1x1024 .f32),
    StableHlo.unary main_v20 main_v78 (broadcastInDim S1x1024 ![1] bcast_S1024_S1x1024_1 : Vec F S1024 .f32 → Vec F S1x1024 .f32),
    StableHlo.unary main_v27 main_v79 (broadcastInDim S1x1024 ![1] bcast_S1024_S1x1024_1 : Vec F S1024 .f32 → Vec F S1x1024 .f32),
    StableHlo.unary main_v34 main_v80 (broadcastInDim S1x1024 ![1] bcast_S1024_S1x1024_1 : Vec F S1024 .f32 → Vec F S1x1024 .f32),
    StableHlo.unary main_v41 main_v81 (broadcastInDim S1x1024 ![1] bcast_S1024_S1x1024_1 : Vec F S1024 .f32 → Vec F S1x1024 .f32),
    StableHlo.unary main_v48 main_v82 (broadcastInDim S1x1024 ![1] bcast_S1024_S1x1024_1 : Vec F S1024 .f32 → Vec F S1x1024 .f32),
    StableHlo.unary main_v55 main_v83 (broadcastInDim S1x1024 ![1] bcast_S1024_S1x1024_1 : Vec F S1024 .f32 → Vec F S1x1024 .f32),
    StableHlo.unary main_v62 main_v84 (broadcastInDim S1x1024 ![1] bcast_S1024_S1x1024_1 : Vec F S1024 .f32 → Vec F S1x1024 .f32),
    StableHlo.unary main_v69 main_v85 (broadcastInDim S1x1024 ![1] bcast_S1024_S1x1024_1 : Vec F S1024 .f32 → Vec F S1x1024 .f32),
    StableHlo.unary main_v76 main_v86 (broadcastInDim S1x1024 ![1] bcast_S1024_S1x1024_1 : Vec F S1024 .f32 → Vec F S1x1024 .f32),
    StableHlo.nary ![main_v77, main_v78, main_v79, main_v80, main_v81, main_v82, main_v83, main_v84, main_v85, main_v86] main_v87 (fun u => concatenate S10x1024 0 [⟨S1x1024, u 0⟩, ⟨S1x1024, u 1⟩, ⟨S1x1024, u 2⟩, ⟨S1x1024, u 3⟩, ⟨S1x1024, u 4⟩, ⟨S1x1024, u 5⟩, ⟨S1x1024, u 6⟩, ⟨S1x1024, u 7⟩, ⟨S1x1024, u 8⟩, ⟨S1x1024, u 9⟩] concatenates_S1x1024_S1x1024_S1x1024_S1x1024_S1x1024_S1x1024_S1x1024_S1x1024_S1x1024_S1x1024_S10x1024_d0),
    StableHlo.unary main_v6 main_v88 ((extractStridedSlice S1x1024 ![0, 0] · slices_S10x1024_S1x1024_0_0) : Vec F S10x1024 .f32 → Vec F S1x1024 .f32),
    StableHlo.reshape main_v88 main_v89 rfl shapeCasts_S1x1024_S1024,
    StableHlo.nullary main_c_59 (constantI S_ 32 1024#32),
    StableHlo.unary main_c_59 main_v90 (broadcastInDim S1024 ![] bcast_S_S1024 : Vec F S_ .i32 → Vec F S1024 .i32),
    StableHlo.binary main_c main_v90 main_v91 (addi : Vec F S1024 .i32 → Vec F S1024 .i32 → Vec F S1024 .i32),
    StableHlo.ternary main_c_19 main_v91 main_c main_v92 (select : Vec F S1024 .i1 → Vec F S1024 .i32 → Vec F S1024 .i32 → Vec F S1024 .i32),
    StableHlo.unary main_v92 main_v93 (broadcastInDim S1024x1 ![0] bcast_S1024_S1024x1_0 : Vec F S1024 .i32 → Vec F S1024x1 .i32),
    StableHlo.binary main_v89 main_v93 main_v94 ((fun x i => Host.gather gather_S1024_S1024x1_S1024_n_0_n_n_0_1_1 x i) : Vec F S1024 .f32 → Vec F S1024x1 .i32 → Vec F S1024 .f32),
    StableHlo.unary main_v6 main_v95 ((extractStridedSlice S1x1024 ![1, 0] · slices_S10x1024_S1x1024_1_0) : Vec F S10x1024 .f32 → Vec F S1x1024 .f32),
    StableHlo.reshape main_v95 main_v96 rfl shapeCasts_S1x1024_S1024,
    StableHlo.nullary main_c_60 (constantI S_ 32 1024#32),
    StableHlo.unary main_c_60 main_v97 (broadcastInDim S1024 ![] bcast_S_S1024 : Vec F S_ .i32 → Vec F S1024 .i32),
    StableHlo.binary main_c_1 main_v97 main_v98 (addi : Vec F S1024 .i32 → Vec F S1024 .i32 → Vec F S1024 .i32),
    StableHlo.ternary main_c_20 main_v98 main_c_1 main_v99 (select : Vec F S1024 .i1 → Vec F S1024 .i32 → Vec F S1024 .i32 → Vec F S1024 .i32),
    StableHlo.unary main_v99 main_v100 (broadcastInDim S1024x1 ![0] bcast_S1024_S1024x1_0 : Vec F S1024 .i32 → Vec F S1024x1 .i32),
    StableHlo.binary main_v96 main_v100 main_v101 ((fun x i => Host.gather gather_S1024_S1024x1_S1024_n_0_n_n_0_1_1 x i) : Vec F S1024 .f32 → Vec F S1024x1 .i32 → Vec F S1024 .f32),
    StableHlo.unary main_v6 main_v102 ((extractStridedSlice S1x1024 ![2, 0] · slices_S10x1024_S1x1024_2_0) : Vec F S10x1024 .f32 → Vec F S1x1024 .f32),
    StableHlo.reshape main_v102 main_v103 rfl shapeCasts_S1x1024_S1024,
    StableHlo.nullary main_c_61 (constantI S_ 32 1024#32),
    StableHlo.unary main_c_61 main_v104 (broadcastInDim S1024 ![] bcast_S_S1024 : Vec F S_ .i32 → Vec F S1024 .i32),
    StableHlo.binary main_c_3 main_v104 main_v105 (addi : Vec F S1024 .i32 → Vec F S1024 .i32 → Vec F S1024 .i32),
    StableHlo.ternary main_c_21 main_v105 main_c_3 main_v106 (select : Vec F S1024 .i1 → Vec F S1024 .i32 → Vec F S1024 .i32 → Vec F S1024 .i32),
    StableHlo.unary main_v106 main_v107 (broadcastInDim S1024x1 ![0] bcast_S1024_S1024x1_0 : Vec F S1024 .i32 → Vec F S1024x1 .i32),
    StableHlo.binary main_v103 main_v107 main_v108 ((fun x i => Host.gather gather_S1024_S1024x1_S1024_n_0_n_n_0_1_1 x i) : Vec F S1024 .f32 → Vec F S1024x1 .i32 → Vec F S1024 .f32),
    StableHlo.unary main_v6 main_v109 ((extractStridedSlice S1x1024 ![3, 0] · slices_S10x1024_S1x1024_3_0) : Vec F S10x1024 .f32 → Vec F S1x1024 .f32),
    StableHlo.reshape main_v109 main_v110 rfl shapeCasts_S1x1024_S1024,
    StableHlo.nullary main_c_62 (constantI S_ 32 1024#32),
    StableHlo.unary main_c_62 main_v111 (broadcastInDim S1024 ![] bcast_S_S1024 : Vec F S_ .i32 → Vec F S1024 .i32),
    StableHlo.binary main_c_5 main_v111 main_v112 (addi : Vec F S1024 .i32 → Vec F S1024 .i32 → Vec F S1024 .i32),
    StableHlo.ternary main_c_22 main_v112 main_c_5 main_v113 (select : Vec F S1024 .i1 → Vec F S1024 .i32 → Vec F S1024 .i32 → Vec F S1024 .i32),
    StableHlo.unary main_v113 main_v114 (broadcastInDim S1024x1 ![0] bcast_S1024_S1024x1_0 : Vec F S1024 .i32 → Vec F S1024x1 .i32),
    StableHlo.binary main_v110 main_v114 main_v115 ((fun x i => Host.gather gather_S1024_S1024x1_S1024_n_0_n_n_0_1_1 x i) : Vec F S1024 .f32 → Vec F S1024x1 .i32 → Vec F S1024 .f32),
    StableHlo.unary main_v6 main_v116 ((extractStridedSlice S1x1024 ![4, 0] · slices_S10x1024_S1x1024_4_0) : Vec F S10x1024 .f32 → Vec F S1x1024 .f32),
    StableHlo.reshape main_v116 main_v117 rfl shapeCasts_S1x1024_S1024,
    StableHlo.nullary main_c_63 (constantI S_ 32 1024#32),
    StableHlo.unary main_c_63 main_v118 (broadcastInDim S1024 ![] bcast_S_S1024 : Vec F S_ .i32 → Vec F S1024 .i32),
    StableHlo.binary main_c_7 main_v118 main_v119 (addi : Vec F S1024 .i32 → Vec F S1024 .i32 → Vec F S1024 .i32),
    StableHlo.ternary main_c_23 main_v119 main_c_7 main_v120 (select : Vec F S1024 .i1 → Vec F S1024 .i32 → Vec F S1024 .i32 → Vec F S1024 .i32),
    StableHlo.unary main_v120 main_v121 (broadcastInDim S1024x1 ![0] bcast_S1024_S1024x1_0 : Vec F S1024 .i32 → Vec F S1024x1 .i32),
    StableHlo.binary main_v117 main_v121 main_v122 ((fun x i => Host.gather gather_S1024_S1024x1_S1024_n_0_n_n_0_1_1 x i) : Vec F S1024 .f32 → Vec F S1024x1 .i32 → Vec F S1024 .f32),
    StableHlo.unary main_v6 main_v123 ((extractStridedSlice S1x1024 ![5, 0] · slices_S10x1024_S1x1024_5_0) : Vec F S10x1024 .f32 → Vec F S1x1024 .f32),
    StableHlo.reshape main_v123 main_v124 rfl shapeCasts_S1x1024_S1024,
    StableHlo.nullary main_c_64 (constantI S_ 32 1024#32),
    StableHlo.unary main_c_64 main_v125 (broadcastInDim S1024 ![] bcast_S_S1024 : Vec F S_ .i32 → Vec F S1024 .i32),
    StableHlo.binary main_c_9 main_v125 main_v126 (addi : Vec F S1024 .i32 → Vec F S1024 .i32 → Vec F S1024 .i32),
    StableHlo.ternary main_c_24 main_v126 main_c_9 main_v127 (select : Vec F S1024 .i1 → Vec F S1024 .i32 → Vec F S1024 .i32 → Vec F S1024 .i32),
    StableHlo.unary main_v127 main_v128 (broadcastInDim S1024x1 ![0] bcast_S1024_S1024x1_0 : Vec F S1024 .i32 → Vec F S1024x1 .i32),
    StableHlo.binary main_v124 main_v128 main_v129 ((fun x i => Host.gather gather_S1024_S1024x1_S1024_n_0_n_n_0_1_1 x i) : Vec F S1024 .f32 → Vec F S1024x1 .i32 → Vec F S1024 .f32),
    StableHlo.unary main_v6 main_v130 ((extractStridedSlice S1x1024 ![6, 0] · slices_S10x1024_S1x1024_6_0) : Vec F S10x1024 .f32 → Vec F S1x1024 .f32),
    StableHlo.reshape main_v130 main_v131 rfl shapeCasts_S1x1024_S1024,
    StableHlo.nullary main_c_65 (constantI S_ 32 1024#32),
    StableHlo.unary main_c_65 main_v132 (broadcastInDim S1024 ![] bcast_S_S1024 : Vec F S_ .i32 → Vec F S1024 .i32),
    StableHlo.binary main_c_11 main_v132 main_v133 (addi : Vec F S1024 .i32 → Vec F S1024 .i32 → Vec F S1024 .i32),
    StableHlo.ternary main_c_25 main_v133 main_c_11 main_v134 (select : Vec F S1024 .i1 → Vec F S1024 .i32 → Vec F S1024 .i32 → Vec F S1024 .i32),
    StableHlo.unary main_v134 main_v135 (broadcastInDim S1024x1 ![0] bcast_S1024_S1024x1_0 : Vec F S1024 .i32 → Vec F S1024x1 .i32),
    StableHlo.binary main_v131 main_v135 main_v136 ((fun x i => Host.gather gather_S1024_S1024x1_S1024_n_0_n_n_0_1_1 x i) : Vec F S1024 .f32 → Vec F S1024x1 .i32 → Vec F S1024 .f32),
    StableHlo.unary main_v6 main_v137 ((extractStridedSlice S1x1024 ![7, 0] · slices_S10x1024_S1x1024_7_0) : Vec F S10x1024 .f32 → Vec F S1x1024 .f32),
    StableHlo.reshape main_v137 main_v138 rfl shapeCasts_S1x1024_S1024,
    StableHlo.nullary main_c_66 (constantI S_ 32 1024#32),
    StableHlo.unary main_c_66 main_v139 (broadcastInDim S1024 ![] bcast_S_S1024 : Vec F S_ .i32 → Vec F S1024 .i32),
    StableHlo.binary main_c_13 main_v139 main_v140 (addi : Vec F S1024 .i32 → Vec F S1024 .i32 → Vec F S1024 .i32),
    StableHlo.ternary main_c_26 main_v140 main_c_13 main_v141 (select : Vec F S1024 .i1 → Vec F S1024 .i32 → Vec F S1024 .i32 → Vec F S1024 .i32),
    StableHlo.unary main_v141 main_v142 (broadcastInDim S1024x1 ![0] bcast_S1024_S1024x1_0 : Vec F S1024 .i32 → Vec F S1024x1 .i32),
    StableHlo.binary main_v138 main_v142 main_v143 ((fun x i => Host.gather gather_S1024_S1024x1_S1024_n_0_n_n_0_1_1 x i) : Vec F S1024 .f32 → Vec F S1024x1 .i32 → Vec F S1024 .f32),
    StableHlo.unary main_v6 main_v144 ((extractStridedSlice S1x1024 ![8, 0] · slices_S10x1024_S1x1024_8_0) : Vec F S10x1024 .f32 → Vec F S1x1024 .f32),
    StableHlo.reshape main_v144 main_v145 rfl shapeCasts_S1x1024_S1024,
    StableHlo.nullary main_c_67 (constantI S_ 32 1024#32),
    StableHlo.unary main_c_67 main_v146 (broadcastInDim S1024 ![] bcast_S_S1024 : Vec F S_ .i32 → Vec F S1024 .i32),
    StableHlo.binary main_c_15 main_v146 main_v147 (addi : Vec F S1024 .i32 → Vec F S1024 .i32 → Vec F S1024 .i32),
    StableHlo.ternary main_c_27 main_v147 main_c_15 main_v148 (select : Vec F S1024 .i1 → Vec F S1024 .i32 → Vec F S1024 .i32 → Vec F S1024 .i32),
    StableHlo.unary main_v148 main_v149 (broadcastInDim S1024x1 ![0] bcast_S1024_S1024x1_0 : Vec F S1024 .i32 → Vec F S1024x1 .i32),
    StableHlo.binary main_v145 main_v149 main_v150 ((fun x i => Host.gather gather_S1024_S1024x1_S1024_n_0_n_n_0_1_1 x i) : Vec F S1024 .f32 → Vec F S1024x1 .i32 → Vec F S1024 .f32),
    StableHlo.unary main_v6 main_v151 ((extractStridedSlice S1x1024 ![9, 0] · slices_S10x1024_S1x1024_9_0) : Vec F S10x1024 .f32 → Vec F S1x1024 .f32),
    StableHlo.reshape main_v151 main_v152 rfl shapeCasts_S1x1024_S1024,
    StableHlo.nullary main_c_68 (constantI S_ 32 1024#32),
    StableHlo.unary main_c_68 main_v153 (broadcastInDim S1024 ![] bcast_S_S1024 : Vec F S_ .i32 → Vec F S1024 .i32),
    StableHlo.binary main_c_17 main_v153 main_v154 (addi : Vec F S1024 .i32 → Vec F S1024 .i32 → Vec F S1024 .i32),
    StableHlo.ternary main_c_28 main_v154 main_c_17 main_v155 (select : Vec F S1024 .i1 → Vec F S1024 .i32 → Vec F S1024 .i32 → Vec F S1024 .i32),
    StableHlo.unary main_v155 main_v156 (broadcastInDim S1024x1 ![0] bcast_S1024_S1024x1_0 : Vec F S1024 .i32 → Vec F S1024x1 .i32),
    StableHlo.binary main_v152 main_v156 main_v157 ((fun x i => Host.gather gather_S1024_S1024x1_S1024_n_0_n_n_0_1_1 x i) : Vec F S1024 .f32 → Vec F S1024x1 .i32 → Vec F S1024 .f32),
    StableHlo.unary main_v94 main_v158 (broadcastInDim S1x1024 ![1] bcast_S1024_S1x1024_1 : Vec F S1024 .f32 → Vec F S1x1024 .f32),
    StableHlo.unary main_v101 main_v159 (broadcastInDim S1x1024 ![1] bcast_S1024_S1x1024_1 : Vec F S1024 .f32 → Vec F S1x1024 .f32),
    StableHlo.unary main_v108 main_v160 (broadcastInDim S1x1024 ![1] bcast_S1024_S1x1024_1 : Vec F S1024 .f32 → Vec F S1x1024 .f32),
    StableHlo.unary main_v115 main_v161 (broadcastInDim S1x1024 ![1] bcast_S1024_S1x1024_1 : Vec F S1024 .f32 → Vec F S1x1024 .f32),
    StableHlo.unary main_v122 main_v162 (broadcastInDim S1x1024 ![1] bcast_S1024_S1x1024_1 : Vec F S1024 .f32 → Vec F S1x1024 .f32),
    StableHlo.unary main_v129 main_v163 (broadcastInDim S1x1024 ![1] bcast_S1024_S1x1024_1 : Vec F S1024 .f32 → Vec F S1x1024 .f32),
    StableHlo.unary main_v136 main_v164 (broadcastInDim S1x1024 ![1] bcast_S1024_S1x1024_1 : Vec F S1024 .f32 → Vec F S1x1024 .f32),
    StableHlo.unary main_v143 main_v165 (broadcastInDim S1x1024 ![1] bcast_S1024_S1x1024_1 : Vec F S1024 .f32 → Vec F S1x1024 .f32),
    StableHlo.unary main_v150 main_v166 (broadcastInDim S1x1024 ![1] bcast_S1024_S1x1024_1 : Vec F S1024 .f32 → Vec F S1x1024 .f32),
    StableHlo.unary main_v157 main_v167 (broadcastInDim S1x1024 ![1] bcast_S1024_S1x1024_1 : Vec F S1024 .f32 → Vec F S1x1024 .f32),
    StableHlo.nary ![main_v158, main_v159, main_v160, main_v161, main_v162, main_v163, main_v164, main_v165, main_v166, main_v167] main_v168 (fun u => concatenate S10x1024 0 [⟨S1x1024, u 0⟩, ⟨S1x1024, u 1⟩, ⟨S1x1024, u 2⟩, ⟨S1x1024, u 3⟩, ⟨S1x1024, u 4⟩, ⟨S1x1024, u 5⟩, ⟨S1x1024, u 6⟩, ⟨S1x1024, u 7⟩, ⟨S1x1024, u 8⟩, ⟨S1x1024, u 9⟩] concatenates_S1x1024_S1x1024_S1x1024_S1x1024_S1x1024_S1x1024_S1x1024_S1x1024_S1x1024_S1x1024_S10x1024_d0) ]

abbrev opsGate : List (HloOp τ sig (Elt F)) :=
  [ StableHlo.binary main_arg0 main_arg3 main_v169 ((fun l r => Host.dotGeneral dot_S8192x1024_S1024x3072_S8192x3072_1_0_0_1_n_n none l r) : Vec F S8192x1024 .f32 → Vec F S1024x3072 .f32 → Vec F S8192x3072 .f32),
    StableHlo.unary main_v169 main_v170 ((extractStridedSlice S8192x1024 ![0, 0] · slices_S8192x3072_S8192x1024_0_0) : Vec F S8192x3072 .f32 → Vec F S8192x1024 .f32),
    StableHlo.unary main_v169 main_v171 ((extractStridedSlice S8192x1024 ![0, 1024] · slices_S8192x3072_S8192x1024_0_1024) : Vec F S8192x3072 .f32 → Vec F S8192x1024 .f32),
    StableHlo.unary main_v169 main_v172 ((extractStridedSlice S8192x1024 ![0, 2048] · slices_S8192x3072_S8192x1024_0_2048) : Vec F S8192x3072 .f32 → Vec F S8192x1024 .f32),
    StableHlo.binary main_arg1 main_arg4 main_v173 ((fun l r => Host.dotGeneral dot_S8192x1024_S1024x1024_S8192x1024_1_0_0_1_n_n none l r) : Vec F S8192x1024 .f32 → Vec F S1024x1024 .f32 → Vec F S8192x1024 .f32),
    StableHlo.binary main_v171 main_v173 main_v174 (addf : Vec F S8192x1024 .f32 → Vec F S8192x1024 .f32 → Vec F S8192x1024 .f32),
    StableHlo.unary main_arg6 main_v175 (broadcastInDim S1x1024 ![1] bcast_S1024_S1x1024_1 : Vec F S1024 .f32 → Vec F S1x1024 .f32),
    StableHlo.unary main_v175 main_v176 (broadcastInDim S8192x1024 ![0, 1] bcast_S1x1024_S8192x1024_0_1 : Vec F S1x1024 .f32 → Vec F S8192x1024 .f32),
    StableHlo.binary main_v174 main_v176 main_v177 (addf : Vec F S8192x1024 .f32 → Vec F S8192x1024 .f32 → Vec F S8192x1024 .f32),
    StableHlo.unary main_v177 main_v178 (Host.negf : Vec F S8192x1024 .f32 → Vec F S8192x1024 .f32),
    StableHlo.unary main_v178 main_v179 (Host.exp : Vec F S8192x1024 .f32 → Vec F S8192x1024 .f32),
    StableHlo.nullary main_cst (constant S_ .f32 0x3F800000#32),
    StableHlo.unary main_cst main_v180 (broadcastInDim S8192x1024 ![] bcast_S_S8192x1024 : Vec F S_ .f32 → Vec F S8192x1024 .f32),
    StableHlo.binary main_v180 main_v179 main_v181 (addf : Vec F S8192x1024 .f32 → Vec F S8192x1024 .f32 → Vec F S8192x1024 .f32),
    StableHlo.nullary main_cst_69 (constant S_ .f32 0x3F800000#32),
    StableHlo.unary main_cst_69 main_v182 (broadcastInDim S8192x1024 ![] bcast_S_S8192x1024 : Vec F S_ .f32 → Vec F S8192x1024 .f32),
    StableHlo.binary main_v182 main_v181 main_v183 (Host.divf : Vec F S8192x1024 .f32 → Vec F S8192x1024 .f32 → Vec F S8192x1024 .f32),
    StableHlo.binary main_arg1 main_arg5 main_v184 ((fun l r => Host.dotGeneral dot_S8192x1024_S1024x1024_S8192x1024_1_0_0_1_n_n none l r) : Vec F S8192x1024 .f32 → Vec F S1024x1024 .f32 → Vec F S8192x1024 .f32),
    StableHlo.binary main_v172 main_v184 main_v185 (addf : Vec F S8192x1024 .f32 → Vec F S8192x1024 .f32 → Vec F S8192x1024 .f32),
    StableHlo.unary main_arg7 main_v186 (broadcastInDim S1x1024 ![1] bcast_S1024_S1x1024_1 : Vec F S1024 .f32 → Vec F S1x1024 .f32),
    StableHlo.unary main_v186 main_v187 (broadcastInDim S8192x1024 ![0, 1] bcast_S1x1024_S8192x1024_0_1 : Vec F S1x1024 .f32 → Vec F S8192x1024 .f32),
    StableHlo.binary main_v185 main_v187 main_v188 (addf : Vec F S8192x1024 .f32 → Vec F S8192x1024 .f32 → Vec F S8192x1024 .f32),
    StableHlo.unary main_v188 main_v189 (Host.negf : Vec F S8192x1024 .f32 → Vec F S8192x1024 .f32),
    StableHlo.unary main_v189 main_v190 (Host.exp : Vec F S8192x1024 .f32 → Vec F S8192x1024 .f32),
    StableHlo.nullary main_cst_70 (constant S_ .f32 0x3F800000#32),
    StableHlo.unary main_cst_70 main_v191 (broadcastInDim S8192x1024 ![] bcast_S_S8192x1024 : Vec F S_ .f32 → Vec F S8192x1024 .f32),
    StableHlo.binary main_v191 main_v190 main_v192 (addf : Vec F S8192x1024 .f32 → Vec F S8192x1024 .f32 → Vec F S8192x1024 .f32),
    StableHlo.nullary main_cst_71 (constant S_ .f32 0x3F800000#32),
    StableHlo.unary main_cst_71 main_v193 (broadcastInDim S8192x1024 ![] bcast_S_S8192x1024 : Vec F S_ .f32 → Vec F S8192x1024 .f32),
    StableHlo.binary main_v193 main_v192 main_v194 (Host.divf : Vec F S8192x1024 .f32 → Vec F S8192x1024 .f32 → Vec F S8192x1024 .f32) ]

abbrev opsSt0 : List (HloOp τ sig (Elt F)) :=
  [ StableHlo.unary main_v87 main_v195 ((extractStridedSlice S1x1024 ![0, 0] · slices_S10x1024_S1x1024_0_0) : Vec F S10x1024 .f32 → Vec F S1x1024 .f32),
    StableHlo.reshape main_v195 main_v196 rfl shapeCasts_S1x1024_S1024,
    StableHlo.unary main_v196 main_v197 (broadcastInDim S1x1024 ![1] bcast_S1024_S1x1024_1 : Vec F S1024 .f32 → Vec F S1x1024 .f32),
    StableHlo.unary main_v197 main_v198 (broadcastInDim S8192x1024 ![0, 1] bcast_S1x1024_S8192x1024_0_1 : Vec F S1x1024 .f32 → Vec F S8192x1024 .f32),
    StableHlo.binary main_arg1 main_v198 main_v199 (mulf : Vec F S8192x1024 .f32 → Vec F S8192x1024 .f32 → Vec F S8192x1024 .f32),
    StableHlo.unary main_v168 main_v200 ((extractStridedSlice S1x1024 ![0, 0] · slices_S10x1024_S1x1024_0_0) : Vec F S10x1024 .f32 → Vec F S1x1024 .f32),
    StableHlo.reshape main_v200 main_v201 rfl shapeCasts_S1x1024_S1024,
    StableHlo.unary main_v201 main_v202 (broadcastInDim S1x1024 ![1] bcast_S1024_S1x1024_1 : Vec F S1024 .f32 → Vec F S1x1024 .f32),
    StableHlo.unary main_v202 main_v203 (broadcastInDim S8192x1024 ![0, 1] bcast_S1x1024_S8192x1024_0_1 : Vec F S1x1024 .f32 → Vec F S8192x1024 .f32),
    StableHlo.binary main_arg1 main_v203 main_v204 (mulf : Vec F S8192x1024 .f32 → Vec F S8192x1024 .f32 → Vec F S8192x1024 .f32),
    StableHlo.nullary main_c_72 (constantI S_ 32 1024#32),
    StableHlo.unary main_c_72 main_v205 (broadcastInDim S1024 ![] bcast_S_S1024 : Vec F S_ .i32 → Vec F S1024 .i32),
    StableHlo.binary main_c_29 main_v205 main_v206 (addi : Vec F S1024 .i32 → Vec F S1024 .i32 → Vec F S1024 .i32),
    StableHlo.ternary main_c_30 main_v206 main_c_29 main_v207 (select : Vec F S1024 .i1 → Vec F S1024 .i32 → Vec F S1024 .i32 → Vec F S1024 .i32),
    StableHlo.unary main_v207 main_v208 (broadcastInDim S1024x1 ![0] bcast_S1024_S1024x1_0 : Vec F S1024 .i32 → Vec F S1024x1 .i32),
    StableHlo.binary main_v204 main_v208 main_v209 ((fun x i => Host.gather gather_S8192x1024_S1024x1_S8192x1024_0_1_n_n_1_1_81921 x i) : Vec F S8192x1024 .f32 → Vec F S1024x1 .i32 → Vec F S8192x1024 .f32),
    StableHlo.binary main_v199 main_v209 main_v210 (addf : Vec F S8192x1024 .f32 → Vec F S8192x1024 .f32 → Vec F S8192x1024 .f32) ]

abbrev opsSt1 : List (HloOp τ sig (Elt F)) :=
  [ StableHlo.unary main_v87 main_v211 ((extractStridedSlice S1x1024 ![1, 0] · slices_S10x1024_S1x1024_1_0) : Vec F S10x1024 .f32 → Vec F S1x1024 .f32),
    StableHlo.reshape main_v211 main_v212 rfl shapeCasts_S1x1024_S1024,
    StableHlo.unary main_v212 main_v213 (broadcastInDim S1x1024 ![1] bcast_S1024_S1x1024_1 : Vec F S1024 .f32 → Vec F S1x1024 .f32),
    StableHlo.unary main_v213 main_v214 (broadcastInDim S8192x1024 ![0, 1] bcast_S1x1024_S8192x1024_0_1 : Vec F S1x1024 .f32 → Vec F S8192x1024 .f32),
    StableHlo.binary main_v210 main_v214 main_v215 (mulf : Vec F S8192x1024 .f32 → Vec F S8192x1024 .f32 → Vec F S8192x1024 .f32),
    StableHlo.unary main_v168 main_v216 ((extractStridedSlice S1x1024 ![1, 0] · slices_S10x1024_S1x1024_1_0) : Vec F S10x1024 .f32 → Vec F S1x1024 .f32),
    StableHlo.reshape main_v216 main_v217 rfl shapeCasts_S1x1024_S1024,
    StableHlo.unary main_v217 main_v218 (broadcastInDim S1x1024 ![1] bcast_S1024_S1x1024_1 : Vec F S1024 .f32 → Vec F S1x1024 .f32),
    StableHlo.unary main_v218 main_v219 (broadcastInDim S8192x1024 ![0, 1] bcast_S1x1024_S8192x1024_0_1 : Vec F S1x1024 .f32 → Vec F S8192x1024 .f32),
    StableHlo.binary main_v210 main_v219 main_v220 (mulf : Vec F S8192x1024 .f32 → Vec F S8192x1024 .f32 → Vec F S8192x1024 .f32),
    StableHlo.nullary main_c_73 (constantI S_ 32 1024#32),
    StableHlo.unary main_c_73 main_v221 (broadcastInDim S1024 ![] bcast_S_S1024 : Vec F S_ .i32 → Vec F S1024 .i32),
    StableHlo.binary main_c_31 main_v221 main_v222 (addi : Vec F S1024 .i32 → Vec F S1024 .i32 → Vec F S1024 .i32),
    StableHlo.ternary main_c_32 main_v222 main_c_31 main_v223 (select : Vec F S1024 .i1 → Vec F S1024 .i32 → Vec F S1024 .i32 → Vec F S1024 .i32),
    StableHlo.unary main_v223 main_v224 (broadcastInDim S1024x1 ![0] bcast_S1024_S1024x1_0 : Vec F S1024 .i32 → Vec F S1024x1 .i32),
    StableHlo.binary main_v220 main_v224 main_v225 ((fun x i => Host.gather gather_S8192x1024_S1024x1_S8192x1024_0_1_n_n_1_1_81921 x i) : Vec F S8192x1024 .f32 → Vec F S1024x1 .i32 → Vec F S8192x1024 .f32),
    StableHlo.binary main_v215 main_v225 main_v226 (addf : Vec F S8192x1024 .f32 → Vec F S8192x1024 .f32 → Vec F S8192x1024 .f32) ]

abbrev opsSt2 : List (HloOp τ sig (Elt F)) :=
  [ StableHlo.unary main_v87 main_v227 ((extractStridedSlice S1x1024 ![2, 0] · slices_S10x1024_S1x1024_2_0) : Vec F S10x1024 .f32 → Vec F S1x1024 .f32),
    StableHlo.reshape main_v227 main_v228 rfl shapeCasts_S1x1024_S1024,
    StableHlo.unary main_v228 main_v229 (broadcastInDim S1x1024 ![1] bcast_S1024_S1x1024_1 : Vec F S1024 .f32 → Vec F S1x1024 .f32),
    StableHlo.unary main_v229 main_v230 (broadcastInDim S8192x1024 ![0, 1] bcast_S1x1024_S8192x1024_0_1 : Vec F S1x1024 .f32 → Vec F S8192x1024 .f32),
    StableHlo.binary main_v226 main_v230 main_v231 (mulf : Vec F S8192x1024 .f32 → Vec F S8192x1024 .f32 → Vec F S8192x1024 .f32),
    StableHlo.unary main_v168 main_v232 ((extractStridedSlice S1x1024 ![2, 0] · slices_S10x1024_S1x1024_2_0) : Vec F S10x1024 .f32 → Vec F S1x1024 .f32),
    StableHlo.reshape main_v232 main_v233 rfl shapeCasts_S1x1024_S1024,
    StableHlo.unary main_v233 main_v234 (broadcastInDim S1x1024 ![1] bcast_S1024_S1x1024_1 : Vec F S1024 .f32 → Vec F S1x1024 .f32),
    StableHlo.unary main_v234 main_v235 (broadcastInDim S8192x1024 ![0, 1] bcast_S1x1024_S8192x1024_0_1 : Vec F S1x1024 .f32 → Vec F S8192x1024 .f32),
    StableHlo.binary main_v226 main_v235 main_v236 (mulf : Vec F S8192x1024 .f32 → Vec F S8192x1024 .f32 → Vec F S8192x1024 .f32),
    StableHlo.nullary main_c_74 (constantI S_ 32 1024#32),
    StableHlo.unary main_c_74 main_v237 (broadcastInDim S1024 ![] bcast_S_S1024 : Vec F S_ .i32 → Vec F S1024 .i32),
    StableHlo.binary main_c_33 main_v237 main_v238 (addi : Vec F S1024 .i32 → Vec F S1024 .i32 → Vec F S1024 .i32),
    StableHlo.ternary main_c_34 main_v238 main_c_33 main_v239 (select : Vec F S1024 .i1 → Vec F S1024 .i32 → Vec F S1024 .i32 → Vec F S1024 .i32),
    StableHlo.unary main_v239 main_v240 (broadcastInDim S1024x1 ![0] bcast_S1024_S1024x1_0 : Vec F S1024 .i32 → Vec F S1024x1 .i32),
    StableHlo.binary main_v236 main_v240 main_v241 ((fun x i => Host.gather gather_S8192x1024_S1024x1_S8192x1024_0_1_n_n_1_1_81921 x i) : Vec F S8192x1024 .f32 → Vec F S1024x1 .i32 → Vec F S8192x1024 .f32),
    StableHlo.binary main_v231 main_v241 main_v242 (addf : Vec F S8192x1024 .f32 → Vec F S8192x1024 .f32 → Vec F S8192x1024 .f32) ]

abbrev opsSt3 : List (HloOp τ sig (Elt F)) :=
  [ StableHlo.unary main_v87 main_v243 ((extractStridedSlice S1x1024 ![3, 0] · slices_S10x1024_S1x1024_3_0) : Vec F S10x1024 .f32 → Vec F S1x1024 .f32),
    StableHlo.reshape main_v243 main_v244 rfl shapeCasts_S1x1024_S1024,
    StableHlo.unary main_v244 main_v245 (broadcastInDim S1x1024 ![1] bcast_S1024_S1x1024_1 : Vec F S1024 .f32 → Vec F S1x1024 .f32),
    StableHlo.unary main_v245 main_v246 (broadcastInDim S8192x1024 ![0, 1] bcast_S1x1024_S8192x1024_0_1 : Vec F S1x1024 .f32 → Vec F S8192x1024 .f32),
    StableHlo.binary main_v242 main_v246 main_v247 (mulf : Vec F S8192x1024 .f32 → Vec F S8192x1024 .f32 → Vec F S8192x1024 .f32),
    StableHlo.unary main_v168 main_v248 ((extractStridedSlice S1x1024 ![3, 0] · slices_S10x1024_S1x1024_3_0) : Vec F S10x1024 .f32 → Vec F S1x1024 .f32),
    StableHlo.reshape main_v248 main_v249 rfl shapeCasts_S1x1024_S1024,
    StableHlo.unary main_v249 main_v250 (broadcastInDim S1x1024 ![1] bcast_S1024_S1x1024_1 : Vec F S1024 .f32 → Vec F S1x1024 .f32),
    StableHlo.unary main_v250 main_v251 (broadcastInDim S8192x1024 ![0, 1] bcast_S1x1024_S8192x1024_0_1 : Vec F S1x1024 .f32 → Vec F S8192x1024 .f32),
    StableHlo.binary main_v242 main_v251 main_v252 (mulf : Vec F S8192x1024 .f32 → Vec F S8192x1024 .f32 → Vec F S8192x1024 .f32),
    StableHlo.nullary main_c_75 (constantI S_ 32 1024#32),
    StableHlo.unary main_c_75 main_v253 (broadcastInDim S1024 ![] bcast_S_S1024 : Vec F S_ .i32 → Vec F S1024 .i32),
    StableHlo.binary main_c_35 main_v253 main_v254 (addi : Vec F S1024 .i32 → Vec F S1024 .i32 → Vec F S1024 .i32),
    StableHlo.ternary main_c_36 main_v254 main_c_35 main_v255 (select : Vec F S1024 .i1 → Vec F S1024 .i32 → Vec F S1024 .i32 → Vec F S1024 .i32),
    StableHlo.unary main_v255 main_v256 (broadcastInDim S1024x1 ![0] bcast_S1024_S1024x1_0 : Vec F S1024 .i32 → Vec F S1024x1 .i32),
    StableHlo.binary main_v252 main_v256 main_v257 ((fun x i => Host.gather gather_S8192x1024_S1024x1_S8192x1024_0_1_n_n_1_1_81921 x i) : Vec F S8192x1024 .f32 → Vec F S1024x1 .i32 → Vec F S8192x1024 .f32),
    StableHlo.binary main_v247 main_v257 main_v258 (addf : Vec F S8192x1024 .f32 → Vec F S8192x1024 .f32 → Vec F S8192x1024 .f32) ]

abbrev opsSt4 : List (HloOp τ sig (Elt F)) :=
  [ StableHlo.unary main_v87 main_v259 ((extractStridedSlice S1x1024 ![4, 0] · slices_S10x1024_S1x1024_4_0) : Vec F S10x1024 .f32 → Vec F S1x1024 .f32),
    StableHlo.reshape main_v259 main_v260 rfl shapeCasts_S1x1024_S1024,
    StableHlo.unary main_v260 main_v261 (broadcastInDim S1x1024 ![1] bcast_S1024_S1x1024_1 : Vec F S1024 .f32 → Vec F S1x1024 .f32),
    StableHlo.unary main_v261 main_v262 (broadcastInDim S8192x1024 ![0, 1] bcast_S1x1024_S8192x1024_0_1 : Vec F S1x1024 .f32 → Vec F S8192x1024 .f32),
    StableHlo.binary main_v258 main_v262 main_v263 (mulf : Vec F S8192x1024 .f32 → Vec F S8192x1024 .f32 → Vec F S8192x1024 .f32),
    StableHlo.unary main_v168 main_v264 ((extractStridedSlice S1x1024 ![4, 0] · slices_S10x1024_S1x1024_4_0) : Vec F S10x1024 .f32 → Vec F S1x1024 .f32),
    StableHlo.reshape main_v264 main_v265 rfl shapeCasts_S1x1024_S1024,
    StableHlo.unary main_v265 main_v266 (broadcastInDim S1x1024 ![1] bcast_S1024_S1x1024_1 : Vec F S1024 .f32 → Vec F S1x1024 .f32),
    StableHlo.unary main_v266 main_v267 (broadcastInDim S8192x1024 ![0, 1] bcast_S1x1024_S8192x1024_0_1 : Vec F S1x1024 .f32 → Vec F S8192x1024 .f32),
    StableHlo.binary main_v258 main_v267 main_v268 (mulf : Vec F S8192x1024 .f32 → Vec F S8192x1024 .f32 → Vec F S8192x1024 .f32),
    StableHlo.nullary main_c_76 (constantI S_ 32 1024#32),
    StableHlo.unary main_c_76 main_v269 (broadcastInDim S1024 ![] bcast_S_S1024 : Vec F S_ .i32 → Vec F S1024 .i32),
    StableHlo.binary main_c_37 main_v269 main_v270 (addi : Vec F S1024 .i32 → Vec F S1024 .i32 → Vec F S1024 .i32),
    StableHlo.ternary main_c_38 main_v270 main_c_37 main_v271 (select : Vec F S1024 .i1 → Vec F S1024 .i32 → Vec F S1024 .i32 → Vec F S1024 .i32),
    StableHlo.unary main_v271 main_v272 (broadcastInDim S1024x1 ![0] bcast_S1024_S1024x1_0 : Vec F S1024 .i32 → Vec F S1024x1 .i32),
    StableHlo.binary main_v268 main_v272 main_v273 ((fun x i => Host.gather gather_S8192x1024_S1024x1_S8192x1024_0_1_n_n_1_1_81921 x i) : Vec F S8192x1024 .f32 → Vec F S1024x1 .i32 → Vec F S8192x1024 .f32),
    StableHlo.binary main_v263 main_v273 main_v274 (addf : Vec F S8192x1024 .f32 → Vec F S8192x1024 .f32 → Vec F S8192x1024 .f32) ]

abbrev opsSt5 : List (HloOp τ sig (Elt F)) :=
  [ StableHlo.unary main_v87 main_v275 ((extractStridedSlice S1x1024 ![5, 0] · slices_S10x1024_S1x1024_5_0) : Vec F S10x1024 .f32 → Vec F S1x1024 .f32),
    StableHlo.reshape main_v275 main_v276 rfl shapeCasts_S1x1024_S1024,
    StableHlo.unary main_v276 main_v277 (broadcastInDim S1x1024 ![1] bcast_S1024_S1x1024_1 : Vec F S1024 .f32 → Vec F S1x1024 .f32),
    StableHlo.unary main_v277 main_v278 (broadcastInDim S8192x1024 ![0, 1] bcast_S1x1024_S8192x1024_0_1 : Vec F S1x1024 .f32 → Vec F S8192x1024 .f32),
    StableHlo.binary main_v274 main_v278 main_v279 (mulf : Vec F S8192x1024 .f32 → Vec F S8192x1024 .f32 → Vec F S8192x1024 .f32),
    StableHlo.unary main_v168 main_v280 ((extractStridedSlice S1x1024 ![5, 0] · slices_S10x1024_S1x1024_5_0) : Vec F S10x1024 .f32 → Vec F S1x1024 .f32),
    StableHlo.reshape main_v280 main_v281 rfl shapeCasts_S1x1024_S1024,
    StableHlo.unary main_v281 main_v282 (broadcastInDim S1x1024 ![1] bcast_S1024_S1x1024_1 : Vec F S1024 .f32 → Vec F S1x1024 .f32),
    StableHlo.unary main_v282 main_v283 (broadcastInDim S8192x1024 ![0, 1] bcast_S1x1024_S8192x1024_0_1 : Vec F S1x1024 .f32 → Vec F S8192x1024 .f32),
    StableHlo.binary main_v274 main_v283 main_v284 (mulf : Vec F S8192x1024 .f32 → Vec F S8192x1024 .f32 → Vec F S8192x1024 .f32),
    StableHlo.nullary main_c_77 (constantI S_ 32 1024#32),
    StableHlo.unary main_c_77 main_v285 (broadcastInDim S1024 ![] bcast_S_S1024 : Vec F S_ .i32 → Vec F S1024 .i32),
    StableHlo.binary main_c_39 main_v285 main_v286 (addi : Vec F S1024 .i32 → Vec F S1024 .i32 → Vec F S1024 .i32),
    StableHlo.ternary main_c_40 main_v286 main_c_39 main_v287 (select : Vec F S1024 .i1 → Vec F S1024 .i32 → Vec F S1024 .i32 → Vec F S1024 .i32),
    StableHlo.unary main_v287 main_v288 (broadcastInDim S1024x1 ![0] bcast_S1024_S1024x1_0 : Vec F S1024 .i32 → Vec F S1024x1 .i32),
    StableHlo.binary main_v284 main_v288 main_v289 ((fun x i => Host.gather gather_S8192x1024_S1024x1_S8192x1024_0_1_n_n_1_1_81921 x i) : Vec F S8192x1024 .f32 → Vec F S1024x1 .i32 → Vec F S8192x1024 .f32),
    StableHlo.binary main_v279 main_v289 main_v290 (addf : Vec F S8192x1024 .f32 → Vec F S8192x1024 .f32 → Vec F S8192x1024 .f32) ]

abbrev opsSt6 : List (HloOp τ sig (Elt F)) :=
  [ StableHlo.unary main_v87 main_v291 ((extractStridedSlice S1x1024 ![6, 0] · slices_S10x1024_S1x1024_6_0) : Vec F S10x1024 .f32 → Vec F S1x1024 .f32),
    StableHlo.reshape main_v291 main_v292 rfl shapeCasts_S1x1024_S1024,
    StableHlo.unary main_v292 main_v293 (broadcastInDim S1x1024 ![1] bcast_S1024_S1x1024_1 : Vec F S1024 .f32 → Vec F S1x1024 .f32),
    StableHlo.unary main_v293 main_v294 (broadcastInDim S8192x1024 ![0, 1] bcast_S1x1024_S8192x1024_0_1 : Vec F S1x1024 .f32 → Vec F S8192x1024 .f32),
    StableHlo.binary main_v290 main_v294 main_v295 (mulf : Vec F S8192x1024 .f32 → Vec F S8192x1024 .f32 → Vec F S8192x1024 .f32),
    StableHlo.unary main_v168 main_v296 ((extractStridedSlice S1x1024 ![6, 0] · slices_S10x1024_S1x1024_6_0) : Vec F S10x1024 .f32 → Vec F S1x1024 .f32),
    StableHlo.reshape main_v296 main_v297 rfl shapeCasts_S1x1024_S1024,
    StableHlo.unary main_v297 main_v298 (broadcastInDim S1x1024 ![1] bcast_S1024_S1x1024_1 : Vec F S1024 .f32 → Vec F S1x1024 .f32),
    StableHlo.unary main_v298 main_v299 (broadcastInDim S8192x1024 ![0, 1] bcast_S1x1024_S8192x1024_0_1 : Vec F S1x1024 .f32 → Vec F S8192x1024 .f32),
    StableHlo.binary main_v290 main_v299 main_v300 (mulf : Vec F S8192x1024 .f32 → Vec F S8192x1024 .f32 → Vec F S8192x1024 .f32),
    StableHlo.nullary main_c_78 (constantI S_ 32 1024#32),
    StableHlo.unary main_c_78 main_v301 (broadcastInDim S1024 ![] bcast_S_S1024 : Vec F S_ .i32 → Vec F S1024 .i32),
    StableHlo.binary main_c_41 main_v301 main_v302 (addi : Vec F S1024 .i32 → Vec F S1024 .i32 → Vec F S1024 .i32),
    StableHlo.ternary main_c_42 main_v302 main_c_41 main_v303 (select : Vec F S1024 .i1 → Vec F S1024 .i32 → Vec F S1024 .i32 → Vec F S1024 .i32),
    StableHlo.unary main_v303 main_v304 (broadcastInDim S1024x1 ![0] bcast_S1024_S1024x1_0 : Vec F S1024 .i32 → Vec F S1024x1 .i32),
    StableHlo.binary main_v300 main_v304 main_v305 ((fun x i => Host.gather gather_S8192x1024_S1024x1_S8192x1024_0_1_n_n_1_1_81921 x i) : Vec F S8192x1024 .f32 → Vec F S1024x1 .i32 → Vec F S8192x1024 .f32),
    StableHlo.binary main_v295 main_v305 main_v306 (addf : Vec F S8192x1024 .f32 → Vec F S8192x1024 .f32 → Vec F S8192x1024 .f32) ]

abbrev opsSt7 : List (HloOp τ sig (Elt F)) :=
  [ StableHlo.unary main_v87 main_v307 ((extractStridedSlice S1x1024 ![7, 0] · slices_S10x1024_S1x1024_7_0) : Vec F S10x1024 .f32 → Vec F S1x1024 .f32),
    StableHlo.reshape main_v307 main_v308 rfl shapeCasts_S1x1024_S1024,
    StableHlo.unary main_v308 main_v309 (broadcastInDim S1x1024 ![1] bcast_S1024_S1x1024_1 : Vec F S1024 .f32 → Vec F S1x1024 .f32),
    StableHlo.unary main_v309 main_v310 (broadcastInDim S8192x1024 ![0, 1] bcast_S1x1024_S8192x1024_0_1 : Vec F S1x1024 .f32 → Vec F S8192x1024 .f32),
    StableHlo.binary main_v306 main_v310 main_v311 (mulf : Vec F S8192x1024 .f32 → Vec F S8192x1024 .f32 → Vec F S8192x1024 .f32),
    StableHlo.unary main_v168 main_v312 ((extractStridedSlice S1x1024 ![7, 0] · slices_S10x1024_S1x1024_7_0) : Vec F S10x1024 .f32 → Vec F S1x1024 .f32),
    StableHlo.reshape main_v312 main_v313 rfl shapeCasts_S1x1024_S1024,
    StableHlo.unary main_v313 main_v314 (broadcastInDim S1x1024 ![1] bcast_S1024_S1x1024_1 : Vec F S1024 .f32 → Vec F S1x1024 .f32),
    StableHlo.unary main_v314 main_v315 (broadcastInDim S8192x1024 ![0, 1] bcast_S1x1024_S8192x1024_0_1 : Vec F S1x1024 .f32 → Vec F S8192x1024 .f32),
    StableHlo.binary main_v306 main_v315 main_v316 (mulf : Vec F S8192x1024 .f32 → Vec F S8192x1024 .f32 → Vec F S8192x1024 .f32),
    StableHlo.nullary main_c_79 (constantI S_ 32 1024#32),
    StableHlo.unary main_c_79 main_v317 (broadcastInDim S1024 ![] bcast_S_S1024 : Vec F S_ .i32 → Vec F S1024 .i32),
    StableHlo.binary main_c_43 main_v317 main_v318 (addi : Vec F S1024 .i32 → Vec F S1024 .i32 → Vec F S1024 .i32),
    StableHlo.ternary main_c_44 main_v318 main_c_43 main_v319 (select : Vec F S1024 .i1 → Vec F S1024 .i32 → Vec F S1024 .i32 → Vec F S1024 .i32),
    StableHlo.unary main_v319 main_v320 (broadcastInDim S1024x1 ![0] bcast_S1024_S1024x1_0 : Vec F S1024 .i32 → Vec F S1024x1 .i32),
    StableHlo.binary main_v316 main_v320 main_v321 ((fun x i => Host.gather gather_S8192x1024_S1024x1_S8192x1024_0_1_n_n_1_1_81921 x i) : Vec F S8192x1024 .f32 → Vec F S1024x1 .i32 → Vec F S8192x1024 .f32),
    StableHlo.binary main_v311 main_v321 main_v322 (addf : Vec F S8192x1024 .f32 → Vec F S8192x1024 .f32 → Vec F S8192x1024 .f32) ]

abbrev opsSt8 : List (HloOp τ sig (Elt F)) :=
  [ StableHlo.unary main_v87 main_v323 ((extractStridedSlice S1x1024 ![8, 0] · slices_S10x1024_S1x1024_8_0) : Vec F S10x1024 .f32 → Vec F S1x1024 .f32),
    StableHlo.reshape main_v323 main_v324 rfl shapeCasts_S1x1024_S1024,
    StableHlo.unary main_v324 main_v325 (broadcastInDim S1x1024 ![1] bcast_S1024_S1x1024_1 : Vec F S1024 .f32 → Vec F S1x1024 .f32),
    StableHlo.unary main_v325 main_v326 (broadcastInDim S8192x1024 ![0, 1] bcast_S1x1024_S8192x1024_0_1 : Vec F S1x1024 .f32 → Vec F S8192x1024 .f32),
    StableHlo.binary main_v322 main_v326 main_v327 (mulf : Vec F S8192x1024 .f32 → Vec F S8192x1024 .f32 → Vec F S8192x1024 .f32),
    StableHlo.unary main_v168 main_v328 ((extractStridedSlice S1x1024 ![8, 0] · slices_S10x1024_S1x1024_8_0) : Vec F S10x1024 .f32 → Vec F S1x1024 .f32),
    StableHlo.reshape main_v328 main_v329 rfl shapeCasts_S1x1024_S1024,
    StableHlo.unary main_v329 main_v330 (broadcastInDim S1x1024 ![1] bcast_S1024_S1x1024_1 : Vec F S1024 .f32 → Vec F S1x1024 .f32),
    StableHlo.unary main_v330 main_v331 (broadcastInDim S8192x1024 ![0, 1] bcast_S1x1024_S8192x1024_0_1 : Vec F S1x1024 .f32 → Vec F S8192x1024 .f32),
    StableHlo.binary main_v322 main_v331 main_v332 (mulf : Vec F S8192x1024 .f32 → Vec F S8192x1024 .f32 → Vec F S8192x1024 .f32),
    StableHlo.nullary main_c_80 (constantI S_ 32 1024#32),
    StableHlo.unary main_c_80 main_v333 (broadcastInDim S1024 ![] bcast_S_S1024 : Vec F S_ .i32 → Vec F S1024 .i32),
    StableHlo.binary main_c_45 main_v333 main_v334 (addi : Vec F S1024 .i32 → Vec F S1024 .i32 → Vec F S1024 .i32),
    StableHlo.ternary main_c_46 main_v334 main_c_45 main_v335 (select : Vec F S1024 .i1 → Vec F S1024 .i32 → Vec F S1024 .i32 → Vec F S1024 .i32),
    StableHlo.unary main_v335 main_v336 (broadcastInDim S1024x1 ![0] bcast_S1024_S1024x1_0 : Vec F S1024 .i32 → Vec F S1024x1 .i32),
    StableHlo.binary main_v332 main_v336 main_v337 ((fun x i => Host.gather gather_S8192x1024_S1024x1_S8192x1024_0_1_n_n_1_1_81921 x i) : Vec F S8192x1024 .f32 → Vec F S1024x1 .i32 → Vec F S8192x1024 .f32),
    StableHlo.binary main_v327 main_v337 main_v338 (addf : Vec F S8192x1024 .f32 → Vec F S8192x1024 .f32 → Vec F S8192x1024 .f32) ]

abbrev opsSt9 : List (HloOp τ sig (Elt F)) :=
  [ StableHlo.unary main_v87 main_v339 ((extractStridedSlice S1x1024 ![9, 0] · slices_S10x1024_S1x1024_9_0) : Vec F S10x1024 .f32 → Vec F S1x1024 .f32),
    StableHlo.reshape main_v339 main_v340 rfl shapeCasts_S1x1024_S1024,
    StableHlo.unary main_v340 main_v341 (broadcastInDim S1x1024 ![1] bcast_S1024_S1x1024_1 : Vec F S1024 .f32 → Vec F S1x1024 .f32),
    StableHlo.unary main_v341 main_v342 (broadcastInDim S8192x1024 ![0, 1] bcast_S1x1024_S8192x1024_0_1 : Vec F S1x1024 .f32 → Vec F S8192x1024 .f32),
    StableHlo.binary main_v338 main_v342 main_v343 (mulf : Vec F S8192x1024 .f32 → Vec F S8192x1024 .f32 → Vec F S8192x1024 .f32),
    StableHlo.unary main_v168 main_v344 ((extractStridedSlice S1x1024 ![9, 0] · slices_S10x1024_S1x1024_9_0) : Vec F S10x1024 .f32 → Vec F S1x1024 .f32),
    StableHlo.reshape main_v344 main_v345 rfl shapeCasts_S1x1024_S1024,
    StableHlo.unary main_v345 main_v346 (broadcastInDim S1x1024 ![1] bcast_S1024_S1x1024_1 : Vec F S1024 .f32 → Vec F S1x1024 .f32),
    StableHlo.unary main_v346 main_v347 (broadcastInDim S8192x1024 ![0, 1] bcast_S1x1024_S8192x1024_0_1 : Vec F S1x1024 .f32 → Vec F S8192x1024 .f32),
    StableHlo.binary main_v338 main_v347 main_v348 (mulf : Vec F S8192x1024 .f32 → Vec F S8192x1024 .f32 → Vec F S8192x1024 .f32),
    StableHlo.nullary main_c_81 (constantI S_ 32 1024#32),
    StableHlo.unary main_c_81 main_v349 (broadcastInDim S1024 ![] bcast_S_S1024 : Vec F S_ .i32 → Vec F S1024 .i32),
    StableHlo.binary main_c_47 main_v349 main_v350 (addi : Vec F S1024 .i32 → Vec F S1024 .i32 → Vec F S1024 .i32),
    StableHlo.ternary main_c_48 main_v350 main_c_47 main_v351 (select : Vec F S1024 .i1 → Vec F S1024 .i32 → Vec F S1024 .i32 → Vec F S1024 .i32),
    StableHlo.unary main_v351 main_v352 (broadcastInDim S1024x1 ![0] bcast_S1024_S1024x1_0 : Vec F S1024 .i32 → Vec F S1024x1 .i32),
    StableHlo.binary main_v348 main_v352 main_v353 ((fun x i => Host.gather gather_S8192x1024_S1024x1_S8192x1024_0_1_n_n_1_1_81921 x i) : Vec F S8192x1024 .f32 → Vec F S1024x1 .i32 → Vec F S8192x1024 .f32),
    StableHlo.binary main_v343 main_v353 main_v354 (addf : Vec F S8192x1024 .f32 → Vec F S8192x1024 .f32 → Vec F S8192x1024 .f32) ]

abbrev opsTail : List (HloOp τ sig (Elt F)) :=
  [ StableHlo.binary main_v183 main_v354 main_v355 (mulf : Vec F S8192x1024 .f32 → Vec F S8192x1024 .f32 → Vec F S8192x1024 .f32),
    StableHlo.binary main_v355 main_v170 main_v356 (addf : Vec F S8192x1024 .f32 → Vec F S8192x1024 .f32 → Vec F S8192x1024 .f32),
    StableHlo.unary main_v356 main_v357 (Host.sign : Vec F S8192x1024 .f32 → Vec F S8192x1024 .f32),
    StableHlo.unary main_v356 main_v358 (Host.absf : Vec F S8192x1024 .f32 → Vec F S8192x1024 .f32),
    StableHlo.nullary main_cst_82 (constant S_ .f32 0x3A83126F#32),
    StableHlo.unary main_cst_82 main_v359 (broadcastInDim S8192x1024 ![] bcast_S_S8192x1024 : Vec F S_ .f32 → Vec F S8192x1024 .f32),
    StableHlo.binary main_v358 main_v359 main_v360 (addf : Vec F S8192x1024 .f32 → Vec F S8192x1024 .f32 → Vec F S8192x1024 .f32),
    StableHlo.unary main_arg8 main_v361 (broadcastInDim S1x1024 ![1] bcast_S1024_S1x1024_1 : Vec F S1024 .f32 → Vec F S1x1024 .f32),
    StableHlo.unary main_v361 main_v362 (broadcastInDim S8192x1024 ![0, 1] bcast_S1x1024_S8192x1024_0_1 : Vec F S1x1024 .f32 → Vec F S8192x1024 .f32),
    StableHlo.binary main_v360 main_v362 main_v363 (addf : Vec F S8192x1024 .f32 → Vec F S8192x1024 .f32 → Vec F S8192x1024 .f32),
    StableHlo.TRef.nullary main_call0.cst (constant S_ .f32 0x00000000#32),
    StableHlo.TRef.unary main_call0.cst main_call0.v0 (broadcastInDim S8192x1024 ![] bcast_S_S8192x1024),
    StableHlo.TRef.binary (.of main_v363) main_call0.v0 main_call0.v1 maximumf,
    StableHlo.binary main_v357 main_v364 main_v365 (mulf : Vec F S8192x1024 .f32 → Vec F S8192x1024 .f32 → Vec F S8192x1024 .f32),
    StableHlo.binary main_v194 main_arg1 main_v366 (mulf : Vec F S8192x1024 .f32 → Vec F S8192x1024 .f32 → Vec F S8192x1024 .f32),
    StableHlo.nullary main_cst_83 (constant S_ .f32 0x3F800000#32),
    StableHlo.unary main_cst_83 main_v367 (broadcastInDim S8192x1024 ![] bcast_S_S8192x1024 : Vec F S_ .f32 → Vec F S8192x1024 .f32),
    StableHlo.binary main_v367 main_v194 main_v368 (subf : Vec F S8192x1024 .f32 → Vec F S8192x1024 .f32 → Vec F S8192x1024 .f32),
    StableHlo.binary main_v368 main_v365 main_v369 (mulf : Vec F S8192x1024 .f32 → Vec F S8192x1024 .f32 → Vec F S8192x1024 .f32),
    StableHlo.binary main_v366 main_v369 main_v370 (addf : Vec F S8192x1024 .f32 → Vec F S8192x1024 .f32 → Vec F S8192x1024 .f32) ]

abbrev ops : List (HloOp τ sig (Elt F)) :=
  opsTab ++ opsGate ++ opsSt0 ++ opsSt1 ++ opsSt2 ++ opsSt3 ++ opsSt4 ++ opsSt5 ++ opsSt6 ++ opsSt7 ++ opsSt8 ++ opsSt9 ++ opsTail

def win (k : ℕ) : List (HloOp τ sig (Elt F)) := (ops.drop (60 * k)).take 60

abbrev win7 : List (HloOp τ sig (Elt F)) :=
  [ StableHlo.binary main_v332 main_v336 main_v337 ((fun x i => Host.gather gather_S8192x1024_S1024x1_S8192x1024_0_1_n_n_1_1_81921 x i) : Vec F S8192x1024 .f32 → Vec F S1024x1 .i32 → Vec F S8192x1024 .f32),
    StableHlo.binary main_v327 main_v337 main_v338 (addf : Vec F S8192x1024 .f32 → Vec F S8192x1024 .f32 → Vec F S8192x1024 .f32),
    StableHlo.unary main_v87 main_v339 ((extractStridedSlice S1x1024 ![9, 0] · slices_S10x1024_S1x1024_9_0) : Vec F S10x1024 .f32 → Vec F S1x1024 .f32),
    StableHlo.reshape main_v339 main_v340 rfl shapeCasts_S1x1024_S1024,
    StableHlo.unary main_v340 main_v341 (broadcastInDim S1x1024 ![1] bcast_S1024_S1x1024_1 : Vec F S1024 .f32 → Vec F S1x1024 .f32),
    StableHlo.unary main_v341 main_v342 (broadcastInDim S8192x1024 ![0, 1] bcast_S1x1024_S8192x1024_0_1 : Vec F S1x1024 .f32 → Vec F S8192x1024 .f32),
    StableHlo.binary main_v338 main_v342 main_v343 (mulf : Vec F S8192x1024 .f32 → Vec F S8192x1024 .f32 → Vec F S8192x1024 .f32),
    StableHlo.unary main_v168 main_v344 ((extractStridedSlice S1x1024 ![9, 0] · slices_S10x1024_S1x1024_9_0) : Vec F S10x1024 .f32 → Vec F S1x1024 .f32),
    StableHlo.reshape main_v344 main_v345 rfl shapeCasts_S1x1024_S1024,
    StableHlo.unary main_v345 main_v346 (broadcastInDim S1x1024 ![1] bcast_S1024_S1x1024_1 : Vec F S1024 .f32 → Vec F S1x1024 .f32),
    StableHlo.unary main_v346 main_v347 (broadcastInDim S8192x1024 ![0, 1] bcast_S1x1024_S8192x1024_0_1 : Vec F S1x1024 .f32 → Vec F S8192x1024 .f32),
    StableHlo.binary main_v338 main_v347 main_v348 (mulf : Vec F S8192x1024 .f32 → Vec F S8192x1024 .f32 → Vec F S8192x1024 .f32),
    StableHlo.nullary main_c_81 (constantI S_ 32 1024#32),
    StableHlo.unary main_c_81 main_v349 (broadcastInDim S1024 ![] bcast_S_S1024 : Vec F S_ .i32 → Vec F S1024 .i32),
    StableHlo.binary main_c_47 main_v349 main_v350 (addi : Vec F S1024 .i32 → Vec F S1024 .i32 → Vec F S1024 .i32),
    StableHlo.ternary main_c_48 main_v350 main_c_47 main_v351 (select : Vec F S1024 .i1 → Vec F S1024 .i32 → Vec F S1024 .i32 → Vec F S1024 .i32),
    StableHlo.unary main_v351 main_v352 (broadcastInDim S1024x1 ![0] bcast_S1024_S1024x1_0 : Vec F S1024 .i32 → Vec F S1024x1 .i32),
    StableHlo.binary main_v348 main_v352 main_v353 ((fun x i => Host.gather gather_S8192x1024_S1024x1_S8192x1024_0_1_n_n_1_1_81921 x i) : Vec F S8192x1024 .f32 → Vec F S1024x1 .i32 → Vec F S8192x1024 .f32),
    StableHlo.binary main_v343 main_v353 main_v354 (addf : Vec F S8192x1024 .f32 → Vec F S8192x1024 .f32 → Vec F S8192x1024 .f32),
    StableHlo.binary main_v183 main_v354 main_v355 (mulf : Vec F S8192x1024 .f32 → Vec F S8192x1024 .f32 → Vec F S8192x1024 .f32),
    StableHlo.binary main_v355 main_v170 main_v356 (addf : Vec F S8192x1024 .f32 → Vec F S8192x1024 .f32 → Vec F S8192x1024 .f32),
    StableHlo.unary main_v356 main_v357 (Host.sign : Vec F S8192x1024 .f32 → Vec F S8192x1024 .f32),
    StableHlo.unary main_v356 main_v358 (Host.absf : Vec F S8192x1024 .f32 → Vec F S8192x1024 .f32),
    StableHlo.nullary main_cst_82 (constant S_ .f32 0x3A83126F#32),
    StableHlo.unary main_cst_82 main_v359 (broadcastInDim S8192x1024 ![] bcast_S_S8192x1024 : Vec F S_ .f32 → Vec F S8192x1024 .f32),
    StableHlo.binary main_v358 main_v359 main_v360 (addf : Vec F S8192x1024 .f32 → Vec F S8192x1024 .f32 → Vec F S8192x1024 .f32),
    StableHlo.unary main_arg8 main_v361 (broadcastInDim S1x1024 ![1] bcast_S1024_S1x1024_1 : Vec F S1024 .f32 → Vec F S1x1024 .f32),
    StableHlo.unary main_v361 main_v362 (broadcastInDim S8192x1024 ![0, 1] bcast_S1x1024_S8192x1024_0_1 : Vec F S1x1024 .f32 → Vec F S8192x1024 .f32),
    StableHlo.binary main_v360 main_v362 main_v363 (addf : Vec F S8192x1024 .f32 → Vec F S8192x1024 .f32 → Vec F S8192x1024 .f32),
    StableHlo.TRef.nullary main_call0.cst (constant S_ .f32 0x00000000#32),
    StableHlo.TRef.unary main_call0.cst main_call0.v0 (broadcastInDim S8192x1024 ![] bcast_S_S8192x1024),
    StableHlo.TRef.binary (.of main_v363) main_call0.v0 main_call0.v1 maximumf,
    StableHlo.binary main_v357 main_v364 main_v365 (mulf : Vec F S8192x1024 .f32 → Vec F S8192x1024 .f32 → Vec F S8192x1024 .f32),
    StableHlo.binary main_v194 main_arg1 main_v366 (mulf : Vec F S8192x1024 .f32 → Vec F S8192x1024 .f32 → Vec F S8192x1024 .f32),
    StableHlo.nullary main_cst_83 (constant S_ .f32 0x3F800000#32),
    StableHlo.unary main_cst_83 main_v367 (broadcastInDim S8192x1024 ![] bcast_S_S8192x1024 : Vec F S_ .f32 → Vec F S8192x1024 .f32),
    StableHlo.binary main_v367 main_v194 main_v368 (subf : Vec F S8192x1024 .f32 → Vec F S8192x1024 .f32 → Vec F S8192x1024 .f32),
    StableHlo.binary main_v368 main_v365 main_v369 (mulf : Vec F S8192x1024 .f32 → Vec F S8192x1024 .f32 → Vec F S8192x1024 .f32),
    StableHlo.binary main_v366 main_v369 main_v370 (addf : Vec F S8192x1024 .f32 → Vec F S8192x1024 .f32 → Vec F S8192x1024 .f32) ]

theorem main_part0_eq (c : Dev nD) : main_part0 (F := F) c = StableHlo.seq (win (F := F) 0) := by chain_rfl
theorem main_part1_eq (c : Dev nD) : main_part1 (F := F) c = StableHlo.seq (win (F := F) 1) := by chain_rfl
theorem main_part2_eq (c : Dev nD) : main_part2 (F := F) c = StableHlo.seq (win (F := F) 2) := by chain_rfl
theorem main_part3_eq (c : Dev nD) : main_part3 (F := F) c = StableHlo.seq (win (F := F) 3) := by chain_rfl
theorem main_part4_eq (c : Dev nD) : main_part4 (F := F) c = StableHlo.seq (win (F := F) 4) := by chain_rfl
theorem main_part5_eq (c : Dev nD) : main_part5 (F := F) c = StableHlo.seq (win (F := F) 5) := by chain_rfl
theorem main_part6_eq (c : Dev nD) : main_part6 (F := F) c = StableHlo.seq (win (F := F) 6) := by chain_rfl

set_option maxRecDepth 1024 in
theorem main_part7_eq (c : Dev nD) : main_part7 (F := F) c = StableHlo.seq (win7 (F := F)) := by
  simp only [main_part7, fn_relu.body, StableHlo.seq, bind_assoc, pure_bind]

theorem wins_eq : (win 0 ++ (win 1 ++ (win 2 ++ (win 3 ++ (win 4 ++ (win 5 ++ (win 6 ++ win7)))))) : List (HloOp τ sig (Elt F))) = ops := by
  chain_rfl

theorem main_eq (c : Dev nD) : main (F := F) c = StableHlo.seq (ops (F := F)) := by
  rw [← wins_eq]
  simp only [StableHlo.seq_append, ← main_part0_eq c, ← main_part1_eq c, ← main_part2_eq c, ← main_part3_eq c,
    ← main_part4_eq c, ← main_part5_eq c, ← main_part6_eq c, ← main_part7_eq c]
  rfl

end Cert.ReferenceIdeal.Run

end
-- ==== Proof.RRun.lean ====
import proofs.«426905_j7799660610191_3_alg».proof.Proof.ROps

noncomputable section

namespace Cert.ReferenceIdeal.Run

open Cert.ReferenceIdeal Cert.ReferenceIdeal.Gen Idealize.ShloMosaic Idealize.ShloMosaic.TcCoe Idealize.SL.Sem

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

-- Three facts that hold of every operation of the program, each stated over the whole list.
theorem ops_sub : (ops : List (HloOp τ sig (Elt F))).Forall fun op => op.bufs ⊆ StableHlo.tcRefs τ sig := by
  simp only [ops, List.forall_append, List.Forall]
  repeat' apply And.intro
  all_goals with_reducible first
    | exact StableHlo.nullary_bufs_sub .. | exact StableHlo.unary_bufs_sub .. | exact StableHlo.binary_bufs_sub ..
    | exact StableHlo.ternary_bufs_sub .. | exact StableHlo.reshape_bufs_sub .. | exact StableHlo.nary_bufs_sub ..

theorem ops_fresh : (ops : List (HloOp τ sig (Elt F))).Forall fun op => op.fresh = ∅ := by
  simp only [ops, List.forall_append, List.Forall]; repeat' constructor

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (ops (F := F)) (StableHlo.launchContents m d) (Proc.devRef .tc b) :=
  StableHlo.run_seq scopedRefs_eq scopedSems_eq defs main (fun _ => ops) main_eq (fun _ => ops_sub) m ρ
    (fun _ => List.forall_iff_forall_mem.mp ops_fresh)

abbrev IsArg (b : Ref sig .tc) : Prop := b.idx.val < 9

theorem IsArg.ne_of_not {b y : Ref sig .tc} (hb : IsArg b) (hy : ¬ IsArg y) : b ≠ y := fun h => hy (h ▸ hb)

theorem ops_keeps {b : Ref sig .tc} (hb : IsArg b) :
    (ops : List (HloOp τ sig (Elt F))).Forall fun op => Proc.devRef (τ := τ) .tc b ∉ op.writes := by
  simp only [ops, List.forall_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (hb.ne_of_not (by decide))

theorem kept {b : Ref sig .tc} (hb : IsArg b) (m : (ℓ : Loc nD τ sig) → Buf (Elt F) ℓ) (d : Dev nD) :
    StableHlo.after (ops (F := F)) (StableHlo.launchContents m d) (Proc.devRef .tc b) = m ((d.tc : Thread nD τ).loc b) :=
  StableHlo.after_of_forall_not_mem (b := Proc.devRef .tc b) _ _ (List.forall_iff_forall_mem.mp (ops_keeps hb))

variable (m : (ℓ : Loc nD τ sig) → Buf (Elt F) ℓ) (d : Dev nD)

theorem kept_main_arg0 : StableHlo.after (ops (F := F)) (StableHlo.launchContents m d) (Proc.devRef .tc main_arg0) = m ((d.tc : Thread nD τ).loc main_arg0) := kept (by decide) m d
theorem kept_main_arg1 : StableHlo.after (ops (F := F)) (StableHlo.launchContents m d) (Proc.devRef .tc main_arg1) = m ((d.tc : Thread nD τ).loc main_arg1) := kept (by decide) m d
theorem kept_main_arg2 : StableHlo.after (ops (F := F)) (StableHlo.launchContents m d) (Proc.devRef .tc main_arg2) = m ((d.tc : Thread nD τ).loc main_arg2) := kept (by decide) m d
theorem kept_main_arg3 : StableHlo.after (ops (F := F)) (StableHlo.launchContents m d) (Proc.devRef .tc main_arg3) = m ((d.tc : Thread nD τ).loc main_arg3) := kept (by decide) m d
theorem kept_main_arg4 : StableHlo.after (ops (F := F)) (StableHlo.launchContents m d) (Proc.devRef .tc main_arg4) = m ((d.tc : Thread nD τ).loc main_arg4) := kept (by decide) m d
theorem kept_main_arg5 : StableHlo.after (ops (F := F)) (StableHlo.launchContents m d) (Proc.devRef .tc main_arg5) = m ((d.tc : Thread nD τ).loc main_arg5) := kept (by decide) m d
theorem kept_main_arg6 : StableHlo.after (ops (F := F)) (StableHlo.launchContents m d) (Proc.devRef .tc main_arg6) = m ((d.tc : Thread nD τ).loc main_arg6) := kept (by decide) m d
theorem kept_main_arg7 : StableHlo.after (ops (F := F)) (StableHlo.launchContents m d) (Proc.devRef .tc main_arg7) = m ((d.tc : Thread nD τ).loc main_arg7) := kept (by decide) m d
theorem kept_main_arg8 : StableHlo.after (ops (F := F)) (StableHlo.launchContents m d) (Proc.devRef .tc main_arg8) = m ((d.tc : Thread nD τ).loc main_arg8) := kept (by decide) m d

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0).trans (kept_main_arg0 m c), (h c main_arg1).trans (kept_main_arg1 m c),
      (h c main_arg2).trans (kept_main_arg2 m c), (h c main_arg3).trans (kept_main_arg3 m c),
      (h c main_arg4).trans (kept_main_arg4 m c), (h c main_arg5).trans (kept_main_arg5 m c),
      (h c main_arg6).trans (kept_main_arg6 m c), (h c main_arg7).trans (kept_main_arg7 m c),
      (h c main_arg8).trans (kept_main_arg8 m c)⟩) (run m ρ)

end Cert.ReferenceIdeal.Run

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def toMat {n0 n1 : Nat} (a : (⟨2, ![n0, n1]⟩ : Shape).Idx → EReal) : Fin n0 → Fin n1 → EReal := fun p q => a (ix2 p q)
def toVec {n : Nat} (a : (⟨1, ![n]⟩ : Shape).Idx → EReal) : Fin n → EReal := fun q => a (ix1 q)
def ofMat {n0 n1 : Nat} (f : Fin n0 → Fin n1 → EReal) : (⟨2, ![n0, n1]⟩ : Shape).Idx → EReal :=
  fun i => f ⟨(i 0).val, idx2_lt0 i⟩ ⟨(i 1).val, idx2_lt1 i⟩

theorem ofMat_ix2 {n0 n1 : Nat} (f : Fin n0 → Fin n1 → EReal) (p : Fin n0) (q : Fin n1) : ofMat f (ix2 p q) = f p q := rfl

def clampIdx (w : BitVec 32) : Fin 1024 := ⟨min w.toInt.toNat 1023, by omega⟩

def stage {ι : Type} (v1 v2 : Fin 1024 → EReal) (p : Fin 1024 → Fin 1024) (h : ι → Fin 1024 → EReal) : ι → Fin 1024 → EReal :=
  fun b j => h b j * v1 j + h b (p j) * v2 (p j)

def bfly {ι : Type} (v1 v2 : ℕ → Fin 1024 → EReal) (p : ℕ → Fin 1024 → Fin 1024) (h : ι → Fin 1024 → EReal) : ℕ → ι → Fin 1024 → EReal
  | 0 => h
  | n + 1 => stage (v1 n) (v2 n) (p n) (bfly v1 v2 p h n)

def eye : Fin 1024 → Fin 1024 → EReal := fun k j => if k = j then 1 else 0

def cosRow (θ : Fin 10 → Fin 512 → EReal) (s : Fin 10) (k : Fin 1024) : EReal :=
  Ideal.cos (θ s ⟨k.val % 512, Nat.mod_lt _ (by norm_num)⟩)
def sinRow (θ : Fin 10 → Fin 512 → EReal) (s : Fin 10) (k : Fin 1024) : EReal :=
  if h : k.val < 512 then Ideal.sin (θ s ⟨k.val, h⟩) else -Ideal.sin (θ s ⟨k.val - 512, by omega⟩)

def coef1 (litP : ℕ → Fin 1024 → BitVec 32) (θ : Fin 10 → Fin 512 → EReal) (s : ℕ) (j : Fin 1024) : EReal :=
  if h : s < 10 then cosRow θ ⟨s, h⟩ (clampIdx (litP s j)) else 0
def coef2 (litP : ℕ → Fin 1024 → BitVec 32) (θ : Fin 10 → Fin 512 → EReal) (s : ℕ) (j : Fin 1024) : EReal :=
  if h : s < 10 then sinRow θ ⟨s, h⟩ (clampIdx (litP s j)) else 0
def perm (litE : ℕ → Fin 1024 → BitVec 32) (s : ℕ) (j : Fin 1024) : Fin 1024 := clampIdx (litE s j)

def outCore (ar ag hb ac st bc : EReal) : EReal :=
  Ideal.logistic ag * st
    + (Ideal.ofBits .f32 0x3F800000#32 - Ideal.logistic ag)
      * (Ideal.sign (Ideal.logistic ar * hb + ac)
          * max (max (Ideal.logistic ar * hb + ac) (-(Ideal.logistic ar * hb + ac)) + Ideal.ofBits .f32 0x3A83126F#32 + bc) 0)

section Whole
variable (x st : Fin 8192 → Fin 1024 → EReal) (U : Fin 1024 → Fin 3072 → EReal) (Wr Wg : Fin 1024 → Fin 1024 → EReal)
  (br bg bc : Fin 1024 → EReal)

def argR (b : Fin 8192) (j : Fin 1024) : EReal :=
  (∑ k, x b k * U k ⟨1024 + j.val, by omega⟩) + (∑ k, st b k * Wr k j) + br j
def argG (b : Fin 8192) (j : Fin 1024) : EReal :=
  (∑ k, x b k * U k ⟨2048 + j.val, by omega⟩) + (∑ k, st b k * Wg k j) + bg j
def ucx (b : Fin 8192) (j : Fin 1024) : EReal := ∑ k, x b k * U k ⟨j.val, by omega⟩

def outWith (h : Fin 8192 → Fin 1024 → EReal) (b : Fin 8192) (j : Fin 1024) : EReal :=
  outCore (argR x st U Wr br b j) (argG x st U Wg bg b j) (h b j) (ucx x U b j) (st b j) (bc j)

def outKernel (v1 v2 : ℕ → Fin 1024 → EReal) (p : ℕ → Fin 1024 → Fin 1024) : Fin 8192 → Fin 1024 → EReal :=
  outWith x st U Wr Wg br bg bc (fun b j => ∑ k, st b k * bfly v1 v2 p eye 10 k j)
def outReference (v1 v2 : ℕ → Fin 1024 → EReal) (p : ℕ → Fin 1024 → Fin 1024) : Fin 8192 → Fin 1024 → EReal :=
  outWith x st U Wr Wg br bg bc (bfly v1 v2 p st 10)
end Whole

end Cert.Spec

end
-- ==== Proof.KIBodyA.lean ====
import proofs.«426905_j7799660610191_3_alg».proof.Proof.KIFrame
import proofs.«426905_j7799660610191_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.KernelIdeal.Frame
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

theorem out0_9_eq {F : FTy → Type} [FloatOps F] (x0 x1 : Vec F S512x1024 .f32) (x2 : Vec F S1024x1024 .f32) (x3 x4 : Vec F S1024x2048 .bf16)
    (x5 : Vec F S1024x1024 .f32) (x6 x7 x8 : Vec F S1x1024 .f32) :
    out0_9 x0 x1 x2 x3 x4 x5 x6 x7 x8
      = k0_pay1 x1 (k0_pay4 x0 x1 x3 x4 x7) (k0_pay5 x0 x1 x2 x5 x3 x4 x6) (k0_pay6 x0 x1 x2 x5 x3 x4 x6) x8 := by
  unfold out0_9
  rw [View.canon_unit_zero hz]
  simp only [View.ld_unit_zero (S := S512x1024) hz, View.ld_unit_zero (S := S1024x1024) hz,
    View.ld_unit_zero (S := S1024x2048) hz, View.ld_unit_zero (S := S1x1024) hz]

theorem lhs_rg_0 (i : S512x2048.Idx) (k : dot_S512x1024_S1024x2048_S512x2048_1_0_0_1_n_n.contr.Idx) :
    (dot_S512x1024_S1024x2048_S512x2048_1_0_0_1_n_n.lhsIdx i k 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

theorem lhs_rg_1 (i : S512x2048.Idx) (k : dot_S512x1024_S1024x2048_S512x2048_1_0_0_1_n_n.contr.Idx) :
    (dot_S512x1024_S1024x2048_S512x2048_1_0_0_1_n_n.lhsIdx i k 1).val = (k ⟨0, by decide⟩).val :=
  DotDims.lhsIdx_val_of_single _ (cl := 1) rfl i k

theorem rhs_rg_0 (i : S512x2048.Idx) (k : dot_S512x1024_S1024x2048_S512x2048_1_0_0_1_n_n.contr.Idx) :
    (dot_S512x1024_S1024x2048_S512x2048_1_0_0_1_n_n.rhsIdx i k 0).val = (k ⟨0, by decide⟩).val :=
  DotDims.rhsIdx_val_of_single _ (cr := 0) rfl i k

theorem rhs_rg_1 (i : S512x2048.Idx) (k : dot_S512x1024_S1024x2048_S512x2048_1_0_0_1_n_n.contr.Idx) :
    (dot_S512x1024_S1024x2048_S512x2048_1_0_0_1_n_n.rhsIdx i k 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

theorem matmul_rg_apply (prec : Option ContractPrecision) (a : FVec Ideal S512x1024 .bf16) (w : FVec Ideal S1024x2048 .bf16)
    (p : Fin 512) (q : Fin 2048) :
    matmul dot_S512x1024_S1024x2048_S512x2048_1_0_0_1_n_n prec a w (constant S512x2048 .f32 0x00000000#32) (ix2 p q)
      = ∑ k : Fin 1024, a (ix2 p k) * w (ix2 k q) := by
  simp only [matmul]
  rw [Ideal.matmul_constant_zero_apply]
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  congr 2
  · funext ax; apply Fin.ext
    match ax with
    | ⟨0, _⟩ => exact lhs_rg_0 _ _
    | ⟨1, _⟩ => exact (lhs_rg_1 _ _).trans hk
  · funext ax; apply Fin.ext
    match ax with
    | ⟨0, _⟩ => exact (rhs_rg_0 _ _).trans hk
    | ⟨1, _⟩ => exact rhs_rg_1 _ _

theorem lhs_sq_0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_sq_1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  DotDims.lhsIdx_val_of_single _ (cl := 1) rfl i k

theorem rhs_sq_0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  DotDims.rhsIdx_val_of_single _ (cr := 0) rfl i k

theorem rhs_sq_1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

theorem matmul_sq_apply (prec : Option ContractPrecision) (a : FVec Ideal S512x1024 .f32) (w : FVec Ideal S1024x1024 .f32)
    (p : Fin 512) (q : Fin 1024) :
    matmul dot_S512x1024_S1024x1024_S512x1024_1_0_0_1_n_n prec a w (constant S512x1024 .f32 0x00000000#32) (ix2 p q)
      = ∑ k : Fin 1024, a (ix2 p k) * w (ix2 k q) := by
  simp only [matmul]
  rw [Ideal.matmul_constant_zero_apply]
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  congr 2
  · funext ax; apply Fin.ext
    match ax with
    | ⟨0, _⟩ => exact lhs_sq_0 _ _
    | ⟨1, _⟩ => exact (lhs_sq_1 _ _).trans hk
  · funext ax; apply Fin.ext
    match ax with
    | ⟨0, _⟩ => exact (rhs_sq_0 _ _).trans hk
    | ⟨1, _⟩ => exact rhs_sq_1 _ _

theorem pay2_apply (x0 : Vec Ideal S512x1024 .f32) (x3 : Vec Ideal S1024x2048 .bf16) (p : Fin 512) (q : Fin 2048) :
    k0_pay2 x0 x3 (ix2 p q) = ∑ k : Fin 1024, x0 (ix2 p k) * x3 (ix2 k q) := by
  unfold k0_pay2
  rw [shapeCast_self]
  exact matmul_rg_apply none _ _ p q

theorem pay3_apply (x1 : Vec Ideal S512x1024 .f32) (x4 : Vec Ideal S1024x2048 .bf16) (p : Fin 512) (q : Fin 2048) :
    k0_pay3 x1 x4 (ix2 p q) = ∑ k : Fin 1024, x1 (ix2 p k) * x4 (ix2 k q) := by
  unfold k0_pay3
  rw [shapeCast_self]
  exact matmul_rg_apply none _ _ p q

theorem bias_apply (v : Vec Ideal S1x1024 .f32) (p : Fin 512) (j : Fin 1024) :
    broadcastTo S512x1024 (shapeCast S1x1024 v shapeCasts_S1x1024_S1x1024) broadcasts_S1x1024_S512x1024 (ix2 p j)
      = v (ix2 (0 : Fin 1) j) := by
  rw [shapeCast_self]
  exact broadcastTo_1b_ab_apply v _ p j

theorem pay4_apply (x0 x1 : Vec Ideal S512x1024 .f32) (x3 x4 : Vec Ideal S1024x2048 .bf16) (x7 : Vec Ideal S1x1024 .f32)
    (p : Fin 512) (j : Fin 1024) :
    k0_pay4 x0 x1 x3 x4 x7 (ix2 p j)
      = Ideal.logistic ((∑ k : Fin 1024, x0 (ix2 p k) * x3 (ix2 k (⟨1024 + j.val, by omega⟩ : Fin 2048)))
          + (∑ k : Fin 1024, x1 (ix2 p k) * x4 (ix2 k (⟨1024 + j.val, by omega⟩ : Fin 2048))) + x7 (ix2 (0 : Fin 1) j)) := by
  unfold k0_pay4
  show Ideal.logistic (extractStridedSlice S512x1024 ![0, 1024] (k0_pay2 x0 x3) slices_S512x2048_o0_1024_S512x1024 (ix2 p j)
      + extractStridedSlice S512x1024 ![0, 1024] (k0_pay3 x1 x4) slices_S512x2048_o0_1024_S512x1024 (ix2 p j)
      + broadcastTo S512x1024 (shapeCast S1x1024 x7 shapeCasts_S1x1024_S1x1024) broadcasts_S1x1024_S512x1024 (ix2 p j)) = _
  rw [slice2_axis1_apply 1024 (k0_pay2 x0 x3) _ p j (⟨1024 + j.val, by omega⟩ : Fin 2048) rfl,
    slice2_axis1_apply 1024 (k0_pay3 x1 x4) _ p j (⟨1024 + j.val, by omega⟩ : Fin 2048) rfl,
    pay2_apply, pay3_apply, bias_apply]

theorem pay5_apply (x0 x1 : Vec Ideal S512x1024 .f32) (x2 x5 : Vec Ideal S1024x1024 .f32) (x3 x4 : Vec Ideal S1024x2048 .bf16)
    (x6 : Vec Ideal S1x1024 .f32) (p : Fin 512) (j : Fin 1024) :
    k0_pay5 x0 x1 x2 x5 x3 x4 x6 (ix2 p j)
      = Ideal.logistic ((∑ k : Fin 1024, x0 (ix2 p k) * x3 (ix2 k (⟨j.val, by omega⟩ : Fin 2048)))
            + (∑ k : Fin 1024, x1 (ix2 p k) * x4 (ix2 k (⟨j.val, by omega⟩ : Fin 2048))) + x6 (ix2 (0 : Fin 1) j))
          * (∑ k : Fin 1024, x1 (ix2 p k) * x5 (ix2 k j))
        + ∑ k : Fin 1024, x0 (ix2 p k) * x2 (ix2 k j) := by
  unfold k0_pay5
  show Ideal.logistic (extractStridedSlice S512x1024 ![0, 0] (k0_pay2 x0 x3) slices_S512x2048_o0_0_S512x1024 (ix2 p j)
        + extractStridedSlice S512x1024 ![0, 0] (k0_pay3 x1 x4) slices_S512x2048_o0_0_S512x1024 (ix2 p j)
        + broadcastTo S512x1024 (shapeCast S1x1024 x6 shapeCasts_S1x1024_S1x1024) broadcasts_S1x1024_S512x1024 (ix2 p j))
      * matmul (F := Ideal) dot_S512x1024_S1024x1024_S512x1024_1_0_0_1_n_n (some .fp32) x1
          (shapeCast S1024x1024 x5 shapeCasts_S1024x1024_S1024x1024) (constant S512x1024 .f32 0x00000000#32) (ix2 p j)
      + matmul (F := Ideal) dot_S512x1024_S1024x1024_S512x1024_1_0_0_1_n_n (some .fp32) x0
          (shapeCast S1024x1024 x2 shapeCasts_S1024x1024_S1024x1024) (constant S512x1024 .f32 0x00000000#32) (ix2 p j) = _
  rw [slice2_axis1_apply 0 (k0_pay2 x0 x3) _ p j (⟨j.val, by omega⟩ : Fin 2048) (Nat.zero_add _).symm,
    slice2_axis1_apply 0 (k0_pay3 x1 x4) _ p j (⟨j.val, by omega⟩ : Fin 2048) (Nat.zero_add _).symm,
    pay2_apply, pay3_apply, bias_apply, shapeCast_self, shapeCast_self, matmul_sq_apply, matmul_sq_apply]

theorem pay6_apply (x0 x1 : Vec Ideal S512x1024 .f32) (x2 x5 : Vec Ideal S1024x1024 .f32) (x3 x4 : Vec Ideal S1024x2048 .bf16)
    (x6 : Vec Ideal S1x1024 .f32) (i : S512x1024.Idx) :
    k0_pay6 x0 x1 x2 x5 x3 x4 x6 i
      = Scalar.select (FloatOps.cmpf .olt (k0_pay5 x0 x1 x2 x5 x3 x4 x6 i) (Scalar.ofBits .f32 0x00000000#32))
          (Scalar.ofBits .f32 0xBF800000#32) (Scalar.ofBits .f32 0x3F800000#32) := rfl

theorem pay1_apply (x1 g pre sb : FVec Ideal S512x1024 .f32) (x8 : Vec Ideal S1x1024 .f32) (p : Fin 512) (j : Fin 1024) :
    k0_pay1 x1 g pre sb x8 (ix2 p j)
      = g (ix2 p j) * x1 (ix2 p j)
        + (Ideal.ofBits .f32 0x3F800000#32 - g (ix2 p j))
          * (Scalar.select (FloatOps.cmpf .ogt (FloatOps.absf (pre (ix2 p j))) (Scalar.ofBits .f32 0x00000000#32)) (sb (ix2 p j)) (pre (ix2 p j))
              * max (max (pre (ix2 p j)) (-(pre (ix2 p j))) + Ideal.ofBits .f32 0x3A83126F#32 + x8 (ix2 (0 : Fin 1) j))
                  (Ideal.ofBits .f32 0x00000000#32)) := by
  unfold k0_pay1
  show g (ix2 p j) * x1 (ix2 p j)
        + (Ideal.ofBits .f32 0x3F800000#32 - g (ix2 p j))
          * (Scalar.select (FloatOps.cmpf .ogt (FloatOps.absf (pre (ix2 p j))) (Scalar.ofBits .f32 0x00000000#32)) (sb (ix2 p j)) (pre (ix2 p j))
              * max (max (pre (ix2 p j)) (-(pre (ix2 p j))) + Ideal.ofBits .f32 0x3A83126F#32
                    + broadcastTo S512x1024 (shapeCast S1x1024 x8 shapeCasts_S1x1024_S1x1024) broadcasts_S1x1024_S512x1024 (ix2 p j))
                  (Ideal.ofBits .f32 0x00000000#32)) = _
  rw [bias_apply]

theorem pay_apply (x0 x1 : Vec Ideal S512x1024 .f32) (x2 : Vec Ideal S1024x1024 .f32) (x3 x4 : Vec Ideal S1024x2048 .bf16)
    (x5 : Vec Ideal S1024x1024 .f32) (x6 x7 x8 : Vec Ideal S1x1024 .f32) (p : Fin 512) (j : Fin 1024) :
    k0_pay1 x1 (k0_pay4 x0 x1 x3 x4 x7) (k0_pay5 x0 x1 x2 x5 x3 x4 x6) (k0_pay6 x0 x1 x2 x5 x3 x4 x6) x8 (ix2 p j)
      = Cert.Spec.outCore
          ((∑ k : Fin 1024, x0 (ix2 p k) * x3 (ix2 k (⟨j.val, by omega⟩ : Fin 2048)))
            + (∑ k : Fin 1024, x1 (ix2 p k) * x4 (ix2 k (⟨j.val, by omega⟩ : Fin 2048))) + x6 (ix2 (0 : Fin 1) j))
          ((∑ k : Fin 1024, x0 (ix2 p k) * x3 (ix2 k (⟨1024 + j.val, by omega⟩ : Fin 2048)))
            + (∑ k : Fin 1024, x1 (ix2 p k) * x4 (ix2 k (⟨1024 + j.val, by omega⟩ : Fin 2048))) + x7 (ix2 (0 : Fin 1) j))
          (∑ k : Fin 1024, x1 (ix2 p k) * x5 (ix2 k j))
          (∑ k : Fin 1024, x0 (ix2 p k) * x2 (ix2 k j))
          (x1 (ix2 p j)) (x8 (ix2 (0 : Fin 1) j)) := by
  rw [pay1_apply, pay6_apply, Ideal.jnp_sign_eq_sign_f32, Ideal.ofBits_zero_f32, pay4_apply, pay5_apply]
  rfl

end Cert.KernelIdeal.Body

end
-- ==== Proof.KIBodyB.lean ====
import proofs.«426905_j7799660610191_3_alg».proof.Proof.KIBodyA

noncomputable section

open scoped BigOperators

namespace Cert.KernelIdeal.Body

open Cert.KernelIdeal Cert.KernelIdeal.Gen Cert.KernelIdeal.Frame
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

abbrev aX (c : Dev nD) : S8192x1024.Idx → EReal := V m c main_arg0
abbrev aSt (c : Dev nD) : S8192x1024.Idx → EReal := V m c main_arg1
abbrev aUc (c : Dev nD) : S1024x1024.Idx → EReal := V m c main_v335
abbrev aUrg (c : Dev nD) : S1024x2048.Idx → EReal := V m c main_v337
abbrev aWrg (c : Dev nD) : S1024x2048.Idx → EReal := V m c main_v339
abbrev aR (c : Dev nD) : S1024x1024.Idx → EReal := V m c main_v334
abbrev aBr (c : Dev nD) : S1x1024.Idx → EReal := V m c main_v340
abbrev aBg (c : Dev nD) : S1x1024.Idx → EReal := V m c main_v341
abbrev aBc (c : Dev nD) : S1x1024.Idx → EReal := V m c main_v342

def outFn (c : Dev nD) (b : Fin 8192) (j : Fin 1024) : EReal :=
  Cert.Spec.outCore
    ((∑ k : Fin 1024, aX m c (ix2 b k) * aUrg m c (ix2 k (⟨j.val, by omega⟩ : Fin 2048)))
      + (∑ k : Fin 1024, aSt m c (ix2 b k) * aWrg m c (ix2 k (⟨j.val, by omega⟩ : Fin 2048))) + aBr m c (ix2 (0 : Fin 1) j))
    ((∑ k : Fin 1024, aX m c (ix2 b k) * aUrg m c (ix2 k (⟨1024 + j.val, by omega⟩ : Fin 2048)))
      + (∑ k : Fin 1024, aSt m c (ix2 b k) * aWrg m c (ix2 k (⟨1024 + j.val, by omega⟩ : Fin 2048))) + aBg m c (ix2 (0 : Fin 1) j))
    (∑ k : Fin 1024, aSt m c (ix2 b k) * aR m c (ix2 k j))
    (∑ k : Fin 1024, aX m c (ix2 b k) * aUc m c (ix2 k j))
    (aSt m c (ix2 b j)) (aBc m c (ix2 (0 : Fin 1) j))

def outArr (c : Dev nD) : S8192x1024.Idx → EReal :=
  fun i => outFn m c ⟨(i 0).val, idx2_lt0 i⟩ ⟨(i 1).val, idx2_lt1 i⟩

theorem outArr_ix2 (c : Dev nD) (b : Fin 8192) (j : Fin 1024) : outArr m c (ix2 b j) = outFn m c b j := rfl

theorem point_lt (t : Fin cfg0.N) : t.val < 16 := lt_of_lt_of_eq t.isLt (show cfg0.N = 16 from N_0)

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem iblk0_apply (c : Dev nD) (t : Fin cfg0.N) (p : Fin 512) (k : Fin 1024) (hb : 512 * t.val + p.val < 8192) :
    (iblk m c 0 t : S512x1024.Idx → EReal) (ix2 p k) = aX m c (ix2 (⟨512 * t.val + p.val, hb⟩ : Fin 8192) k) := by
  obtain ⟨⟨e0, e1⟩, -⟩ := idx_facts t
  unfold iblk
  rw [View.read_apply]
  show (V m c main_arg0 : S8192x1024.Idx → EReal) _ = (V m c main_arg0 : S8192x1024.Idx → EReal) _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem iblk1_apply (c : Dev nD) (t : Fin cfg0.N) (p : Fin 512) (k : Fin 1024) (hb : 512 * t.val + p.val < 8192) :
    (iblk m c 1 t : S512x1024.Idx → EReal) (ix2 p k) = aSt m c (ix2 (⟨512 * t.val + p.val, hb⟩ : Fin 8192) k) := by
  obtain ⟨-, ⟨e0, e1⟩, -⟩ := idx_facts t
  unfold iblk
  rw [View.read_apply]
  show (V m c main_arg1 : S8192x1024.Idx → EReal) _ = (V m c main_arg1 : S8192x1024.Idx → EReal) _
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

theorem iblk2_apply (c : Dev nD) (t : Fin cfg0.N) (a : Fin 1024) (k : Fin 1024) :
    (iblk m c 2 t : S1024x1024.Idx → EReal) (ix2 a k) = aUc m c (ix2 a k) := by
  obtain ⟨-, -, ⟨e0, e1⟩, -⟩ := idx_facts t
  unfold iblk
  rw [View.read_apply]
  show (V m c main_v335 : S1024x1024.Idx → EReal) _ = (V m c main_v335 : S1024x1024.Idx → EReal) _
  congr 1
  funext ax
  apply Fin.ext
  match ax with
  | ⟨0, _⟩ => show win0_2.index t (0 : Fin 2) * 1024 + 1 * a.val = a.val; rw [e0]; omega
  | ⟨1, _⟩ => show win0_2.index t (1 : Fin 2) * 1024 + 1 * k.val = k.val; rw [e1]; omega

theorem iblk3_apply (c : Dev nD) (t : Fin cfg0.N) (a : Fin 1024) (k : Fin 2048) :
    (iblk m c 3 t : S1024x2048.Idx → EReal) (ix2 a k) = aUrg m c (ix2 a k) := by
  obtain ⟨-, -, -, ⟨e0, e1⟩, -⟩ := idx_facts t
  unfold iblk
  rw [View.read_apply]
  show (V m c main_v337 : S1024x2048.Idx → EReal) _ = (V m c main_v337 : S1024x2048.Idx → EReal) _
  congr 1
  funext ax
  apply Fin.ext
  match ax with
  | ⟨0, _⟩ => show win0_3.index t (0 : Fin 2) * 1024 + 1 * a.val = a.val; rw [e0]; omega
  | ⟨1, _⟩ => show win0_3.index t (1 : Fin 2) * 2048 + 1 * k.val = k.val; rw [e1]; omega

theorem iblk4_apply (c : Dev nD) (t : Fin cfg0.N) (a : Fin 1024) (k : Fin 2048) :
    (iblk m c 4 t : S1024x2048.Idx → EReal) (ix2 a k) = aWrg m c (ix2 a k) := by
  obtain ⟨-, -, -, -, ⟨e0, e1⟩, -⟩ := idx_facts t
  unfold iblk
  rw [View.read_apply]
  show (V m c main_v339 : S1024x2048.Idx → EReal) _ = (V m c main_v339 : S1024x2048.Idx → EReal) _
  congr 1
  funext ax
  apply Fin.ext
  match ax with
  | ⟨0, _⟩ => show win0_4.index t (0 : Fin 2) * 1024 + 1 * a.val = a.val; rw [e0]; omega
  | ⟨1, _⟩ => show win0_4.index t (1 : Fin 2) * 2048 + 1 * k.val = k.val; rw [e1]; omega

theorem iblk5_apply (c : Dev nD) (t : Fin cfg0.N) (a : Fin 1024) (k : Fin 1024) :
    (iblk m c 5 t : S1024x1024.Idx → EReal) (ix2 a k) = aR m c (ix2 a k) := by
  obtain ⟨-, -, -, -, -, ⟨e0, e1⟩, -⟩ := idx_facts t
  unfold iblk
  rw [View.read_apply]
  show (V m c main_v334 : S1024x1024.Idx → EReal) _ = (V m c main_v334 : S1024x1024.Idx → EReal) _
  congr 1
  funext ax
  apply Fin.ext
  match ax with
  | ⟨0, _⟩ => show win0_5.index t (0 : Fin 2) * 1024 + 1 * a.val = a.val; rw [e0]; omega
  | ⟨1, _⟩ => show win0_5.index t (1 : Fin 2) * 1024 + 1 * k.val = k.val; rw [e1]; omega

theorem iblk6_apply (c : Dev nD) (t : Fin cfg0.N) (a : Fin 1) (k : Fin 1024) :
    (iblk m c 6 t : S1x1024.Idx → EReal) (ix2 a k) = aBr m c (ix2 a k) := by
  obtain ⟨-, -, -, -, -, -, ⟨e0, e1⟩, -⟩ := idx_facts t
  unfold iblk
  rw [View.read_apply]
  show (V m c main_v340 : S1x1024.Idx → EReal) _ = (V m c main_v340 : S1x1024.Idx → EReal) _
  congr 1
  funext ax
  apply Fin.ext
  match ax with
  | ⟨0, _⟩ => show win0_6.index t (0 : Fin 2) * 1 + 1 * a.val = a.val; rw [e0]; omega
  | ⟨1, _⟩ => show win0_6.index t (1 : Fin 2) * 1024 + 1 * k.val = k.val; rw [e1]; omega

theorem iblk7_apply (c : Dev nD) (t : Fin cfg0.N) (a : Fin 1) (k : Fin 1024) :
    (iblk m c 7 t : S1x1024.Idx → EReal) (ix2 a k) = aBg m c (ix2 a k) := by
  obtain ⟨-, -, -, -, -, -, -, ⟨e0, e1⟩, -⟩ := idx_facts t
  unfold iblk
  rw [View.read_apply]
  show (V m c main_v341 : S1x1024.Idx → EReal) _ = (V m c main_v341 : S1x1024.Idx → EReal) _
  congr 1
  funext ax
  apply Fin.ext
  match ax with
  | ⟨0, _⟩ => show win0_7.index t (0 : Fin 2) * 1 + 1 * a.val = a.val; rw [e0]; omega
  | ⟨1, _⟩ => show win0_7.index t (1 : Fin 2) * 1024 + 1 * k.val = k.val; rw [e1]; omega

theorem iblk8_apply (c : Dev nD) (t : Fin cfg0.N) (a : Fin 1) (k : Fin 1024) :
    (iblk m c 8 t : S1x1024.Idx → EReal) (ix2 a k) = aBc m c (ix2 a k) := by
  obtain ⟨-, -, -, -, -, -, -, -, ⟨e0, e1⟩, -⟩ := idx_facts t
  unfold iblk
  rw [View.read_apply]
  show (V m c main_v342 : S1x1024.Idx → EReal) _ = (V m c main_v342 : S1x1024.Idx → EReal) _
  congr 1
  funext ax
  apply Fin.ext
  match ax with
  | ⟨0, _⟩ => show win0_8.index t (0 : Fin 2) * 1 + 1 * a.val = a.val; rw [e0]; omega
  | ⟨1, _⟩ => show win0_8.index t (1 : Fin 2) * 1024 + 1 * k.val = k.val; rw [e1]; omega

theorem out_emb (t : Fin cfg0.N) (p : Fin 512) (q : Fin 1024) (hb : 512 * t.val + p.val < 8192) :
    ((cfg0.win 9).blk t).view.emb (ix2 p q) = (ix2 (⟨512 * t.val + p.val, hb⟩ : Fin 8192) q : S8192x1024.Idx) := by
  obtain ⟨-, -, -, -, -, -, -, -, -, ⟨e0, e1⟩⟩ := idx_facts t
  funext a
  apply Fin.ext
  match a with
  | ⟨0, _⟩ => show win0_9.index t (0 : Fin 2) * 512 + 1 * p.val = 512 * t.val + p.val; rw [e0]; omega
  | ⟨1, _⟩ => show win0_9.index t (1 : Fin 2) * 1024 + 1 * q.val = q.val; rw [e1]; omega

theorem block_eq (c : Dev nD) (t : Fin cfg0.N) (y : S512x1024.Idx) :
    k0_pay1 (iblk m c 1 t) (k0_pay4 (iblk m c 0 t) (iblk m c 1 t) (iblk m c 3 t) (iblk m c 4 t) (iblk m c 7 t))
        (k0_pay5 (iblk m c 0 t) (iblk m c 1 t) (iblk m c 2 t) (iblk m c 5 t) (iblk m c 3 t) (iblk m c 4 t) (iblk m c 6 t))
        (k0_pay6 (iblk m c 0 t) (iblk m c 1 t) (iblk m c 2 t) (iblk m c 5 t) (iblk m c 3 t) (iblk m c 4 t) (iblk m c 6 t))
        (iblk m c 8 t) y
      = outArr m c (((cfg0.win 9).blk t).view.emb y) := by
  obtain ⟨p, q, rfl⟩ : ∃ (p : Fin 512) (q : Fin 1024), y = ix2 p q := ⟨y 0, y 1, eq_ix2 y⟩
  have ht := point_lt t
  have hb : 512 * t.val + p.val < 8192 := by have := p.isLt; omega
  refine (pay_apply (iblk m c 0 t) (iblk m c 1 t) (iblk m c 2 t) (iblk m c 3 t) (iblk m c 4 t) (iblk m c 5 t)
    (iblk m c 6 t) (iblk m c 7 t) (iblk m c 8 t) p q).trans ?_
  rw [out_emb t p q hb, outArr_ix2]
  unfold outFn
  simp only [iblk0_apply m c t p _ hb, iblk1_apply m c t p _ hb, iblk2_apply m c t, iblk3_apply m c t, iblk4_apply m c t,
    iblk5_apply m c t, iblk6_apply m c t, iblk7_apply m c t, iblk8_apply m c t]

theorem flushed_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9, out0_9_eq]
  funext y
  exact block_eq m c t y

theorem mem_blk (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v343).slice (win0_9.rect t)).set ↔ _
  rw [View.set_slice_whole, Rect.mem_set_unit]
  exact Iff.rfl

theorem cover (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, -, -, -, -, ⟨e0, e1⟩⟩ := idx_facts t
  have et : t.val = (i 0).val / 512 := rfl
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; rw [e0, et]; omega
  | ⟨1, _⟩ => show win0_9.index t (1 : Fin 2) * 1024 ≤ (i 1).val ∧ (i 1).val < win0_9.index t (1 : Fin 2) * 1024 + 1024; rw [e1]; omega

theorem final (c : Dev nD) : (dats m 0 c).arrAt 9 cfg0.N = outArr m c :=
  (dats m 0 c).arrAt_eq_of_cover 9 (outArr m c) (fun t _ => flushed_eq m c t) cover

theorem final_apply (c : Dev nD) (b : Fin 8192) (j : Fin 1024) :
    ((dats (F := Ideal) m 0 c).arrAt 9 cfg0.N : S8192x1024.Idx → EReal) (ix2 b j)
      = Cert.Spec.outCore
          ((∑ k : Fin 1024, aX m c (ix2 b k) * aUrg m c (ix2 k (⟨j.val, by omega⟩ : Fin 2048)))
            + (∑ k : Fin 1024, aSt m c (ix2 b k) * aWrg m c (ix2 k (⟨j.val, by omega⟩ : Fin 2048))) + aBr m c (ix2 (0 : Fin 1) j))
          ((∑ k : Fin 1024, aX m c (ix2 b k) * aUrg m c (ix2 k (⟨1024 + j.val, by omega⟩ : Fin 2048)))
            + (∑ k : Fin 1024, aSt m c (ix2 b k) * aWrg m c (ix2 k (⟨1024 + j.val, by omega⟩ : Fin 2048))) + aBg m c (ix2 (0 : Fin 1) j))
          (∑ k : Fin 1024, aSt m c (ix2 b k) * aR m c (ix2 k j))
          (∑ k : Fin 1024, aX m c (ix2 b k) * aUc m c (ix2 k j))
          (aSt m c (ix2 b j)) (aBc m c (ix2 (0 : Fin 1) j)) :=
  (congrFun (final m c) (ix2 b j)).trans (outArr_ix2 m c b j)

set_option backward.isDefEq.respectTransparency.types false in
theorem run_blocks : θ_run defs (onTc (τ := τ) (main (F := Ideal))) ⟨m, fun _ => 0, ρ⟩ fun r => ∀ c : Dev nD,
      r.2.mem ((c.tc : Thread nD τ).loc main_v343) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Body

end
-- ==== Proof.SpecGlue.lean ====
import proofs.«426905_j7799660610191_3_alg».proof.Proof.Spec

noncomputable section

open scoped BigOperators

namespace Cert.Spec

open Idealize.ShloMosaic Idealize.ShloMosaic.ValueIdx

theorem outCore_staged
    (X St : (⟨2, ![8192, 1024]⟩ : Shape).Idx → EReal) (U : (⟨2, ![1024, 3072]⟩ : Shape).Idx → EReal)
    (Wr Wg : (⟨2, ![1024, 1024]⟩ : Shape).Idx → EReal) (br bg bc : (⟨1, ![1024]⟩ : Shape).Idx → EReal)
    (Uc R : (⟨2, ![1024, 1024]⟩ : Shape).Idx → EReal) (Urg Wrg : (⟨2, ![1024, 2048]⟩ : Shape).Idx → EReal)
    (Br Bg Bc : (⟨2, ![1, 1024]⟩ : Shape).Idx → EReal)
    (v1 v2 : ℕ → Fin 1024 → EReal) (p : ℕ → Fin 1024 → Fin 1024)
    (hUc : ∀ k j : Fin 1024, Uc (ix2 k j) = U (ix2 k (⟨j.val, by omega⟩ : Fin 3072)))
    (hUrg : ∀ (k : Fin 1024) (j : Fin 2048), Urg (ix2 k j) = U (ix2 k (⟨1024 + j.val, by omega⟩ : Fin 3072)))
    (hWlo : ∀ k j : Fin 1024, Wrg (ix2 k (⟨j.val, by omega⟩ : Fin 2048)) = Wr (ix2 k j))
    (hWhi : ∀ k j : Fin 1024, Wrg (ix2 k (⟨1024 + j.val, by omega⟩ : Fin 2048)) = Wg (ix2 k j))
    (hBr : ∀ j : Fin 1024, Br (ix2 (0 : Fin 1) j) = br (ix1 j))
    (hBg : ∀ j : Fin 1024, Bg (ix2 (0 : Fin 1) j) = bg (ix1 j))
    (hBc : ∀ j : Fin 1024, Bc (ix2 (0 : Fin 1) j) = bc (ix1 j))
    (hR : ∀ k j : Fin 1024, R (ix2 k j) = bfly v1 v2 p eye 10 k j)
    (b : Fin 8192) (j : Fin 1024) :
    outCore
        ((∑ k : Fin 1024, X (ix2 b k) * Urg (ix2 k (⟨j.val, by omega⟩ : Fin 2048)))
          + (∑ k : Fin 1024, St (ix2 b k) * Wrg (ix2 k (⟨j.val, by omega⟩ : Fin 2048))) + Br (ix2 (0 : Fin 1) j))
        ((∑ k : Fin 1024, X (ix2 b k) * Urg (ix2 k (⟨1024 + j.val, by omega⟩ : Fin 2048)))
          + (∑ k : Fin 1024, St (ix2 b k) * Wrg (ix2 k (⟨1024 + j.val, by omega⟩ : Fin 2048))) + Bg (ix2 (0 : Fin 1) j))
        (∑ k : Fin 1024, St (ix2 b k) * R (ix2 k j))
        (∑ k : Fin 1024, X (ix2 b k) * Uc (ix2 k j))
        (St (ix2 b j)) (Bc (ix2 (0 : Fin 1) j))
      = outKernel (toMat X) (toMat St) (toMat U) (toMat Wr) (toMat Wg) (toVec br) (toVec bg) (toVec bc) v1 v2 p b j := by
  have hU1 : ∀ k : Fin 1024, Urg (ix2 k (⟨j.val, by omega⟩ : Fin 2048)) = U (ix2 k (⟨1024 + j.val, by omega⟩ : Fin 3072)) :=
    fun k => hUrg k _
  have hU2 : ∀ k : Fin 1024, Urg (ix2 k (⟨1024 + j.val, by omega⟩ : Fin 2048)) = U (ix2 k (⟨2048 + j.val, by omega⟩ : Fin 3072)) :=
    fun k => (hUrg k _).trans (congrArg (fun q => U (ix2 k q)) (Fin.ext (by show 1024 + (1024 + j.val) = 2048 + j.val; omega)))
  unfold outKernel outWith argR argG ucx toMat toVec
  simp only [hUc, hU1, hU2, hWlo, hWhi, hBr, hBg, hBc, hR]

end Cert.Spec

end
-- ==== Proof.Tables.lean ====
import proofs.«426905_j7799660610191_3_alg».proof.KernelIdeal
import proofs.«426905_j7799660610191_3_alg».proof.ReferenceIdeal

namespace Cert.Tables

noncomputable def kLitP : ℕ → Fin 1024 → BitVec 32
  | 0 => Cert.KernelIdeal.lit0 | 1 => Cert.KernelIdeal.lit1 | 2 => Cert.KernelIdeal.lit2 | 3 => Cert.KernelIdeal.lit3 | 4 => Cert.KernelIdeal.lit4
  | 5 => Cert.KernelIdeal.lit5 | 6 => Cert.KernelIdeal.lit6 | 7 => Cert.KernelIdeal.lit7 | 8 => Cert.KernelIdeal.lit8 | 9 => Cert.KernelIdeal.lit9
  | _ => fun _ => 0#32
noncomputable def kLitE : ℕ → Fin 1024 → BitVec 32
  | 0 => Cert.KernelIdeal.lit10 | 1 => Cert.KernelIdeal.lit11 | 2 => Cert.KernelIdeal.lit12 | 3 => Cert.KernelIdeal.lit13 | 4 => Cert.KernelIdeal.lit14
  | 5 => Cert.KernelIdeal.lit15 | 6 => Cert.KernelIdeal.lit16 | 7 => Cert.KernelIdeal.lit17 | 8 => Cert.KernelIdeal.lit18 | 9 => Cert.KernelIdeal.lit19
  | _ => fun _ => 0#32
noncomputable def rLitP : ℕ → Fin 1024 → BitVec 32
  | 0 => Cert.ReferenceIdeal.lit0 | 1 => Cert.ReferenceIdeal.lit1 | 2 => Cert.ReferenceIdeal.lit2 | 3 => Cert.ReferenceIdeal.lit3 | 4 => Cert.ReferenceIdeal.lit4
  | 5 => Cert.ReferenceIdeal.lit5 | 6 => Cert.ReferenceIdeal.lit6 | 7 => Cert.ReferenceIdeal.lit7 | 8 => Cert.ReferenceIdeal.lit8 | 9 => Cert.ReferenceIdeal.lit9
  | _ => fun _ => 0#32
noncomputable def rLitE : ℕ → Fin 1024 → BitVec 32
  | 0 => Cert.ReferenceIdeal.lit10 | 1 => Cert.ReferenceIdeal.lit11 | 2 => Cert.ReferenceIdeal.lit12 | 3 => Cert.ReferenceIdeal.lit13 | 4 => Cert.ReferenceIdeal.lit14
  | 5 => Cert.ReferenceIdeal.lit15 | 6 => Cert.ReferenceIdeal.lit16 | 7 => Cert.ReferenceIdeal.lit17 | 8 => Cert.ReferenceIdeal.lit18 | 9 => Cert.ReferenceIdeal.lit19
  | _ => fun _ => 0#32

theorem litP_eq : kLitP = rLitP := by
  funext s
  match s with
  | 0 => rfl
  | 1 => rfl
  | 2 => rfl
  | 3 => rfl
  | 4 => rfl
  | 5 => rfl
  | 6 => rfl
  | 7 => rfl
  | 8 => rfl
  | 9 => rfl
  | _ + 10 => rfl

theorem litE_eq : kLitE = rLitE := by
  funext s
  match s with
  | 0 => rfl
  | 1 => rfl
  | 2 => rfl
  | 3 => rfl
  | 4 => rfl
  | 5 => rfl
  | 6 => rfl
  | 7 => rfl
  | 8 => rfl
  | 9 => rfl
  | _ + 10 => rfl

end Cert.Tables
-- ==== Proof.KIVal.lean ====
import proofs.«426905_j7799660610191_3_alg».proof.Proof.KIBodyB
import proofs.«426905_j7799660610191_3_alg».proof.Proof.SpecGlue
import proofs.«426905_j7799660610191_3_alg».proof.Proof.Tables

noncomputable section

open scoped BigOperators

namespace Cert.KernelIdeal.Val

open Cert.KernelIdeal Cert.KernelIdeal.Gen Cert.KernelIdeal.Frame Cert.KernelIdeal.Body
open Idealize.ShloMosaic Idealize.ShloMosaic.ValueIdx Idealize.ShloMosaic.TcCoe Idealize.SL.Sem

variable (m : (ℓ : Loc nD τ sig) → Buf (Elt Ideal) ℓ) (ρ : Dev nD → PrngReg)

abbrev theta (c : Dev nD) : Fin 10 → Fin 512 → EReal :=
  Cert.Spec.toMat (m ((c : Thread nD τ).loc main_arg2) : S10x512.Idx → EReal)

abbrev specOut (c : Dev nD) : S8192x1024.Idx → EReal :=
  Cert.Spec.ofMat (Cert.Spec.outKernel
    (Cert.Spec.toMat (m ((c : Thread nD τ).loc main_arg0) : S8192x1024.Idx → EReal))
    (Cert.Spec.toMat (m ((c : Thread nD τ).loc main_arg1) : S8192x1024.Idx → EReal))
    (Cert.Spec.toMat (m ((c : Thread nD τ).loc main_arg3) : S1024x3072.Idx → EReal))
    (Cert.Spec.toMat (m ((c : Thread nD τ).loc main_arg4) : S1024x1024.Idx → EReal))
    (Cert.Spec.toMat (m ((c : Thread nD τ).loc main_arg5) : S1024x1024.Idx → EReal))
    (Cert.Spec.toVec (m ((c : Thread nD τ).loc main_arg6) : S1024.Idx → EReal))
    (Cert.Spec.toVec (m ((c : Thread nD τ).loc main_arg7) : S1024.Idx → EReal))
    (Cert.Spec.toVec (m ((c : Thread nD τ).loc main_arg8) : S1024.Idx → EReal))
    (Cert.Spec.coef1 Cert.Tables.kLitP (theta m c)) (Cert.Spec.coef2 Cert.Tables.kLitP (theta m c)) (Cert.Spec.perm Cert.Tables.kLitE))

theorem final_of (c : Dev nD)
    (hUc : ∀ k j : Fin 1024, aUc m c (ix2 k j)
      = (m ((c : Thread nD τ).loc main_arg3) : S1024x3072.Idx → EReal) (ix2 k (⟨j.val, by omega⟩ : Fin 3072)))
    (hUrg : ∀ (k : Fin 1024) (j : Fin 2048), aUrg m c (ix2 k j)
      = (m ((c : Thread nD τ).loc main_arg3) : S1024x3072.Idx → EReal) (ix2 k (⟨1024 + j.val, by omega⟩ : Fin 3072)))
    (hWlo : ∀ k j : Fin 1024, aWrg m c (ix2 k (⟨j.val, by omega⟩ : Fin 2048))
      = (m ((c : Thread nD τ).loc main_arg4) : S1024x1024.Idx → EReal) (ix2 k j))
    (hWhi : ∀ k j : Fin 1024, aWrg m c (ix2 k (⟨1024 + j.val, by omega⟩ : Fin 2048))
      = (m ((c : Thread nD τ).loc main_arg5) : S1024x1024.Idx → EReal) (ix2 k j))
    (hBr : ∀ j : Fin 1024, aBr m c (ix2 (0 : Fin 1) j) = (m ((c : Thread nD τ).loc main_arg6) : S1024.Idx → EReal) (ix1 j))
    (hBg : ∀ j : Fin 1024, aBg m c (ix2 (0 : Fin 1) j) = (m ((c : Thread nD τ).loc main_arg7) : S1024.Idx → EReal) (ix1 j))
    (hBc : ∀ j : Fin 1024, aBc m c (ix2 (0 : Fin 1) j) = (m ((c : Thread nD τ).loc main_arg8) : S1024.Idx → EReal) (ix1 j))
    (hR : ∀ k j : Fin 1024, aR m c (ix2 k j)
      = Cert.Spec.bfly (Cert.Spec.coef1 Cert.Tables.kLitP (theta m c)) (Cert.Spec.coef2 Cert.Tables.kLitP (theta m c)) (Cert.Spec.perm Cert.Tables.kLitE)
          Cert.Spec.eye 10 k j) :
    (dats (F := Ideal) m 0 c).arrAt 9 cfg0.N = specOut m c := by
  have eX : aX m c = (m ((c : Thread nD τ).loc main_arg0) : S8192x1024.Idx → EReal) := V_main_arg0 m c
  have eSt : aSt m c = (m ((c : Thread nD τ).loc main_arg1) : S8192x1024.Idx → EReal) := V_main_arg1 m c
  funext i
  obtain ⟨b, j, rfl⟩ : ∃ (b : Fin 8192) (j : Fin 1024), i = ix2 b j := ⟨i 0, i 1, eq_ix2 i⟩
  refine (final_apply m c b j).trans ?_
  rw [eX, eSt]
  exact Cert.Spec.outCore_staged _ _ _ _ _ _ _ _ _ _ _ _ _ _ _ _ _ _ hUc hUrg hWlo hWhi hBr hBg hBc hR b j

theorem run_of
    (hUc : ∀ (c : Dev nD) (k j : Fin 1024), aUc m c (ix2 k j)
      = (m ((c : Thread nD τ).loc main_arg3) : S1024x3072.Idx → EReal) (ix2 k (⟨j.val, by omega⟩ : Fin 3072)))
    (hUrg : ∀ (c : Dev nD) (k : Fin 1024) (j : Fin 2048), aUrg m c (ix2 k j)
      = (m ((c : Thread nD τ).loc main_arg3) : S1024x3072.Idx → EReal) (ix2 k (⟨1024 + j.val, by omega⟩ : Fin 3072)))
    (hWlo : ∀ (c : Dev nD) (k j : Fin 1024), aWrg m c (ix2 k (⟨j.val, by omega⟩ : Fin 2048))
      = (m ((c : Thread nD τ).loc main_arg4) : S1024x1024.Idx → EReal) (ix2 k j))
    (hWhi : ∀ (c : Dev nD) (k j : Fin 1024), aWrg m c (ix2 k (⟨1024 + j.val, by omega⟩ : Fin 2048))
      = (m ((c : Thread nD τ).loc main_arg5) : S1024x1024.Idx → EReal) (ix2 k j))
    (hBr : ∀ (c : Dev nD) (j : Fin 1024), aBr m c (ix2 (0 : Fin 1) j) = (m ((c : Thread nD τ).loc main_arg6) : S1024.Idx → EReal) (ix1 j))
    (hBg : ∀ (c : Dev nD) (j : Fin 1024), aBg m c (ix2 (0 : Fin 1) j) = (m ((c : Thread nD τ).loc main_arg7) : S1024.Idx → EReal) (ix1 j))
    (hBc : ∀ (c : Dev nD) (j : Fin 1024), aBc m c (ix2 (0 : Fin 1) j) = (m ((c : Thread nD τ).loc main_arg8) : S1024.Idx → EReal) (ix1 j))
    (hR : ∀ (c : Dev nD) (k j : Fin 1024), aR m c (ix2 k j)
      = Cert.Spec.bfly (Cert.Spec.coef1 Cert.Tables.kLitP (theta m c)) (Cert.Spec.coef2 Cert.Tables.kLitP (theta m c)) (Cert.Spec.perm Cert.Tables.kLitE)
          Cert.Spec.eye 10 k j) :
    θ_run defs (onTc (τ := τ) (main (F := Ideal))) ⟨m, fun _ => 0, ρ⟩ fun r => ∀ c : Dev nD,
      r.2.mem ((c.tc : Thread nD τ).loc main_v343) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans
      (final_of m c (hUc c) (hUrg c) (hWlo c) (hWhi c) (hBr c) (hBg c) (hBc c) (hR c)), (h c).2⟩)
    (run_blocks m ρ)

end Cert.KernelIdeal.Val

end
-- ==== Proof.KIHostA.lean ====
import proofs.«426905_j7799660610191_3_alg».proof.Proof.KIFrame

set_option maxRecDepth 16384

noncomputable section

namespace Cert.KernelIdeal.Host

open Cert.KernelIdeal Cert.KernelIdeal.Gen Cert.KernelIdeal.Frame
open Idealize.ShloMosaic Idealize.ShloMosaic.TcCoe

variable {F : FTy → Type} [FloatOps F]

def kConst : List (HloOp τ sig (Elt F)) :=
  ( StableHlo.nullary main_c (fun i => lit0 (S1024.rowMajor i))
  :: StableHlo.nullary main_c_0 (constantI S1024 1 0#1)
  :: StableHlo.nullary main_c_1 (fun i => lit1 (S1024.rowMajor i))
  :: StableHlo.nullary main_c_2 (constantI S1024 1 0#1)
  :: StableHlo.nullary main_c_3 (fun i => lit2 (S1024.rowMajor i))
  :: StableHlo.nullary main_c_4 (constantI S1024 1 0#1)
  :: StableHlo.nullary main_c_5 (fun i => lit3 (S1024.rowMajor i))
  :: StableHlo.nullary main_c_6 (constantI S1024 1 0#1)
  :: StableHlo.nullary main_c_7 (fun i => lit4 (S1024.rowMajor i))
  :: StableHlo.nullary main_c_8 (constantI S1024 1 0#1)
  :: StableHlo.nullary main_c_9 (fun i => lit5 (S1024.rowMajor i))
  :: StableHlo.nullary main_c_10 (constantI S1024 1 0#1)
  :: StableHlo.nullary main_c_11 (fun i => lit6 (S1024.rowMajor i))
  :: StableHlo.nullary main_c_12 (constantI S1024 1 0#1)
  :: StableHlo.nullary main_c_13 (fun i => lit7 (S1024.rowMajor i))
  :: StableHlo.nullary main_c_14 (constantI S1024 1 0#1)
  :: StableHlo.nullary main_c_15 (fun i => lit8 (S1024.rowMajor i))
  :: StableHlo.nullary main_c_16 (constantI S1024 1 0#1)
  :: StableHlo.nullary main_c_17 (fun i => lit9 (S1024.rowMajor i))
  :: StableHlo.nullary main_c_18 (constantI S1024 1 0#1)
  :: StableHlo.nullary main_c_19 (constantI S1024 1 0#1)
  :: StableHlo.nullary main_c_20 (constantI S1024 1 0#1)
  :: StableHlo.nullary main_c_21 (constantI S1024 1 0#1)
  :: StableHlo.nullary main_c_22 (constantI S1024 1 0#1)
  :: StableHlo.nullary main_c_23 (constantI S1024 1 0#1)
  :: StableHlo.nullary main_c_24 (constantI S1024 1 0#1)
  :: StableHlo.nullary main_c_25 (constantI S1024 1 0#1)
  :: StableHlo.nullary main_c_26 (constantI S1024 1 0#1)
  :: StableHlo.nullary main_c_27 (constantI S1024 1 0#1)
  :: StableHlo.nullary main_c_28 (constantI S1024 1 0#1)
  :: StableHlo.nullary main_c_29 (fun i => lit10 (S1024.rowMajor i))
  :: StableHlo.nullary main_c_30 (constantI S1024 1 0#1)
  :: StableHlo.nullary main_c_31 (fun i => lit11 (S1024.rowMajor i))
  :: StableHlo.nullary main_c_32 (constantI S1024 1 0#1)
  :: StableHlo.nullary main_c_33 (fun i => lit12 (S1024.rowMajor i))
  :: StableHlo.nullary main_c_34 (constantI S1024 1 0#1)
  :: StableHlo.nullary main_c_35 (fun i => lit13 (S1024.rowMajor i))
  :: StableHlo.nullary main_c_36 (constantI S1024 1 0#1)
  :: StableHlo.nullary main_c_37 (fun i => lit14 (S1024.rowMajor i))
  :: StableHlo.nullary main_c_38 (constantI S1024 1 0#1)
  :: StableHlo.nullary main_c_39 (fun i => lit15 (S1024.rowMajor i))
  :: StableHlo.nullary main_c_40 (constantI S1024 1 0#1)
  :: StableHlo.nullary main_c_41 (fun i => lit16 (S1024.rowMajor i))
  :: StableHlo.nullary main_c_42 (constantI S1024 1 0#1)
  :: StableHlo.nullary main_c_43 (fun i => lit17 (S1024.rowMajor i))
  :: StableHlo.nullary main_c_44 (constantI S1024 1 0#1)
  :: StableHlo.nullary main_c_45 (fun i => lit18 (S1024.rowMajor i))
  :: StableHlo.nullary main_c_46 (constantI S1024 1 0#1)
  :: StableHlo.nullary main_c_47 (fun i => lit19 (S1024.rowMajor i))
  :: StableHlo.nullary main_c_48 (constantI S1024 1 0#1)
  :: [] )

def kTh : List (HloOp τ sig (Elt F)) :=
  ( StableHlo.unary main_arg2 main_v0 (Host.cos : Vec F S10x512 .f32 → Vec F S10x512 .f32)
  :: StableHlo.unary main_arg2 main_v1 (Host.cos : Vec F S10x512 .f32 → Vec F S10x512 .f32)
  :: StableHlo.binary main_v0 main_v1 main_v2 ((fun a b => concatenate S10x1024 1 [⟨S10x512, a⟩, ⟨S10x512, b⟩] concatenates_S10x512_S10x512_S10x1024_d1) : Vec F S10x512 .f32 → Vec F S10x512 .f32 → Vec F S10x1024 .f32)
  :: StableHlo.unary main_arg2 main_v3 (Host.sin : Vec F S10x512 .f32 → Vec F S10x512 .f32)
  :: StableHlo.unary main_arg2 main_v4 (Host.sin : Vec F S10x512 .f32 → Vec F S10x512 .f32)
  :: StableHlo.unary main_v4 main_v5 (Host.negf : Vec F S10x512 .f32 → Vec F S10x512 .f32)
  :: StableHlo.binary main_v3 main_v5 main_v6 ((fun a b => concatenate S10x1024 1 [⟨S10x512, a⟩, ⟨S10x512, b⟩] concatenates_S10x512_S10x512_S10x1024_d1) : Vec F S10x512 .f32 → Vec F S10x512 .f32 → Vec F S10x1024 .f32)
  :: [] )

def kP0 : List (HloOp τ sig (Elt F)) :=
  ( StableHlo.unary main_v2 main_v7 ((extractStridedSlice S1x1024 ![0, 0] · slices_S10x1024_S1x1024_0_0) : Vec F S10x1024 .f32 → Vec F S1x1024 .f32)
  :: StableHlo.reshape main_v7 main_v8 rfl shapeCasts_S1x1024_S1024
  :: StableHlo.nullary main_c_49 (constantI S_ 32 1024#32)
  :: StableHlo.unary main_c_49 main_v9 (broadcastInDim S1024 ![] bcast_S_S1024 : Vec F S_ .i32 → Vec F S1024 .i32)
  :: StableHlo.binary main_c main_v9 main_v10 (addi : Vec F S1024 .i32 → Vec F S1024 .i32 → Vec F S1024 .i32)
  :: StableHlo.ternary main_c_0 main_v10 main_c main_v11 (select : Vec F S1024 .i1 → Vec F S1024 .i32 → Vec F S1024 .i32 → Vec F S1024 .i32)
  :: StableHlo.unary main_v11 main_v12 (broadcastInDim S1024x1 ![0] bcast_S1024_S1024x1_0 : Vec F S1024 .i32 → Vec F S1024x1 .i32)
  :: StableHlo.binary main_v8 main_v12 main_v13 ((fun x i => Host.gather gather_S1024_S1024x1_S1024_n_0_n_n_0_1_1 x i) : Vec F S1024 .f32 → Vec F S1024x1 .i32 → Vec F S1024 .f32)
  :: [] )

def kP1 : List (HloOp τ sig (Elt F)) :=
  ( StableHlo.unary main_v2 main_v14 ((extractStridedSlice S1x1024 ![1, 0] · slices_S10x1024_S1x1024_1_0) : Vec F S10x1024 .f32 → Vec F S1x1024 .f32)
  :: StableHlo.reshape main_v14 main_v15 rfl shapeCasts_S1x1024_S1024
  :: StableHlo.nullary main_c_50 (constantI S_ 32 1024#32)
  :: StableHlo.unary main_c_50 main_v16 (broadcastInDim S1024 ![] bcast_S_S1024 : Vec F S_ .i32 → Vec F S1024 .i32)
  :: StableHlo.binary main_c_1 main_v16 main_v17 (addi : Vec F S1024 .i32 → Vec F S1024 .i32 → Vec F S1024 .i32)
  :: StableHlo.ternary main_c_2 main_v17 main_c_1 main_v18 (select : Vec F S1024 .i1 → Vec F S1024 .i32 → Vec F S1024 .i32 → Vec F S1024 .i32)
  :: StableHlo.unary main_v18 main_v19 (broadcastInDim S1024x1 ![0] bcast_S1024_S1024x1_0 : Vec F S1024 .i32 → Vec F S1024x1 .i32)
  :: StableHlo.binary main_v15 main_v19 main_v20 ((fun x i => Host.gather gather_S1024_S1024x1_S1024_n_0_n_n_0_1_1 x i) : Vec F S1024 .f32 → Vec F S1024x1 .i32 → Vec F S1024 .f32)
  :: [] )

def kP2 : List (HloOp τ sig (Elt F)) :=
  ( StableHlo.unary main_v2 main_v21 ((extractStridedSlice S1x1024 ![2, 0] · slices_S10x1024_S1x1024_2_0) : Vec F S10x1024 .f32 → Vec F S1x1024 .f32)
  :: StableHlo.reshape main_v21 main_v22 rfl shapeCasts_S1x1024_S1024
  :: StableHlo.nullary main_c_51 (constantI S_ 32 1024#32)
  :: StableHlo.unary main_c_51 main_v23 (broadcastInDim S1024 ![] bcast_S_S1024 : Vec F S_ .i32 → Vec F S1024 .i32)
  :: StableHlo.binary main_c_3 main_v23 main_v24 (addi : Vec F S1024 .i32 → Vec F S1024 .i32 → Vec F S1024 .i32)
  :: StableHlo.ternary main_c_4 main_v24 main_c_3 main_v25 (select : Vec F S1024 .i1 → Vec F S1024 .i32 → Vec F S1024 .i32 → Vec F S1024 .i32)
  :: StableHlo.unary main_v25 main_v26 (broadcastInDim S1024x1 ![0] bcast_S1024_S1024x1_0 : Vec F S1024 .i32 → Vec F S1024x1 .i32)
  :: StableHlo.binary main_v22 main_v26 main_v27 ((fun x i => Host.gather gather_S1024_S1024x1_S1024_n_0_n_n_0_1_1 x i) : Vec F S1024 .f32 → Vec F S1024x1 .i32 → Vec F S1024 .f32)
  :: [] )

def kP3 : List (HloOp τ sig (Elt F)) :=
  ( StableHlo.unary main_v2 main_v28 ((extractStridedSlice S1x1024 ![3, 0] · slices_S10x1024_S1x1024_3_0) : Vec F S10x1024 .f32 → Vec F S1x1024 .f32)
  :: StableHlo.reshape main_v28 main_v29 rfl shapeCasts_S1x1024_S1024
  :: StableHlo.nullary main_c_52 (constantI S_ 32 1024#32)
  :: StableHlo.unary main_c_52 main_v30 (broadcastInDim S1024 ![] bcast_S_S1024 : Vec F S_ .i32 → Vec F S1024 .i32)
  :: StableHlo.binary main_c_5 main_v30 main_v31 (addi : Vec F S1024 .i32 → Vec F S1024 .i32 → Vec F S1024 .i32)
  :: StableHlo.ternary main_c_6 main_v31 main_c_5 main_v32 (select : Vec F S1024 .i1 → Vec F S1024 .i32 → Vec F S1024 .i32 → Vec F S1024 .i32)
  :: StableHlo.unary main_v32 main_v33 (broadcastInDim S1024x1 ![0] bcast_S1024_S1024x1_0 : Vec F S1024 .i32 → Vec F S1024x1 .i32)
  :: StableHlo.binary main_v29 main_v33 main_v34 ((fun x i => Host.gather gather_S1024_S1024x1_S1024_n_0_n_n_0_1_1 x i) : Vec F S1024 .f32 → Vec F S1024x1 .i32 → Vec F S1024 .f32)
  :: [] )

def kP4 : List (HloOp τ sig (Elt F)) :=
  ( StableHlo.unary main_v2 main_v35 ((extractStridedSlice S1x1024 ![4, 0] · slices_S10x1024_S1x1024_4_0) : Vec F S10x1024 .f32 → Vec F S1x1024 .f32)
  :: StableHlo.reshape main_v35 main_v36 rfl shapeCasts_S1x1024_S1024
  :: StableHlo.nullary main_c_53 (constantI S_ 32 1024#32)
  :: StableHlo.unary main_c_53 main_v37 (broadcastInDim S1024 ![] bcast_S_S1024 : Vec F S_ .i32 → Vec F S1024 .i32)
  :: StableHlo.binary main_c_7 main_v37 main_v38 (addi : Vec F S1024 .i32 → Vec F S1024 .i32 → Vec F S1024 .i32)
  :: StableHlo.ternary main_c_8 main_v38 main_c_7 main_v39 (select : Vec F S1024 .i1 → Vec F S1024 .i32 → Vec F S1024 .i32 → Vec F S1024 .i32)
  :: StableHlo.unary main_v39 main_v40 (broadcastInDim S1024x1 ![0] bcast_S1024_S1024x1_0 : Vec F S1024 .i32 → Vec F S1024x1 .i32)
  :: StableHlo.binary main_v36 main_v40 main_v41 ((fun x i => Host.gather gather_S1024_S1024x1_S1024_n_0_n_n_0_1_1 x i) : Vec F S1024 .f32 → Vec F S1024x1 .i32 → Vec F S1024 .f32)
  :: [] )

def kP5 : List (HloOp τ sig (Elt F)) :=
  ( StableHlo.unary main_v2 main_v42 ((extractStridedSlice S1x1024 ![5, 0] · slices_S10x1024_S1x1024_5_0) : Vec F S10x1024 .f32 → Vec F S1x1024 .f32)
  :: StableHlo.reshape main_v42 main_v43 rfl shapeCasts_S1x1024_S1024
  :: StableHlo.nullary main_c_54 (constantI S_ 32 1024#32)
  :: StableHlo.unary main_c_54 main_v44 (broadcastInDim S1024 ![] bcast_S_S1024 : Vec F S_ .i32 → Vec F S1024 .i32)
  :: StableHlo.binary main_c_9 main_v44 main_v45 (addi : Vec F S1024 .i32 → Vec F S1024 .i32 → Vec F S1024 .i32)
  :: StableHlo.ternary main_c_10 main_v45 main_c_9 main_v46 (select : Vec F S1024 .i1 → Vec F S1024 .i32 → Vec F S1024 .i32 → Vec F S1024 .i32)
  :: StableHlo.unary main_v46 main_v47 (broadcastInDim S1024x1 ![0] bcast_S1024_S1024x1_0 : Vec F S1024 .i32 → Vec F S1024x1 .i32)
  :: StableHlo.binary main_v43 main_v47 main_v48 ((fun x i => Host.gather gather_S1024_S1024x1_S1024_n_0_n_n_0_1_1 x i) : Vec F S1024 .f32 → Vec F S1024x1 .i32 → Vec F S1024 .f32)
  :: [] )

def kP6 : List (HloOp τ sig (Elt F)) :=
  ( StableHlo.unary main_v2 main_v49 ((extractStridedSlice S1x1024 ![6, 0] · slices_S10x1024_S1x1024_6_0) : Vec F S10x1024 .f32 → Vec F S1x1024 .f32)
  :: StableHlo.reshape main_v49 main_v50 rfl shapeCasts_S1x1024_S1024
  :: StableHlo.nullary main_c_55 (constantI S_ 32 1024#32)
  :: StableHlo.unary main_c_55 main_v51 (broadcastInDim S1024 ![] bcast_S_S1024 : Vec F S_ .i32 → Vec F S1024 .i32)
  :: StableHlo.binary main_c_11 main_v51 main_v52 (addi : Vec F S1024 .i32 → Vec F S1024 .i32 → Vec F S1024 .i32)
  :: StableHlo.ternary main_c_12 main_v52 main_c_11 main_v53 (select : Vec F S1024 .i1 → Vec F S1024 .i32 → Vec F S1024 .i32 → Vec F S1024 .i32)
  :: StableHlo.unary main_v53 main_v54 (broadcastInDim S1024x1 ![0] bcast_S1024_S1024x1_0 : Vec F S1024 .i32 → Vec F S1024x1 .i32)
  :: StableHlo.binary main_v50 main_v54 main_v55 ((fun x i => Host.gather gather_S1024_S1024x1_S1024_n_0_n_n_0_1_1 x i) : Vec F S1024 .f32 → Vec F S1024x1 .i32 → Vec F S1024 .f32)
  :: [] )

def kP7 : List (HloOp τ sig (Elt F)) :=
  ( StableHlo.unary main_v2 main_v56 ((extractStridedSlice S1x1024 ![7, 0] · slices_S10x1024_S1x1024_7_0) : Vec F S10x1024 .f32 → Vec F S1x1024 .f32)
  :: StableHlo.reshape main_v56 main_v57 rfl shapeCasts_S1x1024_S1024
  :: StableHlo.nullary main_c_56 (constantI S_ 32 1024#32)
  :: StableHlo.unary main_c_56 main_v58 (broadcastInDim S1024 ![] bcast_S_S1024 : Vec F S_ .i32 → Vec F S1024 .i32)
  :: StableHlo.binary main_c_13 main_v58 main_v59 (addi : Vec F S1024 .i32 → Vec F S1024 .i32 → Vec F S1024 .i32)
  :: StableHlo.ternary main_c_14 main_v59 main_c_13 main_v60 (select : Vec F S1024 .i1 → Vec F S1024 .i32 → Vec F S1024 .i32 → Vec F S1024 .i32)
  :: StableHlo.unary main_v60 main_v61 (broadcastInDim S1024x1 ![0] bcast_S1024_S1024x1_0 : Vec F S1024 .i32 → Vec F S1024x1 .i32)
  :: StableHlo.binary main_v57 main_v61 main_v62 ((fun x i => Host.gather gather_S1024_S1024x1_S1024_n_0_n_n_0_1_1 x i) : Vec F S1024 .f32 → Vec F S1024x1 .i32 → Vec F S1024 .f32)
  :: [] )

def kP8 : List (HloOp τ sig (Elt F)) :=
  ( StableHlo.unary main_v2 main_v63 ((extractStridedSlice S1x1024 ![8, 0] · slices_S10x1024_S1x1024_8_0) : Vec F S10x1024 .f32 → Vec F S1x1024 .f32)
  :: StableHlo.reshape main_v63 main_v64 rfl shapeCasts_S1x1024_S1024
  :: StableHlo.nullary main_c_57 (constantI S_ 32 1024#32)
  :: StableHlo.unary main_c_57 main_v65 (broadcastInDim S1024 ![] bcast_S_S1024 : Vec F S_ .i32 → Vec F S1024 .i32)
  :: StableHlo.binary main_c_15 main_v65 main_v66 (addi : Vec F S1024 .i32 → Vec F S1024 .i32 → Vec F S1024 .i32)
  :: StableHlo.ternary main_c_16 main_v66 main_c_15 main_v67 (select : Vec F S1024 .i1 → Vec F S1024 .i32 → Vec F S1024 .i32 → Vec F S1024 .i32)
  :: StableHlo.unary main_v67 main_v68 (broadcastInDim S1024x1 ![0] bcast_S1024_S1024x1_0 : Vec F S1024 .i32 → Vec F S1024x1 .i32)
  :: StableHlo.binary main_v64 main_v68 main_v69 ((fun x i => Host.gather gather_S1024_S1024x1_S1024_n_0_n_n_0_1_1 x i) : Vec F S1024 .f32 → Vec F S1024x1 .i32 → Vec F S1024 .f32)
  :: [] )

def kP9 : List (HloOp τ sig (Elt F)) :=
  ( StableHlo.unary main_v2 main_v70 ((extractStridedSlice S1x1024 ![9, 0] · slices_S10x1024_S1x1024_9_0) : Vec F S10x1024 .f32 → Vec F S1x1024 .f32)
  :: StableHlo.reshape main_v70 main_v71 rfl shapeCasts_S1x1024_S1024
  :: StableHlo.nullary main_c_58 (constantI S_ 32 1024#32)
  :: StableHlo.unary main_c_58 main_v72 (broadcastInDim S1024 ![] bcast_S_S1024 : Vec F S_ .i32 → Vec F S1024 .i32)
  :: StableHlo.binary main_c_17 main_v72 main_v73 (addi : Vec F S1024 .i32 → Vec F S1024 .i32 → Vec F S1024 .i32)
  :: StableHlo.ternary main_c_18 main_v73 main_c_17 main_v74 (select : Vec F S1024 .i1 → Vec F S1024 .i32 → Vec F S1024 .i32 → Vec F S1024 .i32)
  :: StableHlo.unary main_v74 main_v75 (broadcastInDim S1024x1 ![0] bcast_S1024_S1024x1_0 : Vec F S1024 .i32 → Vec F S1024x1 .i32)
  :: StableHlo.binary main_v71 main_v75 main_v76 ((fun x i => Host.gather gather_S1024_S1024x1_S1024_n_0_n_n_0_1_1 x i) : Vec F S1024 .f32 → Vec F S1024x1 .i32 → Vec F S1024 .f32)
  :: [] )

def kPb : List (HloOp τ sig (Elt F)) :=
  ( StableHlo.unary main_v13 main_v77 (broadcastInDim S1x1024 ![1] bcast_S1024_S1x1024_1 : Vec F S1024 .f32 → Vec F S1x1024 .f32)
  :: StableHlo.unary main_v20 main_v78 (broadcastInDim S1x1024 ![1] bcast_S1024_S1x1024_1 : Vec F S1024 .f32 → Vec F S1x1024 .f32)
  :: StableHlo.unary main_v27 main_v79 (broadcastInDim S1x1024 ![1] bcast_S1024_S1x1024_1 : Vec F S1024 .f32 → Vec F S1x1024 .f32)
  :: StableHlo.unary main_v34 main_v80 (broadcastInDim S1x1024 ![1] bcast_S1024_S1x1024_1 : Vec F S1024 .f32 → Vec F S1x1024 .f32)
  :: StableHlo.unary main_v41 main_v81 (broadcastInDim S1x1024 ![1] bcast_S1024_S1x1024_1 : Vec F S1024 .f32 → Vec F S1x1024 .f32)
  :: StableHlo.unary main_v48 main_v82 (broadcastInDim S1x1024 ![1] bcast_S1024_S1x1024_1 : Vec F S1024 .f32 → Vec F S1x1024 .f32)
  :: StableHlo.unary main_v55 main_v83 (broadcastInDim S1x1024 ![1] bcast_S1024_S1x1024_1 : Vec F S1024 .f32 → Vec F S1x1024 .f32)
  :: StableHlo.unary main_v62 main_v84 (broadcastInDim S1x1024 ![1] bcast_S1024_S1x1024_1 : Vec F S1024 .f32 → Vec F S1x1024 .f32)
  :: StableHlo.unary main_v69 main_v85 (broadcastInDim S1x1024 ![1] bcast_S1024_S1x1024_1 : Vec F S1024 .f32 → Vec F S1x1024 .f32)
  :: StableHlo.unary main_v76 main_v86 (broadcastInDim S1x1024 ![1] bcast_S1024_S1x1024_1 : Vec F S1024 .f32 → Vec F S1x1024 .f32)
  :: [] )

def kPn : List (HloOp τ sig (Elt F)) :=
  ( StableHlo.nary ![main_v77, main_v78, main_v79, main_v80, main_v81, main_v82, main_v83, main_v84, main_v85, main_v86] main_v87 (fun u => concatenate S10x1024 0 [⟨S1x1024, u 0⟩, ⟨S1x1024, u 1⟩, ⟨S1x1024, u 2⟩, ⟨S1x1024, u 3⟩, ⟨S1x1024, u 4⟩, ⟨S1x1024, u 5⟩, ⟨S1x1024, u 6⟩, ⟨S1x1024, u 7⟩, ⟨S1x1024, u 8⟩, ⟨S1x1024, u 9⟩] concatenates_S1x1024_S1x1024_S1x1024_S1x1024_S1x1024_S1x1024_S1x1024_S1x1024_S1x1024_S1x1024_S10x1024_d0)
  :: [] )

def kQ0 : List (HloOp τ sig (Elt F)) :=
  ( StableHlo.unary main_v6 main_v88 ((extractStridedSlice S1x1024 ![0, 0] · slices_S10x1024_S1x1024_0_0) : Vec F S10x1024 .f32 → Vec F S1x1024 .f32)
  :: StableHlo.reshape main_v88 main_v89 rfl shapeCasts_S1x1024_S1024
  :: StableHlo.nullary main_c_59 (constantI S_ 32 1024#32)
  :: StableHlo.unary main_c_59 main_v90 (broadcastInDim S1024 ![] bcast_S_S1024 : Vec F S_ .i32 → Vec F S1024 .i32)
  :: StableHlo.binary main_c main_v90 main_v91 (addi : Vec F S1024 .i32 → Vec F S1024 .i32 → Vec F S1024 .i32)
  :: StableHlo.ternary main_c_19 main_v91 main_c main_v92 (select : Vec F S1024 .i1 → Vec F S1024 .i32 → Vec F S1024 .i32 → Vec F S1024 .i32)
  :: StableHlo.unary main_v92 main_v93 (broadcastInDim S1024x1 ![0] bcast_S1024_S1024x1_0 : Vec F S1024 .i32 → Vec F S1024x1 .i32)
  :: StableHlo.binary main_v89 main_v93 main_v94 ((fun x i => Host.gather gather_S1024_S1024x1_S1024_n_0_n_n_0_1_1 x i) : Vec F S1024 .f32 → Vec F S1024x1 .i32 → Vec F S1024 .f32)
  :: [] )

def kQ1 : List (HloOp τ sig (Elt F)) :=
  ( StableHlo.unary main_v6 main_v95 ((extractStridedSlice S1x1024 ![1, 0] · slices_S10x1024_S1x1024_1_0) : Vec F S10x1024 .f32 → Vec F S1x1024 .f32)
  :: StableHlo.reshape main_v95 main_v96 rfl shapeCasts_S1x1024_S1024
  :: StableHlo.nullary main_c_60 (constantI S_ 32 1024#32)
  :: StableHlo.unary main_c_60 main_v97 (broadcastInDim S1024 ![] bcast_S_S1024 : Vec F S_ .i32 → Vec F S1024 .i32)
  :: StableHlo.binary main_c_1 main_v97 main_v98 (addi : Vec F S1024 .i32 → Vec F S1024 .i32 → Vec F S1024 .i32)
  :: StableHlo.ternary main_c_20 main_v98 main_c_1 main_v99 (select : Vec F S1024 .i1 → Vec F S1024 .i32 → Vec F S1024 .i32 → Vec F S1024 .i32)
  :: StableHlo.unary main_v99 main_v100 (broadcastInDim S1024x1 ![0] bcast_S1024_S1024x1_0 : Vec F S1024 .i32 → Vec F S1024x1 .i32)
  :: StableHlo.binary main_v96 main_v100 main_v101 ((fun x i => Host.gather gather_S1024_S1024x1_S1024_n_0_n_n_0_1_1 x i) : Vec F S1024 .f32 → Vec F S1024x1 .i32 → Vec F S1024 .f32)
  :: [] )

def kQ2 : List (HloOp τ sig (Elt F)) :=
  ( StableHlo.unary main_v6 main_v102 ((extractStridedSlice S1x1024 ![2, 0] · slices_S10x1024_S1x1024_2_0) : Vec F S10x1024 .f32 → Vec F S1x1024 .f32)
  :: StableHlo.reshape main_v102 main_v103 rfl shapeCasts_S1x1024_S1024
  :: StableHlo.nullary main_c_61 (constantI S_ 32 1024#32)
  :: StableHlo.unary main_c_61 main_v104 (broadcastInDim S1024 ![] bcast_S_S1024 : Vec F S_ .i32 → Vec F S1024 .i32)
  :: StableHlo.binary main_c_3 main_v104 main_v105 (addi : Vec F S1024 .i32 → Vec F S1024 .i32 → Vec F S1024 .i32)
  :: StableHlo.ternary main_c_21 main_v105 main_c_3 main_v106 (select : Vec F S1024 .i1 → Vec F S1024 .i32 → Vec F S1024 .i32 → Vec F S1024 .i32)
  :: StableHlo.unary main_v106 main_v107 (broadcastInDim S1024x1 ![0] bcast_S1024_S1024x1_0 : Vec F S1024 .i32 → Vec F S1024x1 .i32)
  :: StableHlo.binary main_v103 main_v107 main_v108 ((fun x i => Host.gather gather_S1024_S1024x1_S1024_n_0_n_n_0_1_1 x i) : Vec F S1024 .f32 → Vec F S1024x1 .i32 → Vec F S1024 .f32)
  :: [] )

def kQ3 : List (HloOp τ sig (Elt F)) :=
  ( StableHlo.unary main_v6 main_v109 ((extractStridedSlice S1x1024 ![3, 0] · slices_S10x1024_S1x1024_3_0) : Vec F S10x1024 .f32 → Vec F S1x1024 .f32)
  :: StableHlo.reshape main_v109 main_v110 rfl shapeCasts_S1x1024_S1024
  :: StableHlo.nullary main_c_62 (constantI S_ 32 1024#32)
  :: StableHlo.unary main_c_62 main_v111 (broadcastInDim S1024 ![] bcast_S_S1024 : Vec F S_ .i32 → Vec F S1024 .i32)
  :: StableHlo.binary main_c_5 main_v111 main_v112 (addi : Vec F S1024 .i32 → Vec F S1024 .i32 → Vec F S1024 .i32)
  :: StableHlo.ternary main_c_22 main_v112 main_c_5 main_v113 (select : Vec F S1024 .i1 → Vec F S1024 .i32 → Vec F S1024 .i32 → Vec F S1024 .i32)
  :: StableHlo.unary main_v113 main_v114 (broadcastInDim S1024x1 ![0] bcast_S1024_S1024x1_0 : Vec F S1024 .i32 → Vec F S1024x1 .i32)
  :: StableHlo.binary main_v110 main_v114 main_v115 ((fun x i => Host.gather gather_S1024_S1024x1_S1024_n_0_n_n_0_1_1 x i) : Vec F S1024 .f32 → Vec F S1024x1 .i32 → Vec F S1024 .f32)
  :: [] )

def kQ4 : List (HloOp τ sig (Elt F)) :=
  ( StableHlo.unary main_v6 main_v116 ((extractStridedSlice S1x1024 ![4, 0] · slices_S10x1024_S1x1024_4_0) : Vec F S10x1024 .f32 → Vec F S1x1024 .f32)
  :: StableHlo.reshape main_v116 main_v117 rfl shapeCasts_S1x1024_S1024
  :: StableHlo.nullary main_c_63 (constantI S_ 32 1024#32)
  :: StableHlo.unary main_c_63 main_v118 (broadcastInDim S1024 ![] bcast_S_S1024 : Vec F S_ .i32 → Vec F S1024 .i32)
  :: StableHlo.binary main_c_7 main_v118 main_v119 (addi : Vec F S1024 .i32 → Vec F S1024 .i32 → Vec F S1024 .i32)
  :: StableHlo.ternary main_c_23 main_v119 main_c_7 main_v120 (select : Vec F S1024 .i1 → Vec F S1024 .i32 → Vec F S1024 .i32 → Vec F S1024 .i32)
  :: StableHlo.unary main_v120 main_v121 (broadcastInDim S1024x1 ![0] bcast_S1024_S1024x1_0 : Vec F S1024 .i32 → Vec F S1024x1 .i32)
  :: StableHlo.binary main_v117 main_v121 main_v122 ((fun x i => Host.gather gather_S1024_S1024x1_S1024_n_0_n_n_0_1_1 x i) : Vec F S1024 .f32 → Vec F S1024x1 .i32 → Vec F S1024 .f32)
  :: [] )

def kQ5 : List (HloOp τ sig (Elt F)) :=
  ( StableHlo.unary main_v6 main_v123 ((extractStridedSlice S1x1024 ![5, 0] · slices_S10x1024_S1x1024_5_0) : Vec F S10x1024 .f32 → Vec F S1x1024 .f32)
  :: StableHlo.reshape main_v123 main_v124 rfl shapeCasts_S1x1024_S1024
  :: StableHlo.nullary main_c_64 (constantI S_ 32 1024#32)
  :: StableHlo.unary main_c_64 main_v125 (broadcastInDim S1024 ![] bcast_S_S1024 : Vec F S_ .i32 → Vec F S1024 .i32)
  :: StableHlo.binary main_c_9 main_v125 main_v126 (addi : Vec F S1024 .i32 → Vec F S1024 .i32 → Vec F S1024 .i32)
  :: StableHlo.ternary main_c_24 main_v126 main_c_9 main_v127 (select : Vec F S1024 .i1 → Vec F S1024 .i32 → Vec F S1024 .i32 → Vec F S1024 .i32)
  :: StableHlo.unary main_v127 main_v128 (broadcastInDim S1024x1 ![0] bcast_S1024_S1024x1_0 : Vec F S1024 .i32 → Vec F S1024x1 .i32)
  :: StableHlo.binary main_v124 main_v128 main_v129 ((fun x i => Host.gather gather_S1024_S1024x1_S1024_n_0_n_n_0_1_1 x i) : Vec F S1024 .f32 → Vec F S1024x1 .i32 → Vec F S1024 .f32)
  :: [] )

def kQ6 : List (HloOp τ sig (Elt F)) :=
  ( StableHlo.unary main_v6 main_v130 ((extractStridedSlice S1x1024 ![6, 0] · slices_S10x1024_S1x1024_6_0) : Vec F S10x1024 .f32 → Vec F S1x1024 .f32)
  :: StableHlo.reshape main_v130 main_v131 rfl shapeCasts_S1x1024_S1024
  :: StableHlo.nullary main_c_65 (constantI S_ 32 1024#32)
  :: StableHlo.unary main_c_65 main_v132 (broadcastInDim S1024 ![] bcast_S_S1024 : Vec F S_ .i32 → Vec F S1024 .i32)
  :: StableHlo.binary main_c_11 main_v132 main_v133 (addi : Vec F S1024 .i32 → Vec F S1024 .i32 → Vec F S1024 .i32)
  :: StableHlo.ternary main_c_25 main_v133 main_c_11 main_v134 (select : Vec F S1024 .i1 → Vec F S1024 .i32 → Vec F S1024 .i32 → Vec F S1024 .i32)
  :: StableHlo.unary main_v134 main_v135 (broadcastInDim S1024x1 ![0] bcast_S1024_S1024x1_0 : Vec F S1024 .i32 → Vec F S1024x1 .i32)
  :: StableHlo.binary main_v131 main_v135 main_v136 ((fun x i => Host.gather gather_S1024_S1024x1_S1024_n_0_n_n_0_1_1 x i) : Vec F S1024 .f32 → Vec F S1024x1 .i32 → Vec F S1024 .f32)
  :: [] )

def kQ7 : List (HloOp τ sig (Elt F)) :=
  ( StableHlo.unary main_v6 main_v137 ((extractStridedSlice S1x1024 ![7, 0] · slices_S10x1024_S1x1024_7_0) : Vec F S10x1024 .f32 → Vec F S1x1024 .f32)
  :: StableHlo.reshape main_v137 main_v138 rfl shapeCasts_S1x1024_S1024
  :: StableHlo.nullary main_c_66 (constantI S_ 32 1024#32)
  :: StableHlo.unary main_c_66 main_v139 (broadcastInDim S1024 ![] bcast_S_S1024 : Vec F S_ .i32 → Vec F S1024 .i32)
  :: StableHlo.binary main_c_13 main_v139 main_v140 (addi : Vec F S1024 .i32 → Vec F S1024 .i32 → Vec F S1024 .i32)
  :: StableHlo.ternary main_c_26 main_v140 main_c_13 main_v141 (select : Vec F S1024 .i1 → Vec F S1024 .i32 → Vec F S1024 .i32 → Vec F S1024 .i32)
  :: StableHlo.unary main_v141 main_v142 (broadcastInDim S1024x1 ![0] bcast_S1024_S1024x1_0 : Vec F S1024 .i32 → Vec F S1024x1 .i32)
  :: StableHlo.binary main_v138 main_v142 main_v143 ((fun x i => Host.gather gather_S1024_S1024x1_S1024_n_0_n_n_0_1_1 x i) : Vec F S1024 .f32 → Vec F S1024x1 .i32 → Vec F S1024 .f32)
  :: [] )

def kQ8 : List (HloOp τ sig (Elt F)) :=
  ( StableHlo.unary main_v6 main_v144 ((extractStridedSlice S1x1024 ![8, 0] · slices_S10x1024_S1x1024_8_0) : Vec F S10x1024 .f32 → Vec F S1x1024 .f32)
  :: StableHlo.reshape main_v144 main_v145 rfl shapeCasts_S1x1024_S1024
  :: StableHlo.nullary main_c_67 (constantI S_ 32 1024#32)
  :: StableHlo.unary main_c_67 main_v146 (broadcastInDim S1024 ![] bcast_S_S1024 : Vec F S_ .i32 → Vec F S1024 .i32)
  :: StableHlo.binary main_c_15 main_v146 main_v147 (addi : Vec F S1024 .i32 → Vec F S1024 .i32 → Vec F S1024 .i32)
  :: StableHlo.ternary main_c_27 main_v147 main_c_15 main_v148 (select : Vec F S1024 .i1 → Vec F S1024 .i32 → Vec F S1024 .i32 → Vec F S1024 .i32)
  :: StableHlo.unary main_v148 main_v149 (broadcastInDim S1024x1 ![0] bcast_S1024_S1024x1_0 : Vec F S1024 .i32 → Vec F S1024x1 .i32)
  :: StableHlo.binary main_v145 main_v149 main_v150 ((fun x i => Host.gather gather_S1024_S1024x1_S1024_n_0_n_n_0_1_1 x i) : Vec F S1024 .f32 → Vec F S1024x1 .i32 → Vec F S1024 .f32)
  :: [] )

def kQ9 : List (HloOp τ sig (Elt F)) :=
  ( StableHlo.unary main_v6 main_v151 ((extractStridedSlice S1x1024 ![9, 0] · slices_S10x1024_S1x1024_9_0) : Vec F S10x1024 .f32 → Vec F S1x1024 .f32)
  :: StableHlo.reshape main_v151 main_v152 rfl shapeCasts_S1x1024_S1024
  :: StableHlo.nullary main_c_68 (constantI S_ 32 1024#32)
  :: StableHlo.unary main_c_68 main_v153 (broadcastInDim S1024 ![] bcast_S_S1024 : Vec F S_ .i32 → Vec F S1024 .i32)
  :: StableHlo.binary main_c_17 main_v153 main_v154 (addi : Vec F S1024 .i32 → Vec F S1024 .i32 → Vec F S1024 .i32)
  :: StableHlo.ternary main_c_28 main_v154 main_c_17 main_v155 (select : Vec F S1024 .i1 → Vec F S1024 .i32 → Vec F S1024 .i32 → Vec F S1024 .i32)
  :: StableHlo.unary main_v155 main_v156 (broadcastInDim S1024x1 ![0] bcast_S1024_S1024x1_0 : Vec F S1024 .i32 → Vec F S1024x1 .i32)
  :: StableHlo.binary main_v152 main_v156 main_v157 ((fun x i => Host.gather gather_S1024_S1024x1_S1024_n_0_n_n_0_1_1 x i) : Vec F S1024 .f32 → Vec F S1024x1 .i32 → Vec F S1024 .f32)
  :: [] )

def kQb : List (HloOp τ sig (Elt F)) :=
  ( StableHlo.unary main_v94 main_v158 (broadcastInDim S1x1024 ![1] bcast_S1024_S1x1024_1 : Vec F S1024 .f32 → Vec F S1x1024 .f32)
  :: StableHlo.unary main_v101 main_v159 (broadcastInDim S1x1024 ![1] bcast_S1024_S1x1024_1 : Vec F S1024 .f32 → Vec F S1x1024 .f32)
  :: StableHlo.unary main_v108 main_v160 (broadcastInDim S1x1024 ![1] bcast_S1024_S1x1024_1 : Vec F S1024 .f32 → Vec F S1x1024 .f32)
  :: StableHlo.unary main_v115 main_v161 (broadcastInDim S1x1024 ![1] bcast_S1024_S1x1024_1 : Vec F S1024 .f32 → Vec F S1x1024 .f32)
  :: StableHlo.unary main_v122 main_v162 (broadcastInDim S1x1024 ![1] bcast_S1024_S1x1024_1 : Vec F S1024 .f32 → Vec F S1x1024 .f32)
  :: StableHlo.unary main_v129 main_v163 (broadcastInDim S1x1024 ![1] bcast_S1024_S1x1024_1 : Vec F S1024 .f32 → Vec F S1x1024 .f32)
  :: StableHlo.unary main_v136 main_v164 (broadcastInDim S1x1024 ![1] bcast_S1024_S1x1024_1 : Vec F S1024 .f32 → Vec F S1x1024 .f32)
  :: StableHlo.unary main_v143 main_v165 (broadcastInDim S1x1024 ![1] bcast_S1024_S1x1024_1 : Vec F S1024 .f32 → Vec F S1x1024 .f32)
  :: StableHlo.unary main_v150 main_v166 (broadcastInDim S1x1024 ![1] bcast_S1024_S1x1024_1 : Vec F S1024 .f32 → Vec F S1x1024 .f32)
  :: StableHlo.unary main_v157 main_v167 (broadcastInDim S1x1024 ![1] bcast_S1024_S1x1024_1 : Vec F S1024 .f32 → Vec F S1x1024 .f32)
  :: [] )

def kQn : List (HloOp τ sig (Elt F)) :=
  ( StableHlo.nary ![main_v158, main_v159, main_v160, main_v161, main_v162, main_v163, main_v164, main_v165, main_v166, main_v167] main_v168 (fun u => concatenate S10x1024 0 [⟨S1x1024, u 0⟩, ⟨S1x1024, u 1⟩, ⟨S1x1024, u 2⟩, ⟨S1x1024, u 3⟩, ⟨S1x1024, u 4⟩, ⟨S1x1024, u 5⟩, ⟨S1x1024, u 6⟩, ⟨S1x1024, u 7⟩, ⟨S1x1024, u 8⟩, ⟨S1x1024, u 9⟩] concatenates_S1x1024_S1x1024_S1x1024_S1x1024_S1x1024_S1x1024_S1x1024_S1x1024_S1x1024_S1x1024_S10x1024_d0)
  :: [] )

def kEye : List (HloOp τ sig (Elt F)) :=
  ( StableHlo.nullary main_v169 (iotaInDim S1024x1024 32 0)
  :: StableHlo.nullary main_v170 (iotaInDim S1024x1024 32 1)
  :: StableHlo.nullary main_c_69 (constantI S_ 32 0#32)
  :: StableHlo.unary main_c_69 main_v171 (broadcastInDim S1024x1024 ![] bcast_S_S1024x1024 : Vec F S_ .i32 → Vec F S1024x1024 .i32)
  :: StableHlo.binary main_v169 main_v171 main_v172 (addi : Vec F S1024x1024 .i32 → Vec F S1024x1024 .i32 → Vec F S1024x1024 .i32)
  :: StableHlo.binary main_v172 main_v170 main_v173 (cmpi .eq : Vec F S1024x1024 .i32 → Vec F S1024x1024 .i32 → Vec F S1024x1024 .i1)
  :: StableHlo.unary main_v173 main_v174 (uitofp .f32 : Vec F S1024x1024 .i1 → Vec F S1024x1024 .f32)
  :: [] )

def kSt0 : List (HloOp τ sig (Elt F)) :=
  ( StableHlo.unary main_v87 main_v175 ((extractStridedSlice S1x1024 ![0, 0] · slices_S10x1024_S1x1024_0_0) : Vec F S10x1024 .f32 → Vec F S1x1024 .f32)
  :: StableHlo.reshape main_v175 main_v176 rfl shapeCasts_S1x1024_S1024
  :: StableHlo.unary main_v176 main_v177 (broadcastInDim S1x1024 ![1] bcast_S1024_S1x1024_1 : Vec F S1024 .f32 → Vec F S1x1024 .f32)
  :: StableHlo.unary main_v177 main_v178 (broadcastInDim S1024x1024 ![0, 1] bcast_S1x1024_S1024x1024_0_1 : Vec F S1x1024 .f32 → Vec F S1024x1024 .f32)
  :: StableHlo.binary main_v174 main_v178 main_v179 (mulf : Vec F S1024x1024 .f32 → Vec F S1024x1024 .f32 → Vec F S1024x1024 .f32)
  :: StableHlo.unary main_v168 main_v180 ((extractStridedSlice S1x1024 ![0, 0] · slices_S10x1024_S1x1024_0_0) : Vec F S10x1024 .f32 → Vec F S1x1024 .f32)
  :: StableHlo.reshape main_v180 main_v181 rfl shapeCasts_S1x1024_S1024
  :: StableHlo.unary main_v181 main_v182 (broadcastInDim S1x1024 ![1] bcast_S1024_S1x1024_1 : Vec F S1024 .f32 → Vec F S1x1024 .f32)
  :: StableHlo.unary main_v182 main_v183 (broadcastInDim S1024x1024 ![0, 1] bcast_S1x1024_S1024x1024_0_1 : Vec F S1x1024 .f32 → Vec F S1024x1024 .f32)
  :: StableHlo.binary main_v174 main_v183 main_v184 (mulf : Vec F S1024x1024 .f32 → Vec F S1024x1024 .f32 → Vec F S1024x1024 .f32)
  :: StableHlo.nullary main_c_70 (constantI S_ 32 1024#32)
  :: StableHlo.unary main_c_70 main_v185 (broadcastInDim S1024 ![] bcast_S_S1024 : Vec F S_ .i32 → Vec F S1024 .i32)
  :: StableHlo.binary main_c_29 main_v185 main_v186 (addi : Vec F S1024 .i32 → Vec F S1024 .i32 → Vec F S1024 .i32)
  :: StableHlo.ternary main_c_30 main_v186 main_c_29 main_v187 (select : Vec F S1024 .i1 → Vec F S1024 .i32 → Vec F S1024 .i32 → Vec F S1024 .i32)
  :: StableHlo.unary main_v187 main_v188 (broadcastInDim S1024x1 ![0] bcast_S1024_S1024x1_0 : Vec F S1024 .i32 → Vec F S1024x1 .i32)
  :: StableHlo.binary main_v184 main_v188 main_v189 ((fun x i => Host.gather gather_S1024x1024_S1024x1_S1024x1024_0_1_n_n_1_1_10241 x i) : Vec F S1024x1024 .f32 → Vec F S1024x1 .i32 → Vec F S1024x1024 .f32)
  :: StableHlo.binary main_v179 main_v189 main_v190 (addf : Vec F S1024x1024 .f32 → Vec F S1024x1024 .f32 → Vec F S1024x1024 .f32)
  :: [] )

def kSt1 : List (HloOp τ sig (Elt F)) :=
  ( StableHlo.unary main_v87 main_v191 ((extractStridedSlice S1x1024 ![1, 0] · slices_S10x1024_S1x1024_1_0) : Vec F S10x1024 .f32 → Vec F S1x1024 .f32)
  :: StableHlo.reshape main_v191 main_v192 rfl shapeCasts_S1x1024_S1024
  :: StableHlo.unary main_v192 main_v193 (broadcastInDim S1x1024 ![1] bcast_S1024_S1x1024_1 : Vec F S1024 .f32 → Vec F S1x1024 .f32)
  :: StableHlo.unary main_v193 main_v194 (broadcastInDim S1024x1024 ![0, 1] bcast_S1x1024_S1024x1024_0_1 : Vec F S1x1024 .f32 → Vec F S1024x1024 .f32)
  :: StableHlo.binary main_v190 main_v194 main_v195 (mulf : Vec F S1024x1024 .f32 → Vec F S1024x1024 .f32 → Vec F S1024x1024 .f32)
  :: StableHlo.unary main_v168 main_v196 ((extractStridedSlice S1x1024 ![1, 0] · slices_S10x1024_S1x1024_1_0) : Vec F S10x1024 .f32 → Vec F S1x1024 .f32)
  :: StableHlo.reshape main_v196 main_v197 rfl shapeCasts_S1x1024_S1024
  :: StableHlo.unary main_v197 main_v198 (broadcastInDim S1x1024 ![1] bcast_S1024_S1x1024_1 : Vec F S1024 .f32 → Vec F S1x1024 .f32)
  :: StableHlo.unary main_v198 main_v199 (broadcastInDim S1024x1024 ![0, 1] bcast_S1x1024_S1024x1024_0_1 : Vec F S1x1024 .f32 → Vec F S1024x1024 .f32)
  :: StableHlo.binary main_v190 main_v199 main_v200 (mulf : Vec F S1024x1024 .f32 → Vec F S1024x1024 .f32 → Vec F S1024x1024 .f32)
  :: StableHlo.nullary main_c_71 (constantI S_ 32 1024#32)
  :: StableHlo.unary main_c_71 main_v201 (broadcastInDim S1024 ![] bcast_S_S1024 : Vec F S_ .i32 → Vec F S1024 .i32)
  :: StableHlo.binary main_c_31 main_v201 main_v202 (addi : Vec F S1024 .i32 → Vec F S1024 .i32 → Vec F S1024 .i32)
  :: StableHlo.ternary main_c_32 main_v202 main_c_31 main_v203 (select : Vec F S1024 .i1 → Vec F S1024 .i32 → Vec F S1024 .i32 → Vec F S1024 .i32)
  :: StableHlo.unary main_v203 main_v204 (broadcastInDim S1024x1 ![0] bcast_S1024_S1024x1_0 : Vec F S1024 .i32 → Vec F S1024x1 .i32)
  :: StableHlo.binary main_v200 main_v204 main_v205 ((fun x i => Host.gather gather_S1024x1024_S1024x1_S1024x1024_0_1_n_n_1_1_10241 x i) : Vec F S1024x1024 .f32 → Vec F S1024x1 .i32 → Vec F S1024x1024 .f32)
  :: StableHlo.binary main_v195 main_v205 main_v206 (addf : Vec F S1024x1024 .f32 → Vec F S1024x1024 .f32 → Vec F S1024x1024 .f32)
  :: [] )

def kSt2 : List (HloOp τ sig (Elt F)) :=
  ( StableHlo.unary main_v87 main_v207 ((extractStridedSlice S1x1024 ![2, 0] · slices_S10x1024_S1x1024_2_0) : Vec F S10x1024 .f32 → Vec F S1x1024 .f32)
  :: StableHlo.reshape main_v207 main_v208 rfl shapeCasts_S1x1024_S1024
  :: StableHlo.unary main_v208 main_v209 (broadcastInDim S1x1024 ![1] bcast_S1024_S1x1024_1 : Vec F S1024 .f32 → Vec F S1x1024 .f32)
  :: StableHlo.unary main_v209 main_v210 (broadcastInDim S1024x1024 ![0, 1] bcast_S1x1024_S1024x1024_0_1 : Vec F S1x1024 .f32 → Vec F S1024x1024 .f32)
  :: StableHlo.binary main_v206 main_v210 main_v211 (mulf : Vec F S1024x1024 .f32 → Vec F S1024x1024 .f32 → Vec F S1024x1024 .f32)
  :: StableHlo.unary main_v168 main_v212 ((extractStridedSlice S1x1024 ![2, 0] · slices_S10x1024_S1x1024_2_0) : Vec F S10x1024 .f32 → Vec F S1x1024 .f32)
  :: StableHlo.reshape main_v212 main_v213 rfl shapeCasts_S1x1024_S1024
  :: StableHlo.unary main_v213 main_v214 (broadcastInDim S1x1024 ![1] bcast_S1024_S1x1024_1 : Vec F S1024 .f32 → Vec F S1x1024 .f32)
  :: StableHlo.unary main_v214 main_v215 (broadcastInDim S1024x1024 ![0, 1] bcast_S1x1024_S1024x1024_0_1 : Vec F S1x1024 .f32 → Vec F S1024x1024 .f32)
  :: StableHlo.binary main_v206 main_v215 main_v216 (mulf : Vec F S1024x1024 .f32 → Vec F S1024x1024 .f32 → Vec F S1024x1024 .f32)
  :: StableHlo.nullary main_c_72 (constantI S_ 32 1024#32)
  :: StableHlo.unary main_c_72 main_v217 (broadcastInDim S1024 ![] bcast_S_S1024 : Vec F S_ .i32 → Vec F S1024 .i32)
  :: StableHlo.binary main_c_33 main_v217 main_v218 (addi : Vec F S1024 .i32 → Vec F S1024 .i32 → Vec F S1024 .i32)
  :: StableHlo.ternary main_c_34 main_v218 main_c_33 main_v219 (select : Vec F S1024 .i1 → Vec F S1024 .i32 → Vec F S1024 .i32 → Vec F S1024 .i32)
  :: StableHlo.unary main_v219 main_v220 (broadcastInDim S1024x1 ![0] bcast_S1024_S1024x1_0 : Vec F S1024 .i32 → Vec F S1024x1 .i32)
  :: StableHlo.binary main_v216 main_v220 main_v221 ((fun x i => Host.gather gather_S1024x1024_S1024x1_S1024x1024_0_1_n_n_1_1_10241 x i) : Vec F S1024x1024 .f32 → Vec F S1024x1 .i32 → Vec F S1024x1024 .f32)
  :: StableHlo.binary main_v211 main_v221 main_v222 (addf : Vec F S1024x1024 .f32 → Vec F S1024x1024 .f32 → Vec F S1024x1024 .f32)
  :: [] )

def kSt3 : List (HloOp τ sig (Elt F)) :=
  ( StableHlo.unary main_v87 main_v223 ((extractStridedSlice S1x1024 ![3, 0] · slices_S10x1024_S1x1024_3_0) : Vec F S10x1024 .f32 → Vec F S1x1024 .f32)
  :: StableHlo.reshape main_v223 main_v224 rfl shapeCasts_S1x1024_S1024
  :: StableHlo.unary main_v224 main_v225 (broadcastInDim S1x1024 ![1] bcast_S1024_S1x1024_1 : Vec F S1024 .f32 → Vec F S1x1024 .f32)
  :: StableHlo.unary main_v225 main_v226 (broadcastInDim S1024x1024 ![0, 1] bcast_S1x1024_S1024x1024_0_1 : Vec F S1x1024 .f32 → Vec F S1024x1024 .f32)
  :: StableHlo.binary main_v222 main_v226 main_v227 (mulf : Vec F S1024x1024 .f32 → Vec F S1024x1024 .f32 → Vec F S1024x1024 .f32)
  :: StableHlo.unary main_v168 main_v228 ((extractStridedSlice S1x1024 ![3, 0] · slices_S10x1024_S1x1024_3_0) : Vec F S10x1024 .f32 → Vec F S1x1024 .f32)
  :: StableHlo.reshape main_v228 main_v229 rfl shapeCasts_S1x1024_S1024
  :: StableHlo.unary main_v229 main_v230 (broadcastInDim S1x1024 ![1] bcast_S1024_S1x1024_1 : Vec F S1024 .f32 → Vec F S1x1024 .f32)
  :: StableHlo.unary main_v230 main_v231 (broadcastInDim S1024x1024 ![0, 1] bcast_S1x1024_S1024x1024_0_1 : Vec F S1x1024 .f32 → Vec F S1024x1024 .f32)
  :: StableHlo.binary main_v222 main_v231 main_v232 (mulf : Vec F S1024x1024 .f32 → Vec F S1024x1024 .f32 → Vec F S1024x1024 .f32)
  :: StableHlo.nullary main_c_73 (constantI S_ 32 1024#32)
  :: StableHlo.unary main_c_73 main_v233 (broadcastInDim S1024 ![] bcast_S_S1024 : Vec F S_ .i32 → Vec F S1024 .i32)
  :: StableHlo.binary main_c_35 main_v233 main_v234 (addi : Vec F S1024 .i32 → Vec F S1024 .i32 → Vec F S1024 .i32)
  :: StableHlo.ternary main_c_36 main_v234 main_c_35 main_v235 (select : Vec F S1024 .i1 → Vec F S1024 .i32 → Vec F S1024 .i32 → Vec F S1024 .i32)
  :: StableHlo.unary main_v235 main_v236 (broadcastInDim S1024x1 ![0] bcast_S1024_S1024x1_0 : Vec F S1024 .i32 → Vec F S1024x1 .i32)
  :: StableHlo.binary main_v232 main_v236 main_v237 ((fun x i => Host.gather gather_S1024x1024_S1024x1_S1024x1024_0_1_n_n_1_1_10241 x i) : Vec F S1024x1024 .f32 → Vec F S1024x1 .i32 → Vec F S1024x1024 .f32)
  :: StableHlo.binary main_v227 main_v237 main_v238 (addf : Vec F S1024x1024 .f32 → Vec F S1024x1024 .f32 → Vec F S1024x1024 .f32)
  :: [] )

def kSt4 : List (HloOp τ sig (Elt F)) :=
  ( StableHlo.unary main_v87 main_v239 ((extractStridedSlice S1x1024 ![4, 0] · slices_S10x1024_S1x1024_4_0) : Vec F S10x1024 .f32 → Vec F S1x1024 .f32)
  :: StableHlo.reshape main_v239 main_v240 rfl shapeCasts_S1x1024_S1024
  :: StableHlo.unary main_v240 main_v241 (broadcastInDim S1x1024 ![1] bcast_S1024_S1x1024_1 : Vec F S1024 .f32 → Vec F S1x1024 .f32)
  :: StableHlo.unary main_v241 main_v242 (broadcastInDim S1024x1024 ![0, 1] bcast_S1x1024_S1024x1024_0_1 : Vec F S1x1024 .f32 → Vec F S1024x1024 .f32)
  :: StableHlo.binary main_v238 main_v242 main_v243 (mulf : Vec F S1024x1024 .f32 → Vec F S1024x1024 .f32 → Vec F S1024x1024 .f32)
  :: StableHlo.unary main_v168 main_v244 ((extractStridedSlice S1x1024 ![4, 0] · slices_S10x1024_S1x1024_4_0) : Vec F S10x1024 .f32 → Vec F S1x1024 .f32)
  :: StableHlo.reshape main_v244 main_v245 rfl shapeCasts_S1x1024_S1024
  :: StableHlo.unary main_v245 main_v246 (broadcastInDim S1x1024 ![1] bcast_S1024_S1x1024_1 : Vec F S1024 .f32 → Vec F S1x1024 .f32)
  :: StableHlo.unary main_v246 main_v247 (broadcastInDim S1024x1024 ![0, 1] bcast_S1x1024_S1024x1024_0_1 : Vec F S1x1024 .f32 → Vec F S1024x1024 .f32)
  :: StableHlo.binary main_v238 main_v247 main_v248 (mulf : Vec F S1024x1024 .f32 → Vec F S1024x1024 .f32 → Vec F S1024x1024 .f32)
  :: StableHlo.nullary main_c_74 (constantI S_ 32 1024#32)
  :: StableHlo.unary main_c_74 main_v249 (broadcastInDim S1024 ![] bcast_S_S1024 : Vec F S_ .i32 → Vec F S1024 .i32)
  :: StableHlo.binary main_c_37 main_v249 main_v250 (addi : Vec F S1024 .i32 → Vec F S1024 .i32 → Vec F S1024 .i32)
  :: StableHlo.ternary main_c_38 main_v250 main_c_37 main_v251 (select : Vec F S1024 .i1 → Vec F S1024 .i32 → Vec F S1024 .i32 → Vec F S1024 .i32)
  :: StableHlo.unary main_v251 main_v252 (broadcastInDim S1024x1 ![0] bcast_S1024_S1024x1_0 : Vec F S1024 .i32 → Vec F S1024x1 .i32)
  :: StableHlo.binary main_v248 main_v252 main_v253 ((fun x i => Host.gather gather_S1024x1024_S1024x1_S1024x1024_0_1_n_n_1_1_10241 x i) : Vec F S1024x1024 .f32 → Vec F S1024x1 .i32 → Vec F S1024x1024 .f32)
  :: StableHlo.binary main_v243 main_v253 main_v254 (addf : Vec F S1024x1024 .f32 → Vec F S1024x1024 .f32 → Vec F S1024x1024 .f32)
  :: [] )

def kSt5 : List (HloOp τ sig (Elt F)) :=
  ( StableHlo.unary main_v87 main_v255 ((extractStridedSlice S1x1024 ![5, 0] · slices_S10x1024_S1x1024_5_0) : Vec F S10x1024 .f32 → Vec F S1x1024 .f32)
  :: StableHlo.reshape main_v255 main_v256 rfl shapeCasts_S1x1024_S1024
  :: StableHlo.unary main_v256 main_v257 (broadcastInDim S1x1024 ![1] bcast_S1024_S1x1024_1 : Vec F S1024 .f32 → Vec F S1x1024 .f32)
  :: StableHlo.unary main_v257 main_v258 (broadcastInDim S1024x1024 ![0, 1] bcast_S1x1024_S1024x1024_0_1 : Vec F S1x1024 .f32 → Vec F S1024x1024 .f32)
  :: StableHlo.binary main_v254 main_v258 main_v259 (mulf : Vec F S1024x1024 .f32 → Vec F S1024x1024 .f32 → Vec F S1024x1024 .f32)
  :: StableHlo.unary main_v168 main_v260 ((extractStridedSlice S1x1024 ![5, 0] · slices_S10x1024_S1x1024_5_0) : Vec F S10x1024 .f32 → Vec F S1x1024 .f32)
  :: StableHlo.reshape main_v260 main_v261 rfl shapeCasts_S1x1024_S1024
  :: StableHlo.unary main_v261 main_v262 (broadcastInDim S1x1024 ![1] bcast_S1024_S1x1024_1 : Vec F S1024 .f32 → Vec F S1x1024 .f32)
  :: StableHlo.unary main_v262 main_v263 (broadcastInDim S1024x1024 ![0, 1] bcast_S1x1024_S1024x1024_0_1 : Vec F S1x1024 .f32 → Vec F S1024x1024 .f32)
  :: StableHlo.binary main_v254 main_v263 main_v264 (mulf : Vec F S1024x1024 .f32 → Vec F S1024x1024 .f32 → Vec F S1024x1024 .f32)
  :: StableHlo.nullary main_c_75 (constantI S_ 32 1024#32)
  :: StableHlo.unary main_c_75 main_v265 (broadcastInDim S1024 ![] bcast_S_S1024 : Vec F S_ .i32 → Vec F S1024 .i32)
  :: StableHlo.binary main_c_39 main_v265 main_v266 (addi : Vec F S1024 .i32 → Vec F S1024 .i32 → Vec F S1024 .i32)
  :: StableHlo.ternary main_c_40 main_v266 main_c_39 main_v267 (select : Vec F S1024 .i1 → Vec F S1024 .i32 → Vec F S1024 .i32 → Vec F S1024 .i32)
  :: StableHlo.unary main_v267 main_v268 (broadcastInDim S1024x1 ![0] bcast_S1024_S1024x1_0 : Vec F S1024 .i32 → Vec F S1024x1 .i32)
  :: StableHlo.binary main_v264 main_v268 main_v269 ((fun x i => Host.gather gather_S1024x1024_S1024x1_S1024x1024_0_1_n_n_1_1_10241 x i) : Vec F S1024x1024 .f32 → Vec F S1024x1 .i32 → Vec F S1024x1024 .f32)
  :: StableHlo.binary main_v259 main_v269 main_v270 (addf : Vec F S1024x1024 .f32 → Vec F S1024x1024 .f32 → Vec F S1024x1024 .f32)
  :: [] )

def kSt6 : List (HloOp τ sig (Elt F)) :=
  ( StableHlo.unary main_v87 main_v271 ((extractStridedSlice S1x1024 ![6, 0] · slices_S10x1024_S1x1024_6_0) : Vec F S10x1024 .f32 → Vec F S1x1024 .f32)
  :: StableHlo.reshape main_v271 main_v272 rfl shapeCasts_S1x1024_S1024
  :: StableHlo.unary main_v272 main_v273 (broadcastInDim S1x1024 ![1] bcast_S1024_S1x1024_1 : Vec F S1024 .f32 → Vec F S1x1024 .f32)
  :: StableHlo.unary main_v273 main_v274 (broadcastInDim S1024x1024 ![0, 1] bcast_S1x1024_S1024x1024_0_1 : Vec F S1x1024 .f32 → Vec F S1024x1024 .f32)
  :: StableHlo.binary main_v270 main_v274 main_v275 (mulf : Vec F S1024x1024 .f32 → Vec F S1024x1024 .f32 → Vec F S1024x1024 .f32)
  :: StableHlo.unary main_v168 main_v276 ((extractStridedSlice S1x1024 ![6, 0] · slices_S10x1024_S1x1024_6_0) : Vec F S10x1024 .f32 → Vec F S1x1024 .f32)
  :: StableHlo.reshape main_v276 main_v277 rfl shapeCasts_S1x1024_S1024
  :: StableHlo.unary main_v277 main_v278 (broadcastInDim S1x1024 ![1] bcast_S1024_S1x1024_1 : Vec F S1024 .f32 → Vec F S1x1024 .f32)
  :: StableHlo.unary main_v278 main_v279 (broadcastInDim S1024x1024 ![0, 1] bcast_S1x1024_S1024x1024_0_1 : Vec F S1x1024 .f32 → Vec F S1024x1024 .f32)
  :: StableHlo.binary main_v270 main_v279 main_v280 (mulf : Vec F S1024x1024 .f32 → Vec F S1024x1024 .f32 → Vec F S1024x1024 .f32)
  :: StableHlo.nullary main_c_76 (constantI S_ 32 1024#32)
  :: StableHlo.unary main_c_76 main_v281 (broadcastInDim S1024 ![] bcast_S_S1024 : Vec F S_ .i32 → Vec F S1024 .i32)
  :: StableHlo.binary main_c_41 main_v281 main_v282 (addi : Vec F S1024 .i32 → Vec F S1024 .i32 → Vec F S1024 .i32)
  :: StableHlo.ternary main_c_42 main_v282 main_c_41 main_v283 (select : Vec F S1024 .i1 → Vec F S1024 .i32 → Vec F S1024 .i32 → Vec F S1024 .i32)
  :: StableHlo.unary main_v283 main_v284 (broadcastInDim S1024x1 ![0] bcast_S1024_S1024x1_0 : Vec F S1024 .i32 → Vec F S1024x1 .i32)
  :: StableHlo.binary main_v280 main_v284 main_v285 ((fun x i => Host.gather gather_S1024x1024_S1024x1_S1024x1024_0_1_n_n_1_1_10241 x i) : Vec F S1024x1024 .f32 → Vec F S1024x1 .i32 → Vec F S1024x1024 .f32)
  :: StableHlo.binary main_v275 main_v285 main_v286 (addf : Vec F S1024x1024 .f32 → Vec F S1024x1024 .f32 → Vec F S1024x1024 .f32)
  :: [] )

def kSt7 : List (HloOp τ sig (Elt F)) :=
  ( StableHlo.unary main_v87 main_v287 ((extractStridedSlice S1x1024 ![7, 0] · slices_S10x1024_S1x1024_7_0) : Vec F S10x1024 .f32 → Vec F S1x1024 .f32)
  :: StableHlo.reshape main_v287 main_v288 rfl shapeCasts_S1x1024_S1024
  :: StableHlo.unary main_v288 main_v289 (broadcastInDim S1x1024 ![1] bcast_S1024_S1x1024_1 : Vec F S1024 .f32 → Vec F S1x1024 .f32)
  :: StableHlo.unary main_v289 main_v290 (broadcastInDim S1024x1024 ![0, 1] bcast_S1x1024_S1024x1024_0_1 : Vec F S1x1024 .f32 → Vec F S1024x1024 .f32)
  :: StableHlo.binary main_v286 main_v290 main_v291 (mulf : Vec F S1024x1024 .f32 → Vec F S1024x1024 .f32 → Vec F S1024x1024 .f32)
  :: StableHlo.unary main_v168 main_v292 ((extractStridedSlice S1x1024 ![7, 0] · slices_S10x1024_S1x1024_7_0) : Vec F S10x1024 .f32 → Vec F S1x1024 .f32)
  :: StableHlo.reshape main_v292 main_v293 rfl shapeCasts_S1x1024_S1024
  :: StableHlo.unary main_v293 main_v294 (broadcastInDim S1x1024 ![1] bcast_S1024_S1x1024_1 : Vec F S1024 .f32 → Vec F S1x1024 .f32)
  :: StableHlo.unary main_v294 main_v295 (broadcastInDim S1024x1024 ![0, 1] bcast_S1x1024_S1024x1024_0_1 : Vec F S1x1024 .f32 → Vec F S1024x1024 .f32)
  :: StableHlo.binary main_v286 main_v295 main_v296 (mulf : Vec F S1024x1024 .f32 → Vec F S1024x1024 .f32 → Vec F S1024x1024 .f32)
  :: StableHlo.nullary main_c_77 (constantI S_ 32 1024#32)
  :: StableHlo.unary main_c_77 main_v297 (broadcastInDim S1024 ![] bcast_S_S1024 : Vec F S_ .i32 → Vec F S1024 .i32)
  :: StableHlo.binary main_c_43 main_v297 main_v298 (addi : Vec F S1024 .i32 → Vec F S1024 .i32 → Vec F S1024 .i32)
  :: StableHlo.ternary main_c_44 main_v298 main_c_43 main_v299 (select : Vec F S1024 .i1 → Vec F S1024 .i32 → Vec F S1024 .i32 → Vec F S1024 .i32)
  :: StableHlo.unary main_v299 main_v300 (broadcastInDim S1024x1 ![0] bcast_S1024_S1024x1_0 : Vec F S1024 .i32 → Vec F S1024x1 .i32)
  :: StableHlo.binary main_v296 main_v300 main_v301 ((fun x i => Host.gather gather_S1024x1024_S1024x1_S1024x1024_0_1_n_n_1_1_10241 x i) : Vec F S1024x1024 .f32 → Vec F S1024x1 .i32 → Vec F S1024x1024 .f32)
  :: StableHlo.binary main_v291 main_v301 main_v302 (addf : Vec F S1024x1024 .f32 → Vec F S1024x1024 .f32 → Vec F S1024x1024 .f32)
  :: [] )

def kSt8 : List (HloOp τ sig (Elt F)) :=
  ( StableHlo.unary main_v87 main_v303 ((extractStridedSlice S1x1024 ![8, 0] · slices_S10x1024_S1x1024_8_0) : Vec F S10x1024 .f32 → Vec F S1x1024 .f32)
  :: StableHlo.reshape main_v303 main_v304 rfl shapeCasts_S1x1024_S1024
  :: StableHlo.unary main_v304 main_v305 (broadcastInDim S1x1024 ![1] bcast_S1024_S1x1024_1 : Vec F S1024 .f32 → Vec F S1x1024 .f32)
  :: StableHlo.unary main_v305 main_v306 (broadcastInDim S1024x1024 ![0, 1] bcast_S1x1024_S1024x1024_0_1 : Vec F S1x1024 .f32 → Vec F S1024x1024 .f32)
  :: StableHlo.binary main_v302 main_v306 main_v307 (mulf : Vec F S1024x1024 .f32 → Vec F S1024x1024 .f32 → Vec F S1024x1024 .f32)
  :: StableHlo.unary main_v168 main_v308 ((extractStridedSlice S1x1024 ![8, 0] · slices_S10x1024_S1x1024_8_0) : Vec F S10x1024 .f32 → Vec F S1x1024 .f32)
  :: StableHlo.reshape main_v308 main_v309 rfl shapeCasts_S1x1024_S1024
  :: StableHlo.unary main_v309 main_v310 (broadcastInDim S1x1024 ![1] bcast_S1024_S1x1024_1 : Vec F S1024 .f32 → Vec F S1x1024 .f32)
  :: StableHlo.unary main_v310 main_v311 (broadcastInDim S1024x1024 ![0, 1] bcast_S1x1024_S1024x1024_0_1 : Vec F S1x1024 .f32 → Vec F S1024x1024 .f32)
  :: StableHlo.binary main_v302 main_v311 main_v312 (mulf : Vec F S1024x1024 .f32 → Vec F S1024x1024 .f32 → Vec F S1024x1024 .f32)
  :: StableHlo.nullary main_c_78 (constantI S_ 32 1024#32)
  :: StableHlo.unary main_c_78 main_v313 (broadcastInDim S1024 ![] bcast_S_S1024 : Vec F S_ .i32 → Vec F S1024 .i32)
  :: StableHlo.binary main_c_45 main_v313 main_v314 (addi : Vec F S1024 .i32 → Vec F S1024 .i32 → Vec F S1024 .i32)
  :: StableHlo.ternary main_c_46 main_v314 main_c_45 main_v315 (select : Vec F S1024 .i1 → Vec F S1024 .i32 → Vec F S1024 .i32 → Vec F S1024 .i32)
  :: StableHlo.unary main_v315 main_v316 (broadcastInDim S1024x1 ![0] bcast_S1024_S1024x1_0 : Vec F S1024 .i32 → Vec F S1024x1 .i32)
  :: StableHlo.binary main_v312 main_v316 main_v317 ((fun x i => Host.gather gather_S1024x1024_S1024x1_S1024x1024_0_1_n_n_1_1_10241 x i) : Vec F S1024x1024 .f32 → Vec F S1024x1 .i32 → Vec F S1024x1024 .f32)
  :: StableHlo.binary main_v307 main_v317 main_v318 (addf : Vec F S1024x1024 .f32 → Vec F S1024x1024 .f32 → Vec F S1024x1024 .f32)
  :: [] )

def kSt9 : List (HloOp τ sig (Elt F)) :=
  ( StableHlo.unary main_v87 main_v319 ((extractStridedSlice S1x1024 ![9, 0] · slices_S10x1024_S1x1024_9_0) : Vec F S10x1024 .f32 → Vec F S1x1024 .f32)
  :: StableHlo.reshape main_v319 main_v320 rfl shapeCasts_S1x1024_S1024
  :: StableHlo.unary main_v320 main_v321 (broadcastInDim S1x1024 ![1] bcast_S1024_S1x1024_1 : Vec F S1024 .f32 → Vec F S1x1024 .f32)
  :: StableHlo.unary main_v321 main_v322 (broadcastInDim S1024x1024 ![0, 1] bcast_S1x1024_S1024x1024_0_1 : Vec F S1x1024 .f32 → Vec F S1024x1024 .f32)
  :: StableHlo.binary main_v318 main_v322 main_v323 (mulf : Vec F S1024x1024 .f32 → Vec F S1024x1024 .f32 → Vec F S1024x1024 .f32)
  :: StableHlo.unary main_v168 main_v324 ((extractStridedSlice S1x1024 ![9, 0] · slices_S10x1024_S1x1024_9_0) : Vec F S10x1024 .f32 → Vec F S1x1024 .f32)
  :: StableHlo.reshape main_v324 main_v325 rfl shapeCasts_S1x1024_S1024
  :: StableHlo.unary main_v325 main_v326 (broadcastInDim S1x1024 ![1] bcast_S1024_S1x1024_1 : Vec F S1024 .f32 → Vec F S1x1024 .f32)
  :: StableHlo.unary main_v326 main_v327 (broadcastInDim S1024x1024 ![0, 1] bcast_S1x1024_S1024x1024_0_1 : Vec F S1x1024 .f32 → Vec F S1024x1024 .f32)
  :: StableHlo.binary main_v318 main_v327 main_v328 (mulf : Vec F S1024x1024 .f32 → Vec F S1024x1024 .f32 → Vec F S1024x1024 .f32)
  :: StableHlo.nullary main_c_79 (constantI S_ 32 1024#32)
  :: StableHlo.unary main_c_79 main_v329 (broadcastInDim S1024 ![] bcast_S_S1024 : Vec F S_ .i32 → Vec F S1024 .i32)
  :: StableHlo.binary main_c_47 main_v329 main_v330 (addi : Vec F S1024 .i32 → Vec F S1024 .i32 → Vec F S1024 .i32)
  :: StableHlo.ternary main_c_48 main_v330 main_c_47 main_v331 (select : Vec F S1024 .i1 → Vec F S1024 .i32 → Vec F S1024 .i32 → Vec F S1024 .i32)
  :: StableHlo.unary main_v331 main_v332 (broadcastInDim S1024x1 ![0] bcast_S1024_S1024x1_0 : Vec F S1024 .i32 → Vec F S1024x1 .i32)
  :: StableHlo.binary main_v328 main_v332 main_v333 ((fun x i => Host.gather gather_S1024x1024_S1024x1_S1024x1024_0_1_n_n_1_1_10241 x i) : Vec F S1024x1024 .f32 → Vec F S1024x1 .i32 → Vec F S1024x1024 .f32)
  :: StableHlo.binary main_v323 main_v333 main_v334 (addf : Vec F S1024x1024 .f32 → Vec F S1024x1024 .f32 → Vec F S1024x1024 .f32)
  :: [] )

def kTail : List (HloOp τ sig (Elt F)) :=
  ( StableHlo.unary main_arg3 main_v335 ((extractStridedSlice S1024x1024 ![0, 0] · slices_S1024x3072_S1024x1024_0_0) : Vec F S1024x3072 .f32 → Vec F S1024x1024 .f32)
  :: StableHlo.unary main_arg3 main_v336 ((extractStridedSlice S1024x2048 ![0, 1024] · slices_S1024x3072_S1024x2048_0_1024) : Vec F S1024x3072 .f32 → Vec F S1024x2048 .f32)
  :: StableHlo.unary main_v336 main_v337 ((truncf .bf16 · bitsLt_bf16_f32) : Vec F S1024x2048 .f32 → Vec F S1024x2048 .bf16)
  :: StableHlo.binary main_arg4 main_arg5 main_v338 ((fun a b => concatenate S1024x2048 1 [⟨S1024x1024, a⟩, ⟨S1024x1024, b⟩] concatenates_S1024x1024_S1024x1024_S1024x2048_d1) : Vec F S1024x1024 .f32 → Vec F S1024x1024 .f32 → Vec F S1024x2048 .f32)
  :: StableHlo.unary main_v338 main_v339 ((truncf .bf16 · bitsLt_bf16_f32) : Vec F S1024x2048 .f32 → Vec F S1024x2048 .bf16)
  :: StableHlo.reshape main_arg6 main_v340 rfl shapeCasts_S1024_S1x1024
  :: StableHlo.reshape main_arg7 main_v341 rfl shapeCasts_S1024_S1x1024
  :: StableHlo.reshape main_arg8 main_v342 rfl shapeCasts_S1024_S1x1024
  :: [] )

set_option maxHeartbeats 4000000 in
theorem hostOps0_cut : (hostOps0 : List (HloOp τ sig (Elt F))) =
    kConst ++ (kTh ++ (kP0 ++ (kP1 ++ (kP2 ++ (kP3 ++ (kP4 ++ (kP5 ++ (kP6 ++ (kP7 ++ (kP8 ++ (kP9 ++ (kPb ++ (kPn ++ (kQ0 ++ (kQ1 ++ (kQ2 ++ (kQ3 ++ (kQ4 ++ (kQ5 ++ (kQ6 ++ (kQ7 ++ (kQ8 ++ (kQ9 ++ (kQb ++ (kQn ++ (kEye ++ (kSt0 ++ (kSt1 ++ (kSt2 ++ (kSt3 ++ (kSt4 ++ (kSt5 ++ (kSt6 ++ (kSt7 ++ (kSt8 ++ (kSt9 ++ (kTail))))))))))))))))))))))))))))))))))))) := rfl

theorem sub_of_mem {y : Ref sig .tc} {l : List (Ref sig .tc)} (h : y ∈ l) :
    ({Proc.devRef (τ := τ) .tc y} : Finset (DevRef τ sig)) ⊆ (l.map (Proc.devRef (τ := τ) .tc)).toFinset := by
  rw [Finset.singleton_subset_iff, List.mem_toFinset]
  exact List.mem_map_of_mem h

-- The side condition is the same check for every stretch, so it is the field's default and an instance gives only its list.
class WL (ops : List (HloOp τ sig (Elt F))) where
  wl : List (Ref sig .tc)
  sub : ops.Forall fun op => op.writes ⊆ (wl.map (Proc.devRef (τ := τ) .tc)).toFinset := by
    repeat' apply And.intro
    all_goals exact sub_of_mem (by decide)

theorem keeps (ops : List (HloOp τ sig (Elt F))) [h : WL ops] (W : Valuation τ sig (Elt F)) {r : Ref sig .tc} (hr : r ∉ WL.wl ops) :
    StableHlo.after ops W (no_index (Proc.devRef .tc r)) = W (Proc.devRef .tc r) :=
  StableHlo.after_of_writes_sub ops W h.sub hr

instance : WL (kConst (F := F)) where
  wl := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32, main_c_33, main_c_34, main_c_35, main_c_36, main_c_37, main_c_38, main_c_39, main_c_40, main_c_41, main_c_42, main_c_43, main_c_44, main_c_45, main_c_46, main_c_47, main_c_48]

instance : WL (kTh (F := F)) where
  wl := [main_v0, main_v1, main_v2, main_v3, main_v4, main_v5, main_v6]

instance : WL (kP0 (F := F)) where
  wl := [main_v7, main_v8, main_c_49, main_v9, main_v10, main_v11, main_v12, main_v13]

instance : WL (kP1 (F := F)) where
  wl := [main_v14, main_v15, main_c_50, main_v16, main_v17, main_v18, main_v19, main_v20]

instance : WL (kP2 (F := F)) where
  wl := [main_v21, main_v22, main_c_51, main_v23, main_v24, main_v25, main_v26, main_v27]

instance : WL (kP3 (F := F)) where
  wl := [main_v28, main_v29, main_c_52, main_v30, main_v31, main_v32, main_v33, main_v34]

instance : WL (kP4 (F := F)) where
  wl := [main_v35, main_v36, main_c_53, main_v37, main_v38, main_v39, main_v40, main_v41]

instance : WL (kP5 (F := F)) where
  wl := [main_v42, main_v43, main_c_54, main_v44, main_v45, main_v46, main_v47, main_v48]

instance : WL (kP6 (F := F)) where
  wl := [main_v49, main_v50, main_c_55, main_v51, main_v52, main_v53, main_v54, main_v55]

instance : WL (kP7 (F := F)) where
  wl := [main_v56, main_v57, main_c_56, main_v58, main_v59, main_v60, main_v61, main_v62]

instance : WL (kP8 (F := F)) where
  wl := [main_v63, main_v64, main_c_57, main_v65, main_v66, main_v67, main_v68, main_v69]

instance : WL (kP9 (F := F)) where
  wl := [main_v70, main_v71, main_c_58, main_v72, main_v73, main_v74, main_v75, main_v76]

instance : WL (kPb (F := F)) where
  wl := [main_v77, main_v78, main_v79, main_v80, main_v81, main_v82, main_v83, main_v84, main_v85, main_v86]

instance : WL (kPn (F := F)) where
  wl := [main_v87]

instance : WL (kQ0 (F := F)) where
  wl := [main_v88, main_v89, main_c_59, main_v90, main_v91, main_v92, main_v93, main_v94]

instance : WL (kQ1 (F := F)) where
  wl := [main_v95, main_v96, main_c_60, main_v97, main_v98, main_v99, main_v100, main_v101]

instance : WL (kQ2 (F := F)) where
  wl := [main_v102, main_v103, main_c_61, main_v104, main_v105, main_v106, main_v107, main_v108]

instance : WL (kQ3 (F := F)) where
  wl := [main_v109, main_v110, main_c_62, main_v111, main_v112, main_v113, main_v114, main_v115]

instance : WL (kQ4 (F := F)) where
  wl := [main_v116, main_v117, main_c_63, main_v118, main_v119, main_v120, main_v121, main_v122]

instance : WL (kQ5 (F := F)) where
  wl := [main_v123, main_v124, main_c_64, main_v125, main_v126, main_v127, main_v128, main_v129]

instance : WL (kQ6 (F := F)) where
  wl := [main_v130, main_v131, main_c_65, main_v132, main_v133, main_v134, main_v135, main_v136]

instance : WL (kQ7 (F := F)) where
  wl := [main_v137, main_v138, main_c_66, main_v139, main_v140, main_v141, main_v142, main_v143]

instance : WL (kQ8 (F := F)) where
  wl := [main_v144, main_v145, main_c_67, main_v146, main_v147, main_v148, main_v149, main_v150]

instance : WL (kQ9 (F := F)) where
  wl := [main_v151, main_v152, main_c_68, main_v153, main_v154, main_v155, main_v156, main_v157]

instance : WL (kQb (F := F)) where
  wl := [main_v158, main_v159, main_v160, main_v161, main_v162, main_v163, main_v164, main_v165, main_v166, main_v167]

instance : WL (kQn (F := F)) where
  wl := [main_v168]

instance : WL (kEye (F := F)) where
  wl := [main_v169, main_v170, main_c_69, main_v171, main_v172, main_v173, main_v174]

instance : WL (kSt0 (F := F)) where
  wl := [main_v175, main_v176, main_v177, main_v178, main_v179, main_v180, main_v181, main_v182, main_v183, main_v184, main_c_70, main_v185, main_v186, main_v187, main_v188, main_v189, main_v190]

instance : WL (kSt1 (F := F)) where
  wl := [main_v191, main_v192, main_v193, main_v194, main_v195, main_v196, main_v197, main_v198, main_v199, main_v200, main_c_71, main_v201, main_v202, main_v203, main_v204, main_v205, main_v206]

instance : WL (kSt2 (F := F)) where
  wl := [main_v207, main_v208, main_v209, main_v210, main_v211, main_v212, main_v213, main_v214, main_v215, main_v216, main_c_72, main_v217, main_v218, main_v219, main_v220, main_v221, main_v222]

instance : WL (kSt3 (F := F)) where
  wl := [main_v223, main_v224, main_v225, main_v226, main_v227, main_v228, main_v229, main_v230, main_v231, main_v232, main_c_73, main_v233, main_v234, main_v235, main_v236, main_v237, main_v238]

instance : WL (kSt4 (F := F)) where
  wl := [main_v239, main_v240, main_v241, main_v242, main_v243, main_v244, main_v245, main_v246, main_v247, main_v248, main_c_74, main_v249, main_v250, main_v251, main_v252, main_v253, main_v254]

instance : WL (kSt5 (F := F)) where
  wl := [main_v255, main_v256, main_v257, main_v258, main_v259, main_v260, main_v261, main_v262, main_v263, main_v264, main_c_75, main_v265, main_v266, main_v267, main_v268, main_v269, main_v270]

instance : WL (kSt6 (F := F)) where
  wl := [main_v271, main_v272, main_v273, main_v274, main_v275, main_v276, main_v277, main_v278, main_v279, main_v280, main_c_76, main_v281, main_v282, main_v283, main_v284, main_v285, main_v286]

instance : WL (kSt7 (F := F)) where
  wl := [main_v287, main_v288, main_v289, main_v290, main_v291, main_v292, main_v293, main_v294, main_v295, main_v296, main_c_77, main_v297, main_v298, main_v299, main_v300, main_v301, main_v302]

instance : WL (kSt8 (F := F)) where
  wl := [main_v303, main_v304, main_v305, main_v306, main_v307, main_v308, main_v309, main_v310, main_v311, main_v312, main_c_78, main_v313, main_v314, main_v315, main_v316, main_v317, main_v318]

instance : WL (kSt9 (F := F)) where
  wl := [main_v319, main_v320, main_v321, main_v322, main_v323, main_v324, main_v325, main_v326, main_v327, main_v328, main_c_79, main_v329, main_v330, main_v331, main_v332, main_v333, main_v334]

instance : WL (kTail (F := F)) where
  wl := [main_v335, main_v336, main_v337, main_v338, main_v339, main_v340, main_v341, main_v342]

end Cert.KernelIdeal.Host

end
-- ==== Proof.KIHostCut.lean ====
import proofs.«426905_j7799660610191_3_alg».proof.Proof.KIHostA
import Idealize.ShloMosaic.PureOps.Ideal

set_option maxRecDepth 16384

noncomputable section

namespace Cert.KernelIdeal.Host

open Cert.KernelIdeal Cert.KernelIdeal.Gen Cert.KernelIdeal.Frame
open Idealize.ShloMosaic Idealize.ShloMosaic.TcCoe

variable (m : (ℓ : Loc nD τ sig) → Buf (Elt Ideal) ℓ) (c : Dev nD)

set_option maxHeartbeats 4000000 in
theorem V_cut (b : Ref sig .tc) : V m c b =
    StableHlo.after kTail (StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b))))))))))))))))))))))))))))))))))))))) (Proc.devRef .tc b) := by
  show StableHlo.after hostOps0 _ _ = _
  rw [hostOps0_cut]
  simp only [StableHlo.after_append]

end Cert.KernelIdeal.Host

end
-- ==== Proof.KIHostB.lean ====
import proofs.«426905_j7799660610191_3_alg».proof.Proof.KIHostCut
import Idealize.ShloMosaic.Lib.ValueIdx
import Idealize.ShloMosaic.Lib.ValueLayout
import Idealize.ShloMosaic.Lib.Pipeline.Value

set_option maxRecDepth 16384

noncomputable section

namespace Cert.KernelIdeal.Host

open Cert.KernelIdeal Cert.KernelIdeal.Gen Cert.KernelIdeal.Frame
open Idealize.ShloMosaic Idealize.ShloMosaic.TcCoe Idealize.ShloMosaic.ValueIdx

section Tail
variable (W : Valuation τ sig (Elt Ideal))

theorem kTail_v335 : StableHlo.after kTail W (Proc.devRef .tc main_v335)
    = extractStridedSlice S1024x1024 ![0, 0] (W (Proc.devRef .tc main_arg3)) slices_S1024x3072_S1024x1024_0_0 := by
  unfold kTail; after_results

theorem kTail_v337 : StableHlo.after kTail W (Proc.devRef .tc main_v337)
    = truncf (F := Ideal) .bf16 (extractStridedSlice S1024x2048 ![0, 1024] (W (Proc.devRef .tc main_arg3)) slices_S1024x3072_S1024x2048_0_1024) bitsLt_bf16_f32 := by
  unfold kTail; after_results

theorem kTail_v339 : StableHlo.after kTail W (Proc.devRef .tc main_v339)
    = truncf (F := Ideal) .bf16 (concatenate S1024x2048 1 [⟨S1024x1024, W (Proc.devRef .tc main_arg4)⟩, ⟨S1024x1024, W (Proc.devRef .tc main_arg5)⟩] concatenates_S1024x1024_S1024x1024_S1024x2048_d1) bitsLt_bf16_f32 := by
  unfold kTail; after_results

theorem kTail_v340 : StableHlo.after kTail W (Proc.devRef .tc main_v340)
    = shapeCast S1x1024 (W (Proc.devRef .tc main_arg6)) shapeCasts_S1024_S1x1024 := by
  unfold kTail; after_results; rfl

theorem kTail_v341 : StableHlo.after kTail W (Proc.devRef .tc main_v341)
    = shapeCast S1x1024 (W (Proc.devRef .tc main_arg7)) shapeCasts_S1024_S1x1024 := by
  unfold kTail; after_results; rfl

theorem kTail_v342 : StableHlo.after kTail W (Proc.devRef .tc main_v342)
    = shapeCast S1x1024 (W (Proc.devRef .tc main_arg8)) shapeCasts_S1024_S1x1024 := by
  unfold kTail; after_results; rfl

end Tail

theorem slice_lo (X : FVec Ideal S1024x3072 .f32) (k j : Fin 1024) :
    extractStridedSlice S1024x1024 ![0, 0] X slices_S1024x3072_S1024x1024_0_0 (ix2 k j) = X (ix2 k (⟨j.val, by omega⟩ : Fin 3072)) :=
  slice2_axis1_apply 0 X _ k j _ (Nat.zero_add _).symm

theorem slice_hi (X : FVec Ideal S1024x3072 .f32) (k : Fin 1024) (j : Fin 2048) :
    truncf (F := Ideal) .bf16 (extractStridedSlice S1024x2048 ![0, 1024] X slices_S1024x3072_S1024x2048_0_1024) bitsLt_bf16_f32 (ix2 k j) = X (ix2 k (⟨1024 + j.val, by omega⟩ : Fin 3072)) := by
  rw [truncf_apply]
  exact slice2_axis1_apply 1024 X slices_S1024x3072_S1024x2048_0_1024 k j _ rfl

theorem cat_lo (A B : FVec Ideal S1024x1024 .f32) (k j : Fin 1024) :
    truncf (F := Ideal) .bf16 (concatenate S1024x2048 1 [⟨S1024x1024, A⟩, ⟨S1024x1024, B⟩] concatenates_S1024x1024_S1024x1024_S1024x2048_d1) bitsLt_bf16_f32 (ix2 k (⟨j.val, by omega⟩ : Fin 2048)) = A (ix2 k j) := by
  rw [truncf_apply]
  exact concatenate_pair_apply_left (t := S1024x2048) (s₁ := S1024x1024) (s₂ := S1024x1024) (1 : Fin 2) A B concatenates_S1024x1024_S1024x1024_S1024x2048_d1 (ix2 k (⟨j.val, by omega⟩ : Fin 2048)) rfl (ix2 k j) (fun b => by
    match b with
    | ⟨0, _⟩ => rfl
    | ⟨1, _⟩ => rfl)

theorem cat_hi (A B : FVec Ideal S1024x1024 .f32) (k j : Fin 1024) :
    truncf (F := Ideal) .bf16 (concatenate S1024x2048 1 [⟨S1024x1024, A⟩, ⟨S1024x1024, B⟩] concatenates_S1024x1024_S1024x1024_S1024x2048_d1) bitsLt_bf16_f32 (ix2 k (⟨1024 + j.val, by omega⟩ : Fin 2048)) = B (ix2 k j) := by
  rw [truncf_apply]
  exact concatenate_pair_apply_right (t := S1024x2048) (s₁ := S1024x1024) (s₂ := S1024x1024) (1 : Fin 2) A B concatenates_S1024x1024_S1024x1024_S1024x2048_d1 (ix2 k (⟨1024 + j.val, by omega⟩ : Fin 2048)) rfl rfl (ix2 k j) (fun b hb => by
    match b with
    | ⟨0, _⟩ => rfl
    | ⟨1, _⟩ => exact absurd rfl hb) (by show j.val + 1024 = 1024 + j.val; omega)

theorem bias_read (x : FVec Ideal S1024 .f32) (j : Fin 1024) :
    shapeCast S1x1024 x shapeCasts_S1024_S1x1024 (ix2 (0 : Fin 1) j) = x (ix1 j) :=
  shapeCast_a_1a_apply x _ 0 j

variable (m : (ℓ : Loc nD τ sig) → Buf (Elt Ideal) ℓ) (c : Dev nD)

set_option maxHeartbeats 4000000 in
theorem pre_arg3 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg3) = m ((c : Thread nD τ).loc main_arg3) := by
  simp (disch := decide) only [keeps]

set_option maxHeartbeats 4000000 in
theorem pre_arg4 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg4) = m ((c : Thread nD τ).loc main_arg4) := by
  simp (disch := decide) only [keeps]

set_option maxHeartbeats 4000000 in
theorem pre_arg5 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg5) = m ((c : Thread nD τ).loc main_arg5) := by
  simp (disch := decide) only [keeps]

set_option maxHeartbeats 4000000 in
theorem pre_arg6 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg6) = m ((c : Thread nD τ).loc main_arg6) := by
  simp (disch := decide) only [keeps]

set_option maxHeartbeats 4000000 in
theorem pre_arg7 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg7) = m ((c : Thread nD τ).loc main_arg7) := by
  simp (disch := decide) only [keeps]

set_option maxHeartbeats 4000000 in
theorem pre_arg8 : StableHlo.after kSt9 (StableHlo.after kSt8 (StableHlo.after kSt7 (StableHlo.after kSt6 (StableHlo.after kSt5 (StableHlo.after kSt4 (StableHlo.after kSt3 (StableHlo.after kSt2 (StableHlo.after kSt1 (StableHlo.after kSt0 (StableHlo.after kEye (StableHlo.after kQn (StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (fun b => m (c, b)))))))))))))))))))))))))))))))))))))) (Proc.devRef .tc main_arg8) = m ((c : Thread nD τ).loc main_arg8) := by
  simp (disch := decide) only [keeps]

set_option maxHeartbeats 4000000 in
theorem Uc_apply (k j : Fin 1024) :
    (V m c main_v335 : S1024x1024.Idx → EReal) (ix2 k j) = (m ((c : Thread nD τ).loc main_arg3) : S1024x3072.Idx → EReal) (ix2 k (⟨j.val, by omega⟩ : Fin 3072)) := by
  rw [V_cut, kTail_v335, pre_arg3]
  exact slice_lo _ k j

set_option maxHeartbeats 4000000 in
theorem Urg_apply (k : Fin 1024) (j : Fin 2048) :
    (V m c main_v337 : S1024x2048.Idx → EReal) (ix2 k j) = (m ((c : Thread nD τ).loc main_arg3) : S1024x3072.Idx → EReal) (ix2 k (⟨1024 + j.val, by omega⟩ : Fin 3072)) := by
  rw [V_cut, kTail_v337, pre_arg3]
  exact slice_hi _ k j

set_option maxHeartbeats 4000000 in
theorem Wrg_apply_lo (k j : Fin 1024) :
    (V m c main_v339 : S1024x2048.Idx → EReal) (ix2 k (⟨j.val, by omega⟩ : Fin 2048)) = (m ((c : Thread nD τ).loc main_arg4) : S1024x1024.Idx → EReal) (ix2 k j) := by
  rw [V_cut, kTail_v339, pre_arg4, pre_arg5]
  exact cat_lo _ _ k j

set_option maxHeartbeats 4000000 in
theorem Wrg_apply_hi (k j : Fin 1024) :
    (V m c main_v339 : S1024x2048.Idx → EReal) (ix2 k (⟨1024 + j.val, by omega⟩ : Fin 2048)) = (m ((c : Thread nD τ).loc main_arg5) : S1024x1024.Idx → EReal) (ix2 k j) := by
  rw [V_cut, kTail_v339, pre_arg4, pre_arg5]
  exact cat_hi _ _ k j

set_option maxHeartbeats 4000000 in
theorem br_apply (j : Fin 1024) :
    (V m c main_v340 : S1x1024.Idx → EReal) (ix2 (0 : Fin 1) j) = (m ((c : Thread nD τ).loc main_arg6) : S1024.Idx → EReal) (ix1 j) := by
  rw [V_cut, kTail_v340, pre_arg6]
  exact bias_read _ j

set_option maxHeartbeats 4000000 in
theorem bg_apply (j : Fin 1024) :
    (V m c main_v341 : S1x1024.Idx → EReal) (ix2 (0 : Fin 1) j) = (m ((c : Thread nD τ).loc main_arg7) : S1024.Idx → EReal) (ix1 j) := by
  rw [V_cut, kTail_v341, pre_arg7]
  exact bias_read _ j

set_option maxHeartbeats 4000000 in
theorem bc_apply (j : Fin 1024) :
    (V m c main_v342 : S1x1024.Idx → EReal) (ix2 (0 : Fin 1) j) = (m ((c : Thread nD τ).loc main_arg8) : S1024.Idx → EReal) (ix1 j) := by
  rw [V_cut, kTail_v342, pre_arg8]
  exact bias_read _ j

end Cert.KernelIdeal.Host

end
-- ==== Proof.LibGatherRead.lean ====
import Idealize.ShloMosaic.PureOps
import Idealize.ShloMosaic.Lib.ValueIdx
import Idealize.ShloMosaic.Lib.Pipeline.Value

noncomputable section

namespace Cert.LibGatherRead

open Idealize.ShloMosaic Idealize.ShloMosaic.ValueIdx

variable {α : Type}

theorem gather_rows1_apply {N n w : Nat} (hN : 0 < N)
    (d : GatherDims ⟨1, ![N]⟩ ⟨2, ![n, 1]⟩ ⟨1, ![n]⟩)
    (h1 : d.offsetDims = []) (h2 : d.collapsedSliceDims = [0]) (h3 : d.operandBatchingDims = [])
    (h4 : d.startIndicesBatchingDims = []) (h5 : d.startIndexMap = [0]) (h6 : d.indexVectorDim = 1) (h7 : d.sliceSizes = ![1])
    (x : (⟨1, ![N]⟩ : Shape).Idx → α) (idx : IVec ⟨2, ![n, 1]⟩ w) (j : Fin n) :
    Host.gather d x idx (ix1 j) = x (ix1 ⟨min (idx (ix2 j (0 : Fin 1))).toInt.toNat (N - 1), by omega⟩) := by
  obtain ⟨o, cs, ob, sb, sim, ivd, ss, wf⟩ := d
  simp only at h1 h2 h3 h4 h5 h6 h7
  subst h1 h2 h3 h4 h5 h6 h7
  unfold Host.gather
  congr 1
  funext a
  obtain rfl : a = 0 := Subsingleton.elim _ _
  refine Fin.ext ?_
  show GatherDims.start _ (ix1 j) idx 0 + GatherDims.batchCoord _ (ix1 j) 0 + GatherDims.offCoord _ (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (s := ⟨1, ![N]⟩) (si := ⟨2, ![n, 1]⟩) (t := ⟨1, ![n]⟩) ⟨[], [0], [], [], [0], 1, ![1], wf⟩ (ix1 j)
      ⟨List.idxOf (0 : Fin 1) [0], List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

theorem gather_cols2_apply {M N n w : Nat} (hN : 0 < N)
    (d : GatherDims ⟨2, ![M, N]⟩ ⟨2, ![n, 1]⟩ ⟨2, ![M, n]⟩)
    (h1 : d.offsetDims = [0]) (h2 : d.collapsedSliceDims = [1]) (h3 : d.operandBatchingDims = [])
    (h4 : d.startIndicesBatchingDims = []) (h5 : d.startIndexMap = [1]) (h6 : d.indexVectorDim = 1) (h7 : d.sliceSizes = ![M, 1])
    (x : (⟨2, ![M, N]⟩ : Shape).Idx → α) (idx : IVec ⟨2, ![n, 1]⟩ w) (b : Fin M) (j : Fin n) :
    Host.gather d x idx (ix2 b j) = x (ix2 b ⟨min (idx (ix2 j (0 : Fin 1))).toInt.toNat (N - 1), by omega⟩) := by
  obtain ⟨o, cs, ob, sb, sim, ivd, ss, wf⟩ := d
  simp only at h1 h2 h3 h4 h5 h6 h7
  subst h1 h2 h3 h4 h5 h6 h7
  unfold Host.gather
  congr 1
  funext a
  refine Fin.ext ?_
  show GatherDims.start _ (ix2 b j) idx a + GatherDims.batchCoord _ (ix2 b j) a + GatherDims.offCoord _ (ix2 b j) a = _
  rw [GatherDims.batchCoord_eq_zero _ _ _ List.not_mem_nil]
  simp only [Nat.add_zero]
  have hax : ∀ c : Fin 2, c = 0 ∨ c = 1 := by decide
  rcases hax a with rfl | rfl
  ·
    unfold GatherDims.start
    rw [dif_neg (show (0 : Fin 2) ∉ ([1] : List (Fin 2)) by decide)]
    unfold GatherDims.offCoord
    rw [dif_pos ((GatherDims.mem_sKept _ _).mpr
      ⟨show (0 : Fin 2) ∉ ([1] : List (Fin 2)) by decide, List.not_mem_nil⟩)]
    simp only [Nat.zero_add]
    rfl
  ·
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ ([1] : List (Fin 2)) from List.mem_singleton.mpr rfl)]
    have hsi : GatherDims.siIdx (s := ⟨2, ![M, N]⟩) (si := ⟨2, ![n, 1]⟩) (t := ⟨2, ![M, n]⟩) ⟨[0], [1], [], [], [1], 1, ![M, 1], wf⟩ (ix2 b j)
        ⟨List.idxOf (1 : Fin 2) [1], List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    rfl

theorem concat_congr {t : Shape} {a : Fin t.rank} {xs ys : List ((r : Shape) × (r.Idx → α))} (e : xs = ys)
    (h : Shape.Concatenates (xs.map (·.1)) t a) : concatenate t a xs h = concatenate t a ys (e ▸ h) := by
  subst e; rfl

theorem concat10_rows_apply {K : Nat} (u : Fin 10 → ((⟨2, ![1, K]⟩ : Shape).Idx → α))
    (h : Shape.Concatenates [(⟨2, ![1, K]⟩ : Shape), ⟨2, ![1, K]⟩, ⟨2, ![1, K]⟩, ⟨2, ![1, K]⟩, ⟨2, ![1, K]⟩, ⟨2, ![1, K]⟩, ⟨2, ![1, K]⟩, ⟨2, ![1, K]⟩, ⟨2, ![1, K]⟩, ⟨2, ![1, K]⟩] ⟨2, ![10, K]⟩ 0)
    (s : Fin 10) (j : Fin K) :
    concatenate (⟨2, ![10, K]⟩ : Shape) 0 [⟨⟨2, ![1, K]⟩, u 0⟩, ⟨⟨2, ![1, K]⟩, u 1⟩, ⟨⟨2, ![1, K]⟩, u 2⟩, ⟨⟨2, ![1, K]⟩, u 3⟩, ⟨⟨2, ![1, K]⟩, u 4⟩,
      ⟨⟨2, ![1, K]⟩, u 5⟩, ⟨⟨2, ![1, K]⟩, u 6⟩, ⟨⟨2, ![1, K]⟩, u 7⟩, ⟨⟨2, ![1, K]⟩, u 8⟩, ⟨⟨2, ![1, K]⟩, u 9⟩] h (ix2 s j)
      = u s (ix2 (0 : Fin 1) j) := by
  have hl : ([⟨⟨2, ![1, K]⟩, u 0⟩, ⟨⟨2, ![1, K]⟩, u 1⟩, ⟨⟨2, ![1, K]⟩, u 2⟩, ⟨⟨2, ![1, K]⟩, u 3⟩, ⟨⟨2, ![1, K]⟩, u 4⟩,
      ⟨⟨2, ![1, K]⟩, u 5⟩, ⟨⟨2, ![1, K]⟩, u 6⟩, ⟨⟨2, ![1, K]⟩, u 7⟩, ⟨⟨2, ![1, K]⟩, u 8⟩, ⟨⟨2, ![1, K]⟩, u 9⟩] : List ((r : Shape) × (r.Idx → α)))
      = List.ofFn (fun m : Fin 10 => (⟨⟨2, ![1, K]⟩, u m⟩ : (r : Shape) × (r.Idx → α))) := by
    rfl
  exact concat_congr hl h ▸ concatenate_ofFn_unit_apply (t := ⟨2, ![10, K]⟩) (s₁ := ⟨2, ![1, K]⟩) 0 u (hl ▸ h) rfl rfl (ix2 s j) s rfl
    (ix2 (0 : Fin 1) j) (fun c hc => by
      match c with
      | ⟨0, _⟩ => exact absurd rfl hc
      | ⟨1, _⟩ => rfl)

end Cert.LibGatherRead

end
-- ==== Proof.PureTerms.lean ====
import Idealize.ShloMosaic.PureOps
import Idealize.ShloMosaic.PureOps.Ideal
import Idealize.ShloMosaic.Lib.ValueIdx
import Idealize.ShloMosaic.Lib.Pipeline.Value
import Idealize.ShloMosaic.Lib.ValueLayout
import proofs.«426905_j7799660610191_3_alg».proof.Proof.Spec
import proofs.«426905_j7799660610191_3_alg».proof.Proof.LibGatherRead

noncomputable section

namespace Cert.PureTerms

open Idealize.ShloMosaic Idealize.ShloMosaic.ValueIdx

local notation "S_" => (⟨0, ![]⟩ : Shape)
local notation "S1024" => (⟨1, ![1024]⟩ : Shape)
local notation "S1024x1" => (⟨2, ![1024, 1]⟩ : Shape)
local notation "S10x512" => (⟨2, ![10, 512]⟩ : Shape)
local notation "S10x1024" => (⟨2, ![10, 1024]⟩ : Shape)
local notation "S1x1024" => (⟨2, ![1, 1024]⟩ : Shape)
local notation "S1024x1024" => (⟨2, ![1024, 1024]⟩ : Shape)

def cosTab (hc : Shape.Concatenates [S10x512, S10x512] S10x1024 1) (θ : FVec Ideal S10x512 .f32) : FVec Ideal S10x1024 .f32 :=
  concatenate S10x1024 1 [⟨S10x512, Host.cos θ⟩, ⟨S10x512, Host.cos θ⟩] hc

def sinTab (hc : Shape.Concatenates [S10x512, S10x512] S10x1024 1) (θ : FVec Ideal S10x512 .f32) : FVec Ideal S10x1024 .f32 :=
  concatenate S10x1024 1 [⟨S10x512, Host.sin θ⟩, ⟨S10x512, Host.negf (Host.sin θ)⟩] hc

theorem cosTab_apply (hc : Shape.Concatenates [S10x512, S10x512] S10x1024 1) (θ : FVec Ideal S10x512 .f32) (s : Fin 10) (k : Fin 1024) :
    cosTab hc θ (ix2 s k) = Cert.Spec.cosRow (Cert.Spec.toMat θ) s k := by
  unfold cosTab Cert.Spec.cosRow Cert.Spec.toMat
  by_cases hk : k.val < 512
  · rw [concatenate_pair_apply_left (s₁ := S10x512) (s₂ := S10x512) (1 : Fin 2) _ _ hc (ix2 s k) rfl (ix2 s ⟨k.val, hk⟩)
      (fun b => by match b with | ⟨0, _⟩ => rfl | ⟨1, _⟩ => rfl)]
    show Ideal.cos (θ (ix2 s ⟨k.val, hk⟩)) = _
    congr 3
    exact Fin.ext (Nat.mod_eq_of_lt hk).symm
  · have hk2 : k.val - 512 < 512 := by have := k.isLt; omega
    rw [concatenate_pair_apply_right (s₁ := S10x512) (s₂ := S10x512) (1 : Fin 2) _ _ hc (ix2 s k) rfl rfl (ix2 s ⟨k.val - 512, hk2⟩)
      (fun b hb => by match b with | ⟨0, _⟩ => rfl | ⟨1, _⟩ => exact absurd rfl hb)
      (by show k.val - 512 + 512 = k.val; omega)]
    show Ideal.cos (θ (ix2 s ⟨k.val - 512, hk2⟩)) = _
    congr 3
    refine Fin.ext ?_
    show k.val - 512 = k.val % 512
    have := k.isLt
    omega

theorem sinTab_apply (hc : Shape.Concatenates [S10x512, S10x512] S10x1024 1) (θ : FVec Ideal S10x512 .f32) (s : Fin 10) (k : Fin 1024) :
    sinTab hc θ (ix2 s k) = Cert.Spec.sinRow (Cert.Spec.toMat θ) s k := by
  unfold sinTab Cert.Spec.sinRow Cert.Spec.toMat
  by_cases hk : k.val < 512
  · rw [dif_pos hk, concatenate_pair_apply_left (s₁ := S10x512) (s₂ := S10x512) (1 : Fin 2) _ _ hc (ix2 s k) rfl (ix2 s ⟨k.val, hk⟩)
      (fun b => by match b with | ⟨0, _⟩ => rfl | ⟨1, _⟩ => rfl)]
    rfl
  · have hk2 : k.val - 512 < 512 := by have := k.isLt; omega
    rw [dif_neg hk, concatenate_pair_apply_right (s₁ := S10x512) (s₂ := S10x512) (1 : Fin 2) _ _ hc (ix2 s k) rfl rfl (ix2 s ⟨k.val - 512, hk2⟩)
      (fun b hb => by match b with | ⟨0, _⟩ => rfl | ⟨1, _⟩ => exact absurd rfl hb)
      (by show k.val - 512 + 512 = k.val; omega)]
    rfl

def idxVec (hb0 : (S_).BroadcastsInDim S1024 (![] : Fin 0 → Fin 1)) (hb1 : (S1024).BroadcastsInDim S1024x1 (![0] : Fin 1 → Fin 2))
    (lit : IVec S1024 32) (cf : IVec S1024 1) : IVec S1024x1 32 :=
  broadcastInDim S1024x1 ![0] hb1 (select cf (addi lit (broadcastInDim S1024 ![] hb0 (constantI S_ 32 1024#32))) lit)

theorem idxVec_apply (hb0 : (S_).BroadcastsInDim S1024 (![] : Fin 0 → Fin 1)) (hb1 : (S1024).BroadcastsInDim S1024x1 (![0] : Fin 1 → Fin 2))
    (lit : IVec S1024 32) (cf : IVec S1024 1) (hcf : cf = constantI S1024 1 0#1) (j : Fin 1024) :
    idxVec hb0 hb1 lit cf (ix2 j (0 : Fin 1)) = lit (ix1 j) := by
  subst hcf
  unfold idxVec
  rw [broadcastInDim_apply _ hb1 _ (ix2 j (0 : Fin 1)) (ix1 j) (fun a => by match a with | ⟨0, _⟩ => rfl)]
  exact select_zero _ _

def coefRow (dg : GatherDims S1024 S1024x1 S1024) (s : Nat) (hsl : (S10x1024).Slices ![s, 0] S1x1024) (hsc : (S1x1024).ShapeCasts S1024)
    (T : FVec Ideal S10x1024 .f32) (idx : IVec S1024x1 32) : FVec Ideal S1024 .f32 :=
  Host.gather dg (shapeCast S1024 (extractStridedSlice S1x1024 ![s, 0] T hsl) hsc) idx

theorem coefRow_apply (dg : GatherDims S1024 S1024x1 S1024)
    (h1 : dg.offsetDims = []) (h2 : dg.collapsedSliceDims = [0]) (h3 : dg.operandBatchingDims = [])
    (h4 : dg.startIndicesBatchingDims = []) (h5 : dg.startIndexMap = [0]) (h6 : dg.indexVectorDim = 1) (h7 : dg.sliceSizes = ![1])
    (s : Nat) (hs : s < 10) (hsl : (S10x1024).Slices ![s, 0] S1x1024) (hsc : (S1x1024).ShapeCasts S1024)
    (T : FVec Ideal S10x1024 .f32) (idx : IVec S1024x1 32) (j : Fin 1024) :
    coefRow dg s hsl hsc T idx (ix1 j) = T (ix2 (⟨s, hs⟩ : Fin 10) (Cert.Spec.clampIdx (idx (ix2 j (0 : Fin 1))))) := by
  unfold coefRow
  rw [Cert.LibGatherRead.gather_rows1_apply (by norm_num) dg h1 h2 h3 h4 h5 h6 h7]
  refine (shapeCast_apply _ hsc _ (ix2 (0 : Fin 1) (Cert.Spec.clampIdx (idx (ix2 j (0 : Fin 1))))) ?_).trans ?_
  · rw [Shape.rowMajor_val_two, Shape.rowMajor_val_one]
    show 0 * 1024 + _ = _
    rw [Nat.zero_mul, Nat.zero_add]
    rfl
  · exact extractStridedSlice_apply _ T hsl _ _ (fun a => by
      match a with
      | ⟨0, _⟩ => exact (Nat.add_zero s).symm
      | ⟨1, _⟩ => exact (Nat.zero_add _).symm)

def bcRow (hbr : (S1024).BroadcastsInDim S1x1024 (![1] : Fin 1 → Fin 2)) (v : FVec Ideal S1024 .f32) : FVec Ideal S1x1024 .f32 :=
  broadcastInDim S1x1024 ![1] hbr v

theorem bcRow_apply (hbr : (S1024).BroadcastsInDim S1x1024 (![1] : Fin 1 → Fin 2)) (v : FVec Ideal S1024 .f32) (j : Fin 1024) :
    bcRow hbr v (ix2 (0 : Fin 1) j) = v (ix1 j) := by
  unfold bcRow
  exact broadcastInDim_apply _ hbr v _ (ix1 j) (fun a => by match a with | ⟨0, _⟩ => rfl)

def stack10 (hcat : Shape.Concatenates [S1x1024, S1x1024, S1x1024, S1x1024, S1x1024, S1x1024, S1x1024, S1x1024, S1x1024, S1x1024] S10x1024 0)
    (u : Fin 10 → FVec Ideal S1x1024 .f32) : FVec Ideal S10x1024 .f32 :=
  concatenate S10x1024 0 [⟨S1x1024, u 0⟩, ⟨S1x1024, u 1⟩, ⟨S1x1024, u 2⟩, ⟨S1x1024, u 3⟩, ⟨S1x1024, u 4⟩,
    ⟨S1x1024, u 5⟩, ⟨S1x1024, u 6⟩, ⟨S1x1024, u 7⟩, ⟨S1x1024, u 8⟩, ⟨S1x1024, u 9⟩] hcat

theorem stack10_apply (hcat : Shape.Concatenates [S1x1024, S1x1024, S1x1024, S1x1024, S1x1024, S1x1024, S1x1024, S1x1024, S1x1024, S1x1024] S10x1024 0)
    (u : Fin 10 → FVec Ideal S1x1024 .f32) (s : Fin 10) (j : Fin 1024) :
    stack10 hcat u (ix2 s j) = u s (ix2 (0 : Fin 1) j) := by
  unfold stack10
  exact Cert.LibGatherRead.concat10_rows_apply u hcat s j

def coefTab (dg : GatherDims S1024 S1024x1 S1024) (hsl : ∀ s : Fin 10, (S10x1024).Slices ![s.val, 0] S1x1024) (hsc : (S1x1024).ShapeCasts S1024)
    (hbr : (S1024).BroadcastsInDim S1x1024 (![1] : Fin 1 → Fin 2))
    (hcat : Shape.Concatenates [S1x1024, S1x1024, S1x1024, S1x1024, S1x1024, S1x1024, S1x1024, S1x1024, S1x1024, S1x1024] S10x1024 0)
    (T : FVec Ideal S10x1024 .f32) (idx : Fin 10 → IVec S1024x1 32) : FVec Ideal S10x1024 .f32 :=
  stack10 hcat fun s => bcRow hbr (coefRow dg s.val (hsl s) hsc T (idx s))

theorem coefTab_apply (dg : GatherDims S1024 S1024x1 S1024)
    (h1 : dg.offsetDims = []) (h2 : dg.collapsedSliceDims = [0]) (h3 : dg.operandBatchingDims = [])
    (h4 : dg.startIndicesBatchingDims = []) (h5 : dg.startIndexMap = [0]) (h6 : dg.indexVectorDim = 1) (h7 : dg.sliceSizes = ![1])
    (hsl : ∀ s : Fin 10, (S10x1024).Slices ![s.val, 0] S1x1024) (hsc : (S1x1024).ShapeCasts S1024)
    (hbr : (S1024).BroadcastsInDim S1x1024 (![1] : Fin 1 → Fin 2))
    (hcat : Shape.Concatenates [S1x1024, S1x1024, S1x1024, S1x1024, S1x1024, S1x1024, S1x1024, S1x1024, S1x1024, S1x1024] S10x1024 0)
    (T : FVec Ideal S10x1024 .f32) (idx : Fin 10 → IVec S1024x1 32) (s : Fin 10) (j : Fin 1024) :
    coefTab dg hsl hsc hbr hcat T idx (ix2 s j) = T (ix2 s (Cert.Spec.clampIdx (idx s (ix2 j (0 : Fin 1))))) := by
  unfold coefTab
  rw [stack10_apply]
  show bcRow hbr (coefRow dg s.val (hsl s) hsc T (idx s)) (ix2 (0 : Fin 1) j) = _
  rw [bcRow_apply, coefRow_apply dg h1 h2 h3 h4 h5 h6 h7 s.val s.isLt]

theorem coefTab_cos_apply (dg : GatherDims S1024 S1024x1 S1024)
    (h1 : dg.offsetDims = []) (h2 : dg.collapsedSliceDims = [0]) (h3 : dg.operandBatchingDims = [])
    (h4 : dg.startIndicesBatchingDims = []) (h5 : dg.startIndexMap = [0]) (h6 : dg.indexVectorDim = 1) (h7 : dg.sliceSizes = ![1])
    (hsl : ∀ s : Fin 10, (S10x1024).Slices ![s.val, 0] S1x1024) (hsc : (S1x1024).ShapeCasts S1024)
    (hbr : (S1024).BroadcastsInDim S1x1024 (![1] : Fin 1 → Fin 2))
    (hcat : Shape.Concatenates [S1x1024, S1x1024, S1x1024, S1x1024, S1x1024, S1x1024, S1x1024, S1x1024, S1x1024, S1x1024] S10x1024 0)
    (hc : Shape.Concatenates [S10x512, S10x512] S10x1024 1) (θ : FVec Ideal S10x512 .f32)
    (idx : Fin 10 → IVec S1024x1 32) (litP : ℕ → Fin 1024 → BitVec 32)
    (hidx : ∀ (s : Fin 10) (j : Fin 1024), idx s (ix2 j (0 : Fin 1)) = litP s.val j) (s : Fin 10) (j : Fin 1024) :
    coefTab dg hsl hsc hbr hcat (cosTab hc θ) idx (ix2 s j) = Cert.Spec.coef1 litP (Cert.Spec.toMat θ) s.val j := by
  rw [coefTab_apply dg h1 h2 h3 h4 h5 h6 h7, cosTab_apply, hidx]
  unfold Cert.Spec.coef1
  rw [dif_pos s.isLt]

theorem coefTab_sin_apply (dg : GatherDims S1024 S1024x1 S1024)
    (h1 : dg.offsetDims = []) (h2 : dg.collapsedSliceDims = [0]) (h3 : dg.operandBatchingDims = [])
    (h4 : dg.startIndicesBatchingDims = []) (h5 : dg.startIndexMap = [0]) (h6 : dg.indexVectorDim = 1) (h7 : dg.sliceSizes = ![1])
    (hsl : ∀ s : Fin 10, (S10x1024).Slices ![s.val, 0] S1x1024) (hsc : (S1x1024).ShapeCasts S1024)
    (hbr : (S1024).BroadcastsInDim S1x1024 (![1] : Fin 1 → Fin 2))
    (hcat : Shape.Concatenates [S1x1024, S1x1024, S1x1024, S1x1024, S1x1024, S1x1024, S1x1024, S1x1024, S1x1024, S1x1024] S10x1024 0)
    (hc : Shape.Concatenates [S10x512, S10x512] S10x1024 1) (θ : FVec Ideal S10x512 .f32)
    (idx : Fin 10 → IVec S1024x1 32) (litP : ℕ → Fin 1024 → BitVec 32)
    (hidx : ∀ (s : Fin 10) (j : Fin 1024), idx s (ix2 j (0 : Fin 1)) = litP s.val j) (s : Fin 10) (j : Fin 1024) :
    coefTab dg hsl hsc hbr hcat (sinTab hc θ) idx (ix2 s j) = Cert.Spec.coef2 litP (Cert.Spec.toMat θ) s.val j := by
  rw [coefTab_apply dg h1 h2 h3 h4 h5 h6 h7, sinTab_apply, hidx]
  unfold Cert.Spec.coef2
  rw [dif_pos s.isLt]

def eyeTerm (hb : (S_).BroadcastsInDim S1024x1024 (![] : Fin 0 → Fin 2)) (c0 : IVec S_ 32) : FVec Ideal S1024x1024 .f32 :=
  uitofp (F := Ideal) .f32 (cmpi .eq (addi (iotaInDim S1024x1024 32 0) (broadcastInDim S1024x1024 ![] hb c0)) (iotaInDim S1024x1024 32 1))

theorem eyeTerm_apply (hb : (S_).BroadcastsInDim S1024x1024 (![] : Fin 0 → Fin 2)) (k j : Fin 1024) :
    eyeTerm hb (constantI S_ 32 0#32) (ix2 k j) = Cert.Spec.eye k j := by
  unfold eyeTerm Cert.Spec.eye
  show (((IntOp.cmpi .eq (IntOp.addi (BitVec.ofNat 32 k.val) 0#32) (BitVec.ofNat 32 j.val)).toNat : ℝ) : EReal) = _
  by_cases hkj : k = j
  · subst hkj
    rw [if_pos rfl]
    simp [IntOp.cmpi, IntOp.addi]
  · rw [if_neg hkj]
    have hne : ¬ (BitVec.ofNat 32 k.val = BitVec.ofNat 32 j.val) := by
      intro heq
      have h2 := congrArg BitVec.toNat heq
      simp only [BitVec.toNat_ofNat] at h2
      have := k.isLt
      have := j.isLt
      exact hkj (Fin.ext (by omega))
    simp [IntOp.cmpi, IntOp.addi, hne]

def rowBc {M : Nat} (s : Nat) (hsl : (S10x1024).Slices ![s, 0] S1x1024) (hsc : (S1x1024).ShapeCasts S1024)
    (hb1 : (S1024).BroadcastsInDim S1x1024 (![1] : Fin 1 → Fin 2))
    (hb2 : (S1x1024).BroadcastsInDim (⟨2, ![M, 1024]⟩ : Shape) (![0, 1] : Fin 2 → Fin 2))
    (T : FVec Ideal S10x1024 .f32) : FVec Ideal (⟨2, ![M, 1024]⟩ : Shape) .f32 :=
  broadcastInDim (⟨2, ![M, 1024]⟩ : Shape) ![0, 1] hb2
    (broadcastInDim S1x1024 ![1] hb1 (shapeCast S1024 (extractStridedSlice S1x1024 ![s, 0] T hsl) hsc))

theorem rowBc_apply {M : Nat} (s : Nat) (hs : s < 10) (hsl : (S10x1024).Slices ![s, 0] S1x1024) (hsc : (S1x1024).ShapeCasts S1024)
    (hb1 : (S1024).BroadcastsInDim S1x1024 (![1] : Fin 1 → Fin 2))
    (hb2 : (S1x1024).BroadcastsInDim (⟨2, ![M, 1024]⟩ : Shape) (![0, 1] : Fin 2 → Fin 2))
    (T : FVec Ideal S10x1024 .f32) (b : Fin M) (j : Fin 1024) :
    rowBc s hsl hsc hb1 hb2 T (ix2 b j) = T (ix2 (⟨s, hs⟩ : Fin 10) j) := by
  unfold rowBc
  refine (broadcastInDim_apply _ hb2 _ (ix2 b j) (ix2 (0 : Fin 1) j) (fun a => by match a with | ⟨0, _⟩ => rfl | ⟨1, _⟩ => rfl)).trans ?_
  refine (broadcastInDim_apply _ hb1 _ _ (ix1 j) (fun a => by match a with | ⟨0, _⟩ => rfl)).trans ?_
  refine (shapeCast_apply _ hsc _ (ix2 (0 : Fin 1) j) ?_).trans ?_
  · rw [Shape.rowMajor_val_two, Shape.rowMajor_val_one]
    show 0 * 1024 + _ = _
    rw [Nat.zero_mul, Nat.zero_add]
  · exact extractStridedSlice_apply _ T hsl _ _ (fun a => by
      match a with
      | ⟨0, _⟩ => exact (Nat.add_zero s).symm
      | ⟨1, _⟩ => exact (Nat.zero_add _).symm)

def stageTerm {M : Nat} (dG : GatherDims (⟨2, ![M, 1024]⟩ : Shape) S1024x1 (⟨2, ![M, 1024]⟩ : Shape))
    (s : Nat) (hsl : (S10x1024).Slices ![s, 0] S1x1024) (hsc : (S1x1024).ShapeCasts S1024)
    (hb1 : (S1024).BroadcastsInDim S1x1024 (![1] : Fin 1 → Fin 2))
    (hb2 : (S1x1024).BroadcastsInDim (⟨2, ![M, 1024]⟩ : Shape) (![0, 1] : Fin 2 → Fin 2))
    (h : FVec Ideal (⟨2, ![M, 1024]⟩ : Shape) .f32) (T1 T2 : FVec Ideal S10x1024 .f32) (idx : IVec S1024x1 32) :
    FVec Ideal (⟨2, ![M, 1024]⟩ : Shape) .f32 :=
  addf (mulf h (rowBc s hsl hsc hb1 hb2 T1)) (Host.gather dG (mulf h (rowBc s hsl hsc hb1 hb2 T2)) idx)

theorem stageTerm_apply {M : Nat} (dG : GatherDims (⟨2, ![M, 1024]⟩ : Shape) S1024x1 (⟨2, ![M, 1024]⟩ : Shape))
    (h1 : dG.offsetDims = [0]) (h2 : dG.collapsedSliceDims = [1]) (h3 : dG.operandBatchingDims = [])
    (h4 : dG.startIndicesBatchingDims = []) (h5 : dG.startIndexMap = [1]) (h6 : dG.indexVectorDim = 1) (h7 : dG.sliceSizes = ![M, 1])
    (s : Nat) (hs : s < 10) (hsl : (S10x1024).Slices ![s, 0] S1x1024) (hsc : (S1x1024).ShapeCasts S1024)
    (hb1 : (S1024).BroadcastsInDim S1x1024 (![1] : Fin 1 → Fin 2))
    (hb2 : (S1x1024).BroadcastsInDim (⟨2, ![M, 1024]⟩ : Shape) (![0, 1] : Fin 2 → Fin 2))
    (h : FVec Ideal (⟨2, ![M, 1024]⟩ : Shape) .f32) (T1 T2 : FVec Ideal S10x1024 .f32) (idx : IVec S1024x1 32)
    (b : Fin M) (j : Fin 1024) :
    stageTerm dG s hsl hsc hb1 hb2 h T1 T2 idx (ix2 b j)
      = h (ix2 b j) * T1 (ix2 (⟨s, hs⟩ : Fin 10) j)
        + h (ix2 b (Cert.Spec.clampIdx (idx (ix2 j (0 : Fin 1))))) * T2 (ix2 (⟨s, hs⟩ : Fin 10) (Cert.Spec.clampIdx (idx (ix2 j (0 : Fin 1))))) := by
  unfold stageTerm
  rw [addf_apply, mulf_apply, Cert.LibGatherRead.gather_cols2_apply (by norm_num) dG h1 h2 h3 h4 h5 h6 h7, mulf_apply,
    rowBc_apply s hs, rowBc_apply s hs]
  rfl

theorem toMat_stageTerm {M : Nat} (dG : GatherDims (⟨2, ![M, 1024]⟩ : Shape) S1024x1 (⟨2, ![M, 1024]⟩ : Shape))
    (h1 : dG.offsetDims = [0]) (h2 : dG.collapsedSliceDims = [1]) (h3 : dG.operandBatchingDims = [])
    (h4 : dG.startIndicesBatchingDims = []) (h5 : dG.startIndexMap = [1]) (h6 : dG.indexVectorDim = 1) (h7 : dG.sliceSizes = ![M, 1])
    (s : Nat) (hs : s < 10) (hsl : (S10x1024).Slices ![s, 0] S1x1024) (hsc : (S1x1024).ShapeCasts S1024)
    (hb1 : (S1024).BroadcastsInDim S1x1024 (![1] : Fin 1 → Fin 2))
    (hb2 : (S1x1024).BroadcastsInDim (⟨2, ![M, 1024]⟩ : Shape) (![0, 1] : Fin 2 → Fin 2))
    (h : FVec Ideal (⟨2, ![M, 1024]⟩ : Shape) .f32) (T1 T2 : FVec Ideal S10x1024 .f32) (idx : IVec S1024x1 32) :
    Cert.Spec.toMat (stageTerm dG s hsl hsc hb1 hb2 h T1 T2 idx)
      = Cert.Spec.stage (fun j => T1 (ix2 (⟨s, hs⟩ : Fin 10) j)) (fun j => T2 (ix2 (⟨s, hs⟩ : Fin 10) j))
          (fun j => Cert.Spec.clampIdx (idx (ix2 j (0 : Fin 1)))) (Cert.Spec.toMat h) := by
  funext b j
  exact stageTerm_apply dG h1 h2 h3 h4 h5 h6 h7 s hs hsl hsc hb1 hb2 h T1 T2 idx b j

end Cert.PureTerms

end
-- ==== Proof.KIHostRT.lean ====
import proofs.«426905_j7799660610191_3_alg».proof.Proof.KIHostA
import proofs.«426905_j7799660610191_3_alg».proof.Proof.PureTerms
import proofs.«426905_j7799660610191_3_alg».proof.Proof.Tables
import proofs.«426905_j7799660610191_3_alg».proof.Proof.Spec

set_option maxRecDepth 16384

noncomputable section

namespace Cert.KernelIdeal.HostR

open Cert.KernelIdeal Cert.KernelIdeal.Gen Cert.KernelIdeal.Frame Cert.KernelIdeal.Host
open Idealize.ShloMosaic Idealize.ShloMosaic.TcCoe Idealize.ShloMosaic.ValueIdx
open Cert.PureTerms

def tabW (f : Fin 1024 → BitVec 32) : IVec S1024 32 := fun i => f (S1024.rowMajor i)

theorem tabW_apply (f : Fin 1024 → BitVec 32) (j : Fin 1024) : tabW f (ix1 j) = f j :=
  congrArg f (Fin.ext (Shape.rowMajor_val_one (ix1 j)))

theorem hslK (s : Fin 10) : S10x1024.Slices ![s.val, 0] S1x1024 := by
  fin_cases s
  exacts [slices_S10x1024_S1x1024_0_0, slices_S10x1024_S1x1024_1_0, slices_S10x1024_S1x1024_2_0, slices_S10x1024_S1x1024_3_0, slices_S10x1024_S1x1024_4_0, slices_S10x1024_S1x1024_5_0, slices_S10x1024_S1x1024_6_0, slices_S10x1024_S1x1024_7_0, slices_S10x1024_S1x1024_8_0, slices_S10x1024_S1x1024_9_0]

section Stretches

variable (W : Valuation τ sig (Elt Ideal))

theorem kConst_c : StableHlo.after kConst W (no_index (Proc.devRef .tc main_c)) = tabW lit0 := by
  unfold kConst; after_results <;> rfl
theorem kConst_c_0 : StableHlo.after kConst W (no_index (Proc.devRef .tc main_c_0)) = constantI S1024 1 0#1 := by
  unfold kConst; after_results <;> rfl
theorem kConst_c_1 : StableHlo.after kConst W (no_index (Proc.devRef .tc main_c_1)) = tabW lit1 := by
  unfold kConst; after_results <;> rfl
theorem kConst_c_2 : StableHlo.after kConst W (no_index (Proc.devRef .tc main_c_2)) = constantI S1024 1 0#1 := by
  unfold kConst; after_results <;> rfl
theorem kConst_c_3 : StableHlo.after kConst W (no_index (Proc.devRef .tc main_c_3)) = tabW lit2 := by
  unfold kConst; after_results <;> rfl
theorem kConst_c_4 : StableHlo.after kConst W (no_index (Proc.devRef .tc main_c_4)) = constantI S1024 1 0#1 := by
  unfold kConst; after_results <;> rfl
theorem kConst_c_5 : StableHlo.after kConst W (no_index (Proc.devRef .tc main_c_5)) = tabW lit3 := by
  unfold kConst; after_results <;> rfl
theorem kConst_c_6 : StableHlo.after kConst W (no_index (Proc.devRef .tc main_c_6)) = constantI S1024 1 0#1 := by
  unfold kConst; after_results <;> rfl
theorem kConst_c_7 : StableHlo.after kConst W (no_index (Proc.devRef .tc main_c_7)) = tabW lit4 := by
  unfold kConst; after_results <;> rfl
theorem kConst_c_8 : StableHlo.after kConst W (no_index (Proc.devRef .tc main_c_8)) = constantI S1024 1 0#1 := by
  unfold kConst; after_results <;> rfl
theorem kConst_c_9 : StableHlo.after kConst W (no_index (Proc.devRef .tc main_c_9)) = tabW lit5 := by
  unfold kConst; after_results <;> rfl
theorem kConst_c_10 : StableHlo.after kConst W (no_index (Proc.devRef .tc main_c_10)) = constantI S1024 1 0#1 := by
  unfold kConst; after_results <;> rfl
theorem kConst_c_11 : StableHlo.after kConst W (no_index (Proc.devRef .tc main_c_11)) = tabW lit6 := by
  unfold kConst; after_results <;> rfl
theorem kConst_c_12 : StableHlo.after kConst W (no_index (Proc.devRef .tc main_c_12)) = constantI S1024 1 0#1 := by
  unfold kConst; after_results <;> rfl
theorem kConst_c_13 : StableHlo.after kConst W (no_index (Proc.devRef .tc main_c_13)) = tabW lit7 := by
  unfold kConst; after_results <;> rfl
theorem kConst_c_14 : StableHlo.after kConst W (no_index (Proc.devRef .tc main_c_14)) = constantI S1024 1 0#1 := by
  unfold kConst; after_results <;> rfl
theorem kConst_c_15 : StableHlo.after kConst W (no_index (Proc.devRef .tc main_c_15)) = tabW lit8 := by
  unfold kConst; after_results <;> rfl
theorem kConst_c_16 : StableHlo.after kConst W (no_index (Proc.devRef .tc main_c_16)) = constantI S1024 1 0#1 := by
  unfold kConst; after_results <;> rfl
theorem kConst_c_17 : StableHlo.after kConst W (no_index (Proc.devRef .tc main_c_17)) = tabW lit9 := by
  unfold kConst; after_results <;> rfl
theorem kConst_c_18 : StableHlo.after kConst W (no_index (Proc.devRef .tc main_c_18)) = constantI S1024 1 0#1 := by
  unfold kConst; after_results <;> rfl
theorem kConst_c_19 : StableHlo.after kConst W (no_index (Proc.devRef .tc main_c_19)) = constantI S1024 1 0#1 := by
  unfold kConst; after_results <;> rfl
theorem kConst_c_20 : StableHlo.after kConst W (no_index (Proc.devRef .tc main_c_20)) = constantI S1024 1 0#1 := by
  unfold kConst; after_results <;> rfl
theorem kConst_c_21 : StableHlo.after kConst W (no_index (Proc.devRef .tc main_c_21)) = constantI S1024 1 0#1 := by
  unfold kConst; after_results <;> rfl
theorem kConst_c_22 : StableHlo.after kConst W (no_index (Proc.devRef .tc main_c_22)) = constantI S1024 1 0#1 := by
  unfold kConst; after_results <;> rfl
theorem kConst_c_23 : StableHlo.after kConst W (no_index (Proc.devRef .tc main_c_23)) = constantI S1024 1 0#1 := by
  unfold kConst; after_results <;> rfl
theorem kConst_c_24 : StableHlo.after kConst W (no_index (Proc.devRef .tc main_c_24)) = constantI S1024 1 0#1 := by
  unfold kConst; after_results <;> rfl
theorem kConst_c_25 : StableHlo.after kConst W (no_index (Proc.devRef .tc main_c_25)) = constantI S1024 1 0#1 := by
  unfold kConst; after_results <;> rfl
theorem kConst_c_26 : StableHlo.after kConst W (no_index (Proc.devRef .tc main_c_26)) = constantI S1024 1 0#1 := by
  unfold kConst; after_results <;> rfl
theorem kConst_c_27 : StableHlo.after kConst W (no_index (Proc.devRef .tc main_c_27)) = constantI S1024 1 0#1 := by
  unfold kConst; after_results <;> rfl
theorem kConst_c_28 : StableHlo.after kConst W (no_index (Proc.devRef .tc main_c_28)) = constantI S1024 1 0#1 := by
  unfold kConst; after_results <;> rfl
theorem kConst_c_29 : StableHlo.after kConst W (no_index (Proc.devRef .tc main_c_29)) = tabW lit10 := by
  unfold kConst; after_results <;> rfl
theorem kConst_c_30 : StableHlo.after kConst W (no_index (Proc.devRef .tc main_c_30)) = constantI S1024 1 0#1 := by
  unfold kConst; after_results <;> rfl
theorem kConst_c_31 : StableHlo.after kConst W (no_index (Proc.devRef .tc main_c_31)) = tabW lit11 := by
  unfold kConst; after_results <;> rfl
theorem kConst_c_32 : StableHlo.after kConst W (no_index (Proc.devRef .tc main_c_32)) = constantI S1024 1 0#1 := by
  unfold kConst; after_results <;> rfl
theorem kConst_c_33 : StableHlo.after kConst W (no_index (Proc.devRef .tc main_c_33)) = tabW lit12 := by
  unfold kConst; after_results <;> rfl
theorem kConst_c_34 : StableHlo.after kConst W (no_index (Proc.devRef .tc main_c_34)) = constantI S1024 1 0#1 := by
  unfold kConst; after_results <;> rfl
theorem kConst_c_35 : StableHlo.after kConst W (no_index (Proc.devRef .tc main_c_35)) = tabW lit13 := by
  unfold kConst; after_results <;> rfl
theorem kConst_c_36 : StableHlo.after kConst W (no_index (Proc.devRef .tc main_c_36)) = constantI S1024 1 0#1 := by
  unfold kConst; after_results <;> rfl
theorem kConst_c_37 : StableHlo.after kConst W (no_index (Proc.devRef .tc main_c_37)) = tabW lit14 := by
  unfold kConst; after_results <;> rfl
theorem kConst_c_38 : StableHlo.after kConst W (no_index (Proc.devRef .tc main_c_38)) = constantI S1024 1 0#1 := by
  unfold kConst; after_results <;> rfl
theorem kConst_c_39 : StableHlo.after kConst W (no_index (Proc.devRef .tc main_c_39)) = tabW lit15 := by
  unfold kConst; after_results <;> rfl
theorem kConst_c_40 : StableHlo.after kConst W (no_index (Proc.devRef .tc main_c_40)) = constantI S1024 1 0#1 := by
  unfold kConst; after_results <;> rfl
theorem kConst_c_41 : StableHlo.after kConst W (no_index (Proc.devRef .tc main_c_41)) = tabW lit16 := by
  unfold kConst; after_results <;> rfl
theorem kConst_c_42 : StableHlo.after kConst W (no_index (Proc.devRef .tc main_c_42)) = constantI S1024 1 0#1 := by
  unfold kConst; after_results <;> rfl
theorem kConst_c_43 : StableHlo.after kConst W (no_index (Proc.devRef .tc main_c_43)) = tabW lit17 := by
  unfold kConst; after_results <;> rfl
theorem kConst_c_44 : StableHlo.after kConst W (no_index (Proc.devRef .tc main_c_44)) = constantI S1024 1 0#1 := by
  unfold kConst; after_results <;> rfl
theorem kConst_c_45 : StableHlo.after kConst W (no_index (Proc.devRef .tc main_c_45)) = tabW lit18 := by
  unfold kConst; after_results <;> rfl
theorem kConst_c_46 : StableHlo.after kConst W (no_index (Proc.devRef .tc main_c_46)) = constantI S1024 1 0#1 := by
  unfold kConst; after_results <;> rfl
theorem kConst_c_47 : StableHlo.after kConst W (no_index (Proc.devRef .tc main_c_47)) = tabW lit19 := by
  unfold kConst; after_results <;> rfl
theorem kConst_c_48 : StableHlo.after kConst W (no_index (Proc.devRef .tc main_c_48)) = constantI S1024 1 0#1 := by
  unfold kConst; after_results <;> rfl

theorem kTh_v2 : StableHlo.after kTh W (no_index (Proc.devRef .tc main_v2)) = cosTab concatenates_S10x512_S10x512_S10x1024_d1 (W (Proc.devRef .tc main_arg2)) := by
  unfold kTh; after_results <;> rfl
theorem kTh_v6 : StableHlo.after kTh W (no_index (Proc.devRef .tc main_v6)) = sinTab concatenates_S10x512_S10x512_S10x1024_d1 (W (Proc.devRef .tc main_arg2)) := by
  unfold kTh; after_results <;> rfl

theorem kP0_v13 : StableHlo.after kP0 W (no_index (Proc.devRef .tc main_v13))
    = coefRow gather_S1024_S1024x1_S1024_n_0_n_n_0_1_1 0 slices_S10x1024_S1x1024_0_0 shapeCasts_S1x1024_S1024 (W (Proc.devRef .tc main_v2)) (idxVec bcast_S_S1024 bcast_S1024_S1024x1_0 (W (Proc.devRef .tc main_c)) (W (Proc.devRef .tc main_c_0))) := by
  unfold kP0; after_results <;> rfl
theorem kP1_v20 : StableHlo.after kP1 W (no_index (Proc.devRef .tc main_v20))
    = coefRow gather_S1024_S1024x1_S1024_n_0_n_n_0_1_1 1 slices_S10x1024_S1x1024_1_0 shapeCasts_S1x1024_S1024 (W (Proc.devRef .tc main_v2)) (idxVec bcast_S_S1024 bcast_S1024_S1024x1_0 (W (Proc.devRef .tc main_c_1)) (W (Proc.devRef .tc main_c_2))) := by
  unfold kP1; after_results <;> rfl
theorem kP2_v27 : StableHlo.after kP2 W (no_index (Proc.devRef .tc main_v27))
    = coefRow gather_S1024_S1024x1_S1024_n_0_n_n_0_1_1 2 slices_S10x1024_S1x1024_2_0 shapeCasts_S1x1024_S1024 (W (Proc.devRef .tc main_v2)) (idxVec bcast_S_S1024 bcast_S1024_S1024x1_0 (W (Proc.devRef .tc main_c_3)) (W (Proc.devRef .tc main_c_4))) := by
  unfold kP2; after_results <;> rfl
theorem kP3_v34 : StableHlo.after kP3 W (no_index (Proc.devRef .tc main_v34))
    = coefRow gather_S1024_S1024x1_S1024_n_0_n_n_0_1_1 3 slices_S10x1024_S1x1024_3_0 shapeCasts_S1x1024_S1024 (W (Proc.devRef .tc main_v2)) (idxVec bcast_S_S1024 bcast_S1024_S1024x1_0 (W (Proc.devRef .tc main_c_5)) (W (Proc.devRef .tc main_c_6))) := by
  unfold kP3; after_results <;> rfl
theorem kP4_v41 : StableHlo.after kP4 W (no_index (Proc.devRef .tc main_v41))
    = coefRow gather_S1024_S1024x1_S1024_n_0_n_n_0_1_1 4 slices_S10x1024_S1x1024_4_0 shapeCasts_S1x1024_S1024 (W (Proc.devRef .tc main_v2)) (idxVec bcast_S_S1024 bcast_S1024_S1024x1_0 (W (Proc.devRef .tc main_c_7)) (W (Proc.devRef .tc main_c_8))) := by
  unfold kP4; after_results <;> rfl
theorem kP5_v48 : StableHlo.after kP5 W (no_index (Proc.devRef .tc main_v48))
    = coefRow gather_S1024_S1024x1_S1024_n_0_n_n_0_1_1 5 slices_S10x1024_S1x1024_5_0 shapeCasts_S1x1024_S1024 (W (Proc.devRef .tc main_v2)) (idxVec bcast_S_S1024 bcast_S1024_S1024x1_0 (W (Proc.devRef .tc main_c_9)) (W (Proc.devRef .tc main_c_10))) := by
  unfold kP5; after_results <;> rfl
theorem kP6_v55 : StableHlo.after kP6 W (no_index (Proc.devRef .tc main_v55))
    = coefRow gather_S1024_S1024x1_S1024_n_0_n_n_0_1_1 6 slices_S10x1024_S1x1024_6_0 shapeCasts_S1x1024_S1024 (W (Proc.devRef .tc main_v2)) (idxVec bcast_S_S1024 bcast_S1024_S1024x1_0 (W (Proc.devRef .tc main_c_11)) (W (Proc.devRef .tc main_c_12))) := by
  unfold kP6; after_results <;> rfl
theorem kP7_v62 : StableHlo.after kP7 W (no_index (Proc.devRef .tc main_v62))
    = coefRow gather_S1024_S1024x1_S1024_n_0_n_n_0_1_1 7 slices_S10x1024_S1x1024_7_0 shapeCasts_S1x1024_S1024 (W (Proc.devRef .tc main_v2)) (idxVec bcast_S_S1024 bcast_S1024_S1024x1_0 (W (Proc.devRef .tc main_c_13)) (W (Proc.devRef .tc main_c_14))) := by
  unfold kP7; after_results <;> rfl
theorem kP8_v69 : StableHlo.after kP8 W (no_index (Proc.devRef .tc main_v69))
    = coefRow gather_S1024_S1024x1_S1024_n_0_n_n_0_1_1 8 slices_S10x1024_S1x1024_8_0 shapeCasts_S1x1024_S1024 (W (Proc.devRef .tc main_v2)) (idxVec bcast_S_S1024 bcast_S1024_S1024x1_0 (W (Proc.devRef .tc main_c_15)) (W (Proc.devRef .tc main_c_16))) := by
  unfold kP8; after_results <;> rfl
theorem kP9_v76 : StableHlo.after kP9 W (no_index (Proc.devRef .tc main_v76))
    = coefRow gather_S1024_S1024x1_S1024_n_0_n_n_0_1_1 9 slices_S10x1024_S1x1024_9_0 shapeCasts_S1x1024_S1024 (W (Proc.devRef .tc main_v2)) (idxVec bcast_S_S1024 bcast_S1024_S1024x1_0 (W (Proc.devRef .tc main_c_17)) (W (Proc.devRef .tc main_c_18))) := by
  unfold kP9; after_results <;> rfl
theorem kQ0_v94 : StableHlo.after kQ0 W (no_index (Proc.devRef .tc main_v94))
    = coefRow gather_S1024_S1024x1_S1024_n_0_n_n_0_1_1 0 slices_S10x1024_S1x1024_0_0 shapeCasts_S1x1024_S1024 (W (Proc.devRef .tc main_v6)) (idxVec bcast_S_S1024 bcast_S1024_S1024x1_0 (W (Proc.devRef .tc main_c)) (W (Proc.devRef .tc main_c_19))) := by
  unfold kQ0; after_results <;> rfl
theorem kQ1_v101 : StableHlo.after kQ1 W (no_index (Proc.devRef .tc main_v101))
    = coefRow gather_S1024_S1024x1_S1024_n_0_n_n_0_1_1 1 slices_S10x1024_S1x1024_1_0 shapeCasts_S1x1024_S1024 (W (Proc.devRef .tc main_v6)) (idxVec bcast_S_S1024 bcast_S1024_S1024x1_0 (W (Proc.devRef .tc main_c_1)) (W (Proc.devRef .tc main_c_20))) := by
  unfold kQ1; after_results <;> rfl
theorem kQ2_v108 : StableHlo.after kQ2 W (no_index (Proc.devRef .tc main_v108))
    = coefRow gather_S1024_S1024x1_S1024_n_0_n_n_0_1_1 2 slices_S10x1024_S1x1024_2_0 shapeCasts_S1x1024_S1024 (W (Proc.devRef .tc main_v6)) (idxVec bcast_S_S1024 bcast_S1024_S1024x1_0 (W (Proc.devRef .tc main_c_3)) (W (Proc.devRef .tc main_c_21))) := by
  unfold kQ2; after_results <;> rfl
theorem kQ3_v115 : StableHlo.after kQ3 W (no_index (Proc.devRef .tc main_v115))
    = coefRow gather_S1024_S1024x1_S1024_n_0_n_n_0_1_1 3 slices_S10x1024_S1x1024_3_0 shapeCasts_S1x1024_S1024 (W (Proc.devRef .tc main_v6)) (idxVec bcast_S_S1024 bcast_S1024_S1024x1_0 (W (Proc.devRef .tc main_c_5)) (W (Proc.devRef .tc main_c_22))) := by
  unfold kQ3; after_results <;> rfl
theorem kQ4_v122 : StableHlo.after kQ4 W (no_index (Proc.devRef .tc main_v122))
    = coefRow gather_S1024_S1024x1_S1024_n_0_n_n_0_1_1 4 slices_S10x1024_S1x1024_4_0 shapeCasts_S1x1024_S1024 (W (Proc.devRef .tc main_v6)) (idxVec bcast_S_S1024 bcast_S1024_S1024x1_0 (W (Proc.devRef .tc main_c_7)) (W (Proc.devRef .tc main_c_23))) := by
  unfold kQ4; after_results <;> rfl
theorem kQ5_v129 : StableHlo.after kQ5 W (no_index (Proc.devRef .tc main_v129))
    = coefRow gather_S1024_S1024x1_S1024_n_0_n_n_0_1_1 5 slices_S10x1024_S1x1024_5_0 shapeCasts_S1x1024_S1024 (W (Proc.devRef .tc main_v6)) (idxVec bcast_S_S1024 bcast_S1024_S1024x1_0 (W (Proc.devRef .tc main_c_9)) (W (Proc.devRef .tc main_c_24))) := by
  unfold kQ5; after_results <;> rfl
theorem kQ6_v136 : StableHlo.after kQ6 W (no_index (Proc.devRef .tc main_v136))
    = coefRow gather_S1024_S1024x1_S1024_n_0_n_n_0_1_1 6 slices_S10x1024_S1x1024_6_0 shapeCasts_S1x1024_S1024 (W (Proc.devRef .tc main_v6)) (idxVec bcast_S_S1024 bcast_S1024_S1024x1_0 (W (Proc.devRef .tc main_c_11)) (W (Proc.devRef .tc main_c_25))) := by
  unfold kQ6; after_results <;> rfl
theorem kQ7_v143 : StableHlo.after kQ7 W (no_index (Proc.devRef .tc main_v143))
    = coefRow gather_S1024_S1024x1_S1024_n_0_n_n_0_1_1 7 slices_S10x1024_S1x1024_7_0 shapeCasts_S1x1024_S1024 (W (Proc.devRef .tc main_v6)) (idxVec bcast_S_S1024 bcast_S1024_S1024x1_0 (W (Proc.devRef .tc main_c_13)) (W (Proc.devRef .tc main_c_26))) := by
  unfold kQ7; after_results <;> rfl
theorem kQ8_v150 : StableHlo.after kQ8 W (no_index (Proc.devRef .tc main_v150))
    = coefRow gather_S1024_S1024x1_S1024_n_0_n_n_0_1_1 8 slices_S10x1024_S1x1024_8_0 shapeCasts_S1x1024_S1024 (W (Proc.devRef .tc main_v6)) (idxVec bcast_S_S1024 bcast_S1024_S1024x1_0 (W (Proc.devRef .tc main_c_15)) (W (Proc.devRef .tc main_c_27))) := by
  unfold kQ8; after_results <;> rfl
theorem kQ9_v157 : StableHlo.after kQ9 W (no_index (Proc.devRef .tc main_v157))
    = coefRow gather_S1024_S1024x1_S1024_n_0_n_n_0_1_1 9 slices_S10x1024_S1x1024_9_0 shapeCasts_S1x1024_S1024 (W (Proc.devRef .tc main_v6)) (idxVec bcast_S_S1024 bcast_S1024_S1024x1_0 (W (Proc.devRef .tc main_c_17)) (W (Proc.devRef .tc main_c_28))) := by
  unfold kQ9; after_results <;> rfl

theorem kPb_v77 : StableHlo.after kPb W (no_index (Proc.devRef .tc main_v77)) = bcRow bcast_S1024_S1x1024_1 (W (Proc.devRef .tc main_v13)) := by
  unfold kPb; after_results <;> rfl
theorem kPb_v78 : StableHlo.after kPb W (no_index (Proc.devRef .tc main_v78)) = bcRow bcast_S1024_S1x1024_1 (W (Proc.devRef .tc main_v20)) := by
  unfold kPb; after_results <;> rfl
theorem kPb_v79 : StableHlo.after kPb W (no_index (Proc.devRef .tc main_v79)) = bcRow bcast_S1024_S1x1024_1 (W (Proc.devRef .tc main_v27)) := by
  unfold kPb; after_results <;> rfl
theorem kPb_v80 : StableHlo.after kPb W (no_index (Proc.devRef .tc main_v80)) = bcRow bcast_S1024_S1x1024_1 (W (Proc.devRef .tc main_v34)) := by
  unfold kPb; after_results <;> rfl
theorem kPb_v81 : StableHlo.after kPb W (no_index (Proc.devRef .tc main_v81)) = bcRow bcast_S1024_S1x1024_1 (W (Proc.devRef .tc main_v41)) := by
  unfold kPb; after_results <;> rfl
theorem kPb_v82 : StableHlo.after kPb W (no_index (Proc.devRef .tc main_v82)) = bcRow bcast_S1024_S1x1024_1 (W (Proc.devRef .tc main_v48)) := by
  unfold kPb; after_results <;> rfl
theorem kPb_v83 : StableHlo.after kPb W (no_index (Proc.devRef .tc main_v83)) = bcRow bcast_S1024_S1x1024_1 (W (Proc.devRef .tc main_v55)) := by
  unfold kPb; after_results <;> rfl
theorem kPb_v84 : StableHlo.after kPb W (no_index (Proc.devRef .tc main_v84)) = bcRow bcast_S1024_S1x1024_1 (W (Proc.devRef .tc main_v62)) := by
  unfold kPb; after_results <;> rfl
theorem kPb_v85 : StableHlo.after kPb W (no_index (Proc.devRef .tc main_v85)) = bcRow bcast_S1024_S1x1024_1 (W (Proc.devRef .tc main_v69)) := by
  unfold kPb; after_results <;> rfl
theorem kPb_v86 : StableHlo.after kPb W (no_index (Proc.devRef .tc main_v86)) = bcRow bcast_S1024_S1x1024_1 (W (Proc.devRef .tc main_v76)) := by
  unfold kPb; after_results <;> rfl
theorem kQb_v158 : StableHlo.after kQb W (no_index (Proc.devRef .tc main_v158)) = bcRow bcast_S1024_S1x1024_1 (W (Proc.devRef .tc main_v94)) := by
  unfold kQb; after_results <;> rfl
theorem kQb_v159 : StableHlo.after kQb W (no_index (Proc.devRef .tc main_v159)) = bcRow bcast_S1024_S1x1024_1 (W (Proc.devRef .tc main_v101)) := by
  unfold kQb; after_results <;> rfl
theorem kQb_v160 : StableHlo.after kQb W (no_index (Proc.devRef .tc main_v160)) = bcRow bcast_S1024_S1x1024_1 (W (Proc.devRef .tc main_v108)) := by
  unfold kQb; after_results <;> rfl
theorem kQb_v161 : StableHlo.after kQb W (no_index (Proc.devRef .tc main_v161)) = bcRow bcast_S1024_S1x1024_1 (W (Proc.devRef .tc main_v115)) := by
  unfold kQb; after_results <;> rfl
theorem kQb_v162 : StableHlo.after kQb W (no_index (Proc.devRef .tc main_v162)) = bcRow bcast_S1024_S1x1024_1 (W (Proc.devRef .tc main_v122)) := by
  unfold kQb; after_results <;> rfl
theorem kQb_v163 : StableHlo.after kQb W (no_index (Proc.devRef .tc main_v163)) = bcRow bcast_S1024_S1x1024_1 (W (Proc.devRef .tc main_v129)) := by
  unfold kQb; after_results <;> rfl
theorem kQb_v164 : StableHlo.after kQb W (no_index (Proc.devRef .tc main_v164)) = bcRow bcast_S1024_S1x1024_1 (W (Proc.devRef .tc main_v136)) := by
  unfold kQb; after_results <;> rfl
theorem kQb_v165 : StableHlo.after kQb W (no_index (Proc.devRef .tc main_v165)) = bcRow bcast_S1024_S1x1024_1 (W (Proc.devRef .tc main_v143)) := by
  unfold kQb; after_results <;> rfl
theorem kQb_v166 : StableHlo.after kQb W (no_index (Proc.devRef .tc main_v166)) = bcRow bcast_S1024_S1x1024_1 (W (Proc.devRef .tc main_v150)) := by
  unfold kQb; after_results <;> rfl
theorem kQb_v167 : StableHlo.after kQb W (no_index (Proc.devRef .tc main_v167)) = bcRow bcast_S1024_S1x1024_1 (W (Proc.devRef .tc main_v157)) := by
  unfold kQb; after_results <;> rfl

theorem kPn_v87 : StableHlo.after kPn W (no_index (Proc.devRef .tc main_v87))
    = stack10 concatenates_S1x1024_S1x1024_S1x1024_S1x1024_S1x1024_S1x1024_S1x1024_S1x1024_S1x1024_S1x1024_S10x1024_d0
        ![W (Proc.devRef .tc main_v77), W (Proc.devRef .tc main_v78), W (Proc.devRef .tc main_v79), W (Proc.devRef .tc main_v80), W (Proc.devRef .tc main_v81), W (Proc.devRef .tc main_v82), W (Proc.devRef .tc main_v83), W (Proc.devRef .tc main_v84), W (Proc.devRef .tc main_v85), W (Proc.devRef .tc main_v86)] := by
  unfold kPn; after_results <;> rfl
theorem kQn_v168 : StableHlo.after kQn W (no_index (Proc.devRef .tc main_v168))
    = stack10 concatenates_S1x1024_S1x1024_S1x1024_S1x1024_S1x1024_S1x1024_S1x1024_S1x1024_S1x1024_S1x1024_S10x1024_d0
        ![W (Proc.devRef .tc main_v158), W (Proc.devRef .tc main_v159), W (Proc.devRef .tc main_v160), W (Proc.devRef .tc main_v161), W (Proc.devRef .tc main_v162), W (Proc.devRef .tc main_v163), W (Proc.devRef .tc main_v164), W (Proc.devRef .tc main_v165), W (Proc.devRef .tc main_v166), W (Proc.devRef .tc main_v167)] := by
  unfold kQn; after_results <;> rfl

theorem kEye_v174 : StableHlo.after kEye W (no_index (Proc.devRef .tc main_v174)) = eyeTerm bcast_S_S1024x1024 (constantI S_ 32 0#32) := by
  unfold kEye; after_results <;> rfl

end Stretches

variable (W0 : Valuation τ sig (Elt Ideal))

abbrev wP : Valuation τ sig (Elt Ideal) :=
  StableHlo.after kPb (StableHlo.after kP9 (StableHlo.after kP8 (StableHlo.after kP7 (StableHlo.after kP6 (StableHlo.after kP5 (StableHlo.after kP4 (StableHlo.after kP3 (StableHlo.after kP2 (StableHlo.after kP1 (StableHlo.after kP0 (StableHlo.after kTh (StableHlo.after kConst (W0)))))))))))))

abbrev wQ : Valuation τ sig (Elt Ideal) :=
  StableHlo.after kQb (StableHlo.after kQ9 (StableHlo.after kQ8 (StableHlo.after kQ7 (StableHlo.after kQ6 (StableHlo.after kQ5 (StableHlo.after kQ4 (StableHlo.after kQ3 (StableHlo.after kQ2 (StableHlo.after kQ1 (StableHlo.after kQ0 (StableHlo.after kPn (wP W0))))))))))))

abbrev wT : Valuation τ sig (Elt Ideal) :=
  StableHlo.after kEye (StableHlo.after kQn (wQ W0))

abbrev idxP : Fin 10 → IVec S1024x1 32 :=
  ![idxVec bcast_S_S1024 bcast_S1024_S1024x1_0 (tabW lit0) (constantI S1024 1 0#1),
    idxVec bcast_S_S1024 bcast_S1024_S1024x1_0 (tabW lit1) (constantI S1024 1 0#1),
    idxVec bcast_S_S1024 bcast_S1024_S1024x1_0 (tabW lit2) (constantI S1024 1 0#1),
    idxVec bcast_S_S1024 bcast_S1024_S1024x1_0 (tabW lit3) (constantI S1024 1 0#1),
    idxVec bcast_S_S1024 bcast_S1024_S1024x1_0 (tabW lit4) (constantI S1024 1 0#1),
    idxVec bcast_S_S1024 bcast_S1024_S1024x1_0 (tabW lit5) (constantI S1024 1 0#1),
    idxVec bcast_S_S1024 bcast_S1024_S1024x1_0 (tabW lit6) (constantI S1024 1 0#1),
    idxVec bcast_S_S1024 bcast_S1024_S1024x1_0 (tabW lit7) (constantI S1024 1 0#1),
    idxVec bcast_S_S1024 bcast_S1024_S1024x1_0 (tabW lit8) (constantI S1024 1 0#1),
    idxVec bcast_S_S1024 bcast_S1024_S1024x1_0 (tabW lit9) (constantI S1024 1 0#1)]

theorem idxP_apply (s : Fin 10) (j : Fin 1024) : idxP s (ix2 j (0 : Fin 1)) = Cert.Tables.kLitP s.val j := by
  fin_cases s
  · exact Eq.trans (idxVec_apply bcast_S_S1024 bcast_S1024_S1024x1_0 (tabW lit0) _ rfl j) (tabW_apply lit0 j)
  · exact Eq.trans (idxVec_apply bcast_S_S1024 bcast_S1024_S1024x1_0 (tabW lit1) _ rfl j) (tabW_apply lit1 j)
  · exact Eq.trans (idxVec_apply bcast_S_S1024 bcast_S1024_S1024x1_0 (tabW lit2) _ rfl j) (tabW_apply lit2 j)
  · exact Eq.trans (idxVec_apply bcast_S_S1024 bcast_S1024_S1024x1_0 (tabW lit3) _ rfl j) (tabW_apply lit3 j)
  · exact Eq.trans (idxVec_apply bcast_S_S1024 bcast_S1024_S1024x1_0 (tabW lit4) _ rfl j) (tabW_apply lit4 j)
  · exact Eq.trans (idxVec_apply bcast_S_S1024 bcast_S1024_S1024x1_0 (tabW lit5) _ rfl j) (tabW_apply lit5 j)
  · exact Eq.trans (idxVec_apply bcast_S_S1024 bcast_S1024_S1024x1_0 (tabW lit6) _ rfl j) (tabW_apply lit6 j)
  · exact Eq.trans (idxVec_apply bcast_S_S1024 bcast_S1024_S1024x1_0 (tabW lit7) _ rfl j) (tabW_apply lit7 j)
  · exact Eq.trans (idxVec_apply bcast_S_S1024 bcast_S1024_S1024x1_0 (tabW lit8) _ rfl j) (tabW_apply lit8 j)
  · exact Eq.trans (idxVec_apply bcast_S_S1024 bcast_S1024_S1024x1_0 (tabW lit9) _ rfl j) (tabW_apply lit9 j)

theorem wP_v77 : wP W0 (Proc.devRef .tc main_v77)
    = bcRow bcast_S1024_S1x1024_1 (coefRow gather_S1024_S1024x1_S1024_n_0_n_n_0_1_1 0 slices_S10x1024_S1x1024_0_0 shapeCasts_S1x1024_S1024 (cosTab concatenates_S10x512_S10x512_S10x1024_d1 (W0 (Proc.devRef .tc main_arg2)))
        (idxVec bcast_S_S1024 bcast_S1024_S1024x1_0 (tabW lit0) (constantI S1024 1 0#1))) := by
  unfold wP
  simp (disch := decide) only [keeps, kPb_v77, kP0_v13, kTh_v2, kConst_c, kConst_c_0]
theorem wP_v78 : wP W0 (Proc.devRef .tc main_v78)
    = bcRow bcast_S1024_S1x1024_1 (coefRow gather_S1024_S1024x1_S1024_n_0_n_n_0_1_1 1 slices_S10x1024_S1x1024_1_0 shapeCasts_S1x1024_S1024 (cosTab concatenates_S10x512_S10x512_S10x1024_d1 (W0 (Proc.devRef .tc main_arg2)))
        (idxVec bcast_S_S1024 bcast_S1024_S1024x1_0 (tabW lit1) (constantI S1024 1 0#1))) := by
  unfold wP
  simp (disch := decide) only [keeps, kPb_v78, kP1_v20, kTh_v2, kConst_c_1, kConst_c_2]
theorem wP_v79 : wP W0 (Proc.devRef .tc main_v79)
    = bcRow bcast_S1024_S1x1024_1 (coefRow gather_S1024_S1024x1_S1024_n_0_n_n_0_1_1 2 slices_S10x1024_S1x1024_2_0 shapeCasts_S1x1024_S1024 (cosTab concatenates_S10x512_S10x512_S10x1024_d1 (W0 (Proc.devRef .tc main_arg2)))
        (idxVec bcast_S_S1024 bcast_S1024_S1024x1_0 (tabW lit2) (constantI S1024 1 0#1))) := by
  unfold wP
  simp (disch := decide) only [keeps, kPb_v79, kP2_v27, kTh_v2, kConst_c_3, kConst_c_4]
theorem wP_v80 : wP W0 (Proc.devRef .tc main_v80)
    = bcRow bcast_S1024_S1x1024_1 (coefRow gather_S1024_S1024x1_S1024_n_0_n_n_0_1_1 3 slices_S10x1024_S1x1024_3_0 shapeCasts_S1x1024_S1024 (cosTab concatenates_S10x512_S10x512_S10x1024_d1 (W0 (Proc.devRef .tc main_arg2)))
        (idxVec bcast_S_S1024 bcast_S1024_S1024x1_0 (tabW lit3) (constantI S1024 1 0#1))) := by
  unfold wP
  simp (disch := decide) only [keeps, kPb_v80, kP3_v34, kTh_v2, kConst_c_5, kConst_c_6]
theorem wP_v81 : wP W0 (Proc.devRef .tc main_v81)
    = bcRow bcast_S1024_S1x1024_1 (coefRow gather_S1024_S1024x1_S1024_n_0_n_n_0_1_1 4 slices_S10x1024_S1x1024_4_0 shapeCasts_S1x1024_S1024 (cosTab concatenates_S10x512_S10x512_S10x1024_d1 (W0 (Proc.devRef .tc main_arg2)))
        (idxVec bcast_S_S1024 bcast_S1024_S1024x1_0 (tabW lit4) (constantI S1024 1 0#1))) := by
  unfold wP
  simp (disch := decide) only [keeps, kPb_v81, kP4_v41, kTh_v2, kConst_c_7, kConst_c_8]
theorem wP_v82 : wP W0 (Proc.devRef .tc main_v82)
    = bcRow bcast_S1024_S1x1024_1 (coefRow gather_S1024_S1024x1_S1024_n_0_n_n_0_1_1 5 slices_S10x1024_S1x1024_5_0 shapeCasts_S1x1024_S1024 (cosTab concatenates_S10x512_S10x512_S10x1024_d1 (W0 (Proc.devRef .tc main_arg2)))
        (idxVec bcast_S_S1024 bcast_S1024_S1024x1_0 (tabW lit5) (constantI S1024 1 0#1))) := by
  unfold wP
  simp (disch := decide) only [keeps, kPb_v82, kP5_v48, kTh_v2, kConst_c_9, kConst_c_10]
theorem wP_v83 : wP W0 (Proc.devRef .tc main_v83)
    = bcRow bcast_S1024_S1x1024_1 (coefRow gather_S1024_S1024x1_S1024_n_0_n_n_0_1_1 6 slices_S10x1024_S1x1024_6_0 shapeCasts_S1x1024_S1024 (cosTab concatenates_S10x512_S10x512_S10x1024_d1 (W0 (Proc.devRef .tc main_arg2)))
        (idxVec bcast_S_S1024 bcast_S1024_S1024x1_0 (tabW lit6) (constantI S1024 1 0#1))) := by
  unfold wP
  simp (disch := decide) only [keeps, kPb_v83, kP6_v55, kTh_v2, kConst_c_11, kConst_c_12]
theorem wP_v84 : wP W0 (Proc.devRef .tc main_v84)
    = bcRow bcast_S1024_S1x1024_1 (coefRow gather_S1024_S1024x1_S1024_n_0_n_n_0_1_1 7 slices_S10x1024_S1x1024_7_0 shapeCasts_S1x1024_S1024 (cosTab concatenates_S10x512_S10x512_S10x1024_d1 (W0 (Proc.devRef .tc main_arg2)))
        (idxVec bcast_S_S1024 bcast_S1024_S1024x1_0 (tabW lit7) (constantI S1024 1 0#1))) := by
  unfold wP
  simp (disch := decide) only [keeps, kPb_v84, kP7_v62, kTh_v2, kConst_c_13, kConst_c_14]
theorem wP_v85 : wP W0 (Proc.devRef .tc main_v85)
    = bcRow bcast_S1024_S1x1024_1 (coefRow gather_S1024_S1024x1_S1024_n_0_n_n_0_1_1 8 slices_S10x1024_S1x1024_8_0 shapeCasts_S1x1024_S1024 (cosTab concatenates_S10x512_S10x512_S10x1024_d1 (W0 (Proc.devRef .tc main_arg2)))
        (idxVec bcast_S_S1024 bcast_S1024_S1024x1_0 (tabW lit8) (constantI S1024 1 0#1))) := by
  unfold wP
  simp (disch := decide) only [keeps, kPb_v85, kP8_v69, kTh_v2, kConst_c_15, kConst_c_16]
theorem wP_v86 : wP W0 (Proc.devRef .tc main_v86)
    = bcRow bcast_S1024_S1x1024_1 (coefRow gather_S1024_S1024x1_S1024_n_0_n_n_0_1_1 9 slices_S10x1024_S1x1024_9_0 shapeCasts_S1x1024_S1024 (cosTab concatenates_S10x512_S10x512_S10x1024_d1 (W0 (Proc.devRef .tc main_arg2)))
        (idxVec bcast_S_S1024 bcast_S1024_S1024x1_0 (tabW lit9) (constantI S1024 1 0#1))) := by
  unfold wP
  simp (disch := decide) only [keeps, kPb_v86, kP9_v76, kTh_v2, kConst_c_17, kConst_c_18]
theorem wQ_v158 : wQ W0 (Proc.devRef .tc main_v158)
    = bcRow bcast_S1024_S1x1024_1 (coefRow gather_S1024_S1024x1_S1024_n_0_n_n_0_1_1 0 slices_S10x1024_S1x1024_0_0 shapeCasts_S1x1024_S1024 (sinTab concatenates_S10x512_S10x512_S10x1024_d1 (W0 (Proc.devRef .tc main_arg2)))
        (idxVec bcast_S_S1024 bcast_S1024_S1024x1_0 (tabW lit0) (constantI S1024 1 0#1))) := by
  unfold wQ wP
  simp (disch := decide) only [keeps, kQb_v158, kQ0_v94, kTh_v6, kConst_c, kConst_c_19]
theorem wQ_v159 : wQ W0 (Proc.devRef .tc main_v159)
    = bcRow bcast_S1024_S1x1024_1 (coefRow gather_S1024_S1024x1_S1024_n_0_n_n_0_1_1 1 slices_S10x1024_S1x1024_1_0 shapeCasts_S1x1024_S1024 (sinTab concatenates_S10x512_S10x512_S10x1024_d1 (W0 (Proc.devRef .tc main_arg2)))
        (idxVec bcast_S_S1024 bcast_S1024_S1024x1_0 (tabW lit1) (constantI S1024 1 0#1))) := by
  unfold wQ wP
  simp (disch := decide) only [keeps, kQb_v159, kQ1_v101, kTh_v6, kConst_c_1, kConst_c_20]
theorem wQ_v160 : wQ W0 (Proc.devRef .tc main_v160)
    = bcRow bcast_S1024_S1x1024_1 (coefRow gather_S1024_S1024x1_S1024_n_0_n_n_0_1_1 2 slices_S10x1024_S1x1024_2_0 shapeCasts_S1x1024_S1024 (sinTab concatenates_S10x512_S10x512_S10x1024_d1 (W0 (Proc.devRef .tc main_arg2)))
        (idxVec bcast_S_S1024 bcast_S1024_S1024x1_0 (tabW lit2) (constantI S1024 1 0#1))) := by
  unfold wQ wP
  simp (disch := decide) only [keeps, kQb_v160, kQ2_v108, kTh_v6, kConst_c_3, kConst_c_21]
theorem wQ_v161 : wQ W0 (Proc.devRef .tc main_v161)
    = bcRow bcast_S1024_S1x1024_1 (coefRow gather_S1024_S1024x1_S1024_n_0_n_n_0_1_1 3 slices_S10x1024_S1x1024_3_0 shapeCasts_S1x1024_S1024 (sinTab concatenates_S10x512_S10x512_S10x1024_d1 (W0 (Proc.devRef .tc main_arg2)))
        (idxVec bcast_S_S1024 bcast_S1024_S1024x1_0 (tabW lit3) (constantI S1024 1 0#1))) := by
  unfold wQ wP
  simp (disch := decide) only [keeps, kQb_v161, kQ3_v115, kTh_v6, kConst_c_5, kConst_c_22]
theorem wQ_v162 : wQ W0 (Proc.devRef .tc main_v162)
    = bcRow bcast_S1024_S1x1024_1 (coefRow gather_S1024_S1024x1_S1024_n_0_n_n_0_1_1 4 slices_S10x1024_S1x1024_4_0 shapeCasts_S1x1024_S1024 (sinTab concatenates_S10x512_S10x512_S10x1024_d1 (W0 (Proc.devRef .tc main_arg2)))
        (idxVec bcast_S_S1024 bcast_S1024_S1024x1_0 (tabW lit4) (constantI S1024 1 0#1))) := by
  unfold wQ wP
  simp (disch := decide) only [keeps, kQb_v162, kQ4_v122, kTh_v6, kConst_c_7, kConst_c_23]
theorem wQ_v163 : wQ W0 (Proc.devRef .tc main_v163)
    = bcRow bcast_S1024_S1x1024_1 (coefRow gather_S1024_S1024x1_S1024_n_0_n_n_0_1_1 5 slices_S10x1024_S1x1024_5_0 shapeCasts_S1x1024_S1024 (sinTab concatenates_S10x512_S10x512_S10x1024_d1 (W0 (Proc.devRef .tc main_arg2)))
        (idxVec bcast_S_S1024 bcast_S1024_S1024x1_0 (tabW lit5) (constantI S1024 1 0#1))) := by
  unfold wQ wP
  simp (disch := decide) only [keeps, kQb_v163, kQ5_v129, kTh_v6, kConst_c_9, kConst_c_24]
theorem wQ_v164 : wQ W0 (Proc.devRef .tc main_v164)
    = bcRow bcast_S1024_S1x1024_1 (coefRow gather_S1024_S1024x1_S1024_n_0_n_n_0_1_1 6 slices_S10x1024_S1x1024_6_0 shapeCasts_S1x1024_S1024 (sinTab concatenates_S10x512_S10x512_S10x1024_d1 (W0 (Proc.devRef .tc main_arg2)))
        (idxVec bcast_S_S1024 bcast_S1024_S1024x1_0 (tabW lit6) (constantI S1024 1 0#1))) := by
  unfold wQ wP
  simp (disch := decide) only [keeps, kQb_v164, kQ6_v136, kTh_v6, kConst_c_11, kConst_c_25]
theorem wQ_v165 : wQ W0 (Proc.devRef .tc main_v165)
    = bcRow bcast_S1024_S1x1024_1 (coefRow gather_S1024_S1024x1_S1024_n_0_n_n_0_1_1 7 slices_S10x1024_S1x1024_7_0 shapeCasts_S1x1024_S1024 (sinTab concatenates_S10x512_S10x512_S10x1024_d1 (W0 (Proc.devRef .tc main_arg2)))
        (idxVec bcast_S_S1024 bcast_S1024_S1024x1_0 (tabW lit7) (constantI S1024 1 0#1))) := by
  unfold wQ wP
  simp (disch := decide) only [keeps, kQb_v165, kQ7_v143, kTh_v6, kConst_c_13, kConst_c_26]
theorem wQ_v166 : wQ W0 (Proc.devRef .tc main_v166)
    = bcRow bcast_S1024_S1x1024_1 (coefRow gather_S1024_S1024x1_S1024_n_0_n_n_0_1_1 8 slices_S10x1024_S1x1024_8_0 shapeCasts_S1x1024_S1024 (sinTab concatenates_S10x512_S10x512_S10x1024_d1 (W0 (Proc.devRef .tc main_arg2)))
        (idxVec bcast_S_S1024 bcast_S1024_S1024x1_0 (tabW lit8) (constantI S1024 1 0#1))) := by
  unfold wQ wP
  simp (disch := decide) only [keeps, kQb_v166, kQ8_v150, kTh_v6, kConst_c_15, kConst_c_27]
theorem wQ_v167 : wQ W0 (Proc.devRef .tc main_v167)
    = bcRow bcast_S1024_S1x1024_1 (coefRow gather_S1024_S1024x1_S1024_n_0_n_n_0_1_1 9 slices_S10x1024_S1x1024_9_0 shapeCasts_S1x1024_S1024 (sinTab concatenates_S10x512_S10x512_S10x1024_d1 (W0 (Proc.devRef .tc main_arg2)))
        (idxVec bcast_S_S1024 bcast_S1024_S1024x1_0 (tabW lit9) (constantI S1024 1 0#1))) := by
  unfold wQ wP
  simp (disch := decide) only [keeps, kQb_v167, kQ9_v157, kTh_v6, kConst_c_17, kConst_c_28]

theorem wT_v87 : wT W0 (Proc.devRef .tc main_v87)
    = coefTab gather_S1024_S1024x1_S1024_n_0_n_n_0_1_1 hslK shapeCasts_S1x1024_S1024 bcast_S1024_S1x1024_1 concatenates_S1x1024_S1x1024_S1x1024_S1x1024_S1x1024_S1x1024_S1x1024_S1x1024_S1x1024_S1x1024_S10x1024_d0
        (cosTab concatenates_S10x512_S10x512_S10x1024_d1 (W0 (Proc.devRef .tc main_arg2))) idxP := by
  unfold wT wQ
  simp (disch := decide) only [keeps, kPn_v87]
  rw [wP_v77 W0, wP_v78 W0, wP_v79 W0, wP_v80 W0, wP_v81 W0, wP_v82 W0, wP_v83 W0, wP_v84 W0, wP_v85 W0, wP_v86 W0]
  unfold coefTab stack10
  rfl

theorem wT_v168 : wT W0 (Proc.devRef .tc main_v168)
    = coefTab gather_S1024_S1024x1_S1024_n_0_n_n_0_1_1 hslK shapeCasts_S1x1024_S1024 bcast_S1024_S1x1024_1 concatenates_S1x1024_S1x1024_S1x1024_S1x1024_S1x1024_S1x1024_S1x1024_S1x1024_S1x1024_S1x1024_S10x1024_d0
        (sinTab concatenates_S10x512_S10x512_S10x1024_d1 (W0 (Proc.devRef .tc main_arg2))) idxP := by
  unfold wT
  simp (disch := decide) only [keeps, kQn_v168]
  rw [wQ_v158 W0, wQ_v159 W0, wQ_v160 W0, wQ_v161 W0, wQ_v162 W0, wQ_v163 W0, wQ_v164 W0, wQ_v165 W0, wQ_v166 W0, wQ_v167 W0]
  unfold coefTab stack10
  rfl

theorem T1_apply (s : Fin 10) (j : Fin 1024) :
    (wT W0 (Proc.devRef .tc main_v87) : S10x1024.Idx → EReal) (ix2 s j)
      = Cert.Spec.coef1 Cert.Tables.kLitP (Cert.Spec.toMat (W0 (Proc.devRef .tc main_arg2) : S10x512.Idx → EReal)) s.val j := by
  rw [wT_v87]
  exact coefTab_cos_apply _ rfl rfl rfl rfl rfl rfl rfl hslK _ _ _ _ _ idxP Cert.Tables.kLitP idxP_apply s j

theorem T2_apply (s : Fin 10) (j : Fin 1024) :
    (wT W0 (Proc.devRef .tc main_v168) : S10x1024.Idx → EReal) (ix2 s j)
      = Cert.Spec.coef2 Cert.Tables.kLitP (Cert.Spec.toMat (W0 (Proc.devRef .tc main_arg2) : S10x512.Idx → EReal)) s.val j := by
  rw [wT_v168]
  exact coefTab_sin_apply _ rfl rfl rfl rfl rfl rfl rfl hslK _ _ _ _ _ idxP Cert.Tables.kLitP idxP_apply s j

theorem eye_apply (k j : Fin 1024) :
    (wT W0 (Proc.devRef .tc main_v174) : S1024x1024.Idx → EReal) (ix2 k j) = Cert.Spec.eye k j := by
  unfold wT
  rw [kEye_v174]
  exact eyeTerm_apply _ k j

theorem wT_c_29 : wT W0 (Proc.devRef .tc main_c_29) = tabW lit10 := by
  unfold wT wQ wP
  simp (disch := decide) only [keeps, kConst_c_29]
theorem wT_c_30 : wT W0 (Proc.devRef .tc main_c_30) = constantI S1024 1 0#1 := by
  unfold wT wQ wP
  simp (disch := decide) only [keeps, kConst_c_30]
theorem wT_c_31 : wT W0 (Proc.devRef .tc main_c_31) = tabW lit11 := by
  unfold wT wQ wP
  simp (disch := decide) only [keeps, kConst_c_31]
theorem wT_c_32 : wT W0 (Proc.devRef .tc main_c_32) = constantI S1024 1 0#1 := by
  unfold wT wQ wP
  simp (disch := decide) only [keeps, kConst_c_32]
theorem wT_c_33 : wT W0 (Proc.devRef .tc main_c_33) = tabW lit12 := by
  unfold wT wQ wP
  simp (disch := decide) only [keeps, kConst_c_33]
theorem wT_c_34 : wT W0 (Proc.devRef .tc main_c_34) = constantI S1024 1 0#1 := by
  unfold wT wQ wP
  simp (disch := decide) only [keeps, kConst_c_34]
theorem wT_c_35 : wT W0 (Proc.devRef .tc main_c_35) = tabW lit13 := by
  unfold wT wQ wP
  simp (disch := decide) only [keeps, kConst_c_35]
theorem wT_c_36 : wT W0 (Proc.devRef .tc main_c_36) = constantI S1024 1 0#1 := by
  unfold wT wQ wP
  simp (disch := decide) only [keeps, kConst_c_36]
theorem wT_c_37 : wT W0 (Proc.devRef .tc main_c_37) = tabW lit14 := by
  unfold wT wQ wP
  simp (disch := decide) only [keeps, kConst_c_37]
theorem wT_c_38 : wT W0 (Proc.devRef .tc main_c_38) = constantI S1024 1 0#1 := by
  unfold wT wQ wP
  simp (disch := decide) only [keeps, kConst_c_38]
theorem wT_c_39 : wT W0 (Proc.devRef .tc main_c_39) = tabW lit15 := by
  unfold wT wQ wP
  simp (disch := decide) only [keeps, kConst_c_39]
theorem wT_c_40 : wT W0 (Proc.devRef .tc main_c_40) = constantI S1024 1 0#1 := by
  unfold wT wQ wP
  simp (disch := decide) only [keeps, kConst_c_40]
theorem wT_c_41 : wT W0 (Proc.devRef .tc main_c_41) = tabW lit16 := by
  unfold wT wQ wP
  simp (disch := decide) only [keeps, kConst_c_41]
theorem wT_c_42 : wT W0 (Proc.devRef .tc main_c_42) = constantI S1024 1 0#1 := by
  unfold wT wQ wP
  simp (disch := decide) only [keeps, kConst_c_42]
theorem wT_c_43 : wT W0 (Proc.devRef .tc main_c_43) = tabW lit17 := by
  unfold wT wQ wP
  simp (disch := decide) only [keeps, kConst_c_43]
theorem wT_c_44 : wT W0 (Proc.devRef .tc main_c_44) = constantI S1024 1 0#1 := by
  unfold wT wQ wP
  simp (disch := decide) only [keeps, kConst_c_44]
theorem wT_c_45 : wT W0 (Proc.devRef .tc main_c_45) = tabW lit18 := by
  unfold wT wQ wP
  simp (disch := decide) only [keeps, kConst_c_45]
theorem wT_c_46 : wT W0 (Proc.devRef .tc main_c_46) = constantI S1024 1 0#1 := by
  unfold wT wQ wP
  simp (disch := decide) only [keeps, kConst_c_46]
theorem wT_c_47 : wT W0 (Proc.devRef .tc main_c_47) = tabW lit19 := by
  unfold wT wQ wP
  simp (disch := decide) only [keeps, kConst_c_47]
theorem wT_c_48 : wT W0 (Proc.devRef .tc main_c_48) = constantI S1024 1 0#1 := by
  unfold wT wQ wP
  simp (disch := decide) only [keeps, kConst_c_48]

end Cert.KernelIdeal.HostR

end
-- ==== Proof.KIHostRM.lean ====
import proofs.«426905_j7799660610191_3_alg».proof.Proof.KIHostA
import proofs.«426905_j7799660610191_3_alg».proof.Proof.PureTerms

set_option maxRecDepth 16384

noncomputable section

namespace Cert.KernelIdeal.HostR

open Cert.KernelIdeal Cert.KernelIdeal.Gen Cert.KernelIdeal.Frame Cert.KernelIdeal.Host
open Idealize.ShloMosaic Idealize.ShloMosaic.TcCoe Idealize.ShloMosaic.ValueIdx

scoped macro "stageVal! " chunk:ident out:ident prev:ident s:num hsl:ident tbl:ident msk:ident : term =>
  `(∀ W : Valuation τ sig (Elt Ideal), StableHlo.after ($chunk (F := Ideal)) W (Proc.devRef .tc $out)
      = Cert.PureTerms.stageTerm gather_S1024x1024_S1024x1_S1024x1024_0_1_n_n_1_1_10241 $s $hsl shapeCasts_S1x1024_S1024
          bcast_S1024_S1x1024_1 bcast_S1x1024_S1024x1024_0_1 (W (Proc.devRef .tc $prev)) (W (Proc.devRef .tc main_v87)) (W (Proc.devRef .tc main_v168))
          (Cert.PureTerms.idxVec bcast_S_S1024 bcast_S1024_S1024x1_0 (W (Proc.devRef .tc $tbl)) (W (Proc.devRef .tc $msk))))

scoped macro "stageStep! " chunk:ident out:ident prev:ident s:num tbl:ident msk:ident : term =>
  `(∀ (W : Valuation τ sig (Elt Ideal)) (v1 v2 : Fin 1024 → EReal) (p : Fin 1024 → Fin 1024),
      (∀ j : Fin 1024, (W (Proc.devRef .tc main_v87) : S10x1024.Idx → EReal) (ix2 (⟨$s, by norm_num⟩ : Fin 10) j) = v1 j) →
      (∀ j : Fin 1024, (W (Proc.devRef .tc main_v168) : S10x1024.Idx → EReal) (ix2 (⟨$s, by norm_num⟩ : Fin 10) j) = v2 j) →
      (∀ j : Fin 1024, Cert.Spec.clampIdx (Cert.PureTerms.idxVec bcast_S_S1024 bcast_S1024_S1024x1_0 (W (Proc.devRef .tc $tbl)) (W (Proc.devRef .tc $msk)) (ix2 j (0 : Fin 1))) = p j) →
      Cert.Spec.toMat (StableHlo.after ($chunk (F := Ideal)) W (Proc.devRef .tc $out) : S1024x1024.Idx → EReal)
        = Cert.Spec.stage v1 v2 p (Cert.Spec.toMat (W (Proc.devRef .tc $prev) : S1024x1024.Idx → EReal)))

scoped macro "stage_facts " s:num chunk:ident out:ident prev:ident hsl:ident tbl:ident msk:ident : command => do
  let valN := Lean.mkIdent (Lean.Name.mkSimple s!"st{s.getNat}_val")
  let stepN := Lean.mkIdent (Lean.Name.mkSimple s!"step{s.getNat}")
  let c1 ← `(theorem $valN : stageVal! $chunk $out $prev $s $hsl $tbl $msk := by
      intro W; unfold $chunk; after_results_simp; rfl)
  let c2 ← `(theorem $stepN : stageStep! $chunk $out $prev $s $tbl $msk := by
      intro W v1 v2 p h1 h2 hp
      rw [$valN:ident W, Cert.PureTerms.toMat_stageTerm _ rfl rfl rfl rfl rfl rfl rfl $s (by norm_num)]
      congr 1
      · exact funext h1
      · exact funext h2
      · exact funext hp)
  return ⟨Lean.mkNullNode #[c1, c2]⟩

end Cert.KernelIdeal.HostR

end
-- ==== Proof.KIHostRS1.lean ====
import proofs.«426905_j7799660610191_3_alg».proof.Proof.KIHostRM

set_option maxRecDepth 16384

noncomputable section

namespace Cert.KernelIdeal.HostR

open Cert.KernelIdeal Cert.KernelIdeal.Gen Cert.KernelIdeal.Frame Cert.KernelIdeal.Host
open Idealize.ShloMosaic Idealize.ShloMosaic.TcCoe Idealize.ShloMosaic.ValueIdx

stage_facts 0 kSt0 main_v190 main_v174 slices_S10x1024_S1x1024_0_0 main_c_29 main_c_30
stage_facts 1 kSt1 main_v206 main_v190 slices_S10x1024_S1x1024_1_0 main_c_31 main_c_32
stage_facts 2 kSt2 main_v222 main_v206 slices_S10x1024_S1x1024_2_0 main_c_33 main_c_34
stage_facts 3 kSt3 main_v238 main_v222 slices_S10x1024_S1x1024_3_0 main_c_35 main_c_36
stage_facts 4 kSt4 main_v254 main_v238 slices_S10x1024_S1x1024_4_0 main_c_37 main_c_38

end Cert.KernelIdeal.HostR

end
-- ==== Proof.KIHostRS2.lean ====
import proofs.«426905_j7799660610191_3_alg».proof.Proof.KIHostRM

set_option maxRecDepth 16384

noncomputable section

namespace Cert.KernelIdeal.HostR

open Cert.KernelIdeal Cert.KernelIdeal.Gen Cert.KernelIdeal.Frame Cert.KernelIdeal.Host
open Idealize.ShloMosaic Idealize.ShloMosaic.TcCoe Idealize.ShloMosaic.ValueIdx

stage_facts 5 kSt5 main_v270 main_v254 slices_S10x1024_S1x1024_5_0 main_c_39 main_c_40
stage_facts 6 kSt6 main_v286 main_v270 slices_S10x1024_S1x1024_6_0 main_c_41 main_c_42
stage_facts 7 kSt7 main_v302 main_v286 slices_S10x1024_S1x1024_7_0 main_c_43 main_c_44
stage_facts 8 kSt8 main_v318 main_v302 slices_S10x1024_S1x1024_8_0 main_c_45 main_c_46
stage_facts 9 kSt9 main_v334 main_v318 slices_S10x1024_S1x1024_9_0 main_c_47 main_c_48

end Cert.KernelIdeal.HostR

end
-- ==== Proof.KIHostR.lean ====
import proofs.«426905_j7799660610191_3_alg».proof.Proof.KIHostCut
import proofs.«426905_j7799660610191_3_alg».proof.Proof.KIHostRT
import proofs.«426905_j7799660610191_3_alg».proof.Proof.KIHostRS1
import proofs.«426905_j7799660610191_3_alg».proof.Proof.KIHostRS2
import proofs.«426905_j7799660610191_3_alg».proof.Proof.Tables

set_option maxRecDepth 16384

noncomputable section

namespace Cert.KernelIdeal.HostR

open Cert.KernelIdeal Cert.KernelIdeal.Gen Cert.KernelIdeal.Frame Cert.KernelIdeal.Host
open Idealize.ShloMosaic Idealize.ShloMosaic.TcCoe Idealize.ShloMosaic.ValueIdx

open Cert.Spec

section Chain

variable (X : Valuation τ sig (Elt Ideal))

def wS0 : Valuation τ sig (Elt Ideal) := StableHlo.after kSt0 X
def wS1 : Valuation τ sig (Elt Ideal) := StableHlo.after kSt1 (wS0 X)
def wS2 : Valuation τ sig (Elt Ideal) := StableHlo.after kSt2 (wS1 X)
def wS3 : Valuation τ sig (Elt Ideal) := StableHlo.after kSt3 (wS2 X)
def wS4 : Valuation τ sig (Elt Ideal) := StableHlo.after kSt4 (wS3 X)
def wS5 : Valuation τ sig (Elt Ideal) := StableHlo.after kSt5 (wS4 X)
def wS6 : Valuation τ sig (Elt Ideal) := StableHlo.after kSt6 (wS5 X)
def wS7 : Valuation τ sig (Elt Ideal) := StableHlo.after kSt7 (wS6 X)
def wS8 : Valuation τ sig (Elt Ideal) := StableHlo.after kSt8 (wS7 X)
def wS9 : Valuation τ sig (Elt Ideal) := StableHlo.after kSt9 (wS8 X)

structure StartsAt (c1 c2 : ℕ → Fin 1024 → EReal) (p : ℕ → Fin 1024 → Fin 1024) : Prop where
  t1 : ∀ (s : Fin 10) (j : Fin 1024), (X (Proc.devRef .tc main_v87) : S10x1024.Idx → EReal) (ix2 s j) = c1 s.val j
  t2 : ∀ (s : Fin 10) (j : Fin 1024), (X (Proc.devRef .tc main_v168) : S10x1024.Idx → EReal) (ix2 s j) = c2 s.val j
  one : ∀ k j : Fin 1024, (X (Proc.devRef .tc main_v174) : S1024x1024.Idx → EReal) (ix2 k j) = eye k j
  e0 : ∀ j : Fin 1024, clampIdx ((X (Proc.devRef .tc main_c_29) : S1024.Idx → BitVec 32) (ix1 j)) = p 0 j
  e1 : ∀ j : Fin 1024, clampIdx ((X (Proc.devRef .tc main_c_31) : S1024.Idx → BitVec 32) (ix1 j)) = p 1 j
  e2 : ∀ j : Fin 1024, clampIdx ((X (Proc.devRef .tc main_c_33) : S1024.Idx → BitVec 32) (ix1 j)) = p 2 j
  e3 : ∀ j : Fin 1024, clampIdx ((X (Proc.devRef .tc main_c_35) : S1024.Idx → BitVec 32) (ix1 j)) = p 3 j
  e4 : ∀ j : Fin 1024, clampIdx ((X (Proc.devRef .tc main_c_37) : S1024.Idx → BitVec 32) (ix1 j)) = p 4 j
  e5 : ∀ j : Fin 1024, clampIdx ((X (Proc.devRef .tc main_c_39) : S1024.Idx → BitVec 32) (ix1 j)) = p 5 j
  e6 : ∀ j : Fin 1024, clampIdx ((X (Proc.devRef .tc main_c_41) : S1024.Idx → BitVec 32) (ix1 j)) = p 6 j
  e7 : ∀ j : Fin 1024, clampIdx ((X (Proc.devRef .tc main_c_43) : S1024.Idx → BitVec 32) (ix1 j)) = p 7 j
  e8 : ∀ j : Fin 1024, clampIdx ((X (Proc.devRef .tc main_c_45) : S1024.Idx → BitVec 32) (ix1 j)) = p 8 j
  e9 : ∀ j : Fin 1024, clampIdx ((X (Proc.devRef .tc main_c_47) : S1024.Idx → BitVec 32) (ix1 j)) = p 9 j
  m0 : (X (Proc.devRef .tc main_c_30) : S1024.Idx → BitVec 1) = constantI S1024 1 0#1
  m1 : (X (Proc.devRef .tc main_c_32) : S1024.Idx → BitVec 1) = constantI S1024 1 0#1
  m2 : (X (Proc.devRef .tc main_c_34) : S1024.Idx → BitVec 1) = constantI S1024 1 0#1
  m3 : (X (Proc.devRef .tc main_c_36) : S1024.Idx → BitVec 1) = constantI S1024 1 0#1
  m4 : (X (Proc.devRef .tc main_c_38) : S1024.Idx → BitVec 1) = constantI S1024 1 0#1
  m5 : (X (Proc.devRef .tc main_c_40) : S1024.Idx → BitVec 1) = constantI S1024 1 0#1
  m6 : (X (Proc.devRef .tc main_c_42) : S1024.Idx → BitVec 1) = constantI S1024 1 0#1
  m7 : (X (Proc.devRef .tc main_c_44) : S1024.Idx → BitVec 1) = constantI S1024 1 0#1
  m8 : (X (Proc.devRef .tc main_c_46) : S1024.Idx → BitVec 1) = constantI S1024 1 0#1
  m9 : (X (Proc.devRef .tc main_c_48) : S1024.Idx → BitVec 1) = constantI S1024 1 0#1

theorem idx_hyp (lit : IVec S1024 32) (cf : IVec S1024 1) (q : Fin 1024 → Fin 1024)
    (hl : ∀ j : Fin 1024, clampIdx (lit (ix1 j)) = q j) (hcf : cf = constantI S1024 1 0#1) (j : Fin 1024) :
    clampIdx (Cert.PureTerms.idxVec bcast_S_S1024 bcast_S1024_S1024x1_0 lit cf (ix2 j (0 : Fin 1))) = q j := by
  rw [Cert.PureTerms.idxVec_apply _ _ _ _ hcf]; exact hl j

variable {X} {c1 c2 : ℕ → Fin 1024 → EReal} {p : ℕ → Fin 1024 → Fin 1024}

theorem mat0 (h : StartsAt X c1 c2 p) :
    toMat (X (Proc.devRef .tc main_v174) : S1024x1024.Idx → EReal) = bfly c1 c2 p eye 0 := by
  funext k j; exact h.one k j

theorem mat1 (h : StartsAt X c1 c2 p) :
    toMat (wS0 X (Proc.devRef .tc main_v190) : S1024x1024.Idx → EReal) = bfly c1 c2 p eye 1 := by
  unfold wS0
  rw [step0 X (c1 0) (c2 0) (p 0) (fun j => h.t1 ⟨0, by norm_num⟩ j) (fun j => h.t2 ⟨0, by norm_num⟩ j)
    (idx_hyp _ _ _ h.e0 h.m0), mat0 h]
  rfl

theorem mat2 (h : StartsAt X c1 c2 p) :
    toMat (wS1 X (Proc.devRef .tc main_v206) : S1024x1024.Idx → EReal) = bfly c1 c2 p eye 2 := by
  have k1 : wS0 X (Proc.devRef .tc main_v87) = X (Proc.devRef .tc main_v87) := by simp (disch := decide) only [wS0, keeps]
  have k2 : wS0 X (Proc.devRef .tc main_v168) = X (Proc.devRef .tc main_v168) := by simp (disch := decide) only [wS0, keeps]
  have k3 : wS0 X (Proc.devRef .tc main_c_31) = X (Proc.devRef .tc main_c_31) := by simp (disch := decide) only [wS0, keeps]
  have k4 : wS0 X (Proc.devRef .tc main_c_32) = X (Proc.devRef .tc main_c_32) := by simp (disch := decide) only [wS0, keeps]
  unfold wS1
  rw [step1 (wS0 X) (c1 1) (c2 1) (p 1) (fun j => by rw [k1]; exact h.t1 ⟨1, by norm_num⟩ j) (fun j => by rw [k2]; exact h.t2 ⟨1, by norm_num⟩ j)
    (by rw [k3, k4]; exact idx_hyp _ _ _ h.e1 h.m1), mat1 h]
  rfl

theorem mat3 (h : StartsAt X c1 c2 p) :
    toMat (wS2 X (Proc.devRef .tc main_v222) : S1024x1024.Idx → EReal) = bfly c1 c2 p eye 3 := by
  have k1 : wS1 X (Proc.devRef .tc main_v87) = X (Proc.devRef .tc main_v87) := by simp (disch := decide) only [wS1, wS0, keeps]
  have k2 : wS1 X (Proc.devRef .tc main_v168) = X (Proc.devRef .tc main_v168) := by simp (disch := decide) only [wS1, wS0, keeps]
  have k3 : wS1 X (Proc.devRef .tc main_c_33) = X (Proc.devRef .tc main_c_33) := by simp (disch := decide) only [wS1, wS0, keeps]
  have k4 : wS1 X (Proc.devRef .tc main_c_34) = X (Proc.devRef .tc main_c_34) := by simp (disch := decide) only [wS1, wS0, keeps]
  unfold wS2
  rw [step2 (wS1 X) (c1 2) (c2 2) (p 2) (fun j => by rw [k1]; exact h.t1 ⟨2, by norm_num⟩ j) (fun j => by rw [k2]; exact h.t2 ⟨2, by norm_num⟩ j)
    (by rw [k3, k4]; exact idx_hyp _ _ _ h.e2 h.m2), mat2 h]
  rfl

theorem mat4 (h : StartsAt X c1 c2 p) :
    toMat (wS3 X (Proc.devRef .tc main_v238) : S1024x1024.Idx → EReal) = bfly c1 c2 p eye 4 := by
  have k1 : wS2 X (Proc.devRef .tc main_v87) = X (Proc.devRef .tc main_v87) := by simp (disch := decide) only [wS2, wS1, wS0, keeps]
  have k2 : wS2 X (Proc.devRef .tc main_v168) = X (Proc.devRef .tc main_v168) := by simp (disch := decide) only [wS2, wS1, wS0, keeps]
  have k3 : wS2 X (Proc.devRef .tc main_c_35) = X (Proc.devRef .tc main_c_35) := by simp (disch := decide) only [wS2, wS1, wS0, keeps]
  have k4 : wS2 X (Proc.devRef .tc main_c_36) = X (Proc.devRef .tc main_c_36) := by simp (disch := decide) only [wS2, wS1, wS0, keeps]
  unfold wS3
  rw [step3 (wS2 X) (c1 3) (c2 3) (p 3) (fun j => by rw [k1]; exact h.t1 ⟨3, by norm_num⟩ j) (fun j => by rw [k2]; exact h.t2 ⟨3, by norm_num⟩ j)
    (by rw [k3, k4]; exact idx_hyp _ _ _ h.e3 h.m3), mat3 h]
  rfl

theorem mat5 (h : StartsAt X c1 c2 p) :
    toMat (wS4 X (Proc.devRef .tc main_v254) : S1024x1024.Idx → EReal) = bfly c1 c2 p eye 5 := by
  have k1 : wS3 X (Proc.devRef .tc main_v87) = X (Proc.devRef .tc main_v87) := by simp (disch := decide) only [wS3, wS2, wS1, wS0, keeps]
  have k2 : wS3 X (Proc.devRef .tc main_v168) = X (Proc.devRef .tc main_v168) := by simp (disch := decide) only [wS3, wS2, wS1, wS0, keeps]
  have k3 : wS3 X (Proc.devRef .tc main_c_37) = X (Proc.devRef .tc main_c_37) := by simp (disch := decide) only [wS3, wS2, wS1, wS0, keeps]
  have k4 : wS3 X (Proc.devRef .tc main_c_38) = X (Proc.devRef .tc main_c_38) := by simp (disch := decide) only [wS3, wS2, wS1, wS0, keeps]
  unfold wS4
  rw [step4 (wS3 X) (c1 4) (c2 4) (p 4) (fun j => by rw [k1]; exact h.t1 ⟨4, by norm_num⟩ j) (fun j => by rw [k2]; exact h.t2 ⟨4, by norm_num⟩ j)
    (by rw [k3, k4]; exact idx_hyp _ _ _ h.e4 h.m4), mat4 h]
  rfl

theorem mat6 (h : StartsAt X c1 c2 p) :
    toMat (wS5 X (Proc.devRef .tc main_v270) : S1024x1024.Idx → EReal) = bfly c1 c2 p eye 6 := by
  have k1 : wS4 X (Proc.devRef .tc main_v87) = X (Proc.devRef .tc main_v87) := by simp (disch := decide) only [wS4, wS3, wS2, wS1, wS0, keeps]
  have k2 : wS4 X (Proc.devRef .tc main_v168) = X (Proc.devRef .tc main_v168) := by simp (disch := decide) only [wS4, wS3, wS2, wS1, wS0, keeps]
  have k3 : wS4 X (Proc.devRef .tc main_c_39) = X (Proc.devRef .tc main_c_39) := by simp (disch := decide) only [wS4, wS3, wS2, wS1, wS0, keeps]
  have k4 : wS4 X (Proc.devRef .tc main_c_40) = X (Proc.devRef .tc main_c_40) := by simp (disch := decide) only [wS4, wS3, wS2, wS1, wS0, keeps]
  unfold wS5
  rw [step5 (wS4 X) (c1 5) (c2 5) (p 5) (fun j => by rw [k1]; exact h.t1 ⟨5, by norm_num⟩ j) (fun j => by rw [k2]; exact h.t2 ⟨5, by norm_num⟩ j)
    (by rw [k3, k4]; exact idx_hyp _ _ _ h.e5 h.m5), mat5 h]
  rfl

theorem mat7 (h : StartsAt X c1 c2 p) :
    toMat (wS6 X (Proc.devRef .tc main_v286) : S1024x1024.Idx → EReal) = bfly c1 c2 p eye 7 := by
  have k1 : wS5 X (Proc.devRef .tc main_v87) = X (Proc.devRef .tc main_v87) := by simp (disch := decide) only [wS5, wS4, wS3, wS2, wS1, wS0, keeps]
  have k2 : wS5 X (Proc.devRef .tc main_v168) = X (Proc.devRef .tc main_v168) := by simp (disch := decide) only [wS5, wS4, wS3, wS2, wS1, wS0, keeps]
  have k3 : wS5 X (Proc.devRef .tc main_c_41) = X (Proc.devRef .tc main_c_41) := by simp (disch := decide) only [wS5, wS4, wS3, wS2, wS1, wS0, keeps]
  have k4 : wS5 X (Proc.devRef .tc main_c_42) = X (Proc.devRef .tc main_c_42) := by simp (disch := decide) only [wS5, wS4, wS3, wS2, wS1, wS0, keeps]
  unfold wS6
  rw [step6 (wS5 X) (c1 6) (c2 6) (p 6) (fun j => by rw [k1]; exact h.t1 ⟨6, by norm_num⟩ j) (fun j => by rw [k2]; exact h.t2 ⟨6, by norm_num⟩ j)
    (by rw [k3, k4]; exact idx_hyp _ _ _ h.e6 h.m6), mat6 h]
  rfl

theorem mat8 (h : StartsAt X c1 c2 p) :
    toMat (wS7 X (Proc.devRef .tc main_v302) : S1024x1024.Idx → EReal) = bfly c1 c2 p eye 8 := by
  have k1 : wS6 X (Proc.devRef .tc main_v87) = X (Proc.devRef .tc main_v87) := by simp (disch := decide) only [wS6, wS5, wS4, wS3, wS2, wS1, wS0, keeps]
  have k2 : wS6 X (Proc.devRef .tc main_v168) = X (Proc.devRef .tc main_v168) := by simp (disch := decide) only [wS6, wS5, wS4, wS3, wS2, wS1, wS0, keeps]
  have k3 : wS6 X (Proc.devRef .tc main_c_43) = X (Proc.devRef .tc main_c_43) := by simp (disch := decide) only [wS6, wS5, wS4, wS3, wS2, wS1, wS0, keeps]
  have k4 : wS6 X (Proc.devRef .tc main_c_44) = X (Proc.devRef .tc main_c_44) := by simp (disch := decide) only [wS6, wS5, wS4, wS3, wS2, wS1, wS0, keeps]
  unfold wS7
  rw [step7 (wS6 X) (c1 7) (c2 7) (p 7) (fun j => by rw [k1]; exact h.t1 ⟨7, by norm_num⟩ j) (fun j => by rw [k2]; exact h.t2 ⟨7, by norm_num⟩ j)
    (by rw [k3, k4]; exact idx_hyp _ _ _ h.e7 h.m7), mat7 h]
  rfl

theorem mat9 (h : StartsAt X c1 c2 p) :
    toMat (wS8 X (Proc.devRef .tc main_v318) : S1024x1024.Idx → EReal) = bfly c1 c2 p eye 9 := by
  have k1 : wS7 X (Proc.devRef .tc main_v87) = X (Proc.devRef .tc main_v87) := by simp (disch := decide) only [wS7, wS6, wS5, wS4, wS3, wS2, wS1, wS0, keeps]
  have k2 : wS7 X (Proc.devRef .tc main_v168) = X (Proc.devRef .tc main_v168) := by simp (disch := decide) only [wS7, wS6, wS5, wS4, wS3, wS2, wS1, wS0, keeps]
  have k3 : wS7 X (Proc.devRef .tc main_c_45) = X (Proc.devRef .tc main_c_45) := by simp (disch := decide) only [wS7, wS6, wS5, wS4, wS3, wS2, wS1, wS0, keeps]
  have k4 : wS7 X (Proc.devRef .tc main_c_46) = X (Proc.devRef .tc main_c_46) := by simp (disch := decide) only [wS7, wS6, wS5, wS4, wS3, wS2, wS1, wS0, keeps]
  unfold wS8
  rw [step8 (wS7 X) (c1 8) (c2 8) (p 8) (fun j => by rw [k1]; exact h.t1 ⟨8, by norm_num⟩ j) (fun j => by rw [k2]; exact h.t2 ⟨8, by norm_num⟩ j)
    (by rw [k3, k4]; exact idx_hyp _ _ _ h.e8 h.m8), mat8 h]
  rfl

theorem mat10 (h : StartsAt X c1 c2 p) :
    toMat (wS9 X (Proc.devRef .tc main_v334) : S1024x1024.Idx → EReal) = bfly c1 c2 p eye 10 := by
  have k1 : wS8 X (Proc.devRef .tc main_v87) = X (Proc.devRef .tc main_v87) := by simp (disch := decide) only [wS8, wS7, wS6, wS5, wS4, wS3, wS2, wS1, wS0, keeps]
  have k2 : wS8 X (Proc.devRef .tc main_v168) = X (Proc.devRef .tc main_v168) := by simp (disch := decide) only [wS8, wS7, wS6, wS5, wS4, wS3, wS2, wS1, wS0, keeps]
  have k3 : wS8 X (Proc.devRef .tc main_c_47) = X (Proc.devRef .tc main_c_47) := by simp (disch := decide) only [wS8, wS7, wS6, wS5, wS4, wS3, wS2, wS1, wS0, keeps]
  have k4 : wS8 X (Proc.devRef .tc main_c_48) = X (Proc.devRef .tc main_c_48) := by simp (disch := decide) only [wS8, wS7, wS6, wS5, wS4, wS3, wS2, wS1, wS0, keeps]
  unfold wS9
  rw [step9 (wS8 X) (c1 9) (c2 9) (p 9) (fun j => by rw [k1]; exact h.t1 ⟨9, by norm_num⟩ j) (fun j => by rw [k2]; exact h.t2 ⟨9, by norm_num⟩ j)
    (by rw [k3, k4]; exact idx_hyp _ _ _ h.e9 h.m9), mat9 h]
  rfl

theorem tail_keeps (W : Valuation τ sig (Elt Ideal)) :
    StableHlo.after (kTail (F := Ideal)) W (Proc.devRef .tc main_v334) = W (Proc.devRef .tc main_v334) :=
  keeps kTail W (by decide)

end Chain

section Final

variable (W0 : Valuation τ sig (Elt Ideal))

theorem startsAt_wT : StartsAt (wT W0)
    (coef1 Cert.Tables.kLitP (toMat (W0 (Proc.devRef .tc main_arg2) : S10x512.Idx → EReal)))
    (coef2 Cert.Tables.kLitP (toMat (W0 (Proc.devRef .tc main_arg2) : S10x512.Idx → EReal)))
    (perm Cert.Tables.kLitE) where
  t1 := T1_apply W0
  t2 := T2_apply W0
  one := eye_apply W0
  e0 := fun j => by rw [wT_c_29, tabW_apply]; rfl
  e1 := fun j => by rw [wT_c_31, tabW_apply]; rfl
  e2 := fun j => by rw [wT_c_33, tabW_apply]; rfl
  e3 := fun j => by rw [wT_c_35, tabW_apply]; rfl
  e4 := fun j => by rw [wT_c_37, tabW_apply]; rfl
  e5 := fun j => by rw [wT_c_39, tabW_apply]; rfl
  e6 := fun j => by rw [wT_c_41, tabW_apply]; rfl
  e7 := fun j => by rw [wT_c_43, tabW_apply]; rfl
  e8 := fun j => by rw [wT_c_45, tabW_apply]; rfl
  e9 := fun j => by rw [wT_c_47, tabW_apply]; rfl
  m0 := wT_c_30 W0
  m1 := wT_c_32 W0
  m2 := wT_c_34 W0
  m3 := wT_c_36 W0
  m4 := wT_c_38 W0
  m5 := wT_c_40 W0
  m6 := wT_c_42 W0
  m7 := wT_c_44 W0
  m8 := wT_c_46 W0
  m9 := wT_c_48 W0

end Final

theorem R_apply (m : (ℓ : Loc nD τ sig) → Buf (Elt Ideal) ℓ) (c : Dev nD) (k j : Fin 1024) :
    (V m c main_v334 : S1024x1024.Idx → EReal) (ix2 k j)
      = bfly (coef1 Cert.Tables.kLitP (toMat (m ((c : Thread nD τ).loc main_arg2) : S10x512.Idx → EReal)))
          (coef2 Cert.Tables.kLitP (toMat (m ((c : Thread nD τ).loc main_arg2) : S10x512.Idx → EReal)))
          (perm Cert.Tables.kLitE) eye 10 k j := by
  rw [V_cut, tail_keeps]
  exact congrFun (congrFun (mat10 (startsAt_wT (fun b => m (c, b)))) k) j

end Cert.KernelIdeal.HostR

end
-- ==== Proof.RDots.lean ====
import proofs.«426905_j7799660610191_3_alg».proof.ReferenceIdeal
import Idealize.ShloMosaic.PureOps.Ideal.Laws
import Idealize.ShloMosaic.Lib.ValueIdx

noncomputable section

namespace Cert.ReferenceIdeal.Dots

open Idealize.ShloMosaic Idealize.ShloMosaic.ValueIdx
open Cert.ReferenceIdeal

variable [Facts₀]

theorem lhs_xU_0 (j : S8192x3072.Idx) (k : dot_S8192x1024_S1024x3072_S8192x3072_1_0_0_1_n_n.contr.Idx) :
    (dot_S8192x1024_S1024x3072_S8192x3072_1_0_0_1_n_n.lhsIdx j k 0).val = (j 0).val := rfl
theorem lhs_xU_1 (j : S8192x3072.Idx) (k : dot_S8192x1024_S1024x3072_S8192x3072_1_0_0_1_n_n.contr.Idx) :
    (dot_S8192x1024_S1024x3072_S8192x3072_1_0_0_1_n_n.lhsIdx j k 1).val = (k ⟨0, Nat.one_pos⟩).val :=
  DotDims.lhsIdx_val_of_single dot_S8192x1024_S1024x3072_S8192x3072_1_0_0_1_n_n (cl := 1) rfl j k
theorem rhs_xU_0 (j : S8192x3072.Idx) (k : dot_S8192x1024_S1024x3072_S8192x3072_1_0_0_1_n_n.contr.Idx) :
    (dot_S8192x1024_S1024x3072_S8192x3072_1_0_0_1_n_n.rhsIdx j k 0).val = (k ⟨0, Nat.one_pos⟩).val :=
  DotDims.rhsIdx_val_of_single dot_S8192x1024_S1024x3072_S8192x3072_1_0_0_1_n_n (cr := 0) rfl j k
theorem rhs_xU_1 (j : S8192x3072.Idx) (k : dot_S8192x1024_S1024x3072_S8192x3072_1_0_0_1_n_n.contr.Idx) :
    (dot_S8192x1024_S1024x3072_S8192x3072_1_0_0_1_n_n.rhsIdx j k 1).val = (j 1).val := rfl

theorem xU_apply (x : FVec Ideal S8192x1024 .f32) (U : FVec Ideal S1024x3072 .f32) (b : Fin 8192) (j : Fin 3072) :
    Host.dotGeneral (F := Ideal) dot_S8192x1024_S1024x3072_S8192x3072_1_0_0_1_n_n none x U (ix2 b j) = ∑ k : Fin 1024, x (ix2 b k) * U (ix2 k j) := by
  show FloatOps.dotGeneral dot_S8192x1024_S1024x3072_S8192x3072_1_0_0_1_n_n none .single x U (ix2 b j) = _
  rw [Ideal.dotGeneral_apply]
  rw [← Equiv.sum_comp (contrEquiv1 dot_S8192x1024_S1024x3072_S8192x3072_1_0_0_1_n_n 1024 rfl rfl).symm]
  refine Finset.sum_congr rfl (fun k _ => ?_)
  have hl : dot_S8192x1024_S1024x3072_S8192x3072_1_0_0_1_n_n.lhsIdx (ix2 b j) ((contrEquiv1 dot_S8192x1024_S1024x3072_S8192x3072_1_0_0_1_n_n 1024 rfl rfl).symm k) = ix2 b k := by
    funext a; refine Fin.ext ?_
    match a with
    | ⟨0, _⟩ => exact lhs_xU_0 _ _
    | ⟨1, _⟩ => exact (lhs_xU_1 _ _).trans (contrEquiv1_symm_val dot_S8192x1024_S1024x3072_S8192x3072_1_0_0_1_n_n 1024 rfl rfl k)
  have hr : dot_S8192x1024_S1024x3072_S8192x3072_1_0_0_1_n_n.rhsIdx (ix2 b j) ((contrEquiv1 dot_S8192x1024_S1024x3072_S8192x3072_1_0_0_1_n_n 1024 rfl rfl).symm k) = ix2 k j := by
    funext a; refine Fin.ext ?_
    match a with
    | ⟨0, _⟩ => exact (rhs_xU_0 _ _).trans (contrEquiv1_symm_val dot_S8192x1024_S1024x3072_S8192x3072_1_0_0_1_n_n 1024 rfl rfl k)
    | ⟨1, _⟩ => exact rhs_xU_1 _ _
  rw [hl, hr]

theorem lhs_sW_0 (j : S8192x1024.Idx) (k : dot_S8192x1024_S1024x1024_S8192x1024_1_0_0_1_n_n.contr.Idx) :
    (dot_S8192x1024_S1024x1024_S8192x1024_1_0_0_1_n_n.lhsIdx j k 0).val = (j 0).val := rfl
theorem lhs_sW_1 (j : S8192x1024.Idx) (k : dot_S8192x1024_S1024x1024_S8192x1024_1_0_0_1_n_n.contr.Idx) :
    (dot_S8192x1024_S1024x1024_S8192x1024_1_0_0_1_n_n.lhsIdx j k 1).val = (k ⟨0, Nat.one_pos⟩).val :=
  DotDims.lhsIdx_val_of_single dot_S8192x1024_S1024x1024_S8192x1024_1_0_0_1_n_n (cl := 1) rfl j k
theorem rhs_sW_0 (j : S8192x1024.Idx) (k : dot_S8192x1024_S1024x1024_S8192x1024_1_0_0_1_n_n.contr.Idx) :
    (dot_S8192x1024_S1024x1024_S8192x1024_1_0_0_1_n_n.rhsIdx j k 0).val = (k ⟨0, Nat.one_pos⟩).val :=
  DotDims.rhsIdx_val_of_single dot_S8192x1024_S1024x1024_S8192x1024_1_0_0_1_n_n (cr := 0) rfl j k
theorem rhs_sW_1 (j : S8192x1024.Idx) (k : dot_S8192x1024_S1024x1024_S8192x1024_1_0_0_1_n_n.contr.Idx) :
    (dot_S8192x1024_S1024x1024_S8192x1024_1_0_0_1_n_n.rhsIdx j k 1).val = (j 1).val := rfl

theorem sW_apply (s : FVec Ideal S8192x1024 .f32) (W : FVec Ideal S1024x1024 .f32) (b : Fin 8192) (j : Fin 1024) :
    Host.dotGeneral (F := Ideal) dot_S8192x1024_S1024x1024_S8192x1024_1_0_0_1_n_n none s W (ix2 b j) = ∑ k : Fin 1024, s (ix2 b k) * W (ix2 k j) := by
  show FloatOps.dotGeneral dot_S8192x1024_S1024x1024_S8192x1024_1_0_0_1_n_n none .single s W (ix2 b j) = _
  rw [Ideal.dotGeneral_apply]
  rw [← Equiv.sum_comp (contrEquiv1 dot_S8192x1024_S1024x1024_S8192x1024_1_0_0_1_n_n 1024 rfl rfl).symm]
  refine Finset.sum_congr rfl (fun k _ => ?_)
  have hl : dot_S8192x1024_S1024x1024_S8192x1024_1_0_0_1_n_n.lhsIdx (ix2 b j) ((contrEquiv1 dot_S8192x1024_S1024x1024_S8192x1024_1_0_0_1_n_n 1024 rfl rfl).symm k) = ix2 b k := by
    funext a; refine Fin.ext ?_
    match a with
    | ⟨0, _⟩ => exact lhs_sW_0 _ _
    | ⟨1, _⟩ => exact (lhs_sW_1 _ _).trans (contrEquiv1_symm_val dot_S8192x1024_S1024x1024_S8192x1024_1_0_0_1_n_n 1024 rfl rfl k)
  have hr : dot_S8192x1024_S1024x1024_S8192x1024_1_0_0_1_n_n.rhsIdx (ix2 b j) ((contrEquiv1 dot_S8192x1024_S1024x1024_S8192x1024_1_0_0_1_n_n 1024 rfl rfl).symm k) = ix2 k j := by
    funext a; refine Fin.ext ?_
    match a with
    | ⟨0, _⟩ => exact (rhs_sW_0 _ _).trans (contrEquiv1_symm_val dot_S8192x1024_S1024x1024_S8192x1024_1_0_0_1_n_n 1024 rfl rfl k)
    | ⟨1, _⟩ => exact rhs_sW_1 _ _
  rw [hl, hr]

end Cert.ReferenceIdeal.Dots

end
-- ==== Proof.RValGT.lean ====
import proofs.«426905_j7799660610191_3_alg».proof.Proof.ROps
import proofs.«426905_j7799660610191_3_alg».proof.Proof.RDots
import proofs.«426905_j7799660610191_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.StableHlo.Run

noncomputable section

namespace Cert.ReferenceIdeal.ValGT

open Idealize.ShloMosaic Idealize.ShloMosaic.ValueIdx Idealize.SL.Sem
open Cert.ReferenceIdeal Cert.ReferenceIdeal.Gen Cert.ReferenceIdeal.Run Cert.ReferenceIdeal.Dots

section Arrays
variable (V : Valuation τ sig (Elt Ideal))
abbrev vX : FVec Ideal S8192x1024 .f32 := V (Proc.devRef .tc main_arg0)
abbrev vSt : FVec Ideal S8192x1024 .f32 := V (Proc.devRef .tc main_arg1)
abbrev vU : FVec Ideal S1024x3072 .f32 := V (Proc.devRef .tc main_arg3)
abbrev vWr : FVec Ideal S1024x1024 .f32 := V (Proc.devRef .tc main_arg4)
abbrev vWg : FVec Ideal S1024x1024 .f32 := V (Proc.devRef .tc main_arg5)
abbrev vBr : FVec Ideal S1024 .f32 := V (Proc.devRef .tc main_arg6)
abbrev vBg : FVec Ideal S1024 .f32 := V (Proc.devRef .tc main_arg7)
abbrev vBc : FVec Ideal S1024 .f32 := V (Proc.devRef .tc main_arg8)
abbrev vA : FVec Ideal S8192x1024 .f32 := V (Proc.devRef .tc main_v170)
abbrev vR : FVec Ideal S8192x1024 .f32 := V (Proc.devRef .tc main_v183)
abbrev vG : FVec Ideal S8192x1024 .f32 := V (Proc.devRef .tc main_v194)
abbrev vH : FVec Ideal S8192x1024 .f32 := V (Proc.devRef .tc main_v354)
end Arrays

theorem one_apply (i : S8192x1024.Idx) :
    broadcastInDim S8192x1024 ![] bcast_S_S8192x1024 (constant (F := Ideal) S_ .f32 0x3F800000#32) i = 1 := by
  rw [broadcastInDim_scalar_apply]
  exact Ideal.ofBits_one_f32

theorem const_apply (w : BitVec 32) (i : S8192x1024.Idx) :
    broadcastInDim S8192x1024 ![] bcast_S_S8192x1024 (constant (F := Ideal) S_ .f32 w) i = Ideal.ofBits .f32 w := by
  rw [broadcastInDim_scalar_apply]
  rfl

theorem bias_apply (v : FVec Ideal S1024 .f32) (b : Fin 8192) (j : Fin 1024) :
    broadcastInDim S8192x1024 ![0, 1] bcast_S1x1024_S8192x1024_0_1 (broadcastInDim S1x1024 ![1] bcast_S1024_S1x1024_1 v) (ix2 b j)
      = v (ix1 j) := by
  rw [broadcastInDim_apply ![0, 1] bcast_S1x1024_S8192x1024_0_1 _ (ix2 b j) (ix2 (0 : Fin 1) j) (fun a => by
      match a with
      | ⟨0, _⟩ => rfl
      | ⟨1, _⟩ => rfl)]
  exact broadcastInDim_apply ![1] bcast_S1024_S1x1024_1 v (ix2 (0 : Fin 1) j) (ix1 j) (fun a => by
      match a with
      | ⟨0, _⟩ => rfl)

theorem gate_apply (pre : FVec Ideal S8192x1024 .f32) (i : S8192x1024.Idx) :
    Host.divf (F := Ideal) (broadcastInDim S8192x1024 ![] bcast_S_S8192x1024 (constant (F := Ideal) S_ .f32 0x3F800000#32))
      (addf (broadcastInDim S8192x1024 ![] bcast_S_S8192x1024 (constant (F := Ideal) S_ .f32 0x3F800000#32))
        (Host.exp (Host.negf pre))) i = Ideal.logistic (pre i) := by
  show Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(pre i))) = _
  rw [one_apply]
  rfl

section Gate
variable (W : Valuation τ sig (Elt Ideal))

abbrev pArg (o : Nat) (h : S8192x3072.Slices ![0, o] S8192x1024) (w : FVec Ideal S1024x1024 .f32) (bias : FVec Ideal S1024 .f32) :
    FVec Ideal S8192x1024 .f32 :=
  addf (addf (extractStridedSlice S8192x1024 ![0, o] (Host.dotGeneral (F := Ideal) dot_S8192x1024_S1024x3072_S8192x3072_1_0_0_1_n_n none (vX W) (vU W)) h) (Host.dotGeneral (F := Ideal) dot_S8192x1024_S1024x1024_S8192x1024_1_0_0_1_n_n none (vSt W) w))
    (broadcastInDim S8192x1024 ![0, 1] bcast_S1x1024_S8192x1024_0_1 (broadcastInDim S1x1024 ![1] bcast_S1024_S1x1024_1 bias))

theorem pArg_apply (o : Nat) (h : S8192x3072.Slices ![0, o] S8192x1024) (w : FVec Ideal S1024x1024 .f32) (bias : FVec Ideal S1024 .f32)
    (b : Fin 8192) (j : Fin 1024) (ho : o + j.val < 3072) :
    pArg W o h w bias (ix2 b j)
      = (∑ k : Fin 1024, vX W (ix2 b k) * vU W (ix2 k (⟨o + j.val, ho⟩ : Fin 3072)))
        + (∑ k : Fin 1024, vSt W (ix2 b k) * w (ix2 k j)) + bias (ix1 j) := by
  show extractStridedSlice S8192x1024 ![0, o] (Host.dotGeneral (F := Ideal) dot_S8192x1024_S1024x3072_S8192x3072_1_0_0_1_n_n none (vX W) (vU W)) h (ix2 b j) + Host.dotGeneral (F := Ideal) dot_S8192x1024_S1024x1024_S8192x1024_1_0_0_1_n_n none (vSt W) w (ix2 b j)
      + broadcastInDim S8192x1024 ![0, 1] bcast_S1x1024_S8192x1024_0_1 (broadcastInDim S1x1024 ![1] bcast_S1024_S1x1024_1 bias) (ix2 b j) = _
  rw [slice2_axis1_eq, xU_apply, sW_apply, bias_apply]

theorem a_pure : StableHlo.after (opsGate (F := Ideal)) W (Proc.devRef .tc main_v170)
    = extractStridedSlice S8192x1024 ![0, 0] (Host.dotGeneral (F := Ideal) dot_S8192x1024_S1024x3072_S8192x3072_1_0_0_1_n_n none (vX W) (vU W)) slices_S8192x3072_S8192x1024_0_0 := by
  after_results

theorem r_pure : StableHlo.after (opsGate (F := Ideal)) W (Proc.devRef .tc main_v183)
    = Host.divf (F := Ideal) (broadcastInDim S8192x1024 ![] bcast_S_S8192x1024 (constant (F := Ideal) S_ .f32 0x3F800000#32))
      (addf (broadcastInDim S8192x1024 ![] bcast_S_S8192x1024 (constant (F := Ideal) S_ .f32 0x3F800000#32))
        (Host.exp (Host.negf (pArg W 1024 slices_S8192x3072_S8192x1024_0_1024 (vWr W) (vBr W))))) := by
  after_results_simp

theorem g_pure : StableHlo.after (opsGate (F := Ideal)) W (Proc.devRef .tc main_v194)
    = Host.divf (F := Ideal) (broadcastInDim S8192x1024 ![] bcast_S_S8192x1024 (constant (F := Ideal) S_ .f32 0x3F800000#32))
      (addf (broadcastInDim S8192x1024 ![] bcast_S_S8192x1024 (constant (F := Ideal) S_ .f32 0x3F800000#32))
        (Host.exp (Host.negf (pArg W 2048 slices_S8192x3072_S8192x1024_0_2048 (vWg W) (vBg W))))) := by
  after_results_simp

theorem ucx_apply (b : Fin 8192) (j : Fin 1024) :
    @Eq EReal (StableHlo.after (opsGate (F := Ideal)) W (Proc.devRef .tc main_v170) (ix2 b j))
      (∑ k : Fin 1024, vX W (ix2 b k) * vU W (ix2 k (⟨j.val, by omega⟩ : Fin 3072))) := by
  rw [a_pure, slice2_axis1_eq, xU_apply]
  simp only [Nat.zero_add]

theorem r_apply (b : Fin 8192) (j : Fin 1024) :
    @Eq EReal (StableHlo.after (opsGate (F := Ideal)) W (Proc.devRef .tc main_v183) (ix2 b j))
      (Ideal.logistic ((∑ k : Fin 1024, vX W (ix2 b k) * vU W (ix2 k (⟨1024 + j.val, by omega⟩ : Fin 3072)))
        + (∑ k : Fin 1024, vSt W (ix2 b k) * vWr W (ix2 k j)) + vBr W (ix1 j))) := by
  rw [r_pure, gate_apply, pArg_apply W 1024 _ _ _ b j (by omega)]

theorem g_apply (b : Fin 8192) (j : Fin 1024) :
    @Eq EReal (StableHlo.after (opsGate (F := Ideal)) W (Proc.devRef .tc main_v194) (ix2 b j))
      (Ideal.logistic ((∑ k : Fin 1024, vX W (ix2 b k) * vU W (ix2 k (⟨2048 + j.val, by omega⟩ : Fin 3072)))
        + (∑ k : Fin 1024, vSt W (ix2 b k) * vWg W (ix2 k j)) + vBg W (ix1 j))) := by
  rw [g_pure, gate_apply, pArg_apply W 2048 _ _ _ b j (by omega)]

end Gate

abbrev gateWrites : List (Ref sig .tc) :=
  [main_v169, main_v170, main_v171, main_v172, main_v173, main_v174, main_v175, main_v176, main_v177, main_v178, main_v179, main_cst, main_v180, main_v181, main_cst_69, main_v182, main_v183, main_v184, main_v185, main_v186, main_v187, main_v188, main_v189, main_v190, main_cst_70, main_v191, main_v192, main_cst_71, main_v193, main_v194]

theorem opsGate_writes : (opsGate (F := Ideal)).Forall fun op => op.writes ⊆ (gateWrites.map (Proc.devRef (τ := τ) .tc)).toFinset := by
  simp only [List.Forall]
  and_intros <;> (simp only [StableHlo.nullary_writes, StableHlo.unary_writes, StableHlo.binary_writes, Finset.singleton_subset_iff, List.mem_toFinset]; exact List.mem_map_of_mem (by decide))

theorem gate_frame (W : Valuation τ sig (Elt Ideal)) (r : Ref sig .tc) (h : r ∉ gateWrites) :
    StableHlo.after (opsGate (F := Ideal)) W (Proc.devRef .tc r) = W (Proc.devRef .tc r) :=
  StableHlo.after_of_writes_sub _ _ opsGate_writes h

def outTail (r g hb ac st bc : EReal) : EReal :=
  g * st
    + (Ideal.ofBits .f32 0x3F800000#32 - g)
      * (Ideal.sign (r * hb + ac)
          * max (max (r * hb + ac) (-(r * hb + ac)) + Ideal.ofBits .f32 0x3A83126F#32 + bc) 0)

section Tail
variable (W : Valuation τ sig (Elt Ideal))

abbrev pMix : FVec Ideal S8192x1024 .f32 := addf (mulf (vR W) (vH W)) (vA W)

theorem out_pure : StableHlo.after (opsTail (F := Ideal)) W (Proc.devRef .tc main_v370)
    = addf (mulf (vG W) (vSt W))
        (mulf (subf (broadcastInDim S8192x1024 ![] bcast_S_S8192x1024 (constant (F := Ideal) S_ .f32 0x3F800000#32)) (vG W))
          (mulf (Host.sign (pMix W))
            (maximumf (addf (addf (Host.absf (pMix W)) (broadcastInDim S8192x1024 ![] bcast_S_S8192x1024 (constant (F := Ideal) S_ .f32 0x3A83126F#32))) (broadcastInDim S8192x1024 ![0, 1] bcast_S1x1024_S8192x1024_0_1 (broadcastInDim S1x1024 ![1] bcast_S1024_S1x1024_1 (vBc W))))
              (broadcastInDim S8192x1024 ![] bcast_S_S8192x1024 (constant (F := Ideal) S_ .f32 0x00000000#32))))) := by
  after_results_simp
  rfl

theorem out_tail_apply (b : Fin 8192) (j : Fin 1024) :
    @Eq EReal (StableHlo.after (opsTail (F := Ideal)) W (Proc.devRef .tc main_v370) (ix2 b j))
      (outTail (vR W (ix2 b j)) (vG W (ix2 b j)) (vH W (ix2 b j)) (vA W (ix2 b j)) (vSt W (ix2 b j)) (vBc W (ix1 j))) := by
  rw [out_pure]
  show vG W (ix2 b j) * vSt W (ix2 b j)
      + ((broadcastInDim S8192x1024 ![] bcast_S_S8192x1024 (constant (F := Ideal) S_ .f32 0x3F800000#32)) (ix2 b j) - vG W (ix2 b j))
        * (Ideal.sign (vR W (ix2 b j) * vH W (ix2 b j) + vA W (ix2 b j))
            * max (max (vR W (ix2 b j) * vH W (ix2 b j) + vA W (ix2 b j)) (-(vR W (ix2 b j) * vH W (ix2 b j) + vA W (ix2 b j)))
                + (broadcastInDim S8192x1024 ![] bcast_S_S8192x1024 (constant (F := Ideal) S_ .f32 0x3A83126F#32)) (ix2 b j) + (broadcastInDim S8192x1024 ![0, 1] bcast_S1x1024_S8192x1024_0_1 (broadcastInDim S1x1024 ![1] bcast_S1024_S1x1024_1 (vBc W))) (ix2 b j))
              ((broadcastInDim S8192x1024 ![] bcast_S_S8192x1024 (constant (F := Ideal) S_ .f32 0x00000000#32)) (ix2 b j))) = _
  rw [const_apply, const_apply, const_apply, bias_apply, Ideal.ofBits_zero_f32]
  rfl

end Tail

end Cert.ReferenceIdeal.ValGT

end
-- ==== Proof.RValTF.lean ====
import proofs.«426905_j7799660610191_3_alg».proof.Proof.ROps
import Idealize.ShloMosaic.PureOps.Ideal

noncomputable section

namespace Cert.ReferenceIdeal.Val

open Cert.ReferenceIdeal Cert.ReferenceIdeal.Gen Cert.ReferenceIdeal.Run Idealize.ShloMosaic Idealize.ShloMosaic.TcCoe Idealize.SL.Sem

abbrev wTab : List (Ref sig .tc) :=
  [main_c, main_c_0, main_c_1, main_c_2, main_c_3, main_c_4, main_c_5, main_c_6, main_c_7, main_c_8, main_c_9, main_c_10,
   main_c_11, main_c_12, main_c_13, main_c_14, main_c_15, main_c_16, main_c_17, main_c_18, main_c_19, main_c_20, main_c_21, main_c_22,
   main_c_23, main_c_24, main_c_25, main_c_26, main_c_27, main_c_28, main_c_29, main_c_30, main_c_31, main_c_32, main_c_33, main_c_34,
   main_c_35, main_c_36, main_c_37, main_c_38, main_c_39, main_c_40, main_c_41, main_c_42, main_c_43, main_c_44, main_c_45, main_c_46,
   main_c_47, main_c_48, main_v0, main_v1, main_v2, main_v3, main_v4, main_v5, main_v6, main_v7, main_v8, main_c_49,
   main_v9, main_v10, main_v11, main_v12, main_v13, main_v14, main_v15, main_c_50, main_v16, main_v17, main_v18, main_v19,
   main_v20, main_v21, main_v22, main_c_51, main_v23, main_v24, main_v25, main_v26, main_v27, main_v28, main_v29, main_c_52,
   main_v30, main_v31, main_v32, main_v33, main_v34, main_v35, main_v36, main_c_53, main_v37, main_v38, main_v39, main_v40,
   main_v41, main_v42, main_v43, main_c_54, main_v44, main_v45, main_v46, main_v47, main_v48, main_v49, main_v50, main_c_55,
   main_v51, main_v52, main_v53, main_v54, main_v55, main_v56, main_v57, main_c_56, main_v58, main_v59, main_v60, main_v61,
   main_v62, main_v63, main_v64, main_c_57, main_v65, main_v66, main_v67, main_v68, main_v69, main_v70, main_v71, main_c_58,
   main_v72, main_v73, main_v74, main_v75, main_v76, main_v77, main_v78, main_v79, main_v80, main_v81, main_v82, main_v83,
   main_v84, main_v85, main_v86, main_v87, main_v88, main_v89, main_c_59, main_v90, main_v91, main_v92, main_v93, main_v94,
   main_v95, main_v96, main_c_60, main_v97, main_v98, main_v99, main_v100, main_v101, main_v102, main_v103, main_c_61, main_v104,
   main_v105, main_v106, main_v107, main_v108, main_v109, main_v110, main_c_62, main_v111, main_v112, main_v113, main_v114, main_v115,
   main_v116, main_v117, main_c_63, main_v118, main_v119, main_v120, main_v121, main_v122, main_v123, main_v124, main_c_64, main_v125,
   main_v126, main_v127, main_v128, main_v129, main_v130, main_v131, main_c_65, main_v132, main_v133, main_v134, main_v135, main_v136,
   main_v137, main_v138, main_c_66, main_v139, main_v140, main_v141, main_v142, main_v143, main_v144, main_v145, main_c_67, main_v146,
   main_v147, main_v148, main_v149, main_v150, main_v151, main_v152, main_c_68, main_v153, main_v154, main_v155, main_v156, main_v157,
   main_v158, main_v159, main_v160, main_v161, main_v162, main_v163, main_v164, main_v165, main_v166, main_v167, main_v168]

set_option maxHeartbeats 16000000 in
theorem wTab_sub : (opsTab (F := Ideal)).Forall fun op => op.writes ⊆ (wTab.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

theorem frame_Tab (W : Valuation τ sig (Elt Ideal)) (r : Ref sig .tc) (hr : r ∉ wTab) :
    StableHlo.after (opsTab (F := Ideal)) W (Proc.devRef .tc r) = W (Proc.devRef .tc r) :=
  StableHlo.after_of_writes_sub _ W wTab_sub hr

end Cert.ReferenceIdeal.Val

end
-- ==== Proof.RValT1.lean ====
import proofs.«426905_j7799660610191_3_alg».proof.Proof.ROps
import proofs.«426905_j7799660610191_3_alg».proof.Proof.PureTerms
import proofs.«426905_j7799660610191_3_alg».proof.Proof.Tables
import proofs.«426905_j7799660610191_3_alg».proof.Proof.Spec
import Idealize.ShloMosaic.Lib.ValueIdx
import Idealize.ShloMosaic.Lib.StableHlo.Run

noncomputable section

namespace Cert.ReferenceIdeal.ValT

open Cert.ReferenceIdeal Cert.ReferenceIdeal.Gen Cert.ReferenceIdeal.Run Idealize.ShloMosaic Idealize.ShloMosaic.TcCoe Idealize.SL.Sem
open Idealize.ShloMosaic.ValueIdx

namespace T1

theorem hslAll : ∀ s : Fin 10, S10x1024.Slices ![s.val, 0] S1x1024 := by decide

abbrev idxTab : Fin 10 → IVec S1024x1 32 :=
  ![Cert.PureTerms.idxVec bcast_S_S1024 bcast_S1024_S1024x1_0 (fun i => lit0 (S1024.rowMajor i)) (constantI S1024 1 0#1),
    Cert.PureTerms.idxVec bcast_S_S1024 bcast_S1024_S1024x1_0 (fun i => lit1 (S1024.rowMajor i)) (constantI S1024 1 0#1),
    Cert.PureTerms.idxVec bcast_S_S1024 bcast_S1024_S1024x1_0 (fun i => lit2 (S1024.rowMajor i)) (constantI S1024 1 0#1),
    Cert.PureTerms.idxVec bcast_S_S1024 bcast_S1024_S1024x1_0 (fun i => lit3 (S1024.rowMajor i)) (constantI S1024 1 0#1),
    Cert.PureTerms.idxVec bcast_S_S1024 bcast_S1024_S1024x1_0 (fun i => lit4 (S1024.rowMajor i)) (constantI S1024 1 0#1),
    Cert.PureTerms.idxVec bcast_S_S1024 bcast_S1024_S1024x1_0 (fun i => lit5 (S1024.rowMajor i)) (constantI S1024 1 0#1),
    Cert.PureTerms.idxVec bcast_S_S1024 bcast_S1024_S1024x1_0 (fun i => lit6 (S1024.rowMajor i)) (constantI S1024 1 0#1),
    Cert.PureTerms.idxVec bcast_S_S1024 bcast_S1024_S1024x1_0 (fun i => lit7 (S1024.rowMajor i)) (constantI S1024 1 0#1),
    Cert.PureTerms.idxVec bcast_S_S1024 bcast_S1024_S1024x1_0 (fun i => lit8 (S1024.rowMajor i)) (constantI S1024 1 0#1),
    Cert.PureTerms.idxVec bcast_S_S1024 bcast_S1024_S1024x1_0 (fun i => lit9 (S1024.rowMajor i)) (constantI S1024 1 0#1)]

theorem word_at (f : Fin 1024 → BitVec 32) (j : Fin 1024) : f (S1024.rowMajor (ix1 j)) = f j :=
  congrArg f (Fin.ext (Shape.rowMajor_val_one _))

theorem idxTab_apply (s : Fin 10) (j : Fin 1024) : idxTab s (ix2 j (0 : Fin 1)) = Cert.Tables.rLitP s.val j := by
  fin_cases s
  · exact (Cert.PureTerms.idxVec_apply bcast_S_S1024 bcast_S1024_S1024x1_0 (fun i => lit0 (S1024.rowMajor i)) (constantI S1024 1 0#1) rfl j).trans (word_at lit0 j)
  · exact (Cert.PureTerms.idxVec_apply bcast_S_S1024 bcast_S1024_S1024x1_0 (fun i => lit1 (S1024.rowMajor i)) (constantI S1024 1 0#1) rfl j).trans (word_at lit1 j)
  · exact (Cert.PureTerms.idxVec_apply bcast_S_S1024 bcast_S1024_S1024x1_0 (fun i => lit2 (S1024.rowMajor i)) (constantI S1024 1 0#1) rfl j).trans (word_at lit2 j)
  · exact (Cert.PureTerms.idxVec_apply bcast_S_S1024 bcast_S1024_S1024x1_0 (fun i => lit3 (S1024.rowMajor i)) (constantI S1024 1 0#1) rfl j).trans (word_at lit3 j)
  · exact (Cert.PureTerms.idxVec_apply bcast_S_S1024 bcast_S1024_S1024x1_0 (fun i => lit4 (S1024.rowMajor i)) (constantI S1024 1 0#1) rfl j).trans (word_at lit4 j)
  · exact (Cert.PureTerms.idxVec_apply bcast_S_S1024 bcast_S1024_S1024x1_0 (fun i => lit5 (S1024.rowMajor i)) (constantI S1024 1 0#1) rfl j).trans (word_at lit5 j)
  · exact (Cert.PureTerms.idxVec_apply bcast_S_S1024 bcast_S1024_S1024x1_0 (fun i => lit6 (S1024.rowMajor i)) (constantI S1024 1 0#1) rfl j).trans (word_at lit6 j)
  · exact (Cert.PureTerms.idxVec_apply bcast_S_S1024 bcast_S1024_S1024x1_0 (fun i => lit7 (S1024.rowMajor i)) (constantI S1024 1 0#1) rfl j).trans (word_at lit7 j)
  · exact (Cert.PureTerms.idxVec_apply bcast_S_S1024 bcast_S1024_S1024x1_0 (fun i => lit8 (S1024.rowMajor i)) (constantI S1024 1 0#1) rfl j).trans (word_at lit8 j)
  · exact (Cert.PureTerms.idxVec_apply bcast_S_S1024 bcast_S1024_S1024x1_0 (fun i => lit9 (S1024.rowMajor i)) (constantI S1024 1 0#1) rfl j).trans (word_at lit9 j)

set_option maxHeartbeats 8000000 in
theorem tab_value (W : Valuation τ sig (Elt Ideal)) :
    StableHlo.after (opsTab (F := Ideal)) W (Proc.devRef .tc main_v87)
      = Cert.PureTerms.coefTab gather_S1024_S1024x1_S1024_n_0_n_n_0_1_1 hslAll shapeCasts_S1x1024_S1024 bcast_S1024_S1x1024_1
          concatenates_S1x1024_S1x1024_S1x1024_S1x1024_S1x1024_S1x1024_S1x1024_S1x1024_S1x1024_S1x1024_S10x1024_d0
          (Cert.PureTerms.cosTab concatenates_S10x512_S10x512_S10x1024_d1 (W (Proc.devRef .tc main_arg2))) idxTab := by
  simp (disch := decide +kernel) only [StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne']
  rfl

end T1

theorem T1_apply (W0 : Valuation τ sig (Elt Ideal)) (s : Fin 10) (j : Fin 1024) :
    @Eq EReal (StableHlo.after (opsTab (F := Ideal)) W0 (Proc.devRef .tc main_v87) (ix2 s j))
      (Cert.Spec.coef1 Cert.Tables.rLitP (Cert.Spec.toMat (W0 (Proc.devRef .tc main_arg2))) s.val j) := by
  rw [T1.tab_value]
  exact Cert.PureTerms.coefTab_cos_apply _ rfl rfl rfl rfl rfl rfl rfl T1.hslAll _ _ _ _ (W0 (Proc.devRef .tc main_arg2)) T1.idxTab
    Cert.Tables.rLitP T1.idxTab_apply s j

end Cert.ReferenceIdeal.ValT

end
-- ==== Proof.RValT2.lean ====
import proofs.«426905_j7799660610191_3_alg».proof.Proof.ROps
import proofs.«426905_j7799660610191_3_alg».proof.Proof.PureTerms
import proofs.«426905_j7799660610191_3_alg».proof.Proof.Tables
import proofs.«426905_j7799660610191_3_alg».proof.Proof.Spec
import Idealize.ShloMosaic.Lib.ValueIdx
import Idealize.ShloMosaic.Lib.StableHlo.Run

noncomputable section

namespace Cert.ReferenceIdeal.ValT

open Cert.ReferenceIdeal Cert.ReferenceIdeal.Gen Cert.ReferenceIdeal.Run Idealize.ShloMosaic Idealize.ShloMosaic.TcCoe Idealize.SL.Sem
open Idealize.ShloMosaic.ValueIdx

namespace T2

theorem hslAll : ∀ s : Fin 10, S10x1024.Slices ![s.val, 0] S1x1024 := by decide

abbrev idxTab : Fin 10 → IVec S1024x1 32 :=
  ![Cert.PureTerms.idxVec bcast_S_S1024 bcast_S1024_S1024x1_0 (fun i => lit0 (S1024.rowMajor i)) (constantI S1024 1 0#1),
    Cert.PureTerms.idxVec bcast_S_S1024 bcast_S1024_S1024x1_0 (fun i => lit1 (S1024.rowMajor i)) (constantI S1024 1 0#1),
    Cert.PureTerms.idxVec bcast_S_S1024 bcast_S1024_S1024x1_0 (fun i => lit2 (S1024.rowMajor i)) (constantI S1024 1 0#1),
    Cert.PureTerms.idxVec bcast_S_S1024 bcast_S1024_S1024x1_0 (fun i => lit3 (S1024.rowMajor i)) (constantI S1024 1 0#1),
    Cert.PureTerms.idxVec bcast_S_S1024 bcast_S1024_S1024x1_0 (fun i => lit4 (S1024.rowMajor i)) (constantI S1024 1 0#1),
    Cert.PureTerms.idxVec bcast_S_S1024 bcast_S1024_S1024x1_0 (fun i => lit5 (S1024.rowMajor i)) (constantI S1024 1 0#1),
    Cert.PureTerms.idxVec bcast_S_S1024 bcast_S1024_S1024x1_0 (fun i => lit6 (S1024.rowMajor i)) (constantI S1024 1 0#1),
    Cert.PureTerms.idxVec bcast_S_S1024 bcast_S1024_S1024x1_0 (fun i => lit7 (S1024.rowMajor i)) (constantI S1024 1 0#1),
    Cert.PureTerms.idxVec bcast_S_S1024 bcast_S1024_S1024x1_0 (fun i => lit8 (S1024.rowMajor i)) (constantI S1024 1 0#1),
    Cert.PureTerms.idxVec bcast_S_S1024 bcast_S1024_S1024x1_0 (fun i => lit9 (S1024.rowMajor i)) (constantI S1024 1 0#1)]

theorem word_at (f : Fin 1024 → BitVec 32) (j : Fin 1024) : f (S1024.rowMajor (ix1 j)) = f j :=
  congrArg f (Fin.ext (Shape.rowMajor_val_one _))

theorem idxTab_apply (s : Fin 10) (j : Fin 1024) : idxTab s (ix2 j (0 : Fin 1)) = Cert.Tables.rLitP s.val j := by
  fin_cases s
  · exact (Cert.PureTerms.idxVec_apply bcast_S_S1024 bcast_S1024_S1024x1_0 (fun i => lit0 (S1024.rowMajor i)) (constantI S1024 1 0#1) rfl j).trans (word_at lit0 j)
  · exact (Cert.PureTerms.idxVec_apply bcast_S_S1024 bcast_S1024_S1024x1_0 (fun i => lit1 (S1024.rowMajor i)) (constantI S1024 1 0#1) rfl j).trans (word_at lit1 j)
  · exact (Cert.PureTerms.idxVec_apply bcast_S_S1024 bcast_S1024_S1024x1_0 (fun i => lit2 (S1024.rowMajor i)) (constantI S1024 1 0#1) rfl j).trans (word_at lit2 j)
  · exact (Cert.PureTerms.idxVec_apply bcast_S_S1024 bcast_S1024_S1024x1_0 (fun i => lit3 (S1024.rowMajor i)) (constantI S1024 1 0#1) rfl j).trans (word_at lit3 j)
  · exact (Cert.PureTerms.idxVec_apply bcast_S_S1024 bcast_S1024_S1024x1_0 (fun i => lit4 (S1024.rowMajor i)) (constantI S1024 1 0#1) rfl j).trans (word_at lit4 j)
  · exact (Cert.PureTerms.idxVec_apply bcast_S_S1024 bcast_S1024_S1024x1_0 (fun i => lit5 (S1024.rowMajor i)) (constantI S1024 1 0#1) rfl j).trans (word_at lit5 j)
  · exact (Cert.PureTerms.idxVec_apply bcast_S_S1024 bcast_S1024_S1024x1_0 (fun i => lit6 (S1024.rowMajor i)) (constantI S1024 1 0#1) rfl j).trans (word_at lit6 j)
  · exact (Cert.PureTerms.idxVec_apply bcast_S_S1024 bcast_S1024_S1024x1_0 (fun i => lit7 (S1024.rowMajor i)) (constantI S1024 1 0#1) rfl j).trans (word_at lit7 j)
  · exact (Cert.PureTerms.idxVec_apply bcast_S_S1024 bcast_S1024_S1024x1_0 (fun i => lit8 (S1024.rowMajor i)) (constantI S1024 1 0#1) rfl j).trans (word_at lit8 j)
  · exact (Cert.PureTerms.idxVec_apply bcast_S_S1024 bcast_S1024_S1024x1_0 (fun i => lit9 (S1024.rowMajor i)) (constantI S1024 1 0#1) rfl j).trans (word_at lit9 j)

set_option maxHeartbeats 8000000 in
theorem tab_value (W : Valuation τ sig (Elt Ideal)) :
    StableHlo.after (opsTab (F := Ideal)) W (Proc.devRef .tc main_v168)
      = Cert.PureTerms.coefTab gather_S1024_S1024x1_S1024_n_0_n_n_0_1_1 hslAll shapeCasts_S1x1024_S1024 bcast_S1024_S1x1024_1
          concatenates_S1x1024_S1x1024_S1x1024_S1x1024_S1x1024_S1x1024_S1x1024_S1x1024_S1x1024_S1x1024_S10x1024_d0
          (Cert.PureTerms.sinTab concatenates_S10x512_S10x512_S10x1024_d1 (W (Proc.devRef .tc main_arg2))) idxTab := by
  simp (disch := decide +kernel) only [StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne']
  rfl

end T2

theorem T2_apply (W0 : Valuation τ sig (Elt Ideal)) (s : Fin 10) (j : Fin 1024) :
    @Eq EReal (StableHlo.after (opsTab (F := Ideal)) W0 (Proc.devRef .tc main_v168) (ix2 s j))
      (Cert.Spec.coef2 Cert.Tables.rLitP (Cert.Spec.toMat (W0 (Proc.devRef .tc main_arg2))) s.val j) := by
  rw [T2.tab_value]
  exact Cert.PureTerms.coefTab_sin_apply _ rfl rfl rfl rfl rfl rfl rfl T2.hslAll _ _ _ _ (W0 (Proc.devRef .tc main_arg2)) T2.idxTab
    Cert.Tables.rLitP T2.idxTab_apply s j

end Cert.ReferenceIdeal.ValT

end
-- ==== Proof.RValT3.lean ====
import proofs.«426905_j7799660610191_3_alg».proof.Proof.ROps
import proofs.«426905_j7799660610191_3_alg».proof.Proof.Tables
import Idealize.ShloMosaic.Lib.ValueIdx
import Idealize.ShloMosaic.Lib.StableHlo.Run

noncomputable section

namespace Cert.ReferenceIdeal.ValT

open Cert.ReferenceIdeal Cert.ReferenceIdeal.Gen Cert.ReferenceIdeal.Run Idealize.ShloMosaic Idealize.ShloMosaic.TcCoe Idealize.SL.Sem
open Idealize.ShloMosaic.ValueIdx

theorem T3.word_at (f : Fin 1024 → BitVec 32) (j : Fin 1024) : f (S1024.rowMajor (ix1 j)) = f j :=
  congrArg f (Fin.ext (Shape.rowMajor_val_one _))

section Exchange
variable (W0 : Valuation τ sig (Elt Ideal))

theorem E0_apply (j : Fin 1024) :
    @Eq (BitVec 32) (StableHlo.after (opsTab (F := Ideal)) W0 (Proc.devRef .tc main_c_29) (ix1 j)) (Cert.Tables.rLitE 0 j) :=
  (congrFun (rfl : StableHlo.after (opsTab (F := Ideal)) W0 (Proc.devRef .tc main_c_29) = fun i => lit10 (S1024.rowMajor i)) (ix1 j)).trans
    (T3.word_at lit10 j)

theorem E1_apply (j : Fin 1024) :
    @Eq (BitVec 32) (StableHlo.after (opsTab (F := Ideal)) W0 (Proc.devRef .tc main_c_31) (ix1 j)) (Cert.Tables.rLitE 1 j) :=
  (congrFun (rfl : StableHlo.after (opsTab (F := Ideal)) W0 (Proc.devRef .tc main_c_31) = fun i => lit11 (S1024.rowMajor i)) (ix1 j)).trans
    (T3.word_at lit11 j)

theorem E2_apply (j : Fin 1024) :
    @Eq (BitVec 32) (StableHlo.after (opsTab (F := Ideal)) W0 (Proc.devRef .tc main_c_33) (ix1 j)) (Cert.Tables.rLitE 2 j) :=
  (congrFun (rfl : StableHlo.after (opsTab (F := Ideal)) W0 (Proc.devRef .tc main_c_33) = fun i => lit12 (S1024.rowMajor i)) (ix1 j)).trans
    (T3.word_at lit12 j)

theorem E3_apply (j : Fin 1024) :
    @Eq (BitVec 32) (StableHlo.after (opsTab (F := Ideal)) W0 (Proc.devRef .tc main_c_35) (ix1 j)) (Cert.Tables.rLitE 3 j) :=
  (congrFun (rfl : StableHlo.after (opsTab (F := Ideal)) W0 (Proc.devRef .tc main_c_35) = fun i => lit13 (S1024.rowMajor i)) (ix1 j)).trans
    (T3.word_at lit13 j)

theorem E4_apply (j : Fin 1024) :
    @Eq (BitVec 32) (StableHlo.after (opsTab (F := Ideal)) W0 (Proc.devRef .tc main_c_37) (ix1 j)) (Cert.Tables.rLitE 4 j) :=
  (congrFun (rfl : StableHlo.after (opsTab (F := Ideal)) W0 (Proc.devRef .tc main_c_37) = fun i => lit14 (S1024.rowMajor i)) (ix1 j)).trans
    (T3.word_at lit14 j)

theorem E5_apply (j : Fin 1024) :
    @Eq (BitVec 32) (StableHlo.after (opsTab (F := Ideal)) W0 (Proc.devRef .tc main_c_39) (ix1 j)) (Cert.Tables.rLitE 5 j) :=
  (congrFun (rfl : StableHlo.after (opsTab (F := Ideal)) W0 (Proc.devRef .tc main_c_39) = fun i => lit15 (S1024.rowMajor i)) (ix1 j)).trans
    (T3.word_at lit15 j)

theorem E6_apply (j : Fin 1024) :
    @Eq (BitVec 32) (StableHlo.after (opsTab (F := Ideal)) W0 (Proc.devRef .tc main_c_41) (ix1 j)) (Cert.Tables.rLitE 6 j) :=
  (congrFun (rfl : StableHlo.after (opsTab (F := Ideal)) W0 (Proc.devRef .tc main_c_41) = fun i => lit16 (S1024.rowMajor i)) (ix1 j)).trans
    (T3.word_at lit16 j)

theorem E7_apply (j : Fin 1024) :
    @Eq (BitVec 32) (StableHlo.after (opsTab (F := Ideal)) W0 (Proc.devRef .tc main_c_43) (ix1 j)) (Cert.Tables.rLitE 7 j) :=
  (congrFun (rfl : StableHlo.after (opsTab (F := Ideal)) W0 (Proc.devRef .tc main_c_43) = fun i => lit17 (S1024.rowMajor i)) (ix1 j)).trans
    (T3.word_at lit17 j)

theorem E8_apply (j : Fin 1024) :
    @Eq (BitVec 32) (StableHlo.after (opsTab (F := Ideal)) W0 (Proc.devRef .tc main_c_45) (ix1 j)) (Cert.Tables.rLitE 8 j) :=
  (congrFun (rfl : StableHlo.after (opsTab (F := Ideal)) W0 (Proc.devRef .tc main_c_45) = fun i => lit18 (S1024.rowMajor i)) (ix1 j)).trans
    (T3.word_at lit18 j)

theorem E9_apply (j : Fin 1024) :
    @Eq (BitVec 32) (StableHlo.after (opsTab (F := Ideal)) W0 (Proc.devRef .tc main_c_47) (ix1 j)) (Cert.Tables.rLitE 9 j) :=
  (congrFun (rfl : StableHlo.after (opsTab (F := Ideal)) W0 (Proc.devRef .tc main_c_47) = fun i => lit19 (S1024.rowMajor i)) (ix1 j)).trans
    (T3.word_at lit19 j)

end Exchange

section Masks
variable (W0 : Valuation τ sig (Elt Ideal))

theorem M0_eq : StableHlo.after (opsTab (F := Ideal)) W0 (Proc.devRef .tc main_c_30) = constantI S1024 1 0#1 := rfl

theorem M1_eq : StableHlo.after (opsTab (F := Ideal)) W0 (Proc.devRef .tc main_c_32) = constantI S1024 1 0#1 := rfl

theorem M2_eq : StableHlo.after (opsTab (F := Ideal)) W0 (Proc.devRef .tc main_c_34) = constantI S1024 1 0#1 := rfl

theorem M3_eq : StableHlo.after (opsTab (F := Ideal)) W0 (Proc.devRef .tc main_c_36) = constantI S1024 1 0#1 := rfl

theorem M4_eq : StableHlo.after (opsTab (F := Ideal)) W0 (Proc.devRef .tc main_c_38) = constantI S1024 1 0#1 := rfl

theorem M5_eq : StableHlo.after (opsTab (F := Ideal)) W0 (Proc.devRef .tc main_c_40) = constantI S1024 1 0#1 := rfl

theorem M6_eq : StableHlo.after (opsTab (F := Ideal)) W0 (Proc.devRef .tc main_c_42) = constantI S1024 1 0#1 := rfl

theorem M7_eq : StableHlo.after (opsTab (F := Ideal)) W0 (Proc.devRef .tc main_c_44) = constantI S1024 1 0#1 := rfl

theorem M8_eq : StableHlo.after (opsTab (F := Ideal)) W0 (Proc.devRef .tc main_c_46) = constantI S1024 1 0#1 := rfl

theorem M9_eq : StableHlo.after (opsTab (F := Ideal)) W0 (Proc.devRef .tc main_c_48) = constantI S1024 1 0#1 := rfl

end Masks

end Cert.ReferenceIdeal.ValT

end
-- ==== Proof.RValT.lean ====
import proofs.«426905_j7799660610191_3_alg».proof.Proof.RValT1
import proofs.«426905_j7799660610191_3_alg».proof.Proof.RValT2
import proofs.«426905_j7799660610191_3_alg».proof.Proof.RValT3
-- ==== Proof.RValZ.lean ====
import proofs.«426905_j7799660610191_3_alg».proof.Proof.ROps
import proofs.«426905_j7799660610191_3_alg».proof.Proof.Spec
import proofs.«426905_j7799660610191_3_alg».proof.Proof.Tables
import proofs.«426905_j7799660610191_3_alg».proof.Proof.RValTF
import proofs.«426905_j7799660610191_3_alg».proof.Proof.RValT
import proofs.«426905_j7799660610191_3_alg».proof.Proof.RValGT

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx Cert.Spec Cert.ReferenceIdeal.ValGT

variable (m : (ℓ : Loc nD τ sig) → Buf (Elt Ideal) ℓ) (c : Dev nD)

def Ztab : Valuation τ sig (Elt Ideal) := StableHlo.after (opsTab (F := Ideal)) (StableHlo.launchContents m c)
def Zgate : Valuation τ sig (Elt Ideal) := StableHlo.after (opsGate (F := Ideal)) (Ztab m c)

theorem Ztab_arg0 : Ztab m c (Proc.devRef .tc main_arg0) = m ((c.tc : Thread nD τ).loc main_arg0) :=
  frame_Tab _ main_arg0 (by decide)
theorem Ztab_arg1 : Ztab m c (Proc.devRef .tc main_arg1) = m ((c.tc : Thread nD τ).loc main_arg1) :=
  frame_Tab _ main_arg1 (by decide)
theorem Ztab_arg3 : Ztab m c (Proc.devRef .tc main_arg3) = m ((c.tc : Thread nD τ).loc main_arg3) :=
  frame_Tab _ main_arg3 (by decide)
theorem Ztab_arg4 : Ztab m c (Proc.devRef .tc main_arg4) = m ((c.tc : Thread nD τ).loc main_arg4) :=
  frame_Tab _ main_arg4 (by decide)
theorem Ztab_arg5 : Ztab m c (Proc.devRef .tc main_arg5) = m ((c.tc : Thread nD τ).loc main_arg5) :=
  frame_Tab _ main_arg5 (by decide)
theorem Ztab_arg6 : Ztab m c (Proc.devRef .tc main_arg6) = m ((c.tc : Thread nD τ).loc main_arg6) :=
  frame_Tab _ main_arg6 (by decide)
theorem Ztab_arg7 : Ztab m c (Proc.devRef .tc main_arg7) = m ((c.tc : Thread nD τ).loc main_arg7) :=
  frame_Tab _ main_arg7 (by decide)
theorem Ztab_arg8 : Ztab m c (Proc.devRef .tc main_arg8) = m ((c.tc : Thread nD τ).loc main_arg8) :=
  frame_Tab _ main_arg8 (by decide)

theorem Zgate_arg1 : Zgate m c (Proc.devRef .tc main_arg1) = m ((c.tc : Thread nD τ).loc main_arg1) :=
  (gate_frame _ main_arg1 (by decide)).trans (Ztab_arg1 m c)
theorem Zgate_arg8 : Zgate m c (Proc.devRef .tc main_arg8) = m ((c.tc : Thread nD τ).loc main_arg8) :=
  (gate_frame _ main_arg8 (by decide)).trans (Ztab_arg8 m c)

theorem Zgate_T1 (s : ℕ) (hs : s < 10) (j : Fin 1024) :
    @Eq EReal (Zgate m c (Proc.devRef .tc main_v87) (ix2 (⟨s, hs⟩ : Fin 10) j)) ((Cert.Spec.coef1 Cert.Tables.rLitP (Cert.Spec.toMat (m ((c.tc : Thread nD τ).loc main_arg2)))) s j) := by
  unfold Zgate
  rw [gate_frame _ main_v87 (by decide)]
  exact Cert.ReferenceIdeal.ValT.T1_apply (StableHlo.launchContents m c) ⟨s, hs⟩ j
theorem Zgate_T2 (s : ℕ) (hs : s < 10) (j : Fin 1024) :
    @Eq EReal (Zgate m c (Proc.devRef .tc main_v168) (ix2 (⟨s, hs⟩ : Fin 10) j)) ((Cert.Spec.coef2 Cert.Tables.rLitP (Cert.Spec.toMat (m ((c.tc : Thread nD τ).loc main_arg2)))) s j) := by
  unfold Zgate
  rw [gate_frame _ main_v168 (by decide)]
  exact Cert.ReferenceIdeal.ValT.T2_apply (StableHlo.launchContents m c) ⟨s, hs⟩ j

end Cert.ReferenceIdeal.Val

end
-- ==== Proof.RValLib.lean ====
import proofs.«426905_j7799660610191_3_alg».proof.Proof.Gen.ReferenceIdeal
import proofs.«426905_j7799660610191_3_alg».proof.Proof.PureTerms

noncomputable section

namespace Cert.ReferenceIdeal.Val

open Cert.ReferenceIdeal Cert.ReferenceIdeal.Gen Idealize.ShloMosaic
open Idealize.ShloMosaic.ValueIdx Cert.Spec

theorem stage_step (s : ℕ) (hs : s < 10) (hsl : S10x1024.Slices ![s, 0] S1x1024)
    (h : FVec Ideal S8192x1024 .f32) (T1 T2 : FVec Ideal S10x1024 .f32) (lit : IVec S1024 32) (cf : IVec S1024 1)
    (v1 v2 : Fin 1024 → EReal) (p : Fin 1024 → Fin 1024)
    (hT1 : ∀ j : Fin 1024, T1 (ix2 (⟨s, hs⟩ : Fin 10) j) = v1 j)
    (hT2 : ∀ j : Fin 1024, T2 (ix2 (⟨s, hs⟩ : Fin 10) j) = v2 j)
    (hp : ∀ j : Fin 1024, clampIdx (lit (ix1 j)) = p j) (hcf : cf = constantI S1024 1 0#1) :
    toMat (Cert.PureTerms.stageTerm gather_S8192x1024_S1024x1_S8192x1024_0_1_n_n_1_1_81921 s hsl shapeCasts_S1x1024_S1024
        bcast_S1024_S1x1024_1 bcast_S1x1024_S8192x1024_0_1 h T1 T2 (Cert.PureTerms.idxVec bcast_S_S1024 bcast_S1024_S1024x1_0 lit cf))
      = stage v1 v2 p (toMat h) := by
  rw [Cert.PureTerms.toMat_stageTerm _ rfl rfl rfl rfl rfl rfl rfl s hs]
  have e1 : (fun j : Fin 1024 => T1 (ix2 (⟨s, hs⟩ : Fin 10) j)) = v1 := funext hT1
  have e2 : (fun j : Fin 1024 => T2 (ix2 (⟨s, hs⟩ : Fin 10) j)) = v2 := funext hT2
  have e3 : (fun j : Fin 1024 => clampIdx (Cert.PureTerms.idxVec bcast_S_S1024 bcast_S1024_S1024x1_0 lit cf (ix2 j (0 : Fin 1)))) = p := by
    funext j
    rw [Cert.PureTerms.idxVec_apply _ _ _ _ hcf, hp]
  rw [e1, e2, e3]

end Cert.ReferenceIdeal.Val

end
-- ==== Proof.RValS0.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt0 : List (Ref sig .tc) :=
  [main_v195, main_v196, main_v197, main_v198, main_v199, main_v200, main_v201, main_v202, main_v203, main_v204, main_c_72, main_v205, main_v206, main_v207, main_v208, main_v209, main_v210]

set_option maxHeartbeats 4000000 in
theorem wSt0_sub : (opsSt0 (F := Ideal)).Forall fun op => op.writes ⊆ (wSt0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St0 (W : Valuation τ sig (Elt Ideal)) (r : Ref sig .tc) (hr : r ∉ wSt0) :
    StableHlo.after (opsSt0 (F := Ideal)) W (Proc.devRef .tc r) = W (Proc.devRef .tc r) :=
  StableHlo.after_of_writes_sub _ W wSt0_sub hr

set_option maxHeartbeats 4000000 in
theorem st0_val (W : Valuation τ sig (Elt Ideal)) :
    StableHlo.after (opsSt0 (F := Ideal)) W (Proc.devRef .tc main_v210)
      = Cert.PureTerms.stageTerm gather_S8192x1024_S1024x1_S8192x1024_0_1_n_n_1_1_81921 0 slices_S10x1024_S1x1024_0_0 shapeCasts_S1x1024_S1024
          bcast_S1024_S1x1024_1 bcast_S1x1024_S8192x1024_0_1 (W (Proc.devRef .tc main_arg1)) (W (Proc.devRef .tc main_v87)) (W (Proc.devRef .tc main_v168))
          (Cert.PureTerms.idxVec bcast_S_S1024 bcast_S1024_S1024x1_0 (W (Proc.devRef .tc main_c_29)) (W (Proc.devRef .tc main_c_30))) := by
  after_results_simp
  rfl

end Cert.ReferenceIdeal.Val

end
-- ==== Proof.RValS1.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt1 : List (Ref sig .tc) :=
  [main_v211, main_v212, main_v213, main_v214, main_v215, main_v216, main_v217, main_v218, main_v219, main_v220, main_c_73, main_v221, main_v222, main_v223, main_v224, main_v225, main_v226]

set_option maxHeartbeats 4000000 in
theorem wSt1_sub : (opsSt1 (F := Ideal)).Forall fun op => op.writes ⊆ (wSt1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St1 (W : Valuation τ sig (Elt Ideal)) (r : Ref sig .tc) (hr : r ∉ wSt1) :
    StableHlo.after (opsSt1 (F := Ideal)) W (Proc.devRef .tc r) = W (Proc.devRef .tc r) :=
  StableHlo.after_of_writes_sub _ W wSt1_sub hr

set_option maxHeartbeats 4000000 in
theorem st1_val (W : Valuation τ sig (Elt Ideal)) :
    StableHlo.after (opsSt1 (F := Ideal)) W (Proc.devRef .tc main_v226)
      = Cert.PureTerms.stageTerm gather_S8192x1024_S1024x1_S8192x1024_0_1_n_n_1_1_81921 1 slices_S10x1024_S1x1024_1_0 shapeCasts_S1x1024_S1024
          bcast_S1024_S1x1024_1 bcast_S1x1024_S8192x1024_0_1 (W (Proc.devRef .tc main_v210)) (W (Proc.devRef .tc main_v87)) (W (Proc.devRef .tc main_v168))
          (Cert.PureTerms.idxVec bcast_S_S1024 bcast_S1024_S1024x1_0 (W (Proc.devRef .tc main_c_31)) (W (Proc.devRef .tc main_c_32))) := by
  after_results_simp
  rfl

end Cert.ReferenceIdeal.Val

end
-- ==== Proof.RValS2.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt2 : List (Ref sig .tc) :=
  [main_v227, main_v228, main_v229, main_v230, main_v231, main_v232, main_v233, main_v234, main_v235, main_v236, main_c_74, main_v237, main_v238, main_v239, main_v240, main_v241, main_v242]

set_option maxHeartbeats 4000000 in
theorem wSt2_sub : (opsSt2 (F := Ideal)).Forall fun op => op.writes ⊆ (wSt2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St2 (W : Valuation τ sig (Elt Ideal)) (r : Ref sig .tc) (hr : r ∉ wSt2) :
    StableHlo.after (opsSt2 (F := Ideal)) W (Proc.devRef .tc r) = W (Proc.devRef .tc r) :=
  StableHlo.after_of_writes_sub _ W wSt2_sub hr

set_option maxHeartbeats 4000000 in
theorem st2_val (W : Valuation τ sig (Elt Ideal)) :
    StableHlo.after (opsSt2 (F := Ideal)) W (Proc.devRef .tc main_v242)
      = Cert.PureTerms.stageTerm gather_S8192x1024_S1024x1_S8192x1024_0_1_n_n_1_1_81921 2 slices_S10x1024_S1x1024_2_0 shapeCasts_S1x1024_S1024
          bcast_S1024_S1x1024_1 bcast_S1x1024_S8192x1024_0_1 (W (Proc.devRef .tc main_v226)) (W (Proc.devRef .tc main_v87)) (W (Proc.devRef .tc main_v168))
          (Cert.PureTerms.idxVec bcast_S_S1024 bcast_S1024_S1024x1_0 (W (Proc.devRef .tc main_c_33)) (W (Proc.devRef .tc main_c_34))) := by
  after_results_simp
  rfl

end Cert.ReferenceIdeal.Val

end
-- ==== Proof.RValS3.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt3 : List (Ref sig .tc) :=
  [main_v243, main_v244, main_v245, main_v246, main_v247, main_v248, main_v249, main_v250, main_v251, main_v252, main_c_75, main_v253, main_v254, main_v255, main_v256, main_v257, main_v258]

set_option maxHeartbeats 4000000 in
theorem wSt3_sub : (opsSt3 (F := Ideal)).Forall fun op => op.writes ⊆ (wSt3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St3 (W : Valuation τ sig (Elt Ideal)) (r : Ref sig .tc) (hr : r ∉ wSt3) :
    StableHlo.after (opsSt3 (F := Ideal)) W (Proc.devRef .tc r) = W (Proc.devRef .tc r) :=
  StableHlo.after_of_writes_sub _ W wSt3_sub hr

set_option maxHeartbeats 4000000 in
theorem st3_val (W : Valuation τ sig (Elt Ideal)) :
    StableHlo.after (opsSt3 (F := Ideal)) W (Proc.devRef .tc main_v258)
      = Cert.PureTerms.stageTerm gather_S8192x1024_S1024x1_S8192x1024_0_1_n_n_1_1_81921 3 slices_S10x1024_S1x1024_3_0 shapeCasts_S1x1024_S1024
          bcast_S1024_S1x1024_1 bcast_S1x1024_S8192x1024_0_1 (W (Proc.devRef .tc main_v242)) (W (Proc.devRef .tc main_v87)) (W (Proc.devRef .tc main_v168))
          (Cert.PureTerms.idxVec bcast_S_S1024 bcast_S1024_S1024x1_0 (W (Proc.devRef .tc main_c_35)) (W (Proc.devRef .tc main_c_36))) := by
  after_results_simp
  rfl

end Cert.ReferenceIdeal.Val

end
-- ==== Proof.RValS4.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt4 : List (Ref sig .tc) :=
  [main_v259, main_v260, main_v261, main_v262, main_v263, main_v264, main_v265, main_v266, main_v267, main_v268, main_c_76, main_v269, main_v270, main_v271, main_v272, main_v273, main_v274]

set_option maxHeartbeats 4000000 in
theorem wSt4_sub : (opsSt4 (F := Ideal)).Forall fun op => op.writes ⊆ (wSt4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St4 (W : Valuation τ sig (Elt Ideal)) (r : Ref sig .tc) (hr : r ∉ wSt4) :
    StableHlo.after (opsSt4 (F := Ideal)) W (Proc.devRef .tc r) = W (Proc.devRef .tc r) :=
  StableHlo.after_of_writes_sub _ W wSt4_sub hr

set_option maxHeartbeats 4000000 in
theorem st4_val (W : Valuation τ sig (Elt Ideal)) :
    StableHlo.after (opsSt4 (F := Ideal)) W (Proc.devRef .tc main_v274)
      = Cert.PureTerms.stageTerm gather_S8192x1024_S1024x1_S8192x1024_0_1_n_n_1_1_81921 4 slices_S10x1024_S1x1024_4_0 shapeCasts_S1x1024_S1024
          bcast_S1024_S1x1024_1 bcast_S1x1024_S8192x1024_0_1 (W (Proc.devRef .tc main_v258)) (W (Proc.devRef .tc main_v87)) (W (Proc.devRef .tc main_v168))
          (Cert.PureTerms.idxVec bcast_S_S1024 bcast_S1024_S1024x1_0 (W (Proc.devRef .tc main_c_37)) (W (Proc.devRef .tc main_c_38))) := by
  after_results_simp
  rfl

end Cert.ReferenceIdeal.Val

end
-- ==== Proof.RValS5.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt5 : List (Ref sig .tc) :=
  [main_v275, main_v276, main_v277, main_v278, main_v279, main_v280, main_v281, main_v282, main_v283, main_v284, main_c_77, main_v285, main_v286, main_v287, main_v288, main_v289, main_v290]

set_option maxHeartbeats 4000000 in
theorem wSt5_sub : (opsSt5 (F := Ideal)).Forall fun op => op.writes ⊆ (wSt5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St5 (W : Valuation τ sig (Elt Ideal)) (r : Ref sig .tc) (hr : r ∉ wSt5) :
    StableHlo.after (opsSt5 (F := Ideal)) W (Proc.devRef .tc r) = W (Proc.devRef .tc r) :=
  StableHlo.after_of_writes_sub _ W wSt5_sub hr

set_option maxHeartbeats 4000000 in
theorem st5_val (W : Valuation τ sig (Elt Ideal)) :
    StableHlo.after (opsSt5 (F := Ideal)) W (Proc.devRef .tc main_v290)
      = Cert.PureTerms.stageTerm gather_S8192x1024_S1024x1_S8192x1024_0_1_n_n_1_1_81921 5 slices_S10x1024_S1x1024_5_0 shapeCasts_S1x1024_S1024
          bcast_S1024_S1x1024_1 bcast_S1x1024_S8192x1024_0_1 (W (Proc.devRef .tc main_v274)) (W (Proc.devRef .tc main_v87)) (W (Proc.devRef .tc main_v168))
          (Cert.PureTerms.idxVec bcast_S_S1024 bcast_S1024_S1024x1_0 (W (Proc.devRef .tc main_c_39)) (W (Proc.devRef .tc main_c_40))) := by
  after_results_simp
  rfl

end Cert.ReferenceIdeal.Val

end
-- ==== Proof.RValS6.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt6 : List (Ref sig .tc) :=
  [main_v291, main_v292, main_v293, main_v294, main_v295, main_v296, main_v297, main_v298, main_v299, main_v300, main_c_78, main_v301, main_v302, main_v303, main_v304, main_v305, main_v306]

set_option maxHeartbeats 4000000 in
theorem wSt6_sub : (opsSt6 (F := Ideal)).Forall fun op => op.writes ⊆ (wSt6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St6 (W : Valuation τ sig (Elt Ideal)) (r : Ref sig .tc) (hr : r ∉ wSt6) :
    StableHlo.after (opsSt6 (F := Ideal)) W (Proc.devRef .tc r) = W (Proc.devRef .tc r) :=
  StableHlo.after_of_writes_sub _ W wSt6_sub hr

set_option maxHeartbeats 4000000 in
theorem st6_val (W : Valuation τ sig (Elt Ideal)) :
    StableHlo.after (opsSt6 (F := Ideal)) W (Proc.devRef .tc main_v306)
      = Cert.PureTerms.stageTerm gather_S8192x1024_S1024x1_S8192x1024_0_1_n_n_1_1_81921 6 slices_S10x1024_S1x1024_6_0 shapeCasts_S1x1024_S1024
          bcast_S1024_S1x1024_1 bcast_S1x1024_S8192x1024_0_1 (W (Proc.devRef .tc main_v290)) (W (Proc.devRef .tc main_v87)) (W (Proc.devRef .tc main_v168))
          (Cert.PureTerms.idxVec bcast_S_S1024 bcast_S1024_S1024x1_0 (W (Proc.devRef .tc main_c_41)) (W (Proc.devRef .tc main_c_42))) := by
  after_results_simp
  rfl

end Cert.ReferenceIdeal.Val

end
-- ==== Proof.RValS7.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt7 : List (Ref sig .tc) :=
  [main_v307, main_v308, main_v309, main_v310, main_v311, main_v312, main_v313, main_v314, main_v315, main_v316, main_c_79, main_v317, main_v318, main_v319, main_v320, main_v321, main_v322]

set_option maxHeartbeats 4000000 in
theorem wSt7_sub : (opsSt7 (F := Ideal)).Forall fun op => op.writes ⊆ (wSt7.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St7 (W : Valuation τ sig (Elt Ideal)) (r : Ref sig .tc) (hr : r ∉ wSt7) :
    StableHlo.after (opsSt7 (F := Ideal)) W (Proc.devRef .tc r) = W (Proc.devRef .tc r) :=
  StableHlo.after_of_writes_sub _ W wSt7_sub hr

set_option maxHeartbeats 4000000 in
theorem st7_val (W : Valuation τ sig (Elt Ideal)) :
    StableHlo.after (opsSt7 (F := Ideal)) W (Proc.devRef .tc main_v322)
      = Cert.PureTerms.stageTerm gather_S8192x1024_S1024x1_S8192x1024_0_1_n_n_1_1_81921 7 slices_S10x1024_S1x1024_7_0 shapeCasts_S1x1024_S1024
          bcast_S1024_S1x1024_1 bcast_S1x1024_S8192x1024_0_1 (W (Proc.devRef .tc main_v306)) (W (Proc.devRef .tc main_v87)) (W (Proc.devRef .tc main_v168))
          (Cert.PureTerms.idxVec bcast_S_S1024 bcast_S1024_S1024x1_0 (W (Proc.devRef .tc main_c_43)) (W (Proc.devRef .tc main_c_44))) := by
  after_results_simp
  rfl

end Cert.ReferenceIdeal.Val

end
-- ==== Proof.RValS8.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt8 : List (Ref sig .tc) :=
  [main_v323, main_v324, main_v325, main_v326, main_v327, main_v328, main_v329, main_v330, main_v331, main_v332, main_c_80, main_v333, main_v334, main_v335, main_v336, main_v337, main_v338]

set_option maxHeartbeats 4000000 in
theorem wSt8_sub : (opsSt8 (F := Ideal)).Forall fun op => op.writes ⊆ (wSt8.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St8 (W : Valuation τ sig (Elt Ideal)) (r : Ref sig .tc) (hr : r ∉ wSt8) :
    StableHlo.after (opsSt8 (F := Ideal)) W (Proc.devRef .tc r) = W (Proc.devRef .tc r) :=
  StableHlo.after_of_writes_sub _ W wSt8_sub hr

set_option maxHeartbeats 4000000 in
theorem st8_val (W : Valuation τ sig (Elt Ideal)) :
    StableHlo.after (opsSt8 (F := Ideal)) W (Proc.devRef .tc main_v338)
      = Cert.PureTerms.stageTerm gather_S8192x1024_S1024x1_S8192x1024_0_1_n_n_1_1_81921 8 slices_S10x1024_S1x1024_8_0 shapeCasts_S1x1024_S1024
          bcast_S1024_S1x1024_1 bcast_S1x1024_S8192x1024_0_1 (W (Proc.devRef .tc main_v322)) (W (Proc.devRef .tc main_v87)) (W (Proc.devRef .tc main_v168))
          (Cert.PureTerms.idxVec bcast_S_S1024 bcast_S1024_S1024x1_0 (W (Proc.devRef .tc main_c_45)) (W (Proc.devRef .tc main_c_46))) := by
  after_results_simp
  rfl

end Cert.ReferenceIdeal.Val

end
-- ==== Proof.RValS9.lean ====
import proofs.«426905_j7799660610191_3_alg».proof.Proof.ROps
import proofs.«426905_j7799660610191_3_alg».proof.Proof.PureTerms

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx

abbrev wSt9 : List (Ref sig .tc) :=
  [main_v339, main_v340, main_v341, main_v342, main_v343, main_v344, main_v345, main_v346, main_v347, main_v348, main_c_81, main_v349, main_v350, main_v351, main_v352, main_v353, main_v354]

set_option maxHeartbeats 4000000 in
theorem wSt9_sub : (opsSt9 (F := Ideal)).Forall fun op => op.writes ⊆ (wSt9.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem frame_St9 (W : Valuation τ sig (Elt Ideal)) (r : Ref sig .tc) (hr : r ∉ wSt9) :
    StableHlo.after (opsSt9 (F := Ideal)) W (Proc.devRef .tc r) = W (Proc.devRef .tc r) :=
  StableHlo.after_of_writes_sub _ W wSt9_sub hr

set_option maxHeartbeats 4000000 in
theorem st9_val (W : Valuation τ sig (Elt Ideal)) :
    StableHlo.after (opsSt9 (F := Ideal)) W (Proc.devRef .tc main_v354)
      = Cert.PureTerms.stageTerm gather_S8192x1024_S1024x1_S8192x1024_0_1_n_n_1_1_81921 9 slices_S10x1024_S1x1024_9_0 shapeCasts_S1x1024_S1024
          bcast_S1024_S1x1024_1 bcast_S1x1024_S8192x1024_0_1 (W (Proc.devRef .tc main_v338)) (W (Proc.devRef .tc main_v87)) (W (Proc.devRef .tc main_v168))
          (Cert.PureTerms.idxVec bcast_S_S1024 bcast_S1024_S1024x1_0 (W (Proc.devRef .tc main_c_47)) (W (Proc.devRef .tc main_c_48))) := by
  after_results_simp
  rfl

end Cert.ReferenceIdeal.Val

end
-- ==== Proof.RValK.lean ====
import proofs.«426905_j7799660610191_3_alg».proof.Proof.ROps
import proofs.«426905_j7799660610191_3_alg».proof.Proof.Spec
import proofs.«426905_j7799660610191_3_alg».proof.Proof.Tables
import proofs.«426905_j7799660610191_3_alg».proof.Proof.RValLib
import proofs.«426905_j7799660610191_3_alg».proof.Proof.RValS0
import proofs.«426905_j7799660610191_3_alg».proof.Proof.RValS1
import proofs.«426905_j7799660610191_3_alg».proof.Proof.RValS2
import proofs.«426905_j7799660610191_3_alg».proof.Proof.RValS3
import proofs.«426905_j7799660610191_3_alg».proof.Proof.RValS4
import proofs.«426905_j7799660610191_3_alg».proof.Proof.RValS5
import proofs.«426905_j7799660610191_3_alg».proof.Proof.RValS6
import proofs.«426905_j7799660610191_3_alg».proof.Proof.RValS7
import proofs.«426905_j7799660610191_3_alg».proof.Proof.RValS8
import proofs.«426905_j7799660610191_3_alg».proof.Proof.RValS9
import proofs.«426905_j7799660610191_3_alg».proof.Proof.RValT
import proofs.«426905_j7799660610191_3_alg».proof.Proof.RValGT
import proofs.«426905_j7799660610191_3_alg».proof.Proof.RValZ

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx Cert.Spec Cert.ReferenceIdeal.ValGT Cert.ReferenceIdeal.ValT

-- The ten stages differ only in which arrays they name, so they are indexed by a number and every fact below is proved once.
noncomputable def opsSt : ℕ → List (HloOp τ sig (Elt Ideal))
  | 0 => opsSt0 | 1 => opsSt1 | 2 => opsSt2 | 3 => opsSt3 | 4 => opsSt4 | 5 => opsSt5 | 6 => opsSt6 | 7 => opsSt7 | 8 => opsSt8 | 9 => opsSt9 | _ => []
noncomputable def wSt : ℕ → List (Ref sig .tc)
  | 0 => wSt0 | 1 => wSt1 | 2 => wSt2 | 3 => wSt3 | 4 => wSt4 | 5 => wSt5 | 6 => wSt6 | 7 => wSt7 | 8 => wSt8 | 9 => wSt9 | _ => []
noncomputable def rowsSt (W : Valuation τ sig (Elt Ideal)) : ℕ → FVec Ideal S8192x1024 .f32
  | 0 => W (Proc.devRef .tc main_arg1) | 1 => W (Proc.devRef .tc main_v210) | 2 => W (Proc.devRef .tc main_v226) | 3 => W (Proc.devRef .tc main_v242) | 4 => W (Proc.devRef .tc main_v258) | 5 => W (Proc.devRef .tc main_v274) | 6 => W (Proc.devRef .tc main_v290) | 7 => W (Proc.devRef .tc main_v306) | 8 => W (Proc.devRef .tc main_v322) | 9 => W (Proc.devRef .tc main_v338) | _ => W (Proc.devRef .tc main_v354)
noncomputable def litSt (W : Valuation τ sig (Elt Ideal)) : ℕ → IVec S1024 32
  | 0 => W (Proc.devRef .tc main_c_29) | 1 => W (Proc.devRef .tc main_c_31) | 2 => W (Proc.devRef .tc main_c_33) | 3 => W (Proc.devRef .tc main_c_35) | 4 => W (Proc.devRef .tc main_c_37) | 5 => W (Proc.devRef .tc main_c_39) | 6 => W (Proc.devRef .tc main_c_41) | 7 => W (Proc.devRef .tc main_c_43) | 8 => W (Proc.devRef .tc main_c_45) | 9 => W (Proc.devRef .tc main_c_47) | _ => W (Proc.devRef .tc main_c_47)
noncomputable def mskSt (W : Valuation τ sig (Elt Ideal)) : ℕ → IVec S1024 1
  | 0 => W (Proc.devRef .tc main_c_30) | 1 => W (Proc.devRef .tc main_c_32) | 2 => W (Proc.devRef .tc main_c_34) | 3 => W (Proc.devRef .tc main_c_36) | 4 => W (Proc.devRef .tc main_c_38) | 5 => W (Proc.devRef .tc main_c_40) | 6 => W (Proc.devRef .tc main_c_42) | 7 => W (Proc.devRef .tc main_c_44) | 8 => W (Proc.devRef .tc main_c_46) | 9 => W (Proc.devRef .tc main_c_48) | _ => W (Proc.devRef .tc main_c_48)

theorem hslR : ∀ s, s < 10 → S10x1024.Slices ![s, 0] S1x1024
  | 0, _ => slices_S10x1024_S1x1024_0_0 | 1, _ => slices_S10x1024_S1x1024_1_0 | 2, _ => slices_S10x1024_S1x1024_2_0 | 3, _ => slices_S10x1024_S1x1024_3_0 | 4, _ => slices_S10x1024_S1x1024_4_0 | 5, _ => slices_S10x1024_S1x1024_5_0 | 6, _ => slices_S10x1024_S1x1024_6_0 | 7, _ => slices_S10x1024_S1x1024_7_0 | 8, _ => slices_S10x1024_S1x1024_8_0 | 9, _ => slices_S10x1024_S1x1024_9_0 | _ + 10, h => absurd h (by omega)

theorem frame_St : ∀ (s : ℕ) (W : Valuation τ sig (Elt Ideal)) (r : Ref sig .tc), r ∉ wSt s →
    StableHlo.after (opsSt s) W (Proc.devRef .tc r) = W (Proc.devRef .tc r)
  | 0 => frame_St0 | 1 => frame_St1 | 2 => frame_St2 | 3 => frame_St3 | 4 => frame_St4 | 5 => frame_St5 | 6 => frame_St6 | 7 => frame_St7 | 8 => frame_St8 | 9 => frame_St9 | _ + 10 => fun _ _ _ => rfl

theorem st_val : ∀ (s : ℕ) (hs : s < 10) (W : Valuation τ sig (Elt Ideal)),
    rowsSt (StableHlo.after (opsSt s) W) (s + 1)
      = Cert.PureTerms.stageTerm gather_S8192x1024_S1024x1_S8192x1024_0_1_n_n_1_1_81921 s (hslR s hs) shapeCasts_S1x1024_S1024
          bcast_S1024_S1x1024_1 bcast_S1x1024_S8192x1024_0_1 (rowsSt W s) (W (Proc.devRef .tc main_v87)) (W (Proc.devRef .tc main_v168))
          (Cert.PureTerms.idxVec bcast_S_S1024 bcast_S1024_S1024x1_0 (litSt W s) (mskSt W s))
  | 0, _ => st0_val | 1, _ => st1_val | 2, _ => st2_val | 3, _ => st3_val | 4, _ => st4_val | 5, _ => st5_val | 6, _ => st6_val | 7, _ => st7_val | 8, _ => st8_val | 9, _ => st9_val | _ + 10, h => absurd h (by omega)

abbrev keepSt : List (Ref sig .tc) :=
  [main_arg1, main_arg8, main_v87, main_v168, main_c_29, main_c_30, main_c_31, main_c_32, main_c_33, main_c_34, main_c_35, main_c_36, main_c_37, main_c_38, main_c_39, main_c_40, main_c_41, main_c_42, main_c_43, main_c_44, main_c_45, main_c_46, main_c_47, main_c_48, main_v170, main_v183, main_v194]

theorem not_mem_of_all {l w : List (Ref sig .tc)} (h : l.all (fun r => decide (r ∉ w)) = true) : ∀ r ∈ l, r ∉ w :=
  fun r hr => of_decide_eq_true (List.all_eq_true.mp h r hr)

theorem keepSt_not : ∀ s, ∀ r ∈ keepSt, r ∉ wSt s
  | 0 => not_mem_of_all (by decide) | 1 => not_mem_of_all (by decide) | 2 => not_mem_of_all (by decide) | 3 => not_mem_of_all (by decide) | 4 => not_mem_of_all (by decide) | 5 => not_mem_of_all (by decide) | 6 => not_mem_of_all (by decide) | 7 => not_mem_of_all (by decide) | 8 => not_mem_of_all (by decide) | 9 => not_mem_of_all (by decide)
  | _ + 10 => fun _ _ h => nomatch h

variable (m : (ℓ : Loc nD τ sig) → Buf (Elt Ideal) ℓ) (c : Dev nD)

noncomputable def Zst : ℕ → Valuation τ sig (Elt Ideal)
  | 0 => Zgate m c
  | n + 1 => StableHlo.after (opsSt n) (Zst n)

theorem Zst_keep : ∀ (n : ℕ) (r : Ref sig .tc), r ∈ keepSt → Zst m c n (Proc.devRef .tc r) = Zgate m c (Proc.devRef .tc r)
  | 0, _, _ => rfl
  | n + 1, r, hr => (frame_St n _ r (keepSt_not n r hr)).trans (Zst_keep n r hr)

theorem Zst_tab (n : ℕ) (r : Ref sig .tc) (hk : r ∈ keepSt) (hg : r ∉ gateWrites) :
    Zst m c n (Proc.devRef .tc r) = Ztab m c (Proc.devRef .tc r) :=
  (Zst_keep m c n r hk).trans (gate_frame _ r hg)

theorem Zst_E (n : ℕ) : ∀ s, s < 10 → ∀ j : Fin 1024, litSt (Zst m c n) s (ix1 j) = Cert.Tables.rLitE s j
  | 0, _, j => (congrFun (Zst_tab m c n main_c_29 (by decide) (by decide)) (ix1 j)).trans (E0_apply _ j)
  | 1, _, j => (congrFun (Zst_tab m c n main_c_31 (by decide) (by decide)) (ix1 j)).trans (E1_apply _ j)
  | 2, _, j => (congrFun (Zst_tab m c n main_c_33 (by decide) (by decide)) (ix1 j)).trans (E2_apply _ j)
  | 3, _, j => (congrFun (Zst_tab m c n main_c_35 (by decide) (by decide)) (ix1 j)).trans (E3_apply _ j)
  | 4, _, j => (congrFun (Zst_tab m c n main_c_37 (by decide) (by decide)) (ix1 j)).trans (E4_apply _ j)
  | 5, _, j => (congrFun (Zst_tab m c n main_c_39 (by decide) (by decide)) (ix1 j)).trans (E5_apply _ j)
  | 6, _, j => (congrFun (Zst_tab m c n main_c_41 (by decide) (by decide)) (ix1 j)).trans (E6_apply _ j)
  | 7, _, j => (congrFun (Zst_tab m c n main_c_43 (by decide) (by decide)) (ix1 j)).trans (E7_apply _ j)
  | 8, _, j => (congrFun (Zst_tab m c n main_c_45 (by decide) (by decide)) (ix1 j)).trans (E8_apply _ j)
  | 9, _, j => (congrFun (Zst_tab m c n main_c_47 (by decide) (by decide)) (ix1 j)).trans (E9_apply _ j)
  | _ + 10, h, _ => absurd h (by omega)

theorem Zst_M (n : ℕ) : ∀ s, s < 10 → mskSt (Zst m c n) s = constantI S1024 1 0#1
  | 0, _ => (Zst_tab m c n main_c_30 (by decide) (by decide)).trans (M0_eq _)
  | 1, _ => (Zst_tab m c n main_c_32 (by decide) (by decide)).trans (M1_eq _)
  | 2, _ => (Zst_tab m c n main_c_34 (by decide) (by decide)).trans (M2_eq _)
  | 3, _ => (Zst_tab m c n main_c_36 (by decide) (by decide)).trans (M3_eq _)
  | 4, _ => (Zst_tab m c n main_c_38 (by decide) (by decide)).trans (M4_eq _)
  | 5, _ => (Zst_tab m c n main_c_40 (by decide) (by decide)).trans (M5_eq _)
  | 6, _ => (Zst_tab m c n main_c_42 (by decide) (by decide)).trans (M6_eq _)
  | 7, _ => (Zst_tab m c n main_c_44 (by decide) (by decide)).trans (M7_eq _)
  | 8, _ => (Zst_tab m c n main_c_46 (by decide) (by decide)).trans (M8_eq _)
  | 9, _ => (Zst_tab m c n main_c_48 (by decide) (by decide)).trans (M9_eq _)
  | _ + 10, h => absurd h (by omega)

abbrev cf1 : ℕ → Fin 1024 → EReal := coef1 Cert.Tables.rLitP (toMat (m ((c.tc : Thread nD τ).loc main_arg2)))
abbrev cf2 : ℕ → Fin 1024 → EReal := coef2 Cert.Tables.rLitP (toMat (m ((c.tc : Thread nD τ).loc main_arg2)))

theorem Zst_h (n : ℕ) (hn : n < 10) :
    toMat (rowsSt (Zst m c (n + 1)) (n + 1))
      = stage (cf1 m c n) (cf2 m c n) (perm Cert.Tables.rLitE n) (toMat (rowsSt (Zst m c n) n)) := by
  show toMat (rowsSt (StableHlo.after (opsSt n) (Zst m c n)) (n + 1)) = _
  rw [st_val n hn, Zst_keep m c n main_v87 (by decide), Zst_keep m c n main_v168 (by decide)]
  exact stage_step n hn _ _ _ _ _ _ _ _ _ (Zgate_T1 m c n hn) (Zgate_T2 m c n hn)
    (fun j => congrArg clampIdx (Zst_E m c n n hn j)) (Zst_M m c n n hn)

-- Induction on n: one more stage of the program is one more `stage` of `bfly`.
theorem rot : ∀ n, n ≤ 10 → toMat (rowsSt (Zst m c n) n)
    = bfly (cf1 m c) (cf2 m c) (perm Cert.Tables.rLitE) (toMat (m ((c.tc : Thread nD τ).loc main_arg1))) n
  | 0, _ => by
    show toMat (Zgate m c (Proc.devRef .tc main_arg1)) = _
    rw [Zgate_arg1]
    rfl
  | n + 1, h => (Zst_h m c n (by omega)).trans
      (congrArg (stage (cf1 m c n) (cf2 m c n) (perm Cert.Tables.rLitE n)) (rot n (by omega)))

end Cert.ReferenceIdeal.Val

end
-- ==== Proof.RVal.lean ====
import proofs.«426905_j7799660610191_3_alg».proof.Proof.ROps
import proofs.«426905_j7799660610191_3_alg».proof.Proof.Spec
import proofs.«426905_j7799660610191_3_alg».proof.Proof.Tables
import proofs.«426905_j7799660610191_3_alg».proof.Proof.RValGT
import proofs.«426905_j7799660610191_3_alg».proof.Proof.RValZ
import proofs.«426905_j7799660610191_3_alg».proof.Proof.RValK

noncomputable section

namespace Cert.ReferenceIdeal.Val

open Cert.ReferenceIdeal Cert.ReferenceIdeal.Gen Cert.ReferenceIdeal.Run Idealize.ShloMosaic Idealize.ShloMosaic.TcCoe Idealize.SL.Sem
open Idealize.ShloMosaic.ValueIdx Cert.Spec Cert.ReferenceIdeal.ValGT

variable (m : (ℓ : Loc nD τ sig) → Buf (Elt Ideal) ℓ) (c : Dev nD)

theorem after_ops :
    StableHlo.after (ops (F := Ideal)) (StableHlo.launchContents m c) = StableHlo.after (opsTail (F := Ideal)) (Zst m c 10) := by
  simp only [ops, StableHlo.after_append]
  rfl

theorem out_apply (b : Fin 8192) (j : Fin 1024) :
    StableHlo.after (Cert.ReferenceIdeal.Run.ops (F := Ideal)) (StableHlo.launchContents m c) (Proc.devRef .tc main_v370) (ix2 b j)
      = Cert.Spec.outReference (toMat (m ((c.tc : Thread nD τ).loc main_arg0))) (toMat (m ((c.tc : Thread nD τ).loc main_arg1))) (toMat (m ((c.tc : Thread nD τ).loc main_arg3)))
          (toMat (m ((c.tc : Thread nD τ).loc main_arg4))) (toMat (m ((c.tc : Thread nD τ).loc main_arg5))) (toVec (m ((c.tc : Thread nD τ).loc main_arg6))) (toVec (m ((c.tc : Thread nD τ).loc main_arg7)))
          (toVec (m ((c.tc : Thread nD τ).loc main_arg8))) (Cert.Spec.coef1 Cert.Tables.rLitP (Cert.Spec.toMat (m ((c.tc : Thread nD τ).loc main_arg2)))) (Cert.Spec.coef2 Cert.Tables.rLitP (Cert.Spec.toMat (m ((c.tc : Thread nD τ).loc main_arg2)))) (Cert.Spec.perm Cert.Tables.rLitE) b j := by
  rw [after_ops, out_tail_apply]
  have hR : @Eq EReal (vR (Zst m c 10) (ix2 b j))
      (Ideal.logistic (argR (toMat (m ((c.tc : Thread nD τ).loc main_arg0))) (toMat (m ((c.tc : Thread nD τ).loc main_arg1))) (toMat (m ((c.tc : Thread nD τ).loc main_arg3))) (toMat (m ((c.tc : Thread nD τ).loc main_arg4))) (toVec (m ((c.tc : Thread nD τ).loc main_arg6))) b j)) := by
    show Zst m c 10 (Proc.devRef .tc main_v183) (ix2 b j) = _
    rw [Zst_keep m c 10 main_v183 (by decide)]
    unfold Zgate
    rw [r_apply]
    simp only [vX, vU, vSt, vWr, vBr, Ztab_arg0, Ztab_arg1, Ztab_arg3, Ztab_arg4, Ztab_arg6]
    rfl
  have hG : @Eq EReal (vG (Zst m c 10) (ix2 b j))
      (Ideal.logistic (argG (toMat (m ((c.tc : Thread nD τ).loc main_arg0))) (toMat (m ((c.tc : Thread nD τ).loc main_arg1))) (toMat (m ((c.tc : Thread nD τ).loc main_arg3))) (toMat (m ((c.tc : Thread nD τ).loc main_arg5))) (toVec (m ((c.tc : Thread nD τ).loc main_arg7))) b j)) := by
    show Zst m c 10 (Proc.devRef .tc main_v194) (ix2 b j) = _
    rw [Zst_keep m c 10 main_v194 (by decide)]
    unfold Zgate
    rw [g_apply]
    simp only [vX, vU, vSt, vWg, vBg, Ztab_arg0, Ztab_arg1, Ztab_arg3, Ztab_arg5, Ztab_arg7]
    rfl
  have hA : @Eq EReal (vA (Zst m c 10) (ix2 b j)) (ucx (toMat (m ((c.tc : Thread nD τ).loc main_arg0))) (toMat (m ((c.tc : Thread nD τ).loc main_arg3))) b j) := by
    show Zst m c 10 (Proc.devRef .tc main_v170) (ix2 b j) = _
    rw [Zst_keep m c 10 main_v170 (by decide)]
    unfold Zgate
    rw [ucx_apply]
    simp only [vX, vU, Ztab_arg0, Ztab_arg3]
    rfl
  have hH : @Eq EReal (vH (Zst m c 10) (ix2 b j)) (bfly (Cert.Spec.coef1 Cert.Tables.rLitP (Cert.Spec.toMat (m ((c.tc : Thread nD τ).loc main_arg2)))) (Cert.Spec.coef2 Cert.Tables.rLitP (Cert.Spec.toMat (m ((c.tc : Thread nD τ).loc main_arg2)))) (Cert.Spec.perm Cert.Tables.rLitE) (toMat (m ((c.tc : Thread nD τ).loc main_arg1))) 10 b j) :=
    congrFun (congrFun (rot m c 10 le_rfl) b) j
  have hS : @Eq EReal (vSt (Zst m c 10) (ix2 b j)) (toMat (m ((c.tc : Thread nD τ).loc main_arg1)) b j) := by
    show Zst m c 10 (Proc.devRef .tc main_arg1) (ix2 b j) = _
    rw [Zst_keep m c 10 main_arg1 (by decide), Zgate_arg1]
    rfl
  have hB : @Eq EReal (vBc (Zst m c 10) (ix1 j)) (toVec (m ((c.tc : Thread nD τ).loc main_arg8)) j) := by
    show Zst m c 10 (Proc.devRef .tc main_arg8) (ix1 j) = _
    rw [Zst_keep m c 10 main_arg8 (by decide), Zgate_arg8]
    rfl
  rw [hR, hG, hA, hH, hS, hB]
  rfl

theorem out_eq :
    StableHlo.after (Cert.ReferenceIdeal.Run.ops (F := Ideal)) (StableHlo.launchContents m c) (Proc.devRef .tc main_v370)
      = Cert.Spec.ofMat (Cert.Spec.outReference (toMat (m ((c.tc : Thread nD τ).loc main_arg0))) (toMat (m ((c.tc : Thread nD τ).loc main_arg1))) (toMat (m ((c.tc : Thread nD τ).loc main_arg3)))
          (toMat (m ((c.tc : Thread nD τ).loc main_arg4))) (toMat (m ((c.tc : Thread nD τ).loc main_arg5))) (toVec (m ((c.tc : Thread nD τ).loc main_arg6))) (toVec (m ((c.tc : Thread nD τ).loc main_arg7)))
          (toVec (m ((c.tc : Thread nD τ).loc main_arg8))) (Cert.Spec.coef1 Cert.Tables.rLitP (Cert.Spec.toMat (m ((c.tc : Thread nD τ).loc main_arg2)))) (Cert.Spec.coef2 Cert.Tables.rLitP (Cert.Spec.toMat (m ((c.tc : Thread nD τ).loc main_arg2)))) (Cert.Spec.perm Cert.Tables.rLitE)) := by
  funext i
  obtain ⟨p, q, rfl⟩ : ∃ (p : Fin 8192) (q : Fin 1024), i = ix2 p q := ⟨i 0, i 1, eq_ix2 i⟩
  exact (out_apply m c p q).trans (ofMat_ix2 _ p q).symm

end Cert.ReferenceIdeal.Val

end
-- ==== Proof.SpecLaws.lean ====
import proofs.«426905_j7799660610191_3_alg».proof.Proof.Spec

noncomputable section

open scoped BigOperators

namespace Cert.Spec

open Idealize.ShloMosaic

theorem coe_finset_sum {α : Type} (t : Finset α) (f : α → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem eye_real (k j : Fin 1024) : ∃ r : ℝ, eye k j = (r : EReal) := by
  unfold eye
  split
  · exact ⟨1, by simp⟩
  · exact ⟨0, by simp⟩

theorem bfly_real {ι : Type} (v1 v2 : ℕ → Fin 1024 → EReal) (p : ℕ → Fin 1024 → Fin 1024) (h : ι → Fin 1024 → EReal)
    (hv1 : ∀ n j, ∃ r : ℝ, v1 n j = (r : EReal)) (hv2 : ∀ n j, ∃ r : ℝ, v2 n j = (r : EReal))
    (hh : ∀ b k, ∃ r : ℝ, h b k = (r : EReal)) (n : ℕ) (b : ι) (j : Fin 1024) :
    ∃ r : ℝ, bfly v1 v2 p h n b j = (r : EReal) := by
  induction n generalizing b j with
  | zero => exact hh b j
  | succ n ih =>
    obtain ⟨a, ha⟩ := ih b j
    obtain ⟨c, hc⟩ := ih b (p n j)
    obtain ⟨x, hx⟩ := hv1 n j
    obtain ⟨y, hy⟩ := hv2 n (p n j)
    refine ⟨a * x + c * y, ?_⟩
    show bfly v1 v2 p h n b j * v1 n j + bfly v1 v2 p h n b (p n j) * v2 n (p n j) = _
    rw [ha, hc, hx, hy, EReal.coe_add, EReal.coe_mul, EReal.coe_mul]

theorem bfly_linear {ι : Type} (v1 v2 : ℕ → Fin 1024 → EReal) (p : ℕ → Fin 1024 → Fin 1024) (s : ι → Fin 1024 → EReal)
    (hv1 : ∀ n j, ∃ r : ℝ, v1 n j = (r : EReal)) (hv2 : ∀ n j, ∃ r : ℝ, v2 n j = (r : EReal))
    (hs : ∀ b k, ∃ r : ℝ, s b k = (r : EReal)) (n : ℕ) (b : ι) (j : Fin 1024) :
    bfly v1 v2 p s n b j = ∑ k, s b k * bfly v1 v2 p eye n k j := by
  induction n generalizing j with
  | zero =>
    show s b j = ∑ k, s b k * eye k j
    unfold eye
    simp [mul_ite, Finset.sum_ite_eq']
  | succ n ih =>
    choose S hS using hs
    choose E hE using bfly_real v1 v2 p eye hv1 hv2 eye_real n
    obtain ⟨x, hx⟩ := hv1 n j
    obtain ⟨y, hy⟩ := hv2 n (p n j)
    show bfly v1 v2 p s n b j * v1 n j + bfly v1 v2 p s n b (p n j) * v2 n (p n j)
        = ∑ k, s b k * (bfly v1 v2 p eye n k j * v1 n j + bfly v1 v2 p eye n k (p n j) * v2 n (p n j))
    rw [ih j, ih (p n j), hx, hy]
    simp only [hS, hE]
    simp only [← EReal.coe_mul, ← EReal.coe_add, ← coe_finset_sum]
    congr 1
    rw [Finset.sum_mul, Finset.sum_mul, ← Finset.sum_add_distrib]
    refine Finset.sum_congr rfl fun k _ => ?_
    ring

theorem coef1_real (litP : ℕ → Fin 1024 → BitVec 32) (θ : Fin 10 → Fin 512 → EReal)
    (hθ : ∀ s k, ∃ r : ℝ, θ s k = (r : EReal)) (s : ℕ) (j : Fin 1024) : ∃ r : ℝ, coef1 litP θ s j = (r : EReal) := by
  unfold coef1
  split
  · rename_i h
    unfold cosRow
    obtain ⟨r, hr⟩ := hθ ⟨s, h⟩ ⟨(clampIdx (litP s j)).val % 512, Nat.mod_lt _ (by norm_num)⟩
    exact ⟨Real.cos r, by rw [hr, Ideal.cos_coe]⟩
  · exact ⟨0, by simp⟩

theorem coef2_real (litP : ℕ → Fin 1024 → BitVec 32) (θ : Fin 10 → Fin 512 → EReal)
    (hθ : ∀ s k, ∃ r : ℝ, θ s k = (r : EReal)) (s : ℕ) (j : Fin 1024) : ∃ r : ℝ, coef2 litP θ s j = (r : EReal) := by
  unfold coef2
  split
  · rename_i h
    unfold sinRow
    split
    · rename_i h2
      obtain ⟨r, hr⟩ := hθ ⟨s, h⟩ ⟨(clampIdx (litP s j)).val, h2⟩
      exact ⟨Real.sin r, by rw [hr, Ideal.sin_coe]⟩
    · rename_i h2
      obtain ⟨r, hr⟩ := hθ ⟨s, h⟩ ⟨(clampIdx (litP s j)).val - 512, by omega⟩
      exact ⟨-Real.sin r, by rw [hr, Ideal.sin_coe, EReal.coe_neg]⟩
  · exact ⟨0, by simp⟩

theorem outKernel_eq_outReference (x st : Fin 8192 → Fin 1024 → EReal) (U : Fin 1024 → Fin 3072 → EReal)
    (Wr Wg : Fin 1024 → Fin 1024 → EReal) (br bg bc : Fin 1024 → EReal)
    (litP litE : ℕ → Fin 1024 → BitVec 32) (θ : Fin 10 → Fin 512 → EReal)
    (hst : ∀ b k, ∃ r : ℝ, st b k = (r : EReal)) (hθ : ∀ s k, ∃ r : ℝ, θ s k = (r : EReal)) :
    outKernel x st U Wr Wg br bg bc (coef1 litP θ) (coef2 litP θ) (perm litE)
      = outReference x st U Wr Wg br bg bc (coef1 litP θ) (coef2 litP θ) (perm litE) := by
  unfold outKernel outReference
  congr 1
  funext b j
  exact (bfly_linear (coef1 litP θ) (coef2 litP θ) (perm litE) st
    (coef1_real litP θ hθ) (coef2_real litP θ hθ) hst 10 b j).symm

end Cert.Spec

end
-- ==== Proof.Finite.lean ====
import proofs.«426905_j7799660610191_3_alg».proof.Pre_finite_inputs
import Idealize.ShloMosaic.PureOps.Ideal
import Idealize.ShloMosaic.Lib.ValueIdx
import Idealize.ShloMosaic.Lib.ReduceAll

noncomputable section

namespace Cert.Finite

open Idealize.ShloMosaic Cert.Pre_finite_inputs

variable [Cert.Pre_finite_inputs.Facts]

instance : Subsingleton S_.Idx := ⟨fun a b => funext fun d => d.elim0⟩

theorem ofBits_inf : Ideal.ofBits .f32 0x7F800000#32 = (⊤ : EReal) := by simp [Ideal.ofBits, Ideal.ieee]

theorem real_of_abs_lt_inf (x : EReal)
    (e : Ideal.cmp .olt (max x (-x)) (Ideal.ofBits .f32 0x7F800000#32) = 1#1) : ∃ r : ℝ, x = (r : EReal) := by
  rw [ofBits_inf] at e
  have hlt : max x (-x) < ⊤ := by
    by_contra hc
    simp [Ideal.cmp, hc] at e
  induction x using EReal.rec with
  | bot => simp at hlt
  | coe r => exact ⟨r, rfl⟩
  | top => simp at hlt

theorem state_real (a0 a1 : FVec Ideal S8192x1024 .f32) (a2 : FVec Ideal S10x512 .f32) (a3 : FVec Ideal S1024x3072 .f32)
    (a4 a5 : FVec Ideal S1024x1024 .f32) (a6 a7 a8 : FVec Ideal S1024 .f32)
    (h : Cert.Pre_finite_inputs.fn (F := Ideal) a0 a1 a2 a3 a4 a5 a6 a7 a8 = fun _ => 1#1) :
    ∀ i, ∃ r : ℝ, a1 i = (r : EReal) := by
  intro i
  have h0 := congrFun h ValueIdx.ix0
  dsimp only [fn, fn_part1, fn_part2, andi] at h0
  simp only [IntOp.andi_eq_one] at h0
  obtain ⟨⟨⟨⟨⟨⟨⟨⟨_, h1⟩, _⟩, _⟩, _⟩, _⟩, _⟩, _⟩, _⟩ := h0
  exact real_of_abs_lt_inf (a1 i) (Host.reduce_andi_all _ _ _ _ _ h1 i)

theorem theta_real (a0 a1 : FVec Ideal S8192x1024 .f32) (a2 : FVec Ideal S10x512 .f32) (a3 : FVec Ideal S1024x3072 .f32)
    (a4 a5 : FVec Ideal S1024x1024 .f32) (a6 a7 a8 : FVec Ideal S1024 .f32)
    (h : Cert.Pre_finite_inputs.fn (F := Ideal) a0 a1 a2 a3 a4 a5 a6 a7 a8 = fun _ => 1#1) :
    ∀ i, ∃ r : ℝ, a2 i = (r : EReal) := by
  intro i
  have h0 := congrFun h ValueIdx.ix0
  dsimp only [fn, fn_part1, fn_part2, andi] at h0
  simp only [IntOp.andi_eq_one] at h0
  obtain ⟨⟨⟨⟨⟨⟨⟨_, h2⟩, _⟩, _⟩, _⟩, _⟩, _⟩, _⟩ := h0
  exact real_of_abs_lt_inf (a2 i) (Host.reduce_andi_all _ _ _ _ _ h2 i)

end Cert.Finite

end
-- ==== Proof.lean ====
import proofs.«426905_j7799660610191_3_alg».proof.Defs
import proofs.«426905_j7799660610191_3_alg».proof.Proof.Gen.Kernel
import proofs.«426905_j7799660610191_3_alg».proof.Proof.Gen.KernelIdeal
import proofs.«426905_j7799660610191_3_alg».proof.Proof.Gen.ReferenceIdeal
import proofs.«426905_j7799660610191_3_alg».proof.Proof.Gen.Pre_finite_inputs
import proofs.«426905_j7799660610191_3_alg».proof.Proof.KFrame
import proofs.«426905_j7799660610191_3_alg».proof.Proof.KIFrame
import proofs.«426905_j7799660610191_3_alg».proof.Proof.RRun
import proofs.«426905_j7799660610191_3_alg».proof.Proof.KIVal
import proofs.«426905_j7799660610191_3_alg».proof.Proof.KIHostB
import proofs.«426905_j7799660610191_3_alg».proof.Proof.KIHostR
import proofs.«426905_j7799660610191_3_alg».proof.Proof.RVal
import proofs.«426905_j7799660610191_3_alg».proof.Proof.SpecLaws
import proofs.«426905_j7799660610191_3_alg».proof.Proof.Tables
import proofs.«426905_j7799660610191_3_alg».proof.Proof.Finite
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Frame.frame m ρ

theorem frame_ki : @Cert.frame_KernelIdeal Cert.KernelIdeal.Gen.facts Cert.Pre_finite_inputs.Gen.facts :=
  fun m ρ _ => Cert.KernelIdeal.Frame.frame m ρ

theorem frame_ri : @Cert.frame_ReferenceIdeal Cert.ReferenceIdeal.Gen.facts Cert.Pre_finite_inputs.Gen.facts :=
  fun m ρ _ => Cert.ReferenceIdeal.Run.frame m ρ

theorem preserves : Cert.preserves_Kernel_KernelIdeal := IdealRules.sign_bit.statement Cert.KernelIdeal.S512x1024 .f32

theorem algebraic : @Cert.algebraic_KernelIdeal_ReferenceIdeal Cert.KernelIdeal.Gen.facts Cert.ReferenceIdeal.Gen.facts Cert.Pre_finite_inputs.Gen.facts := by
  intro m ρ m' ρ' hpre hagree
  have hk := Cert.KernelIdeal.Val.run_of m ρ (fun c k j => Cert.KernelIdeal.Host.Uc_apply m c k j) (fun c k j => Cert.KernelIdeal.Host.Urg_apply m c k j)
    (fun c k j => Cert.KernelIdeal.Host.Wrg_apply_lo m c k j) (fun c k j => Cert.KernelIdeal.Host.Wrg_apply_hi m c k j)
    (fun c j => Cert.KernelIdeal.Host.br_apply m c j) (fun c j => Cert.KernelIdeal.Host.bg_apply m c j) (fun c j => Cert.KernelIdeal.Host.bc_apply m c j)
    (fun c k j => Cert.KernelIdeal.HostR.R_apply m c k j)
  refine ⟨fun c => Cert.KernelIdeal.Val.specOut m c, hk, ?_⟩
  refine (θ_run (Cert.ReferenceIdeal.defs (F := Ideal)) _ _).mono (fun r h c => ?_) (Cert.ReferenceIdeal.Run.run (F := Ideal) m' ρ')
  obtain ⟨a0, a1, a2, a3, a4, a5, a6, a7, a8⟩ := hagree c
  refine ⟨?_, (h c _).trans (Cert.ReferenceIdeal.Run.kept_main_arg0 m' c), (h c _).trans (Cert.ReferenceIdeal.Run.kept_main_arg1 m' c),
    (h c _).trans (Cert.ReferenceIdeal.Run.kept_main_arg2 m' c), (h c _).trans (Cert.ReferenceIdeal.Run.kept_main_arg3 m' c),
    (h c _).trans (Cert.ReferenceIdeal.Run.kept_main_arg4 m' c), (h c _).trans (Cert.ReferenceIdeal.Run.kept_main_arg5 m' c),
    (h c _).trans (Cert.ReferenceIdeal.Run.kept_main_arg6 m' c), (h c _).trans (Cert.ReferenceIdeal.Run.kept_main_arg7 m' c),
    (h c _).trans (Cert.ReferenceIdeal.Run.kept_main_arg8 m' c)⟩
  rw [h c Cert.ReferenceIdeal.main_v370, Cert.ReferenceIdeal.Val.out_eq m' c, a0, a1, a2, a3, a4, a5, a6, a7, a8]
  have hst : ∀ b k, ∃ r : ℝ, Cert.Spec.toMat (m ((c.tc : Thread Cert.KernelIdeal.nD Cert.KernelIdeal.τ).loc Cert.KernelIdeal.main_arg1)) b k = (r : EReal) :=
    fun b k => Cert.Finite.state_real _ _ _ _ _ _ _ _ _ (hpre c) (ValueIdx.ix2 b k)
  have hθ : ∀ s k, ∃ r : ℝ, Cert.Spec.toMat (m ((c.tc : Thread Cert.KernelIdeal.nD Cert.KernelIdeal.τ).loc Cert.KernelIdeal.main_arg2)) s k = (r : EReal) :=
    fun s k => Cert.Finite.theta_real _ _ _ _ _ _ _ _ _ (hpre c) (ValueIdx.ix2 s k)
  rw [← Cert.Tables.litP_eq, ← Cert.Tables.litE_eq]
  exact congrArg Cert.Spec.ofMat (Cert.Spec.outKernel_eq_outReference _ _ _ _ _ _ _ _ _ _ _ hst hθ).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
